-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v320)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v320) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1053) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S_ : Shape := ⟨0, ![]⟩

class Facts : Prop where
  bcast_S_S1x1x1x1048576x3 : S_.BroadcastsInDim S1x1x1x1048576x3 (![] : Fin 0 → Fin S1x1x1x1048576x3.rank)
  reducesTo_S1x1x1x1048576x3_S_d0_1_2_3_4 : S1x1x1x1048576x3.ReducesTo [0, 1, 2, 3, 4] S_
  h_S_ : 0 < S_.numel
  bcast_S_S1x4x32x32x32 : S_.BroadcastsInDim S1x4x32x32x32 (![] : Fin 0 → Fin S1x4x32x32x32.rank)
  reducesTo_S1x4x32x32x32_S_d0_1_2_3_4 : S1x4x32x32x32.ReducesTo [0, 1, 2, 3, 4] S_
  bcast_S_S1x4x64x64x64 : S_.BroadcastsInDim S1x4x64x64x64 (![] : Fin 0 → Fin S1x4x64x64x64.rank)
  reducesTo_S1x4x64x64x64_S_d0_1_2_3_4 : S1x4x64x64x64.ReducesTo [0, 1, 2, 3, 4] S_
  bcast_S_S1x4x128x128x128 : S_.BroadcastsInDim S1x4x128x128x128 (![] : Fin 0 → Fin S1x4x128x128x128.rank)
  reducesTo_S1x4x128x128x128_S_d0_1_2_3_4 : S1x4x128x128x128.ReducesTo [0, 1, 2, 3, 4] S_
  bcast_S_S1x4x256x256x256 : S_.BroadcastsInDim S1x4x256x256x256 (![] : Fin 0 → Fin S1x4x256x256x256.rank)
  reducesTo_S1x4x256x256x256_S_d0_1_2_3_4 : S1x4x256x256x256.ReducesTo [0, 1, 2, 3, 4] S_

variable [Facts]

def fn_part1 {F : FTy → Type} [FloatOps F] (main_arg4 : FVec F S1x4x256x256x256 .f32) (main_v13 : IVec S_ 1) (main_v16 : IVec S1x4x128x128x128 1) : IVec S_ 1 :=
  let main_c_5 : IVec S_ 1 := constantI S_ 1 1#1
  let main_v17 : IVec S_ 1 := (fun x v => Host.reduce IntOp.andi x v reducesTo_S1x4x128x128x128_S_d0_1_2_3_4 h_S_) main_v16 main_c_5
  let main_v18 : IVec S_ 1 := andi main_v13 main_v17
  let main_v19 : FVec F S1x4x256x256x256 .f32 := Host.absf main_arg4
  let main_cst_6 : FVec F S_ .f32 := constant S_ .f32 0x7F800000#32
  let main_v20 : FVec F S1x4x256x256x256 .f32 := broadcastInDim S1x4x256x256x256 ![] bcast_S_S1x4x256x256x256 main_cst_6
  let main_v21 : IVec S1x4x256x256x256 1 := cmpf .olt main_v19 main_v20
  let main_c_7 : IVec S_ 1 := constantI S_ 1 1#1
  let main_v22 : IVec S_ 1 := (fun x v => Host.reduce IntOp.andi x v reducesTo_S1x4x256x256x256_S_d0_1_2_3_4 h_S_) main_v21 main_c_7
  let main_v23 : IVec S_ 1 := andi main_v18 main_v22
  main_v23

def fn {F : FTy → Type} [FloatOps F] (main_arg0 : FVec F S1x1x1x1048576x3 .f32) (main_arg1 : FVec F S1x4x32x32x32 .f32) (main_arg2 : FVec F S1x4x64x64x64 .f32) (main_arg3 : FVec F S1x4x128x128x128 .f32) (main_arg4 : FVec F S1x4x256x256x256 .f32) : IVec S_ 1 :=
  let main_v0 : FVec F S1x1x1x1048576x3 .f32 := Host.absf main_arg0
  let main_cst : FVec F S_ .f32 := constant S_ .f32 0x7F800000#32
  let main_v1 : FVec F S1x1x1x1048576x3 .f32 := broadcastInDim S1x1x1x1048576x3 ![] bcast_S_S1x1x1x1048576x3 main_cst
  let main_v2 : IVec S1x1x1x1048576x3 1 := cmpf .olt main_v0 main_v1
  let main_c : IVec S_ 1 := constantI S_ 1 1#1
  let main_v3 : IVec S_ 1 := (fun x v => Host.reduce IntOp.andi x v reducesTo_S1x1x1x1048576x3_S_d0_1_2_3_4 h_S_) main_v2 main_c
  let main_v4 : FVec F S1x4x32x32x32 .f32 := Host.absf main_arg1
  let main_cst_0 : FVec F S_ .f32 := constant S_ .f32 0x7F800000#32
  let main_v5 : FVec F S1x4x32x32x32 .f32 := broadcastInDim S1x4x32x32x32 ![] bcast_S_S1x4x32x32x32 main_cst_0
  let main_v6 : IVec S1x4x32x32x32 1 := cmpf .olt main_v4 main_v5
  let main_c_1 : IVec S_ 1 := constantI S_ 1 1#1
  let main_v7 : IVec S_ 1 := (fun x v => Host.reduce IntOp.andi x v reducesTo_S1x4x32x32x32_S_d0_1_2_3_4 h_S_) main_v6 main_c_1
  let main_v8 : IVec S_ 1 := andi main_v3 main_v7
  let main_v9 : FVec F S1x4x64x64x64 .f32 := Host.absf main_arg2
  let main_cst_2 : FVec F S_ .f32 := constant S_ .f32 0x7F800000#32
  let main_v10 : FVec F S1x4x64x64x64 .f32 := broadcastInDim S1x4x64x64x64 ![] bcast_S_S1x4x64x64x64 main_cst_2
  let main_v11 : IVec S1x4x64x64x64 1 := cmpf .olt main_v9 main_v10
  let main_c_3 : IVec S_ 1 := constantI S_ 1 1#1
  let main_v12 : IVec S_ 1 := (fun x v => Host.reduce IntOp.andi x v reducesTo_S1x4x64x64x64_S_d0_1_2_3_4 h_S_) main_v11 main_c_3
  let main_v13 : IVec S_ 1 := andi main_v8 main_v12
  let main_v14 : FVec F S1x4x128x128x128 .f32 := Host.absf main_arg3
  let main_cst_4 : FVec F S_ .f32 := constant S_ .f32 0x7F800000#32
  let main_v15 : FVec F S1x4x128x128x128 .f32 := broadcastInDim S1x4x128x128x128 ![] bcast_S_S1x4x128x128x128 main_cst_4
  let main_v16 : IVec S1x4x128x128x128 1 := cmpf .olt main_v14 main_v15
  fn_part1 (F := F) main_arg4 main_v13 main_v16
-- ==== Kernel.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S1048576x3 : Shape := ⟨2, ![1048576, 3]⟩
abbrev S3x1048576 : Shape := ⟨2, ![3, 1048576]⟩
abbrev S4x32x32x32 : Shape := ⟨4, ![4, 32, 32, 32]⟩
abbrev S32x32x32x4 : Shape := ⟨4, ![32, 32, 32, 4]⟩
abbrev S32768x4 : Shape := ⟨2, ![32768, 4]⟩
abbrev S1x1048576 : Shape := ⟨2, ![1, 1048576]⟩
abbrev S1048576 : Shape := ⟨1, ![1048576]⟩
abbrev S_ : Shape := ⟨0, ![]⟩
abbrev S8x1048576 : Shape := ⟨2, ![8, 1048576]⟩
abbrev S8388608 : Shape := ⟨1, ![8388608]⟩
abbrev S8388608x1 : Shape := ⟨2, ![8388608, 1]⟩
abbrev S1 : Shape := ⟨1, ![1]⟩
abbrev S1x1 : Shape := ⟨2, ![1, 1]⟩
abbrev S8388608x4 : Shape := ⟨2, ![8388608, 4]⟩
abbrev S8x4194304 : Shape := ⟨2, ![8, 4194304]⟩
abbrev S4x64x64x64 : Shape := ⟨4, ![4, 64, 64, 64]⟩
abbrev S64x64x64x4 : Shape := ⟨4, ![64, 64, 64, 4]⟩
abbrev S262144x4 : Shape := ⟨2, ![262144, 4]⟩
abbrev S4x128x128x128 : Shape := ⟨4, ![4, 128, 128, 128]⟩
abbrev S128x128x128x4 : Shape := ⟨4, ![128, 128, 128, 4]⟩
abbrev S2097152x4 : Shape := ⟨2, ![2097152, 4]⟩
abbrev S4x256x256x256 : Shape := ⟨4, ![4, 256, 256, 256]⟩
abbrev S256x256x256x4 : Shape := ⟨4, ![256, 256, 256, 4]⟩
abbrev S16777216x4 : Shape := ⟨2, ![16777216, 4]⟩
abbrev S3x1048576x4 : Shape := ⟨3, ![3, 1048576, 4]⟩
abbrev S3x4194304 : Shape := ⟨2, ![3, 4194304]⟩
abbrev S4x4194304 : Shape := ⟨2, ![4, 4194304]⟩
abbrev S3x65536 : Shape := ⟨2, ![3, 65536]⟩
abbrev S8x65536 : Shape := ⟨2, ![8, 65536]⟩
abbrev S4x65536 : Shape := ⟨2, ![4, 65536]⟩
abbrev S1x65536 : Shape := ⟨2, ![1, 65536]⟩
abbrev S4x1048576x4 : Shape := ⟨3, ![4, 1048576, 4]⟩
abbrev S4x4x1048576 : Shape := ⟨3, ![4, 4, 1048576]⟩
abbrev S16x1048576 : Shape := ⟨2, ![16, 1048576]⟩
abbrev S1x16x1x1x1048576 : Shape := ⟨5, ![1, 16, 1, 1, 1048576]⟩

abbrev nBuf : Space → Nat
  | .hbm => 562
  | .vmem => 12
  | .smem => 0
  | _ => 0

abbrev hbmTy0_0 (i : Nat) : BufTy := match i % 128 with
  | 0 => ⟨S1x1x1x1048576x3, .f32⟩
  | 1 => ⟨S1x4x32x32x32, .f32⟩
  | 2 => ⟨S1x4x64x64x64, .f32⟩
  | 3 => ⟨S1x4x128x128x128, .f32⟩
  | 4 => ⟨S1x4x256x256x256, .f32⟩
  | 5 => ⟨S1048576x3, .f32⟩
  | 6 => ⟨S3x1048576, .f32⟩
  | 7 => ⟨S4x32x32x32, .f32⟩
  | 8 => ⟨S32x32x32x4, .f32⟩
  | 9 => ⟨S32768x4, .f32⟩
  | 10 => ⟨S1x1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S_, .f32⟩
  | 19 => ⟨S_, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1x1048576, .f32⟩
  | 27 => ⟨S1048576, .f32⟩
  | 28 => ⟨S_, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S_, .f32⟩
  | 35 => ⟨S_, .f32⟩
  | 36 => ⟨S_, .f32⟩
  | 37 => ⟨S1048576, .f32⟩
  | 38 => ⟨S1048576, .f32⟩
  | 39 => ⟨S_, .f32⟩
  | 40 => ⟨S1048576, .f32⟩
  | 41 => ⟨S1048576, .f32⟩
  | 42 => ⟨S1x1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S_, .f32⟩
  | 52 => ⟨S_, .f32⟩
  | 53 => ⟨S1048576, .f32⟩
  | 54 => ⟨S1048576, .f32⟩
  | 55 => ⟨S_, .f32⟩
  | 56 => ⟨S1048576, .f32⟩
  | 57 => ⟨S1048576, .f32⟩
  | 58 => ⟨S1048576, .f32⟩
  | 59 => ⟨S1048576, .i32⟩
  | 60 => ⟨S_, .i32⟩
  | 61 => ⟨S1048576, .i32⟩
  | 62 => ⟨S1048576, .i32⟩
  | 63 => ⟨S_, .i32⟩
  | 64 => ⟨S1048576, .i32⟩
  | 65 => ⟨S1048576, .i32⟩
  | 66 => ⟨S1048576, .f32⟩
  | 67 => ⟨S1048576, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .f32⟩
  | 75 => ⟨S1048576, .i32⟩
  | 76 => ⟨S_, .i32⟩
  | 77 => ⟨S1048576, .i32⟩
  | 78 => ⟨S1048576, .i32⟩
  | 79 => ⟨S_, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S1048576, .i32⟩
  | 95 => ⟨S1048576, .i32⟩
  | 96 => ⟨S1048576, .i32⟩
  | 97 => ⟨S1048576, .i32⟩
  | 98 => ⟨S1048576, .i32⟩
  | 99 => ⟨S1048576, .i32⟩
  | 100 => ⟨S1048576, .i32⟩
  | 101 => ⟨S1048576, .i32⟩
  | 102 => ⟨S1048576, .i32⟩
  | 103 => ⟨S1048576, .i32⟩
  | 104 => ⟨S1048576, .i32⟩
  | 105 => ⟨S1048576, .i32⟩
  | 106 => ⟨S1048576, .i32⟩
  | 107 => ⟨S1048576, .i32⟩
  | 108 => ⟨S1048576, .i32⟩
  | 109 => ⟨S1048576, .i32⟩
  | 110 => ⟨S1x1048576, .i32⟩
  | 111 => ⟨S1x1048576, .i32⟩
  | 112 => ⟨S1x1048576, .i32⟩
  | 113 => ⟨S1x1048576, .i32⟩
  | 114 => ⟨S1x1048576, .i32⟩
  | 115 => ⟨S1x1048576, .i32⟩
  | 116 => ⟨S1x1048576, .i32⟩
  | 117 => ⟨S1x1048576, .i32⟩
  | 118 => ⟨S8x1048576, .i32⟩
  | 119 => ⟨S8388608, .i32⟩
  | 120 => ⟨S_, .i32⟩
  | 121 => ⟨S8388608, .i32⟩
  | 122 => ⟨S8388608, .i1⟩
  | 123 => ⟨S_, .i32⟩
  | 124 => ⟨S8388608, .i32⟩
  | 125 => ⟨S8388608, .i32⟩
  | 126 => ⟨S8388608, .i32⟩
  | 127 => ⟨S8388608x1, .i32⟩
  | _ => ⟨S1x1x1x1048576x3, .f32⟩

abbrev hbmTy0_1 (i : Nat) : BufTy := match i % 128 with
  | 0 => ⟨S1, .i32⟩
  | 1 => ⟨S_, .i32⟩
  | 2 => ⟨S8388608x1, .i32⟩
  | 3 => ⟨S8388608x1, .i1⟩
  | 4 => ⟨S1x1, .i32⟩
  | 5 => ⟨S8388608x1, .i32⟩
  | 6 => ⟨S8388608x1, .i1⟩
  | 7 => ⟨S8388608x1, .i1⟩
  | 8 => ⟨S_, .i1⟩
  | 9 => ⟨S8388608, .i1⟩
  | 10 => ⟨S8388608x4, .f32⟩
  | 11 => ⟨S8388608x4, .i1⟩
  | 12 => ⟨S_, .f32⟩
  | 13 => ⟨S8388608x4, .f32⟩
  | 14 => ⟨S8388608x4, .f32⟩
  | 15 => ⟨S8x4194304, .f32⟩
  | 16 => ⟨S4x64x64x64, .f32⟩
  | 17 => ⟨S64x64x64x4, .f32⟩
  | 18 => ⟨S262144x4, .f32⟩
  | 19 => ⟨S1x1048576, .f32⟩
  | 20 => ⟨S1048576, .f32⟩
  | 21 => ⟨S_, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S_, .f32⟩
  | 28 => ⟨S_, .f32⟩
  | 29 => ⟨S_, .f32⟩
  | 30 => ⟨S1048576, .f32⟩
  | 31 => ⟨S1048576, .f32⟩
  | 32 => ⟨S_, .f32⟩
  | 33 => ⟨S1048576, .f32⟩
  | 34 => ⟨S1048576, .f32⟩
  | 35 => ⟨S1x1048576, .f32⟩
  | 36 => ⟨S1048576, .f32⟩
  | 37 => ⟨S_, .f32⟩
  | 38 => ⟨S1048576, .f32⟩
  | 39 => ⟨S1048576, .f32⟩
  | 40 => ⟨S_, .f32⟩
  | 41 => ⟨S1048576, .f32⟩
  | 42 => ⟨S1048576, .f32⟩
  | 43 => ⟨S_, .f32⟩
  | 44 => ⟨S_, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S1x1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S_, .f32⟩
  | 60 => ⟨S_, .f32⟩
  | 61 => ⟨S_, .f32⟩
  | 62 => ⟨S1048576, .f32⟩
  | 63 => ⟨S1048576, .f32⟩
  | 64 => ⟨S_, .f32⟩
  | 65 => ⟨S1048576, .f32⟩
  | 66 => ⟨S1048576, .f32⟩
  | 67 => ⟨S1048576, .f32⟩
  | 68 => ⟨S1048576, .i32⟩
  | 69 => ⟨S_, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S1048576, .f32⟩
  | 76 => ⟨S1048576, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S1048576, .f32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S1048576, .i32⟩
  | 104 => ⟨S1048576, .i32⟩
  | 105 => ⟨S1048576, .i32⟩
  | 106 => ⟨S1048576, .i32⟩
  | 107 => ⟨S1048576, .i32⟩
  | 108 => ⟨S1048576, .i32⟩
  | 109 => ⟨S1048576, .i32⟩
  | 110 => ⟨S1048576, .i32⟩
  | 111 => ⟨S1048576, .i32⟩
  | 112 => ⟨S1048576, .i32⟩
  | 113 => ⟨S1048576, .i32⟩
  | 114 => ⟨S1048576, .i32⟩
  | 115 => ⟨S1048576, .i32⟩
  | 116 => ⟨S1048576, .i32⟩
  | 117 => ⟨S1048576, .i32⟩
  | 118 => ⟨S1048576, .i32⟩
  | 119 => ⟨S1x1048576, .i32⟩
  | 120 => ⟨S1x1048576, .i32⟩
  | 121 => ⟨S1x1048576, .i32⟩
  | 122 => ⟨S1x1048576, .i32⟩
  | 123 => ⟨S1x1048576, .i32⟩
  | 124 => ⟨S1x1048576, .i32⟩
  | 125 => ⟨S1x1048576, .i32⟩
  | 126 => ⟨S1x1048576, .i32⟩
  | 127 => ⟨S8x1048576, .i32⟩
  | _ => ⟨S1x1x1x1048576x3, .f32⟩

abbrev hbmTy0_2 (i : Nat) : BufTy := match i % 128 with
  | 0 => ⟨S8388608, .i32⟩
  | 1 => ⟨S_, .i32⟩
  | 2 => ⟨S8388608, .i32⟩
  | 3 => ⟨S8388608, .i1⟩
  | 4 => ⟨S_, .i32⟩
  | 5 => ⟨S8388608, .i32⟩
  | 6 => ⟨S8388608, .i32⟩
  | 7 => ⟨S8388608, .i32⟩
  | 8 => ⟨S8388608x1, .i32⟩
  | 9 => ⟨S1, .i32⟩
  | 10 => ⟨S_, .i32⟩
  | 11 => ⟨S8388608x1, .i32⟩
  | 12 => ⟨S8388608x1, .i1⟩
  | 13 => ⟨S1x1, .i32⟩
  | 14 => ⟨S8388608x1, .i32⟩
  | 15 => ⟨S8388608x1, .i1⟩
  | 16 => ⟨S8388608x1, .i1⟩
  | 17 => ⟨S_, .i1⟩
  | 18 => ⟨S8388608, .i1⟩
  | 19 => ⟨S8388608x4, .f32⟩
  | 20 => ⟨S8388608x4, .i1⟩
  | 21 => ⟨S_, .f32⟩
  | 22 => ⟨S8388608x4, .f32⟩
  | 23 => ⟨S8388608x4, .f32⟩
  | 24 => ⟨S8x4194304, .f32⟩
  | 25 => ⟨S4x128x128x128, .f32⟩
  | 26 => ⟨S128x128x128x4, .f32⟩
  | 27 => ⟨S2097152x4, .f32⟩
  | 28 => ⟨S1x1048576, .f32⟩
  | 29 => ⟨S1048576, .f32⟩
  | 30 => ⟨S_, .f32⟩
  | 31 => ⟨S1048576, .f32⟩
  | 32 => ⟨S1048576, .f32⟩
  | 33 => ⟨S_, .f32⟩
  | 34 => ⟨S1048576, .f32⟩
  | 35 => ⟨S1048576, .f32⟩
  | 36 => ⟨S_, .f32⟩
  | 37 => ⟨S_, .f32⟩
  | 38 => ⟨S_, .f32⟩
  | 39 => ⟨S1048576, .f32⟩
  | 40 => ⟨S1048576, .f32⟩
  | 41 => ⟨S_, .f32⟩
  | 42 => ⟨S1048576, .f32⟩
  | 43 => ⟨S1048576, .f32⟩
  | 44 => ⟨S1x1048576, .f32⟩
  | 45 => ⟨S1048576, .f32⟩
  | 46 => ⟨S_, .f32⟩
  | 47 => ⟨S1048576, .f32⟩
  | 48 => ⟨S1048576, .f32⟩
  | 49 => ⟨S_, .f32⟩
  | 50 => ⟨S1048576, .f32⟩
  | 51 => ⟨S1048576, .f32⟩
  | 52 => ⟨S_, .f32⟩
  | 53 => ⟨S_, .f32⟩
  | 54 => ⟨S_, .f32⟩
  | 55 => ⟨S1048576, .f32⟩
  | 56 => ⟨S1048576, .f32⟩
  | 57 => ⟨S_, .f32⟩
  | 58 => ⟨S1048576, .f32⟩
  | 59 => ⟨S1048576, .f32⟩
  | 60 => ⟨S1x1048576, .f32⟩
  | 61 => ⟨S1048576, .f32⟩
  | 62 => ⟨S_, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S_, .f32⟩
  | 69 => ⟨S_, .f32⟩
  | 70 => ⟨S_, .f32⟩
  | 71 => ⟨S1048576, .f32⟩
  | 72 => ⟨S1048576, .f32⟩
  | 73 => ⟨S_, .f32⟩
  | 74 => ⟨S1048576, .f32⟩
  | 75 => ⟨S1048576, .f32⟩
  | 76 => ⟨S1048576, .f32⟩
  | 77 => ⟨S1048576, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S1048576, .f32⟩
  | 85 => ⟨S1048576, .i32⟩
  | 86 => ⟨S_, .i32⟩
  | 87 => ⟨S1048576, .i32⟩
  | 88 => ⟨S1048576, .i32⟩
  | 89 => ⟨S_, .i32⟩
  | 90 => ⟨S1048576, .i32⟩
  | 91 => ⟨S1048576, .i32⟩
  | 92 => ⟨S1048576, .f32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S1048576, .i32⟩
  | 113 => ⟨S1048576, .i32⟩
  | 114 => ⟨S1048576, .i32⟩
  | 115 => ⟨S1048576, .i32⟩
  | 116 => ⟨S1048576, .i32⟩
  | 117 => ⟨S1048576, .i32⟩
  | 118 => ⟨S1048576, .i32⟩
  | 119 => ⟨S1048576, .i32⟩
  | 120 => ⟨S1048576, .i32⟩
  | 121 => ⟨S1048576, .i32⟩
  | 122 => ⟨S1048576, .i32⟩
  | 123 => ⟨S1048576, .i32⟩
  | 124 => ⟨S1048576, .i32⟩
  | 125 => ⟨S1048576, .i32⟩
  | 126 => ⟨S1048576, .i32⟩
  | 127 => ⟨S1048576, .i32⟩
  | _ => ⟨S1x1x1x1048576x3, .f32⟩

abbrev hbmTy0_3 (i : Nat) : BufTy := match i % 128 with
  | 0 => ⟨S1x1048576, .i32⟩
  | 1 => ⟨S1x1048576, .i32⟩
  | 2 => ⟨S1x1048576, .i32⟩
  | 3 => ⟨S1x1048576, .i32⟩
  | 4 => ⟨S1x1048576, .i32⟩
  | 5 => ⟨S1x1048576, .i32⟩
  | 6 => ⟨S1x1048576, .i32⟩
  | 7 => ⟨S1x1048576, .i32⟩
  | 8 => ⟨S8x1048576, .i32⟩
  | 9 => ⟨S8388608, .i32⟩
  | 10 => ⟨S_, .i32⟩
  | 11 => ⟨S8388608, .i32⟩
  | 12 => ⟨S8388608, .i1⟩
  | 13 => ⟨S_, .i32⟩
  | 14 => ⟨S8388608, .i32⟩
  | 15 => ⟨S8388608, .i32⟩
  | 16 => ⟨S8388608, .i32⟩
  | 17 => ⟨S8388608x1, .i32⟩
  | 18 => ⟨S1, .i32⟩
  | 19 => ⟨S_, .i32⟩
  | 20 => ⟨S8388608x1, .i32⟩
  | 21 => ⟨S8388608x1, .i1⟩
  | 22 => ⟨S1x1, .i32⟩
  | 23 => ⟨S8388608x1, .i32⟩
  | 24 => ⟨S8388608x1, .i1⟩
  | 25 => ⟨S8388608x1, .i1⟩
  | 26 => ⟨S_, .i1⟩
  | 27 => ⟨S8388608, .i1⟩
  | 28 => ⟨S8388608x4, .f32⟩
  | 29 => ⟨S8388608x4, .i1⟩
  | 30 => ⟨S_, .f32⟩
  | 31 => ⟨S8388608x4, .f32⟩
  | 32 => ⟨S8388608x4, .f32⟩
  | 33 => ⟨S8x4194304, .f32⟩
  | 34 => ⟨S4x256x256x256, .f32⟩
  | 35 => ⟨S256x256x256x4, .f32⟩
  | 36 => ⟨S16777216x4, .f32⟩
  | 37 => ⟨S1x1048576, .f32⟩
  | 38 => ⟨S1048576, .f32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S_, .f32⟩
  | 46 => ⟨S_, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S1x1048576, .f32⟩
  | 54 => ⟨S1048576, .f32⟩
  | 55 => ⟨S_, .f32⟩
  | 56 => ⟨S1048576, .f32⟩
  | 57 => ⟨S1048576, .f32⟩
  | 58 => ⟨S_, .f32⟩
  | 59 => ⟨S1048576, .f32⟩
  | 60 => ⟨S1048576, .f32⟩
  | 61 => ⟨S_, .f32⟩
  | 62 => ⟨S_, .f32⟩
  | 63 => ⟨S_, .f32⟩
  | 64 => ⟨S1048576, .f32⟩
  | 65 => ⟨S1048576, .f32⟩
  | 66 => ⟨S_, .f32⟩
  | 67 => ⟨S1048576, .f32⟩
  | 68 => ⟨S1048576, .f32⟩
  | 69 => ⟨S1x1048576, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S_, .f32⟩
  | 78 => ⟨S_, .f32⟩
  | 79 => ⟨S_, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S1048576, .f32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S1048576, .f32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .f32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S_, .i32⟩
  | 119 => ⟨S1048576, .i32⟩
  | 120 => ⟨S1048576, .i32⟩
  | 121 => ⟨S1048576, .i32⟩
  | 122 => ⟨S1048576, .i32⟩
  | 123 => ⟨S1048576, .i32⟩
  | 124 => ⟨S1048576, .i32⟩
  | 125 => ⟨S1048576, .i32⟩
  | 126 => ⟨S1048576, .i32⟩
  | 127 => ⟨S1048576, .i32⟩
  | _ => ⟨S1x1x1x1048576x3, .f32⟩

abbrev hbmTy0_4 (i : Nat) : BufTy := match i % 128 with
  | 0 => ⟨S1048576, .i32⟩
  | 1 => ⟨S1048576, .i32⟩
  | 2 => ⟨S1048576, .i32⟩
  | 3 => ⟨S1048576, .i32⟩
  | 4 => ⟨S1048576, .i32⟩
  | 5 => ⟨S1048576, .i32⟩
  | 6 => ⟨S1048576, .i32⟩
  | 7 => ⟨S1048576, .i32⟩
  | 8 => ⟨S1048576, .i32⟩
  | 9 => ⟨S1x1048576, .i32⟩
  | 10 => ⟨S1x1048576, .i32⟩
  | 11 => ⟨S1x1048576, .i32⟩
  | 12 => ⟨S1x1048576, .i32⟩
  | 13 => ⟨S1x1048576, .i32⟩
  | 14 => ⟨S1x1048576, .i32⟩
  | 15 => ⟨S1x1048576, .i32⟩
  | 16 => ⟨S1x1048576, .i32⟩
  | 17 => ⟨S8x1048576, .i32⟩
  | 18 => ⟨S8388608, .i32⟩
  | 19 => ⟨S_, .i32⟩
  | 20 => ⟨S8388608, .i32⟩
  | 21 => ⟨S8388608, .i1⟩
  | 22 => ⟨S_, .i32⟩
  | 23 => ⟨S8388608, .i32⟩
  | 24 => ⟨S8388608, .i32⟩
  | 25 => ⟨S8388608, .i32⟩
  | 26 => ⟨S8388608x1, .i32⟩
  | 27 => ⟨S1, .i32⟩
  | 28 => ⟨S_, .i32⟩
  | 29 => ⟨S8388608x1, .i32⟩
  | 30 => ⟨S8388608x1, .i1⟩
  | 31 => ⟨S1x1, .i32⟩
  | 32 => ⟨S8388608x1, .i32⟩
  | 33 => ⟨S8388608x1, .i1⟩
  | 34 => ⟨S8388608x1, .i1⟩
  | 35 => ⟨S_, .i1⟩
  | 36 => ⟨S8388608, .i1⟩
  | 37 => ⟨S8388608x4, .f32⟩
  | 38 => ⟨S8388608x4, .i1⟩
  | 39 => ⟨S_, .f32⟩
  | 40 => ⟨S8388608x4, .f32⟩
  | 41 => ⟨S8388608x4, .f32⟩
  | 42 => ⟨S8x4194304, .f32⟩
  | 43 => ⟨S3x1048576x4, .f32⟩
  | 44 => ⟨S3x4194304, .f32⟩
  | 45 => ⟨S4x4194304, .f32⟩
  | 46 => ⟨S4x1048576x4, .f32⟩
  | 47 => ⟨S4x4x1048576, .f32⟩
  | 48 => ⟨S16x1048576, .f32⟩
  | 49 => ⟨S1x16x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1x1x1048576x3, .f32⟩

abbrev bufTy : (tb : Table) → Fin (tcTables nBuf tb) → BufTy
  | .hbm, ⟨i, _⟩ => hbmTy i
  | .local _ .vmem, ⟨0, _⟩ => ⟨S3x65536, .f32⟩
  | .local _ .vmem, ⟨1, _⟩ => ⟨S3x65536, .f32⟩
  | .local _ .vmem, ⟨2, _⟩ => ⟨S8x65536, .f32⟩
  | .local _ .vmem, ⟨3, _⟩ => ⟨S8x65536, .f32⟩
  | .local _ .vmem, ⟨4, _⟩ => ⟨S8x65536, .f32⟩
  | .local _ .vmem, ⟨5, _⟩ => ⟨S8x65536, .f32⟩
  | .local _ .vmem, ⟨6, _⟩ => ⟨S8x65536, .f32⟩
  | .local _ .vmem, ⟨7, _⟩ => ⟨S8x65536, .f32⟩
  | .local _ .vmem, ⟨8, _⟩ => ⟨S8x65536, .f32⟩
  | .local _ .vmem, ⟨9, _⟩ => ⟨S8x65536, .f32⟩
  | .local _ .vmem, ⟨10, _⟩ => ⟨S4x65536, .f32⟩
  | .local _ .vmem, ⟨11, _⟩ => ⟨S4x65536, .f32⟩
  | _, _ => ⟨S1x1x1x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c : Ref sig .tc := ⟨.hbm, 60, rfl⟩
abbrev main_v28 : Ref sig .tc := ⟨.hbm, 61, rfl⟩
abbrev main_v29 : Ref sig .tc := ⟨.hbm, 62, rfl⟩
abbrev main_c_11 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_12 : Ref sig .tc := ⟨.hbm, 68, rfl⟩
abbrev main_v34 : Ref sig .tc := ⟨.hbm, 69, rfl⟩
abbrev main_v35 : Ref sig .tc := ⟨.hbm, 70, rfl⟩
abbrev main_c_13 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_14 : Ref sig .tc := ⟨.hbm, 76, rfl⟩
abbrev main_v40 : Ref sig .tc := ⟨.hbm, 77, rfl⟩
abbrev main_v41 : Ref sig .tc := ⟨.hbm, 78, rfl⟩
abbrev main_c_15 : Ref sig .tc := ⟨.hbm, 79, rfl⟩
abbrev main_v42 : Ref sig .tc := ⟨.hbm, 80, rfl⟩
abbrev main_v43 : Ref sig .tc := ⟨.hbm, 81, rfl⟩
abbrev main_c_16 : Ref sig .tc := ⟨.hbm, 82, rfl⟩
abbrev main_v44 : Ref sig .tc := ⟨.hbm, 83, rfl⟩
abbrev main_v45 : Ref sig .tc := ⟨.hbm, 84, rfl⟩
abbrev main_c_17 : Ref sig .tc := ⟨.hbm, 85, rfl⟩
abbrev main_v46 : Ref sig .tc := ⟨.hbm, 86, rfl⟩
abbrev main_v47 : Ref sig .tc := ⟨.hbm, 87, rfl⟩
abbrev main_c_18 : Ref sig .tc := ⟨.hbm, 88, rfl⟩
abbrev main_v48 : Ref sig .tc := ⟨.hbm, 89, rfl⟩
abbrev main_v49 : Ref sig .tc := ⟨.hbm, 90, rfl⟩
abbrev main_c_19 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_20 : Ref sig .tc := ⟨.hbm, 149, rfl⟩
abbrev main_v85 : Ref sig .tc := ⟨.hbm, 150, rfl⟩
abbrev main_v86 : Ref sig .tc := ⟨.hbm, 151, rfl⟩
abbrev main_cst_21 : Ref sig .tc := ⟨.hbm, 152, rfl⟩
abbrev main_v87 : Ref sig .tc := ⟨.hbm, 153, rfl⟩
abbrev main_v88 : Ref sig .tc := ⟨.hbm, 154, rfl⟩
abbrev main_cst_22 : Ref sig .tc := ⟨.hbm, 155, rfl⟩
abbrev main_cst_23 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_24 : Ref sig .tc := ⟨.hbm, 165, rfl⟩
abbrev main_v92 : Ref sig .tc := ⟨.hbm, 166, rfl⟩
abbrev main_v93 : Ref sig .tc := ⟨.hbm, 167, rfl⟩
abbrev main_cst_25 : Ref sig .tc := ⟨.hbm, 168, rfl⟩
abbrev main_v94 : Ref sig .tc := ⟨.hbm, 169, rfl⟩
abbrev main_v95 : Ref sig .tc := ⟨.hbm, 170, rfl⟩
abbrev main_cst_26 : Ref sig .tc := ⟨.hbm, 171, rfl⟩
abbrev main_cst_27 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_28 : Ref sig .tc := ⟨.hbm, 181, rfl⟩
abbrev main_v99 : Ref sig .tc := ⟨.hbm, 182, rfl⟩
abbrev main_v100 : Ref sig .tc := ⟨.hbm, 183, rfl⟩
abbrev main_cst_29 : Ref sig .tc := ⟨.hbm, 184, rfl⟩
abbrev main_v101 : Ref sig .tc := ⟨.hbm, 185, rfl⟩
abbrev main_v102 : Ref sig .tc := ⟨.hbm, 186, rfl⟩
abbrev main_cst_30 : Ref sig .tc := ⟨.hbm, 187, rfl⟩
abbrev main_cst_31 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_c_32 : Ref sig .tc := ⟨.hbm, 197, rfl⟩
abbrev main_v106 : Ref sig .tc := ⟨.hbm, 198, rfl⟩
abbrev main_v107 : Ref sig .tc := ⟨.hbm, 199, rfl⟩
abbrev main_c_33 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_c_34 : Ref sig .tc := ⟨.hbm, 205, rfl⟩
abbrev main_v112 : Ref sig .tc := ⟨.hbm, 206, rfl⟩
abbrev main_v113 : Ref sig .tc := ⟨.hbm, 207, rfl⟩
abbrev main_c_35 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_c_36 : Ref sig .tc := ⟨.hbm, 213, rfl⟩
abbrev main_v118 : Ref sig .tc := ⟨.hbm, 214, rfl⟩
abbrev main_v119 : Ref sig .tc := ⟨.hbm, 215, rfl⟩
abbrev main_c_37 : Ref sig .tc := ⟨.hbm, 216, rfl⟩
abbrev main_v120 : Ref sig .tc := ⟨.hbm, 217, rfl⟩
abbrev main_v121 : Ref sig .tc := ⟨.hbm, 218, rfl⟩
abbrev main_c_38 : Ref sig .tc := ⟨.hbm, 219, rfl⟩
abbrev main_v122 : Ref sig .tc := ⟨.hbm, 220, rfl⟩
abbrev main_v123 : Ref sig .tc := ⟨.hbm, 221, rfl⟩
abbrev main_c_39 : Ref sig .tc := ⟨.hbm, 222, rfl⟩
abbrev main_v124 : Ref sig .tc := ⟨.hbm, 223, rfl⟩
abbrev main_v125 : Ref sig .tc := ⟨.hbm, 224, rfl⟩
abbrev main_c_40 : Ref sig .tc := ⟨.hbm, 225, rfl⟩
abbrev main_v126 : Ref sig .tc := ⟨.hbm, 226, rfl⟩
abbrev main_v127 : Ref sig .tc := ⟨.hbm, 227, rfl⟩
abbrev main_c_41 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_call7_c : Ref sig .tc := ⟨.hbm, 257, rfl⟩
abbrev main_call7_v0 : Ref sig .tc := ⟨.hbm, 258, rfl⟩
abbrev main_call7_v1 : Ref sig .tc := ⟨.hbm, 259, rfl⟩
abbrev main_call7_c_0 : Ref sig .tc := ⟨.hbm, 260, rfl⟩
abbrev main_call7_v2 : Ref sig .tc := ⟨.hbm, 261, rfl⟩
abbrev main_call7_v3 : Ref sig .tc := ⟨.hbm, 262, rfl⟩
abbrev main_call7_v4 : Ref sig .tc := ⟨.hbm, 263, rfl⟩
abbrev main_call7_v5 : Ref sig .tc := ⟨.hbm, 264, rfl⟩
abbrev main_call7_c_1 : Ref sig .tc := ⟨.hbm, 265, rfl⟩
abbrev main_call7_c_2 : Ref sig .tc := ⟨.hbm, 266, rfl⟩
abbrev main_call7_v6 : Ref sig .tc := ⟨.hbm, 267, rfl⟩
abbrev main_call7_v7 : Ref sig .tc := ⟨.hbm, 268, rfl⟩
abbrev main_call7_v8 : Ref sig .tc := ⟨.hbm, 269, rfl⟩
abbrev main_call7_v9 : Ref sig .tc := ⟨.hbm, 270, rfl⟩
abbrev main_call7_v10 : Ref sig .tc := ⟨.hbm, 271, rfl⟩
abbrev main_call7_v11 : Ref sig .tc := ⟨.hbm, 272, rfl⟩
abbrev main_call7_c_3 : Ref sig .tc := ⟨.hbm, 273, rfl⟩
abbrev main_call7_v12 : Ref sig .tc := ⟨.hbm, 274, rfl⟩
abbrev main_call7_v13 : Ref sig .tc := ⟨.hbm, 275, rfl⟩
abbrev main_call7_v14 : Ref sig .tc := ⟨.hbm, 276, rfl⟩
abbrev main_call7_cst : Ref sig .tc := ⟨.hbm, 277, rfl⟩
abbrev main_call7_v15 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_cst_42 : Ref sig .tc := ⟨.hbm, 286, rfl⟩
abbrev main_v163 : Ref sig .tc := ⟨.hbm, 287, rfl⟩
abbrev main_v164 : Ref sig .tc := ⟨.hbm, 288, rfl⟩
abbrev main_cst_43 : Ref sig .tc := ⟨.hbm, 289, rfl⟩
abbrev main_v165 : Ref sig .tc := ⟨.hbm, 290, rfl⟩
abbrev main_v166 : Ref sig .tc := ⟨.hbm, 291, rfl⟩
abbrev main_cst_44 : Ref sig .tc := ⟨.hbm, 292, rfl⟩
abbrev main_cst_45 : Ref sig .tc := ⟨.hbm, 293, rfl⟩
abbrev main_call8_v0 : Ref sig .tc := ⟨.hbm, 294, rfl⟩
abbrev main_call8_v1 : Ref sig .tc := ⟨.hbm, 295, rfl⟩
abbrev main_call8_v2 : Ref sig .tc := ⟨.hbm, 296, rfl⟩
abbrev main_call8_v3 : Ref sig .tc := ⟨.hbm, 297, rfl⟩
abbrev main_call8_v4 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_cst_46 : Ref sig .tc := ⟨.hbm, 302, rfl⟩
abbrev main_v170 : Ref sig .tc := ⟨.hbm, 303, rfl⟩
abbrev main_v171 : Ref sig .tc := ⟨.hbm, 304, rfl⟩
abbrev main_cst_47 : Ref sig .tc := ⟨.hbm, 305, rfl⟩
abbrev main_v172 : Ref sig .tc := ⟨.hbm, 306, rfl⟩
abbrev main_v173 : Ref sig .tc := ⟨.hbm, 307, rfl⟩
abbrev main_cst_48 : Ref sig .tc := ⟨.hbm, 308, rfl⟩
abbrev main_cst_49 : Ref sig .tc := ⟨.hbm, 309, rfl⟩
abbrev main_call9_v0 : Ref sig .tc := ⟨.hbm, 310, rfl⟩
abbrev main_call9_v1 : Ref sig .tc := ⟨.hbm, 311, rfl⟩
abbrev main_call9_v2 : Ref sig .tc := ⟨.hbm, 312, rfl⟩
abbrev main_call9_v3 : Ref sig .tc := ⟨.hbm, 313, rfl⟩
abbrev main_call9_v4 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_cst_50 : Ref sig .tc := ⟨.hbm, 318, rfl⟩
abbrev main_v177 : Ref sig .tc := ⟨.hbm, 319, rfl⟩
abbrev main_v178 : Ref sig .tc := ⟨.hbm, 320, rfl⟩
abbrev main_cst_51 : Ref sig .tc := ⟨.hbm, 321, rfl⟩
abbrev main_v179 : Ref sig .tc := ⟨.hbm, 322, rfl⟩
abbrev main_v180 : Ref sig .tc := ⟨.hbm, 323, rfl⟩
abbrev main_cst_52 : Ref sig .tc := ⟨.hbm, 324, rfl⟩
abbrev main_cst_53 : Ref sig .tc := ⟨.hbm, 325, rfl⟩
abbrev main_call10_v0 : Ref sig .tc := ⟨.hbm, 326, rfl⟩
abbrev main_call10_v1 : Ref sig .tc := ⟨.hbm, 327, rfl⟩
abbrev main_call10_v2 : Ref sig .tc := ⟨.hbm, 328, rfl⟩
abbrev main_call10_v3 : Ref sig .tc := ⟨.hbm, 329, rfl⟩
abbrev main_call10_v4 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_c_54 : Ref sig .tc := ⟨.hbm, 334, rfl⟩
abbrev main_v184 : Ref sig .tc := ⟨.hbm, 335, rfl⟩
abbrev main_v185 : Ref sig .tc := ⟨.hbm, 336, rfl⟩
abbrev main_c_55 : Ref sig .tc := ⟨.hbm, 337, rfl⟩
abbrev main_v186 : Ref sig .tc := ⟨.hbm, 338, rfl⟩
abbrev main_v187 : Ref sig .tc := ⟨.hbm, 339, rfl⟩
abbrev main_v188 : Ref sig .tc := ⟨.hbm, 340, rfl⟩
abbrev main_v189 : Ref sig .tc := ⟨.hbm, 341, rfl⟩
abbrev main_c_56 : Ref sig .tc := ⟨.hbm, 342, rfl⟩
abbrev main_v190 : Ref sig .tc := ⟨.hbm, 343, rfl⟩
abbrev main_v191 : Ref sig .tc := ⟨.hbm, 344, rfl⟩
abbrev main_c_57 : Ref sig .tc := ⟨.hbm, 345, rfl⟩
abbrev main_v192 : Ref sig .tc := ⟨.hbm, 346, rfl⟩
abbrev main_v193 : Ref sig .tc := ⟨.hbm, 347, rfl⟩
abbrev main_v194 : Ref sig .tc := ⟨.hbm, 348, rfl⟩
abbrev main_v195 : Ref sig .tc := ⟨.hbm, 349, rfl⟩
abbrev main_c_58 : Ref sig .tc := ⟨.hbm, 350, rfl⟩
abbrev main_v196 : Ref sig .tc := ⟨.hbm, 351, rfl⟩
abbrev main_v197 : Ref sig .tc := ⟨.hbm, 352, rfl⟩
abbrev main_c_59 : Ref sig .tc := ⟨.hbm, 353, rfl⟩
abbrev main_v198 : Ref sig .tc := ⟨.hbm, 354, rfl⟩
abbrev main_v199 : Ref sig .tc := ⟨.hbm, 355, rfl⟩
abbrev main_c_60 : Ref sig .tc := ⟨.hbm, 356, rfl⟩
abbrev main_v200 : Ref sig .tc := ⟨.hbm, 357, rfl⟩
abbrev main_v201 : Ref sig .tc := ⟨.hbm, 358, rfl⟩
abbrev main_c_61 : Ref sig .tc := ⟨.hbm, 359, rfl⟩
abbrev main_v202 : Ref sig .tc := ⟨.hbm, 360, rfl⟩
abbrev main_v203 : Ref sig .tc := ⟨.hbm, 361, rfl⟩
abbrev main_c_62 : Ref sig .tc := ⟨.hbm, 362, rfl⟩
abbrev main_v204 : Ref sig .tc := ⟨.hbm, 363, rfl⟩
abbrev main_v205 : Ref sig .tc := ⟨.hbm, 364, rfl⟩
abbrev main_c_63 : Ref sig .tc := ⟨.hbm, 365, rfl⟩
abbrev main_v206 : Ref sig .tc := ⟨.hbm, 366, rfl⟩
abbrev main_v207 : Ref sig .tc := ⟨.hbm, 367, rfl⟩
abbrev main_v208 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_v214 : Ref sig .tc := ⟨.hbm, 374, rfl⟩
abbrev main_v215 : Ref sig .tc := ⟨.hbm, 375, rfl⟩
abbrev main_v216 : Ref sig .tc := ⟨.hbm, 376, rfl⟩
abbrev main_v217 : Ref sig .tc := ⟨.hbm, 377, rfl⟩
abbrev main_v218 : Ref sig .tc := ⟨.hbm, 378, rfl⟩
abbrev main_v219 : Ref sig .tc := ⟨.hbm, 379, rfl⟩
abbrev main_v220 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_v224 : Ref sig .tc := ⟨.hbm, 384, rfl⟩
abbrev main_v225 : Ref sig .tc := ⟨.hbm, 385, rfl⟩
abbrev main_v226 : Ref sig .tc := ⟨.hbm, 386, rfl⟩
abbrev main_v227 : Ref sig .tc := ⟨.hbm, 387, rfl⟩
abbrev main_v228 : Ref sig .tc := ⟨.hbm, 388, rfl⟩
abbrev main_v229 : Ref sig .tc := ⟨.hbm, 389, rfl⟩
abbrev main_v230 : Ref sig .tc := ⟨.hbm, 390, rfl⟩
abbrev main_v231 : Ref sig .tc := ⟨.hbm, 391, rfl⟩
abbrev main_v232 : Ref sig .tc := ⟨.hbm, 392, rfl⟩
abbrev main_v233 : Ref sig .tc := ⟨.hbm, 393, rfl⟩
abbrev main_call11_c : Ref sig .tc := ⟨.hbm, 394, rfl⟩
abbrev main_call11_v0 : Ref sig .tc := ⟨.hbm, 395, rfl⟩
abbrev main_call11_v1 : Ref sig .tc := ⟨.hbm, 396, rfl⟩
abbrev main_call11_c_0 : Ref sig .tc := ⟨.hbm, 397, rfl⟩
abbrev main_call11_v2 : Ref sig .tc := ⟨.hbm, 398, rfl⟩
abbrev main_call11_v3 : Ref sig .tc := ⟨.hbm, 399, rfl⟩
abbrev main_call11_v4 : Ref sig .tc := ⟨.hbm, 400, rfl⟩
abbrev main_call11_v5 : Ref sig .tc := ⟨.hbm, 401, rfl⟩
abbrev main_call11_c_1 : Ref sig .tc := ⟨.hbm, 402, rfl⟩
abbrev main_call11_c_2 : Ref sig .tc := ⟨.hbm, 403, rfl⟩
abbrev main_call11_v6 : Ref sig .tc := ⟨.hbm, 404, rfl⟩
abbrev main_call11_v7 : Ref sig .tc := ⟨.hbm, 405, rfl⟩
abbrev main_call11_v8 : Ref sig .tc := ⟨.hbm, 406, rfl⟩
abbrev main_call11_v9 : Ref sig .tc := ⟨.hbm, 407, rfl⟩
abbrev main_call11_v10 : Ref sig .tc := ⟨.hbm, 408, rfl⟩
abbrev main_call11_v11 : Ref sig .tc := ⟨.hbm, 409, rfl⟩
abbrev main_call11_c_3 : Ref sig .tc := ⟨.hbm, 410, rfl⟩
abbrev main_call11_v12 : Ref sig .tc := ⟨.hbm, 411, rfl⟩
abbrev main_call11_v13 : Ref sig .tc := ⟨.hbm, 412, rfl⟩
abbrev main_call11_v14 : Ref sig .tc := ⟨.hbm, 413, rfl⟩
abbrev main_call11_cst : Ref sig .tc := ⟨.hbm, 414, rfl⟩
abbrev main_call11_v15 : Ref sig .tc := ⟨.hbm, 415, rfl⟩
abbrev main_v234 : Ref sig .tc := ⟨.hbm, 416, rfl⟩
abbrev main_v235 : Ref sig .tc := ⟨.hbm, 417, rfl⟩
abbrev main_v236 : Ref sig .tc := ⟨.hbm, 418, rfl⟩
abbrev main_v237 : Ref sig .tc := ⟨.hbm, 419, rfl⟩
abbrev main_v238 : Ref sig .tc := ⟨.hbm, 420, rfl⟩
abbrev main_v239 : Ref sig .tc := ⟨.hbm, 421, rfl⟩
abbrev main_v240 : Ref sig .tc := ⟨.hbm, 422, rfl⟩
abbrev main_cst_64 : Ref sig .tc := ⟨.hbm, 423, rfl⟩
abbrev main_v241 : Ref sig .tc := ⟨.hbm, 424, rfl⟩
abbrev main_v242 : Ref sig .tc := ⟨.hbm, 425, rfl⟩
abbrev main_cst_65 : Ref sig .tc := ⟨.hbm, 426, rfl⟩
abbrev main_v243 : Ref sig .tc := ⟨.hbm, 427, rfl⟩
abbrev main_v244 : Ref sig .tc := ⟨.hbm, 428, rfl⟩
abbrev main_cst_66 : Ref sig .tc := ⟨.hbm, 429, rfl⟩
abbrev main_cst_67 : Ref sig .tc := ⟨.hbm, 430, rfl⟩
abbrev main_call12_v0 : Ref sig .tc := ⟨.hbm, 431, rfl⟩
abbrev main_call12_v1 : Ref sig .tc := ⟨.hbm, 432, rfl⟩
abbrev main_call12_v2 : Ref sig .tc := ⟨.hbm, 433, rfl⟩
abbrev main_call12_v3 : Ref sig .tc := ⟨.hbm, 434, rfl⟩
abbrev main_call12_v4 : Ref sig .tc := ⟨.hbm, 435, rfl⟩
abbrev main_v245 : Ref sig .tc := ⟨.hbm, 436, rfl⟩
abbrev main_v246 : Ref sig .tc := ⟨.hbm, 437, rfl⟩
abbrev main_v247 : Ref sig .tc := ⟨.hbm, 438, rfl⟩
abbrev main_cst_68 : Ref sig .tc := ⟨.hbm, 439, rfl⟩
abbrev main_v248 : Ref sig .tc := ⟨.hbm, 440, rfl⟩
abbrev main_v249 : Ref sig .tc := ⟨.hbm, 441, rfl⟩
abbrev main_cst_69 : Ref sig .tc := ⟨.hbm, 442, rfl⟩
abbrev main_v250 : Ref sig .tc := ⟨.hbm, 443, rfl⟩
abbrev main_v251 : Ref sig .tc := ⟨.hbm, 444, rfl⟩
abbrev main_cst_70 : Ref sig .tc := ⟨.hbm, 445, rfl⟩
abbrev main_cst_71 : Ref sig .tc := ⟨.hbm, 446, rfl⟩
abbrev main_call13_v0 : Ref sig .tc := ⟨.hbm, 447, rfl⟩
abbrev main_call13_v1 : Ref sig .tc := ⟨.hbm, 448, rfl⟩
abbrev main_call13_v2 : Ref sig .tc := ⟨.hbm, 449, rfl⟩
abbrev main_call13_v3 : Ref sig .tc := ⟨.hbm, 450, rfl⟩
abbrev main_call13_v4 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_cst_72 : Ref sig .tc := ⟨.hbm, 455, rfl⟩
abbrev main_v255 : Ref sig .tc := ⟨.hbm, 456, rfl⟩
abbrev main_v256 : Ref sig .tc := ⟨.hbm, 457, rfl⟩
abbrev main_cst_73 : Ref sig .tc := ⟨.hbm, 458, rfl⟩
abbrev main_v257 : Ref sig .tc := ⟨.hbm, 459, rfl⟩
abbrev main_v258 : Ref sig .tc := ⟨.hbm, 460, rfl⟩
abbrev main_cst_74 : Ref sig .tc := ⟨.hbm, 461, rfl⟩
abbrev main_cst_75 : Ref sig .tc := ⟨.hbm, 462, rfl⟩
abbrev main_call14_v0 : Ref sig .tc := ⟨.hbm, 463, rfl⟩
abbrev main_call14_v1 : Ref sig .tc := ⟨.hbm, 464, rfl⟩
abbrev main_call14_v2 : Ref sig .tc := ⟨.hbm, 465, rfl⟩
abbrev main_call14_v3 : Ref sig .tc := ⟨.hbm, 466, rfl⟩
abbrev main_call14_v4 : Ref sig .tc := ⟨.hbm, 467, rfl⟩
abbrev main_v259 : Ref sig .tc := ⟨.hbm, 468, rfl⟩
abbrev main_v260 : Ref sig .tc := ⟨.hbm, 469, rfl⟩
abbrev main_v261 : Ref sig .tc := ⟨.hbm, 470, rfl⟩
abbrev main_c_76 : Ref sig .tc := ⟨.hbm, 471, rfl⟩
abbrev main_v262 : Ref sig .tc := ⟨.hbm, 472, rfl⟩
abbrev main_v263 : Ref sig .tc := ⟨.hbm, 473, rfl⟩
abbrev main_c_77 : Ref sig .tc := ⟨.hbm, 474, rfl⟩
abbrev main_v264 : Ref sig .tc := ⟨.hbm, 475, rfl⟩
abbrev main_v265 : Ref sig .tc := ⟨.hbm, 476, rfl⟩
abbrev main_v266 : Ref sig .tc := ⟨.hbm, 477, rfl⟩
abbrev main_v267 : Ref sig .tc := ⟨.hbm, 478, rfl⟩
abbrev main_c_78 : Ref sig .tc := ⟨.hbm, 479, rfl⟩
abbrev main_v268 : Ref sig .tc := ⟨.hbm, 480, rfl⟩
abbrev main_v269 : Ref sig .tc := ⟨.hbm, 481, rfl⟩
abbrev main_c_79 : Ref sig .tc := ⟨.hbm, 482, rfl⟩
abbrev main_v270 : Ref sig .tc := ⟨.hbm, 483, rfl⟩
abbrev main_v271 : Ref sig .tc := ⟨.hbm, 484, rfl⟩
abbrev main_v272 : Ref sig .tc := ⟨.hbm, 485, rfl⟩
abbrev main_v273 : Ref sig .tc := ⟨.hbm, 486, rfl⟩
abbrev main_c_80 : Ref sig .tc := ⟨.hbm, 487, rfl⟩
abbrev main_v274 : Ref sig .tc := ⟨.hbm, 488, rfl⟩
abbrev main_v275 : Ref sig .tc := ⟨.hbm, 489, rfl⟩
abbrev main_c_81 : Ref sig .tc := ⟨.hbm, 490, rfl⟩
abbrev main_v276 : Ref sig .tc := ⟨.hbm, 491, rfl⟩
abbrev main_v277 : Ref sig .tc := ⟨.hbm, 492, rfl⟩
abbrev main_c_82 : Ref sig .tc := ⟨.hbm, 493, rfl⟩
abbrev main_v278 : Ref sig .tc := ⟨.hbm, 494, rfl⟩
abbrev main_v279 : Ref sig .tc := ⟨.hbm, 495, rfl⟩
abbrev main_c_83 : Ref sig .tc := ⟨.hbm, 496, rfl⟩
abbrev main_v280 : Ref sig .tc := ⟨.hbm, 497, rfl⟩
abbrev main_v281 : Ref sig .tc := ⟨.hbm, 498, rfl⟩
abbrev main_c_84 : Ref sig .tc := ⟨.hbm, 499, rfl⟩
abbrev main_v282 : Ref sig .tc := ⟨.hbm, 500, rfl⟩
abbrev main_v283 : Ref sig .tc := ⟨.hbm, 501, rfl⟩
abbrev main_c_85 : Ref sig .tc := ⟨.hbm, 502, rfl⟩
abbrev main_v284 : Ref sig .tc := ⟨.hbm, 503, rfl⟩
abbrev main_v285 : Ref sig .tc := ⟨.hbm, 504, rfl⟩
abbrev main_v286 : Ref sig .tc := ⟨.hbm, 505, rfl⟩
abbrev main_v287 : Ref sig .tc := ⟨.hbm, 506, rfl⟩
abbrev main_v288 : Ref sig .tc := ⟨.hbm, 507, rfl⟩
abbrev main_v289 : Ref sig .tc := ⟨.hbm, 508, rfl⟩
abbrev main_v290 : Ref sig .tc := ⟨.hbm, 509, rfl⟩
abbrev main_v291 : Ref sig .tc := ⟨.hbm, 510, rfl⟩
abbrev main_v292 : Ref sig .tc := ⟨.hbm, 511, rfl⟩
abbrev main_v293 : Ref sig .tc := ⟨.hbm, 512, rfl⟩
abbrev main_v294 : Ref sig .tc := ⟨.hbm, 513, rfl⟩
abbrev main_v295 : Ref sig .tc := ⟨.hbm, 514, rfl⟩
abbrev main_v296 : Ref sig .tc := ⟨.hbm, 515, rfl⟩
abbrev main_v297 : Ref sig .tc := ⟨.hbm, 516, rfl⟩
abbrev main_v298 : Ref sig .tc := ⟨.hbm, 517, rfl⟩
abbrev main_v299 : Ref sig .tc := ⟨.hbm, 518, rfl⟩
abbrev main_v300 : Ref sig .tc := ⟨.hbm, 519, rfl⟩
abbrev main_v301 : Ref sig .tc := ⟨.hbm, 520, rfl⟩
abbrev main_v302 : Ref sig .tc := ⟨.hbm, 521, rfl⟩
abbrev main_v303 : Ref sig .tc := ⟨.hbm, 522, rfl⟩
abbrev main_v304 : Ref sig .tc := ⟨.hbm, 523, rfl⟩
abbrev main_v305 : Ref sig .tc := ⟨.hbm, 524, rfl⟩
abbrev main_v306 : Ref sig .tc := ⟨.hbm, 525, rfl⟩
abbrev main_v307 : Ref sig .tc := ⟨.hbm, 526, rfl⟩
abbrev main_v308 : Ref sig .tc := ⟨.hbm, 527, rfl⟩
abbrev main_v309 : Ref sig .tc := ⟨.hbm, 528, rfl⟩
abbrev main_v310 : Ref sig .tc := ⟨.hbm, 529, rfl⟩
abbrev main_v311 : Ref sig .tc := ⟨.hbm, 530, rfl⟩
abbrev main_call15_c : Ref sig .tc := ⟨.hbm, 531, rfl⟩
abbrev main_call15_v0 : Ref sig .tc := ⟨.hbm, 532, rfl⟩
abbrev main_call15_v1 : Ref sig .tc := ⟨.hbm, 533, rfl⟩
abbrev main_call15_c_0 : Ref sig .tc := ⟨.hbm, 534, rfl⟩
abbrev main_call15_v2 : Ref sig .tc := ⟨.hbm, 535, rfl⟩
abbrev main_call15_v3 : Ref sig .tc := ⟨.hbm, 536, rfl⟩
abbrev main_call15_v4 : Ref sig .tc := ⟨.hbm, 537, rfl⟩
abbrev main_call15_v5 : Ref sig .tc := ⟨.hbm, 538, rfl⟩
abbrev main_call15_c_1 : Ref sig .tc := ⟨.hbm, 539, rfl⟩
abbrev main_call15_c_2 : Ref sig .tc := ⟨.hbm, 540, rfl⟩
abbrev main_call15_v6 : Ref sig .tc := ⟨.hbm, 541, rfl⟩
abbrev main_call15_v7 : Ref sig .tc := ⟨.hbm, 542, rfl⟩
abbrev main_call15_v8 : Ref sig .tc := ⟨.hbm, 543, rfl⟩
abbrev main_call15_v9 : Ref sig .tc := ⟨.hbm, 544, rfl⟩
abbrev main_call15_v10 : Ref sig .tc := ⟨.hbm, 545, rfl⟩
abbrev main_call15_v11 : Ref sig .tc := ⟨.hbm, 546, rfl⟩
abbrev main_call15_c_3 : Ref sig .tc := ⟨.hbm, 547, rfl⟩
abbrev main_call15_v12 : Ref sig .tc := ⟨.hbm, 548, rfl⟩
abbrev main_call15_v13 : Ref sig .tc := ⟨.hbm, 549, rfl⟩
abbrev main_call15_v14 : Ref sig .tc := ⟨.hbm, 550, rfl⟩
abbrev main_call15_cst : Ref sig .tc := ⟨.hbm, 551, rfl⟩
abbrev main_call15_v15 : Ref sig .tc := ⟨.hbm, 552, rfl⟩
abbrev main_v312 : Ref sig .tc := ⟨.hbm, 553, rfl⟩
abbrev main_v313 : Ref sig .tc := ⟨.hbm, 554, rfl⟩
abbrev main_v314 : Ref sig .tc := ⟨.hbm, 555, rfl⟩
abbrev main_v315 : Ref sig .tc := ⟨.hbm, 556, rfl⟩
abbrev main_v316 : Ref sig .tc := ⟨.hbm, 557, rfl⟩
abbrev main_v317 : Ref sig .tc := ⟨.hbm, 558, rfl⟩
abbrev main_v318 : Ref sig .tc := ⟨.hbm, 559, rfl⟩
abbrev main_v319 : Ref sig .tc := ⟨.hbm, 560, rfl⟩
abbrev main_v320 : Ref sig .tc := ⟨.hbm, 561, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x1x1x1048576x3_S1048576x3 : S1x1x1x1048576x3.ShapeCasts S1048576x3
  transposes_S1048576x3_S3x1048576_1_0 : S1048576x3.Transposes [1, 0] S3x1048576
  shapeCasts_S1x4x32x32x32_S4x32x32x32 : S1x4x32x32x32.ShapeCasts S4x32x32x32
  transposes_S4x32x32x32_S32x32x32x4_1_2_3_0 : S4x32x32x32.Transposes [1, 2, 3, 0] S32x32x32x4
  shapeCasts_S32x32x32x4_S32768x4 : S32x32x32x4.ShapeCasts S32768x4
  slices_S3x1048576_S1x1048576_0_0 : S3x1048576.Slices ![0, 0] S1x1048576
  shapeCasts_S1x1048576_S1048576 : S1x1048576.ShapeCasts S1048576
  bcast_S_S1048576 : S_.BroadcastsInDim S1048576 (![] : Fin 0 → Fin S1048576.rank)
  slices_S3x1048576_S1x1048576_1_0 : S3x1048576.Slices ![1, 0] S1x1048576
  slices_S3x1048576_S1x1048576_2_0 : S3x1048576.Slices ![2, 0] S1x1048576
  bcast_S1048576_S1x1048576_1 : S1048576.BroadcastsInDim S1x1048576 (![1] : Fin 1 → Fin S1x1048576.rank)
  concatenates_S1x1048576_S1x1048576_S1x1048576_S1x1048576_S1x1048576_S1x1048576_S1x1048576_S1x1048576_S8x1048576_d0 : Shape.Concatenates [S1x1048576, S1x1048576, S1x1048576, S1x1048576, S1x1048576, S1x1048576, S1x1048576, S1x1048576] S8x1048576 0
  shapeCasts_S8x1048576_S8388608 : S8x1048576.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S8388608x4_0 : S8388608.BroadcastsInDim S8388608x4 (![0] : Fin 1 → Fin S8388608x4.rank)
  bcast_S_S8388608x4 : S_.BroadcastsInDim S8388608x4 (![] : Fin 0 → Fin S8388608x4.rank)
  shapeCasts_S8388608x4_S8x4194304 : S8388608x4.ShapeCasts S8x4194304
  shapeCasts_S1x4x64x64x64_S4x64x64x64 : S1x4x64x64x64.ShapeCasts S4x64x64x64
  transposes_S4x64x64x64_S64x64x64x4_1_2_3_0 : S4x64x64x64.Transposes [1, 2, 3, 0] S64x64x64x4
  shapeCasts_S64x64x64x4_S262144x4 : S64x64x64x4.ShapeCasts S262144x4
  shapeCasts_S1x4x128x128x128_S4x128x128x128 : S1x4x128x128x128.ShapeCasts S4x128x128x128
  transposes_S4x128x128x128_S128x128x128x4_1_2_3_0 : S4x128x128x128.Transposes [1, 2, 3, 0] S128x128x128x4
  shapeCasts_S128x128x128x4_S2097152x4 : S128x128x128x4.ShapeCasts S2097152x4
  shapeCasts_S1x4x256x256x256_S4x256x256x256 : S1x4x256x256x256.ShapeCasts S4x256x256x256
  transposes_S4x256x256x256_S256x256x256x4_1_2_3_0 : S4x256x256x256.Transposes [1, 2, 3, 0] S256x256x256x4
  shapeCasts_S256x256x256x4_S16777216x4 : S256x256x256x4.ShapeCasts S16777216x4
  bcast_S3x1048576_S3x1048576x4_0_1 : S3x1048576.BroadcastsInDim S3x1048576x4 (![0, 1] : Fin 2 → Fin S3x1048576x4.rank)
  shapeCasts_S3x1048576x4_S3x4194304 : S3x1048576x4.ShapeCasts S3x4194304
  inb_S3x65536_S3x65536_0_0 : ∀ a, (![0, 0] : Fin 2 → Nat) a + S3x65536.size a ≤ S3x65536.size a
  h_S3x65536 : 0 < S3x65536.numel
  shapeCasts_S3x65536_S3x65536 : S3x65536.ShapeCasts S3x65536
  slices_S3x65536_o0_0_S1x65536 : S3x65536.Slices ![0, 0] S1x65536
  slices_S3x65536_o1_0_S1x65536 : S3x65536.Slices ![1, 0] S1x65536
  slices_S3x65536_o2_0_S1x65536 : S3x65536.Slices ![2, 0] S1x65536
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  slices_S8x65536_o0_0_S1x65536 : S8x65536.Slices ![0, 0] S1x65536
  slices_S8x65536_o1_0_S1x65536 : S8x65536.Slices ![1, 0] S1x65536
  slices_S8x65536_o2_0_S1x65536 : S8x65536.Slices ![2, 0] S1x65536
  slices_S8x65536_o3_0_S1x65536 : S8x65536.Slices ![3, 0] S1x65536
  slices_S8x65536_o4_0_S1x65536 : S8x65536.Slices ![4, 0] S1x65536
  slices_S8x65536_o5_0_S1x65536 : S8x65536.Slices ![5, 0] S1x65536
  slices_S8x65536_o6_0_S1x65536 : S8x65536.Slices ![6, 0] S1x65536
  slices_S8x65536_o7_0_S1x65536 : S8x65536.Slices ![7, 0] S1x65536
  concatenates_S1x65536_S1x65536_S1x65536_S1x65536_S4x65536_d0 : Shape.Concatenates [S1x65536, S1x65536, S1x65536, S1x65536] S4x65536 0
  inb_S4x65536_S4x65536_0_0 : ∀ a, (![0, 0] : Fin 2 → Nat) a + S4x65536.size a ≤ S4x65536.size a
  h_S4x65536 : 0 < S4x65536.numel
  shapeCasts_S4x4194304_S4x1048576x4 : S4x4194304.ShapeCasts S4x1048576x4
  transposes_S4x1048576x4_S4x4x1048576_0_2_1 : S4x1048576x4.Transposes [0, 2, 1] S4x4x1048576
  shapeCasts_S4x4x1048576_S16x1048576 : S4x4x1048576.ShapeCasts S16x1048576
  shapeCasts_S16x1048576_S1x16x1x1x1048576 : S16x1048576.ShapeCasts S1x16x1x1x1048576
  gather_S32768x4_S8388608x1_S8388608x4_1_0_n_n_0_1_14_wf : GatherDims.WF S32768x4 S8388608x1 S8388608x4 [1] [0] [] [0] [] 1 ![1, 4]
  gather_S262144x4_S8388608x1_S8388608x4_1_0_n_n_0_1_14_wf : GatherDims.WF S262144x4 S8388608x1 S8388608x4 [1] [0] [] [0] [] 1 ![1, 4]
  gather_S2097152x4_S8388608x1_S8388608x4_1_0_n_n_0_1_14_wf : GatherDims.WF S2097152x4 S8388608x1 S8388608x4 [1] [0] [] [0] [] 1 ![1, 4]
  gather_S16777216x4_S8388608x1_S8388608x4_1_0_n_n_0_1_14_wf : GatherDims.WF S16777216x4 S8388608x1 S8388608x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x4194304.size a
  hwx0_0 : ∀ i : grid0.Coords, EltTy.bits .f32 = 32 ∨ (Rect.block (s := S3x4194304) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S8x4194304.size a
  hwx0_1 : ∀ i : grid0.Coords, EltTy.bits .f32 = 32 ∨ (Rect.block (s := S8x4194304) S8x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x65536.size a ≤ S8x4194304.size a
  hwx0_2 : ∀ i : grid0.Coords, EltTy.bits .f32 = 32 ∨ (Rect.block (s := S8x4194304) S8x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x65536.size a ≤ S8x4194304.size a
  hwx0_3 : ∀ i : grid0.Coords, EltTy.bits .f32 = 32 ∨ (Rect.block (s := S8x4194304) S8x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x65536.size a ≤ S8x4194304.size a
  hwx0_4 : ∀ i : grid0.Coords, EltTy.bits .f32 = 32 ∨ (Rect.block (s := S8x4194304) S8x65536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x65536.size a ≤ S4x4194304.size a
  hwx0_5 : ∀ i : grid0.Coords, EltTy.bits .f32 = 32 ∨ (Rect.block (s := S4x4194304) S4x65536.size (cc0_transform_5 i) (hinb0_5 i)).WholeWords (EltTy.packing .f32)

variable [Facts₀]

def gather_S32768x4_S8388608x1_S8388608x4_1_0_n_n_0_1_14 : GatherDims S32768x4 S8388608x1 S8388608x4 where
  offsetDims := [1]
  collapsedSliceDims := [0]
  operandBatchingDims := []
  startIndicesBatchingDims := []
  startIndexMap := [0]
  indexVectorDim := 1
  sliceSizes := ![1, 4]
  wf := gather_S32768x4_S8388608x1_S8388608x4_1_0_n_n_0_1_14_wf
def gather_S262144x4_S8388608x1_S8388608x4_1_0_n_n_0_1_14 : GatherDims S262144x4 S8388608x1 S8388608x4 where
  offsetDims := [1]
  collapsedSliceDims := [0]
  operandBatchingDims := []
  startIndicesBatchingDims := []
  startIndexMap := [0]
  indexVectorDim := 1
  sliceSizes := ![1, 4]
  wf := gather_S262144x4_S8388608x1_S8388608x4_1_0_n_n_0_1_14_wf
def gather_S2097152x4_S8388608x1_S8388608x4_1_0_n_n_0_1_14 : GatherDims S2097152x4 S8388608x1 S8388608x4 where
  offsetDims := [1]
  collapsedSliceDims := [0]
  operandBatchingDims := []
  startIndicesBatchingDims := []
  startIndexMap := [0]
  indexVectorDim := 1
  sliceSizes := ![1, 4]
  wf := gather_S2097152x4_S8388608x1_S8388608x4_1_0_n_n_0_1_14_wf
def gather_S16777216x4_S8388608x1_S8388608x4_1_0_n_n_0_1_14 : GatherDims S16777216x4 S8388608x1 S8388608x4 where
  offsetDims := [1]
  collapsedSliceDims := [0]
  operandBatchingDims := []
  startIndicesBatchingDims := []
  startIndexMap := [0]
  indexVectorDim := 1
  sliceSizes := ![1, 4]
  wf := gather_S16777216x4_S8388608x1_S8388608x4_1_0_n_n_0_1_14_wf

abbrev win0_0 : Pipeline.Window sig grid0 :=
  Pipeline.Window.ofSpec (Memref.whole main_v315) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v157) S8x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v235) S8x65536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v313) S8x65536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v316) S4x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x1x1x1048576x3 : Shape := ⟨5, ![1, 1, 1, 1048576, 3]⟩
abbrev S1x4x32x32x32 : Shape := ⟨5, ![1, 4, 32, 32, 32]⟩
abbrev S1x4x64x64x64 : Shape := ⟨5, ![1, 4, 64, 64, 64]⟩
abbrev S1x4x128x128x128 : Shape := ⟨5, ![1, 4, 128, 128, 128]⟩
abbrev S1x4x256x256x256 : Shape := ⟨5, ![1, 4, 256, 256, 256]⟩
abbrev S1048576x3 : Shape := ⟨2, ![1048576, 3]⟩
abbrev S4x32x32x32 : Shape := ⟨4, ![4, 32, 32, 32]⟩
abbrev S1048576x1 : Shape := ⟨2, ![1048576, 1]⟩
abbrev S1048576 : Shape := ⟨1, ![1048576]⟩
abbrev S_ : Shape := ⟨0, ![]⟩
abbrev S4x1048576 : Shape := ⟨2, ![4, 1048576]⟩
abbrev S1x1048576 : Shape := ⟨2, ![1, 1048576]⟩
abbrev S1x4x1x1x1048576 : Shape := ⟨5, ![1, 4, 1, 1, 1048576]⟩
abbrev S4x64x64x64 : Shape := ⟨4, ![4, 64, 64, 64]⟩
abbrev S4x128x128x128 : Shape := ⟨4, ![4, 128, 128, 128]⟩
abbrev S4x256x256x256 : Shape := ⟨4, ![4, 256, 256, 256]⟩
abbrev S1x16x1x1x1048576 : Shape := ⟨5, ![1, 16, 1, 1, 1048576]⟩

abbrev nBuf : Space → Nat
  | .hbm => 1419
  | .vmem => 0
  | .smem => 0
  | _ => 0

abbrev hbmTy0_0 (i : Nat) : BufTy := match i % 128 with
  | 0 => ⟨S1x1x1x1048576x3, .f32⟩
  | 1 => ⟨S1x4x32x32x32, .f32⟩
  | 2 => ⟨S1x4x64x64x64, .f32⟩
  | 3 => ⟨S1x4x128x128x128, .f32⟩
  | 4 => ⟨S1x4x256x256x256, .f32⟩
  | 5 => ⟨S1048576x3, .f32⟩
  | 6 => ⟨S4x32x32x32, .f32⟩
  | 7 => ⟨S1048576x1, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S_, .f32⟩
  | 19 => ⟨S_, .i32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1048576x1, .f32⟩
  | 27 => ⟨S1048576, .f32⟩
  | 28 => ⟨S_, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S_, .f32⟩
  | 38 => ⟨S_, .i32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S1048576x1, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S_, .i32⟩
  | 58 => ⟨S_, .f32⟩
  | 59 => ⟨S1048576, .f32⟩
  | 60 => ⟨S1048576, .f32⟩
  | 61 => ⟨S_, .f32⟩
  | 62 => ⟨S1048576, .f32⟩
  | 63 => ⟨S1048576, .f32⟩
  | 64 => ⟨S1048576, .f32⟩
  | 65 => ⟨S1048576, .f32⟩
  | 66 => ⟨S1048576, .f32⟩
  | 67 => ⟨S1048576, .f32⟩
  | 68 => ⟨S1048576, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S1048576, .f32⟩
  | 78 => ⟨S1048576, .f32⟩
  | 79 => ⟨S_, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .f32⟩
  | 93 => ⟨S1048576, .f32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S1x1x1x1048576x3, .f32⟩

abbrev hbmTy0_1 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576x1, .i32⟩
  | 10 => ⟨S1048576x1, .i32⟩
  | 11 => ⟨S1048576x3, .i32⟩
  | 12 => ⟨S4x1048576, .f32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x1, .i32⟩
  | 36 => ⟨S1048576x1, .i32⟩
  | 37 => ⟨S1048576x3, .i32⟩
  | 38 => ⟨S4x1048576, .f32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576x1, .i32⟩
  | 62 => ⟨S1048576x1, .i32⟩
  | 63 => ⟨S1048576x3, .i32⟩
  | 64 => ⟨S4x1048576, .f32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S1048576x1, .i32⟩
  | 87 => ⟨S1048576x1, .i32⟩
  | 88 => ⟨S1048576x1, .i32⟩
  | 89 => ⟨S1048576x3, .i32⟩
  | 90 => ⟨S4x1048576, .f32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S1048576x1, .i32⟩
  | 113 => ⟨S1048576x1, .i32⟩
  | 114 => ⟨S1048576x1, .i32⟩
  | 115 => ⟨S1048576x3, .i32⟩
  | 116 => ⟨S4x1048576, .f32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S1x1x1x1048576x3, .f32⟩

abbrev hbmTy0_2 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S1048576x1, .i32⟩
  | 11 => ⟨S1048576x1, .i32⟩
  | 12 => ⟨S1048576x1, .i32⟩
  | 13 => ⟨S1048576x3, .i32⟩
  | 14 => ⟨S4x1048576, .f32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x1, .i32⟩
  | 38 => ⟨S1048576x1, .i32⟩
  | 39 => ⟨S1048576x3, .i32⟩
  | 40 => ⟨S4x1048576, .f32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576x1, .i32⟩
  | 64 => ⟨S1048576x1, .i32⟩
  | 65 => ⟨S1048576x3, .i32⟩
  | 66 => ⟨S4x1048576, .f32⟩
  | 67 => ⟨S4x1048576, .f32⟩
  | 68 => ⟨S1x1048576, .f32⟩
  | 69 => ⟨S4x1048576, .f32⟩
  | 70 => ⟨S4x1048576, .f32⟩
  | 71 => ⟨S4x1048576, .f32⟩
  | 72 => ⟨S4x1048576, .f32⟩
  | 73 => ⟨S1x1048576, .f32⟩
  | 74 => ⟨S4x1048576, .f32⟩
  | 75 => ⟨S4x1048576, .f32⟩
  | 76 => ⟨S4x1048576, .f32⟩
  | 77 => ⟨S4x1048576, .f32⟩
  | 78 => ⟨S1x1048576, .f32⟩
  | 79 => ⟨S4x1048576, .f32⟩
  | 80 => ⟨S4x1048576, .f32⟩
  | 81 => ⟨S4x1048576, .f32⟩
  | 82 => ⟨S4x1048576, .f32⟩
  | 83 => ⟨S1x1048576, .f32⟩
  | 84 => ⟨S4x1048576, .f32⟩
  | 85 => ⟨S4x1048576, .f32⟩
  | 86 => ⟨S4x1048576, .f32⟩
  | 87 => ⟨S4x1048576, .f32⟩
  | 88 => ⟨S1x1048576, .f32⟩
  | 89 => ⟨S4x1048576, .f32⟩
  | 90 => ⟨S4x1048576, .f32⟩
  | 91 => ⟨S4x1048576, .f32⟩
  | 92 => ⟨S4x1048576, .f32⟩
  | 93 => ⟨S1x1048576, .f32⟩
  | 94 => ⟨S4x1048576, .f32⟩
  | 95 => ⟨S4x1048576, .f32⟩
  | 96 => ⟨S4x1048576, .f32⟩
  | 97 => ⟨S4x1048576, .f32⟩
  | 98 => ⟨S1x1048576, .f32⟩
  | 99 => ⟨S4x1048576, .f32⟩
  | 100 => ⟨S4x1048576, .f32⟩
  | 101 => ⟨S4x1048576, .f32⟩
  | 102 => ⟨S1x4x1x1x1048576, .f32⟩
  | 103 => ⟨S4x64x64x64, .f32⟩
  | 104 => ⟨S1048576x1, .f32⟩
  | 105 => ⟨S1048576, .f32⟩
  | 106 => ⟨S_, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S_, .f32⟩
  | 116 => ⟨S_, .i32⟩
  | 117 => ⟨S_, .f32⟩
  | 118 => ⟨S1048576, .f32⟩
  | 119 => ⟨S1048576, .f32⟩
  | 120 => ⟨S_, .f32⟩
  | 121 => ⟨S1048576, .f32⟩
  | 122 => ⟨S1048576, .f32⟩
  | 123 => ⟨S1048576x1, .f32⟩
  | 124 => ⟨S1048576, .f32⟩
  | 125 => ⟨S_, .f32⟩
  | 126 => ⟨S1048576, .f32⟩
  | 127 => ⟨S1048576, .f32⟩
  | _ => ⟨S1x1x1x1048576x3, .f32⟩

abbrev hbmTy0_3 (i : Nat) : BufTy := match i % 128 with
  | 0 => ⟨S_, .f32⟩
  | 1 => ⟨S1048576, .f32⟩
  | 2 => ⟨S1048576, .f32⟩
  | 3 => ⟨S_, .f32⟩
  | 4 => ⟨S1048576, .f32⟩
  | 5 => ⟨S1048576, .f32⟩
  | 6 => ⟨S_, .f32⟩
  | 7 => ⟨S_, .i32⟩
  | 8 => ⟨S_, .f32⟩
  | 9 => ⟨S1048576, .f32⟩
  | 10 => ⟨S1048576, .f32⟩
  | 11 => ⟨S_, .f32⟩
  | 12 => ⟨S1048576, .f32⟩
  | 13 => ⟨S1048576, .f32⟩
  | 14 => ⟨S1048576x1, .f32⟩
  | 15 => ⟨S1048576, .f32⟩
  | 16 => ⟨S_, .f32⟩
  | 17 => ⟨S1048576, .f32⟩
  | 18 => ⟨S1048576, .f32⟩
  | 19 => ⟨S_, .f32⟩
  | 20 => ⟨S1048576, .f32⟩
  | 21 => ⟨S1048576, .f32⟩
  | 22 => ⟨S_, .f32⟩
  | 23 => ⟨S1048576, .f32⟩
  | 24 => ⟨S1048576, .f32⟩
  | 25 => ⟨S_, .f32⟩
  | 26 => ⟨S_, .i32⟩
  | 27 => ⟨S_, .f32⟩
  | 28 => ⟨S1048576, .f32⟩
  | 29 => ⟨S1048576, .f32⟩
  | 30 => ⟨S_, .f32⟩
  | 31 => ⟨S1048576, .f32⟩
  | 32 => ⟨S1048576, .f32⟩
  | 33 => ⟨S1048576, .f32⟩
  | 34 => ⟨S1048576, .f32⟩
  | 35 => ⟨S1048576, .f32⟩
  | 36 => ⟨S1048576, .f32⟩
  | 37 => ⟨S1048576, .f32⟩
  | 38 => ⟨S1048576, .f32⟩
  | 39 => ⟨S1048576, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S_, .f32⟩
  | 60 => ⟨S1048576, .f32⟩
  | 61 => ⟨S1048576, .f32⟩
  | 62 => ⟨S1048576, .f32⟩
  | 63 => ⟨S1048576, .i32⟩
  | 64 => ⟨S_, .i32⟩
  | 65 => ⟨S1048576, .i32⟩
  | 66 => ⟨S1048576, .i32⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x1, .i32⟩
  | 108 => ⟨S1048576x3, .i32⟩
  | 109 => ⟨S4x1048576, .f32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S1x1x1x1048576x3, .f32⟩

abbrev hbmTy0_4 (i : Nat) : BufTy := match i % 128 with
  | 0 => ⟨S1048576, .i32⟩
  | 1 => ⟨S1048576, .i32⟩
  | 2 => ⟨S1048576, .i32⟩
  | 3 => ⟨S1048576x1, .i32⟩
  | 4 => ⟨S1048576x1, .i32⟩
  | 5 => ⟨S1048576x1, .i32⟩
  | 6 => ⟨S1048576x3, .i32⟩
  | 7 => ⟨S4x1048576, .f32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576x1, .i32⟩
  | 31 => ⟨S1048576x1, .i32⟩
  | 32 => ⟨S1048576x3, .i32⟩
  | 33 => ⟨S4x1048576, .f32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1048576x1, .i32⟩
  | 57 => ⟨S1048576x1, .i32⟩
  | 58 => ⟨S1048576x3, .i32⟩
  | 59 => ⟨S4x1048576, .f32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576x1, .i32⟩
  | 83 => ⟨S1048576x1, .i32⟩
  | 84 => ⟨S1048576x3, .i32⟩
  | 85 => ⟨S4x1048576, .f32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x1, .i32⟩
  | 110 => ⟨S1048576x3, .i32⟩
  | 111 => ⟨S4x1048576, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S_, .i32⟩
  | 127 => ⟨S1048576, .i32⟩
  | _ => ⟨S1x1x1x1048576x3, .f32⟩

abbrev hbmTy0_5 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S1048576x1, .i32⟩
  | 6 => ⟨S1048576x1, .i32⟩
  | 7 => ⟨S1048576x1, .i32⟩
  | 8 => ⟨S1048576x3, .i32⟩
  | 9 => ⟨S4x1048576, .f32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x1, .i32⟩
  | 33 => ⟨S1048576x1, .i32⟩
  | 34 => ⟨S1048576x3, .i32⟩
  | 35 => ⟨S4x1048576, .f32⟩
  | 36 => ⟨S4x1048576, .f32⟩
  | 37 => ⟨S1x1048576, .f32⟩
  | 38 => ⟨S4x1048576, .f32⟩
  | 39 => ⟨S4x1048576, .f32⟩
  | 40 => ⟨S4x1048576, .f32⟩
  | 41 => ⟨S4x1048576, .f32⟩
  | 42 => ⟨S1x1048576, .f32⟩
  | 43 => ⟨S4x1048576, .f32⟩
  | 44 => ⟨S4x1048576, .f32⟩
  | 45 => ⟨S4x1048576, .f32⟩
  | 46 => ⟨S4x1048576, .f32⟩
  | 47 => ⟨S1x1048576, .f32⟩
  | 48 => ⟨S4x1048576, .f32⟩
  | 49 => ⟨S4x1048576, .f32⟩
  | 50 => ⟨S4x1048576, .f32⟩
  | 51 => ⟨S4x1048576, .f32⟩
  | 52 => ⟨S1x1048576, .f32⟩
  | 53 => ⟨S4x1048576, .f32⟩
  | 54 => ⟨S4x1048576, .f32⟩
  | 55 => ⟨S4x1048576, .f32⟩
  | 56 => ⟨S4x1048576, .f32⟩
  | 57 => ⟨S1x1048576, .f32⟩
  | 58 => ⟨S4x1048576, .f32⟩
  | 59 => ⟨S4x1048576, .f32⟩
  | 60 => ⟨S4x1048576, .f32⟩
  | 61 => ⟨S4x1048576, .f32⟩
  | 62 => ⟨S1x1048576, .f32⟩
  | 63 => ⟨S4x1048576, .f32⟩
  | 64 => ⟨S4x1048576, .f32⟩
  | 65 => ⟨S4x1048576, .f32⟩
  | 66 => ⟨S4x1048576, .f32⟩
  | 67 => ⟨S1x1048576, .f32⟩
  | 68 => ⟨S4x1048576, .f32⟩
  | 69 => ⟨S4x1048576, .f32⟩
  | 70 => ⟨S4x1048576, .f32⟩
  | 71 => ⟨S1x4x1x1x1048576, .f32⟩
  | 72 => ⟨S4x128x128x128, .f32⟩
  | 73 => ⟨S1048576x1, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S_, .i32⟩
  | 86 => ⟨S_, .f32⟩
  | 87 => ⟨S1048576, .f32⟩
  | 88 => ⟨S1048576, .f32⟩
  | 89 => ⟨S_, .f32⟩
  | 90 => ⟨S1048576, .f32⟩
  | 91 => ⟨S1048576, .f32⟩
  | 92 => ⟨S1048576x1, .f32⟩
  | 93 => ⟨S1048576, .f32⟩
  | 94 => ⟨S_, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S_, .f32⟩
  | 101 => ⟨S1048576, .f32⟩
  | 102 => ⟨S1048576, .f32⟩
  | 103 => ⟨S_, .f32⟩
  | 104 => ⟨S_, .i32⟩
  | 105 => ⟨S_, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576x1, .f32⟩
  | 112 => ⟨S1048576, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S_, .f32⟩
  | 120 => ⟨S1048576, .f32⟩
  | 121 => ⟨S1048576, .f32⟩
  | 122 => ⟨S_, .f32⟩
  | 123 => ⟨S_, .i32⟩
  | 124 => ⟨S_, .f32⟩
  | 125 => ⟨S1048576, .f32⟩
  | 126 => ⟨S1048576, .f32⟩
  | 127 => ⟨S_, .f32⟩
  | _ => ⟨S1x1x1x1048576x3, .f32⟩

abbrev hbmTy0_6 (i : Nat) : BufTy := match i % 128 with
  | 0 => ⟨S1048576, .f32⟩
  | 1 => ⟨S1048576, .f32⟩
  | 2 => ⟨S1048576, .f32⟩
  | 3 => ⟨S1048576, .f32⟩
  | 4 => ⟨S1048576, .f32⟩
  | 5 => ⟨S1048576, .f32⟩
  | 6 => ⟨S1048576, .f32⟩
  | 7 => ⟨S1048576, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S1048576, .f32⟩
  | 24 => ⟨S1048576, .f32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S1048576, .f32⟩
  | 32 => ⟨S1048576, .i32⟩
  | 33 => ⟨S_, .i32⟩
  | 34 => ⟨S1048576, .i32⟩
  | 35 => ⟨S1048576, .i32⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S1048576x1, .i32⟩
  | 75 => ⟨S1048576x1, .i32⟩
  | 76 => ⟨S1048576x1, .i32⟩
  | 77 => ⟨S1048576x3, .i32⟩
  | 78 => ⟨S4x1048576, .f32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S1048576x1, .i32⟩
  | 101 => ⟨S1048576x1, .i32⟩
  | 102 => ⟨S1048576x1, .i32⟩
  | 103 => ⟨S1048576x3, .i32⟩
  | 104 => ⟨S4x1048576, .f32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S1x1x1x1048576x3, .f32⟩

abbrev hbmTy0_7 (i : Nat) : BufTy := match i % 128 with
  | 0 => ⟨S1048576x1, .i32⟩
  | 1 => ⟨S1048576x3, .i32⟩
  | 2 => ⟨S4x1048576, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x1, .i32⟩
  | 26 => ⟨S1048576x1, .i32⟩
  | 27 => ⟨S1048576x3, .i32⟩
  | 28 => ⟨S4x1048576, .f32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S1048576x1, .i32⟩
  | 51 => ⟨S1048576x1, .i32⟩
  | 52 => ⟨S1048576x1, .i32⟩
  | 53 => ⟨S1048576x3, .i32⟩
  | 54 => ⟨S4x1048576, .f32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1048576x1, .i32⟩
  | 78 => ⟨S1048576x1, .i32⟩
  | 79 => ⟨S1048576x3, .i32⟩
  | 80 => ⟨S4x1048576, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x1, .i32⟩
  | 104 => ⟨S1048576x1, .i32⟩
  | 105 => ⟨S1048576x3, .i32⟩
  | 106 => ⟨S4x1048576, .f32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S1x1x1x1048576x3, .f32⟩

abbrev hbmTy0_8 (i : Nat) : BufTy := match i % 128 with
  | 0 => ⟨S1048576x1, .i32⟩
  | 1 => ⟨S1048576x1, .i32⟩
  | 2 => ⟨S1048576x1, .i32⟩
  | 3 => ⟨S1048576x3, .i32⟩
  | 4 => ⟨S4x1048576, .f32⟩
  | 5 => ⟨S4x1048576, .f32⟩
  | 6 => ⟨S1x1048576, .f32⟩
  | 7 => ⟨S4x1048576, .f32⟩
  | 8 => ⟨S4x1048576, .f32⟩
  | 9 => ⟨S4x1048576, .f32⟩
  | 10 => ⟨S4x1048576, .f32⟩
  | 11 => ⟨S1x1048576, .f32⟩
  | 12 => ⟨S4x1048576, .f32⟩
  | 13 => ⟨S4x1048576, .f32⟩
  | 14 => ⟨S4x1048576, .f32⟩
  | 15 => ⟨S4x1048576, .f32⟩
  | 16 => ⟨S1x1048576, .f32⟩
  | 17 => ⟨S4x1048576, .f32⟩
  | 18 => ⟨S4x1048576, .f32⟩
  | 19 => ⟨S4x1048576, .f32⟩
  | 20 => ⟨S4x1048576, .f32⟩
  | 21 => ⟨S1x1048576, .f32⟩
  | 22 => ⟨S4x1048576, .f32⟩
  | 23 => ⟨S4x1048576, .f32⟩
  | 24 => ⟨S4x1048576, .f32⟩
  | 25 => ⟨S4x1048576, .f32⟩
  | 26 => ⟨S1x1048576, .f32⟩
  | 27 => ⟨S4x1048576, .f32⟩
  | 28 => ⟨S4x1048576, .f32⟩
  | 29 => ⟨S4x1048576, .f32⟩
  | 30 => ⟨S4x1048576, .f32⟩
  | 31 => ⟨S1x1048576, .f32⟩
  | 32 => ⟨S4x1048576, .f32⟩
  | 33 => ⟨S4x1048576, .f32⟩
  | 34 => ⟨S4x1048576, .f32⟩
  | 35 => ⟨S4x1048576, .f32⟩
  | 36 => ⟨S1x1048576, .f32⟩
  | 37 => ⟨S4x1048576, .f32⟩
  | 38 => ⟨S4x1048576, .f32⟩
  | 39 => ⟨S4x1048576, .f32⟩
  | 40 => ⟨S1x4x1x1x1048576, .f32⟩
  | 41 => ⟨S4x256x256x256, .f32⟩
  | 42 => ⟨S1048576x1, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S_, .i32⟩
  | 55 => ⟨S_, .f32⟩
  | 56 => ⟨S1048576, .f32⟩
  | 57 => ⟨S1048576, .f32⟩
  | 58 => ⟨S_, .f32⟩
  | 59 => ⟨S1048576, .f32⟩
  | 60 => ⟨S1048576, .f32⟩
  | 61 => ⟨S1048576x1, .f32⟩
  | 62 => ⟨S1048576, .f32⟩
  | 63 => ⟨S_, .f32⟩
  | 64 => ⟨S1048576, .f32⟩
  | 65 => ⟨S1048576, .f32⟩
  | 66 => ⟨S_, .f32⟩
  | 67 => ⟨S1048576, .f32⟩
  | 68 => ⟨S1048576, .f32⟩
  | 69 => ⟨S_, .f32⟩
  | 70 => ⟨S1048576, .f32⟩
  | 71 => ⟨S1048576, .f32⟩
  | 72 => ⟨S_, .f32⟩
  | 73 => ⟨S_, .i32⟩
  | 74 => ⟨S_, .f32⟩
  | 75 => ⟨S1048576, .f32⟩
  | 76 => ⟨S1048576, .f32⟩
  | 77 => ⟨S_, .f32⟩
  | 78 => ⟨S1048576, .f32⟩
  | 79 => ⟨S1048576, .f32⟩
  | 80 => ⟨S1048576x1, .f32⟩
  | 81 => ⟨S1048576, .f32⟩
  | 82 => ⟨S_, .f32⟩
  | 83 => ⟨S1048576, .f32⟩
  | 84 => ⟨S1048576, .f32⟩
  | 85 => ⟨S_, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S_, .f32⟩
  | 92 => ⟨S_, .i32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S_, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S1048576, .f32⟩
  | 113 => ⟨S1048576, .f32⟩
  | 114 => ⟨S_, .f32⟩
  | 115 => ⟨S1048576, .f32⟩
  | 116 => ⟨S1048576, .f32⟩
  | 117 => ⟨S_, .f32⟩
  | 118 => ⟨S1048576, .f32⟩
  | 119 => ⟨S1048576, .f32⟩
  | 120 => ⟨S1048576, .f32⟩
  | 121 => ⟨S1048576, .f32⟩
  | 122 => ⟨S_, .f32⟩
  | 123 => ⟨S1048576, .f32⟩
  | 124 => ⟨S1048576, .f32⟩
  | 125 => ⟨S_, .f32⟩
  | 126 => ⟨S1048576, .f32⟩
  | 127 => ⟨S1048576, .f32⟩
  | _ => ⟨S1x1x1x1048576x3, .f32⟩

abbrev hbmTy0_9 (i : Nat) : BufTy := match i % 128 with
  | 0 => ⟨S1048576, .f32⟩
  | 1 => ⟨S1048576, .i32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S1048576x1, .i32⟩
  | 44 => ⟨S1048576x1, .i32⟩
  | 45 => ⟨S1048576x1, .i32⟩
  | 46 => ⟨S1048576x3, .i32⟩
  | 47 => ⟨S4x1048576, .f32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S1048576x1, .i32⟩
  | 71 => ⟨S1048576x1, .i32⟩
  | 72 => ⟨S1048576x3, .i32⟩
  | 73 => ⟨S4x1048576, .f32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S1048576x1, .i32⟩
  | 96 => ⟨S1048576x1, .i32⟩
  | 97 => ⟨S1048576x1, .i32⟩
  | 98 => ⟨S1048576x3, .i32⟩
  | 99 => ⟨S4x1048576, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S1048576x1, .i32⟩
  | 122 => ⟨S1048576x1, .i32⟩
  | 123 => ⟨S1048576x1, .i32⟩
  | 124 => ⟨S1048576x3, .i32⟩
  | 125 => ⟨S4x1048576, .f32⟩
  | 126 => ⟨S_, .i32⟩
  | 127 => ⟨S1048576, .i32⟩
  | _ => ⟨S1x1x1x1048576x3, .f32⟩

abbrev hbmTy0_10 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x1, .i32⟩
  | 21 => ⟨S1048576x1, .i32⟩
  | 22 => ⟨S1048576x3, .i32⟩
  | 23 => ⟨S4x1048576, .f32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x1, .i32⟩
  | 48 => ⟨S1048576x3, .i32⟩
  | 49 => ⟨S4x1048576, .f32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576x1, .i32⟩
  | 73 => ⟨S1048576x1, .i32⟩
  | 74 => ⟨S1048576x3, .i32⟩
  | 75 => ⟨S4x1048576, .f32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S_, .i32⟩
  | 84 => ⟨S1048576, .i32⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S1048576x1, .i32⟩
  | 98 => ⟨S1048576x1, .i32⟩
  | 99 => ⟨S1048576x1, .i32⟩
  | 100 => ⟨S1048576x3, .i32⟩
  | 101 => ⟨S4x1048576, .f32⟩
  | 102 => ⟨S4x1048576, .f32⟩
  | 103 => ⟨S1x1048576, .f32⟩
  | 104 => ⟨S4x1048576, .f32⟩
  | 105 => ⟨S4x1048576, .f32⟩
  | 106 => ⟨S4x1048576, .f32⟩
  | 107 => ⟨S4x1048576, .f32⟩
  | 108 => ⟨S1x1048576, .f32⟩
  | 109 => ⟨S4x1048576, .f32⟩
  | 110 => ⟨S4x1048576, .f32⟩
  | 111 => ⟨S4x1048576, .f32⟩
  | 112 => ⟨S4x1048576, .f32⟩
  | 113 => ⟨S1x1048576, .f32⟩
  | 114 => ⟨S4x1048576, .f32⟩
  | 115 => ⟨S4x1048576, .f32⟩
  | 116 => ⟨S4x1048576, .f32⟩
  | 117 => ⟨S4x1048576, .f32⟩
  | 118 => ⟨S1x1048576, .f32⟩
  | 119 => ⟨S4x1048576, .f32⟩
  | 120 => ⟨S4x1048576, .f32⟩
  | 121 => ⟨S4x1048576, .f32⟩
  | 122 => ⟨S4x1048576, .f32⟩
  | 123 => ⟨S1x1048576, .f32⟩
  | 124 => ⟨S4x1048576, .f32⟩
  | 125 => ⟨S4x1048576, .f32⟩
  | 126 => ⟨S4x1048576, .f32⟩
  | 127 => ⟨S4x1048576, .f32⟩
  | _ => ⟨S1x1x1x1048576x3, .f32⟩

abbrev hbmTy0_11 (i : Nat) : BufTy := match i % 128 with
  | 0 => ⟨S1x1048576, .f32⟩
  | 1 => ⟨S4x1048576, .f32⟩
  | 2 => ⟨S4x1048576, .f32⟩
  | 3 => ⟨S4x1048576, .f32⟩
  | 4 => ⟨S4x1048576, .f32⟩
  | 5 => ⟨S1x1048576, .f32⟩
  | 6 => ⟨S4x1048576, .f32⟩
  | 7 => ⟨S4x1048576, .f32⟩
  | 8 => ⟨S4x1048576, .f32⟩
  | 9 => ⟨S1x4x1x1x1048576, .f32⟩
  | 10 => ⟨S1x16x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S1x1x1x1048576x3, .f32⟩

abbrev bufTy : (tb : Table) → Fin (tcTables nBuf tb) → BufTy
  | .hbm, ⟨i, _⟩ => hbmTy i
  | _, _ => ⟨S1x1x1x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_cst_9 : Ref sig .tc := ⟨.hbm, 50, rfl⟩
abbrev main_v24 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_c_12 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_13 : Ref sig .tc := ⟨.hbm, 71, rfl⟩
abbrev main_v36 : Ref sig .tc := ⟨.hbm, 72, rfl⟩
abbrev main_v37 : Ref sig .tc := ⟨.hbm, 73, rfl⟩
abbrev main_cst_14 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_15 : Ref sig .tc := ⟨.hbm, 79, rfl⟩
abbrev main_v42 : Ref sig .tc := ⟨.hbm, 80, rfl⟩
abbrev main_v43 : Ref sig .tc := ⟨.hbm, 81, rfl⟩
abbrev main_cst_16 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_v49 : Ref sig .tc := ⟨.hbm, 89, rfl⟩
abbrev main_cst_18 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_19 : Ref sig .tc := ⟨.hbm, 95, rfl⟩
abbrev main_v54 : Ref sig .tc := ⟨.hbm, 96, rfl⟩
abbrev main_v55 : Ref sig .tc := ⟨.hbm, 97, rfl⟩
abbrev main_c_20 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_21 : Ref sig .tc := ⟨.hbm, 102, rfl⟩
abbrev main_v59 : Ref sig .tc := ⟨.hbm, 103, rfl⟩
abbrev main_v60 : Ref sig .tc := ⟨.hbm, 104, rfl⟩
abbrev main_c_22 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_23 : Ref sig .tc := ⟨.hbm, 109, rfl⟩
abbrev main_v64 : Ref sig .tc := ⟨.hbm, 110, rfl⟩
abbrev main_v65 : Ref sig .tc := ⟨.hbm, 111, rfl⟩
abbrev main_c_24 : Ref sig .tc := ⟨.hbm, 112, rfl⟩
abbrev main_v66 : Ref sig .tc := ⟨.hbm, 113, rfl⟩
abbrev main_v67 : Ref sig .tc := ⟨.hbm, 114, rfl⟩
abbrev main_c_25 : Ref sig .tc := ⟨.hbm, 115, rfl⟩
abbrev main_v68 : Ref sig .tc := ⟨.hbm, 116, rfl⟩
abbrev main_v69 : Ref sig .tc := ⟨.hbm, 117, rfl⟩
abbrev main_c_26 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_27 : Ref sig .tc := ⟨.hbm, 122, rfl⟩
abbrev main_v73 : Ref sig .tc := ⟨.hbm, 123, rfl⟩
abbrev main_v74 : Ref sig .tc := ⟨.hbm, 124, rfl⟩
abbrev main_c_28 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_29 : Ref sig .tc := ⟨.hbm, 129, rfl⟩
abbrev main_v78 : Ref sig .tc := ⟨.hbm, 130, rfl⟩
abbrev main_v79 : Ref sig .tc := ⟨.hbm, 131, rfl⟩
abbrev main_c_30 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_31 : Ref sig .tc := ⟨.hbm, 141, rfl⟩
abbrev main_v88 : Ref sig .tc := ⟨.hbm, 142, rfl⟩
abbrev main_v89 : Ref sig .tc := ⟨.hbm, 143, rfl⟩
abbrev main_c_32 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_33 : Ref sig .tc := ⟨.hbm, 148, rfl⟩
abbrev main_v93 : Ref sig .tc := ⟨.hbm, 149, rfl⟩
abbrev main_v94 : Ref sig .tc := ⟨.hbm, 150, rfl⟩
abbrev main_c_34 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_35 : Ref sig .tc := ⟨.hbm, 155, rfl⟩
abbrev main_v98 : Ref sig .tc := ⟨.hbm, 156, rfl⟩
abbrev main_v99 : Ref sig .tc := ⟨.hbm, 157, rfl⟩
abbrev main_c_36 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_37 : Ref sig .tc := ⟨.hbm, 167, rfl⟩
abbrev main_v108 : Ref sig .tc := ⟨.hbm, 168, rfl⟩
abbrev main_v109 : Ref sig .tc := ⟨.hbm, 169, rfl⟩
abbrev main_c_38 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_39 : Ref sig .tc := ⟨.hbm, 174, rfl⟩
abbrev main_v113 : Ref sig .tc := ⟨.hbm, 175, rfl⟩
abbrev main_v114 : Ref sig .tc := ⟨.hbm, 176, rfl⟩
abbrev main_c_40 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_41 : Ref sig .tc := ⟨.hbm, 181, rfl⟩
abbrev main_v118 : Ref sig .tc := ⟨.hbm, 182, rfl⟩
abbrev main_v119 : Ref sig .tc := ⟨.hbm, 183, rfl⟩
abbrev main_c_42 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_43 : Ref sig .tc := ⟨.hbm, 193, rfl⟩
abbrev main_v128 : Ref sig .tc := ⟨.hbm, 194, rfl⟩
abbrev main_v129 : Ref sig .tc := ⟨.hbm, 195, rfl⟩
abbrev main_c_44 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_45 : Ref sig .tc := ⟨.hbm, 200, rfl⟩
abbrev main_v133 : Ref sig .tc := ⟨.hbm, 201, rfl⟩
abbrev main_v134 : Ref sig .tc := ⟨.hbm, 202, rfl⟩
abbrev main_c_46 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_47 : Ref sig .tc := ⟨.hbm, 207, rfl⟩
abbrev main_v138 : Ref sig .tc := ⟨.hbm, 208, rfl⟩
abbrev main_v139 : Ref sig .tc := ⟨.hbm, 209, rfl⟩
abbrev main_c_48 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_c_49 : Ref sig .tc := ⟨.hbm, 219, rfl⟩
abbrev main_v148 : Ref sig .tc := ⟨.hbm, 220, rfl⟩
abbrev main_v149 : Ref sig .tc := ⟨.hbm, 221, rfl⟩
abbrev main_c_50 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_c_51 : Ref sig .tc := ⟨.hbm, 226, rfl⟩
abbrev main_v153 : Ref sig .tc := ⟨.hbm, 227, rfl⟩
abbrev main_v154 : Ref sig .tc := ⟨.hbm, 228, rfl⟩
abbrev main_c_52 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_c_53 : Ref sig .tc := ⟨.hbm, 233, rfl⟩
abbrev main_v158 : Ref sig .tc := ⟨.hbm, 234, rfl⟩
abbrev main_v159 : Ref sig .tc := ⟨.hbm, 235, rfl⟩
abbrev main_c_54 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_c_55 : Ref sig .tc := ⟨.hbm, 245, rfl⟩
abbrev main_v168 : Ref sig .tc := ⟨.hbm, 246, rfl⟩
abbrev main_v169 : Ref sig .tc := ⟨.hbm, 247, rfl⟩
abbrev main_c_56 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_c_57 : Ref sig .tc := ⟨.hbm, 252, rfl⟩
abbrev main_v173 : Ref sig .tc := ⟨.hbm, 253, rfl⟩
abbrev main_v174 : Ref sig .tc := ⟨.hbm, 254, rfl⟩
abbrev main_c_58 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_c_59 : Ref sig .tc := ⟨.hbm, 259, rfl⟩
abbrev main_v178 : Ref sig .tc := ⟨.hbm, 260, rfl⟩
abbrev main_v179 : Ref sig .tc := ⟨.hbm, 261, rfl⟩
abbrev main_c_60 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_c_61 : Ref sig .tc := ⟨.hbm, 271, rfl⟩
abbrev main_v188 : Ref sig .tc := ⟨.hbm, 272, rfl⟩
abbrev main_v189 : Ref sig .tc := ⟨.hbm, 273, rfl⟩
abbrev main_c_62 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_c_63 : Ref sig .tc := ⟨.hbm, 278, rfl⟩
abbrev main_v193 : Ref sig .tc := ⟨.hbm, 279, rfl⟩
abbrev main_v194 : Ref sig .tc := ⟨.hbm, 280, rfl⟩
abbrev main_c_64 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_c_65 : Ref sig .tc := ⟨.hbm, 285, rfl⟩
abbrev main_v198 : Ref sig .tc := ⟨.hbm, 286, rfl⟩
abbrev main_v199 : Ref sig .tc := ⟨.hbm, 287, rfl⟩
abbrev main_c_66 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_c_67 : Ref sig .tc := ⟨.hbm, 297, rfl⟩
abbrev main_v208 : Ref sig .tc := ⟨.hbm, 298, rfl⟩
abbrev main_v209 : Ref sig .tc := ⟨.hbm, 299, rfl⟩
abbrev main_c_68 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_c_69 : Ref sig .tc := ⟨.hbm, 304, rfl⟩
abbrev main_v213 : Ref sig .tc := ⟨.hbm, 305, rfl⟩
abbrev main_v214 : Ref sig .tc := ⟨.hbm, 306, rfl⟩
abbrev main_c_70 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_c_71 : Ref sig .tc := ⟨.hbm, 311, rfl⟩
abbrev main_v218 : Ref sig .tc := ⟨.hbm, 312, rfl⟩
abbrev main_v219 : Ref sig .tc := ⟨.hbm, 313, rfl⟩
abbrev main_c_72 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_cst_73 : Ref sig .tc := ⟨.hbm, 362, rfl⟩
abbrev main_v267 : Ref sig .tc := ⟨.hbm, 363, rfl⟩
abbrev main_v268 : Ref sig .tc := ⟨.hbm, 364, rfl⟩
abbrev main_cst_74 : Ref sig .tc := ⟨.hbm, 365, rfl⟩
abbrev main_v269 : Ref sig .tc := ⟨.hbm, 366, rfl⟩
abbrev main_v270 : Ref sig .tc := ⟨.hbm, 367, rfl⟩
abbrev main_cst_75 : Ref sig .tc := ⟨.hbm, 368, rfl⟩
abbrev main_v271 : Ref sig .tc := ⟨.hbm, 369, rfl⟩
abbrev main_v272 : Ref sig .tc := ⟨.hbm, 370, rfl⟩
abbrev main_cst_76 : Ref sig .tc := ⟨.hbm, 371, rfl⟩
abbrev main_c_77 : Ref sig .tc := ⟨.hbm, 372, rfl⟩
abbrev main_call3_v0 : Ref sig .tc := ⟨.hbm, 373, rfl⟩
abbrev main_call3_v1 : Ref sig .tc := ⟨.hbm, 374, rfl⟩
abbrev main_call3_v2 : Ref sig .tc := ⟨.hbm, 375, rfl⟩
abbrev main_call3_v3 : Ref sig .tc := ⟨.hbm, 376, rfl⟩
abbrev main_call3_v4 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_cst_78 : Ref sig .tc := ⟨.hbm, 381, rfl⟩
abbrev main_v276 : Ref sig .tc := ⟨.hbm, 382, rfl⟩
abbrev main_v277 : Ref sig .tc := ⟨.hbm, 383, rfl⟩
abbrev main_cst_79 : Ref sig .tc := ⟨.hbm, 384, rfl⟩
abbrev main_v278 : Ref sig .tc := ⟨.hbm, 385, rfl⟩
abbrev main_v279 : Ref sig .tc := ⟨.hbm, 386, rfl⟩
abbrev main_cst_80 : Ref sig .tc := ⟨.hbm, 387, rfl⟩
abbrev main_v280 : Ref sig .tc := ⟨.hbm, 388, rfl⟩
abbrev main_v281 : Ref sig .tc := ⟨.hbm, 389, rfl⟩
abbrev main_cst_81 : Ref sig .tc := ⟨.hbm, 390, rfl⟩
abbrev main_c_82 : Ref sig .tc := ⟨.hbm, 391, rfl⟩
abbrev main_call4_v0 : Ref sig .tc := ⟨.hbm, 392, rfl⟩
abbrev main_call4_v1 : Ref sig .tc := ⟨.hbm, 393, rfl⟩
abbrev main_call4_v2 : Ref sig .tc := ⟨.hbm, 394, rfl⟩
abbrev main_call4_v3 : Ref sig .tc := ⟨.hbm, 395, rfl⟩
abbrev main_call4_v4 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_cst_83 : Ref sig .tc := ⟨.hbm, 400, rfl⟩
abbrev main_v285 : Ref sig .tc := ⟨.hbm, 401, rfl⟩
abbrev main_v286 : Ref sig .tc := ⟨.hbm, 402, rfl⟩
abbrev main_cst_84 : Ref sig .tc := ⟨.hbm, 403, rfl⟩
abbrev main_v287 : Ref sig .tc := ⟨.hbm, 404, rfl⟩
abbrev main_v288 : Ref sig .tc := ⟨.hbm, 405, rfl⟩
abbrev main_cst_85 : Ref sig .tc := ⟨.hbm, 406, rfl⟩
abbrev main_v289 : Ref sig .tc := ⟨.hbm, 407, rfl⟩
abbrev main_v290 : Ref sig .tc := ⟨.hbm, 408, rfl⟩
abbrev main_cst_86 : Ref sig .tc := ⟨.hbm, 409, rfl⟩
abbrev main_c_87 : Ref sig .tc := ⟨.hbm, 410, rfl⟩
abbrev main_call5_v0 : Ref sig .tc := ⟨.hbm, 411, rfl⟩
abbrev main_call5_v1 : Ref sig .tc := ⟨.hbm, 412, rfl⟩
abbrev main_call5_v2 : Ref sig .tc := ⟨.hbm, 413, rfl⟩
abbrev main_call5_v3 : Ref sig .tc := ⟨.hbm, 414, rfl⟩
abbrev main_call5_v4 : Ref sig .tc := ⟨.hbm, 415, rfl⟩
abbrev main_v291 : Ref sig .tc := ⟨.hbm, 416, rfl⟩
abbrev main_v292 : Ref sig .tc := ⟨.hbm, 417, rfl⟩
abbrev main_v293 : Ref sig .tc := ⟨.hbm, 418, rfl⟩
abbrev main_v294 : Ref sig .tc := ⟨.hbm, 419, rfl⟩
abbrev main_v295 : Ref sig .tc := ⟨.hbm, 420, rfl⟩
abbrev main_v296 : Ref sig .tc := ⟨.hbm, 421, rfl⟩
abbrev main_v297 : Ref sig .tc := ⟨.hbm, 422, rfl⟩
abbrev main_v298 : Ref sig .tc := ⟨.hbm, 423, rfl⟩
abbrev main_cst_88 : Ref sig .tc := ⟨.hbm, 424, rfl⟩
abbrev main_v299 : Ref sig .tc := ⟨.hbm, 425, rfl⟩
abbrev main_v300 : Ref sig .tc := ⟨.hbm, 426, rfl⟩
abbrev main_cst_89 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_v304 : Ref sig .tc := ⟨.hbm, 431, rfl⟩
abbrev main_cst_90 : Ref sig .tc := ⟨.hbm, 432, rfl⟩
abbrev main_v305 : Ref sig .tc := ⟨.hbm, 433, rfl⟩
abbrev main_v306 : Ref sig .tc := ⟨.hbm, 434, rfl⟩
abbrev main_cst_91 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_cst_92 : Ref sig .tc := ⟨.hbm, 440, rfl⟩
abbrev main_v311 : Ref sig .tc := ⟨.hbm, 441, rfl⟩
abbrev main_v312 : Ref sig .tc := ⟨.hbm, 442, rfl⟩
abbrev main_cst_93 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_c_94 : Ref sig .tc := ⟨.hbm, 448, rfl⟩
abbrev main_v317 : Ref sig .tc := ⟨.hbm, 449, rfl⟩
abbrev main_v318 : Ref sig .tc := ⟨.hbm, 450, rfl⟩
abbrev main_c_95 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_c_96 : Ref sig .tc := ⟨.hbm, 455, rfl⟩
abbrev main_v322 : Ref sig .tc := ⟨.hbm, 456, rfl⟩
abbrev main_v323 : Ref sig .tc := ⟨.hbm, 457, rfl⟩
abbrev main_c_97 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_c_98 : Ref sig .tc := ⟨.hbm, 462, rfl⟩
abbrev main_v327 : Ref sig .tc := ⟨.hbm, 463, rfl⟩
abbrev main_v328 : Ref sig .tc := ⟨.hbm, 464, rfl⟩
abbrev main_c_99 : Ref sig .tc := ⟨.hbm, 465, rfl⟩
abbrev main_v329 : Ref sig .tc := ⟨.hbm, 466, rfl⟩
abbrev main_v330 : Ref sig .tc := ⟨.hbm, 467, rfl⟩
abbrev main_c_100 : Ref sig .tc := ⟨.hbm, 468, rfl⟩
abbrev main_v331 : Ref sig .tc := ⟨.hbm, 469, rfl⟩
abbrev main_v332 : Ref sig .tc := ⟨.hbm, 470, rfl⟩
abbrev main_c_101 : Ref sig .tc := ⟨.hbm, 471, rfl⟩
abbrev main_v333 : Ref sig .tc := ⟨.hbm, 472, rfl⟩
abbrev main_v334 : Ref sig .tc := ⟨.hbm, 473, rfl⟩
abbrev main_v335 : Ref sig .tc := ⟨.hbm, 474, rfl⟩
abbrev main_c_102 : Ref sig .tc := ⟨.hbm, 475, rfl⟩
abbrev main_v336 : Ref sig .tc := ⟨.hbm, 476, rfl⟩
abbrev main_v337 : Ref sig .tc := ⟨.hbm, 477, rfl⟩
abbrev main_c_103 : Ref sig .tc := ⟨.hbm, 478, rfl⟩
abbrev main_v338 : Ref sig .tc := ⟨.hbm, 479, rfl⟩
abbrev main_v339 : Ref sig .tc := ⟨.hbm, 480, rfl⟩
abbrev main_v340 : Ref sig .tc := ⟨.hbm, 481, rfl⟩
abbrev main_c_104 : Ref sig .tc := ⟨.hbm, 482, rfl⟩
abbrev main_v341 : Ref sig .tc := ⟨.hbm, 483, rfl⟩
abbrev main_v342 : Ref sig .tc := ⟨.hbm, 484, rfl⟩
abbrev main_c_105 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_c_106 : Ref sig .tc := ⟨.hbm, 494, rfl⟩
abbrev main_v351 : Ref sig .tc := ⟨.hbm, 495, rfl⟩
abbrev main_v352 : Ref sig .tc := ⟨.hbm, 496, rfl⟩
abbrev main_c_107 : Ref sig .tc := ⟨.hbm, 497, rfl⟩
abbrev main_v353 : Ref sig .tc := ⟨.hbm, 498, rfl⟩
abbrev main_v354 : Ref sig .tc := ⟨.hbm, 499, rfl⟩
abbrev main_v355 : Ref sig .tc := ⟨.hbm, 500, rfl⟩
abbrev main_c_108 : Ref sig .tc := ⟨.hbm, 501, rfl⟩
abbrev main_v356 : Ref sig .tc := ⟨.hbm, 502, rfl⟩
abbrev main_v357 : Ref sig .tc := ⟨.hbm, 503, rfl⟩
abbrev main_c_109 : Ref sig .tc := ⟨.hbm, 504, rfl⟩
abbrev main_v358 : Ref sig .tc := ⟨.hbm, 505, rfl⟩
abbrev main_v359 : Ref sig .tc := ⟨.hbm, 506, rfl⟩
abbrev main_v360 : Ref sig .tc := ⟨.hbm, 507, rfl⟩
abbrev main_c_110 : Ref sig .tc := ⟨.hbm, 508, rfl⟩
abbrev main_v361 : Ref sig .tc := ⟨.hbm, 509, rfl⟩
abbrev main_v362 : Ref sig .tc := ⟨.hbm, 510, rfl⟩
abbrev main_c_111 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_v367 : Ref sig .tc := ⟨.hbm, 516, rfl⟩
abbrev main_v368 : Ref sig .tc := ⟨.hbm, 517, rfl⟩
abbrev main_v369 : Ref sig .tc := ⟨.hbm, 518, rfl⟩
abbrev main_v370 : Ref sig .tc := ⟨.hbm, 519, rfl⟩
abbrev main_c_112 : Ref sig .tc := ⟨.hbm, 520, rfl⟩
abbrev main_v371 : Ref sig .tc := ⟨.hbm, 521, rfl⟩
abbrev main_v372 : Ref sig .tc := ⟨.hbm, 522, rfl⟩
abbrev main_c_113 : Ref sig .tc := ⟨.hbm, 523, rfl⟩
abbrev main_v373 : Ref sig .tc := ⟨.hbm, 524, rfl⟩
abbrev main_v374 : Ref sig .tc := ⟨.hbm, 525, rfl⟩
abbrev main_v375 : Ref sig .tc := ⟨.hbm, 526, rfl⟩
abbrev main_c_114 : Ref sig .tc := ⟨.hbm, 527, rfl⟩
abbrev main_v376 : Ref sig .tc := ⟨.hbm, 528, rfl⟩
abbrev main_v377 : Ref sig .tc := ⟨.hbm, 529, rfl⟩
abbrev main_c_115 : Ref sig .tc := ⟨.hbm, 530, rfl⟩
abbrev main_v378 : Ref sig .tc := ⟨.hbm, 531, rfl⟩
abbrev main_v379 : Ref sig .tc := ⟨.hbm, 532, rfl⟩
abbrev main_v380 : Ref sig .tc := ⟨.hbm, 533, rfl⟩
abbrev main_c_116 : Ref sig .tc := ⟨.hbm, 534, rfl⟩
abbrev main_v381 : Ref sig .tc := ⟨.hbm, 535, rfl⟩
abbrev main_v382 : Ref sig .tc := ⟨.hbm, 536, rfl⟩
abbrev main_c_117 : Ref sig .tc := ⟨.hbm, 537, rfl⟩
abbrev main_v383 : Ref sig .tc := ⟨.hbm, 538, rfl⟩
abbrev main_v384 : Ref sig .tc := ⟨.hbm, 539, rfl⟩
abbrev main_v385 : Ref sig .tc := ⟨.hbm, 540, rfl⟩
abbrev main_v386 : Ref sig .tc := ⟨.hbm, 541, rfl⟩
abbrev main_v387 : Ref sig .tc := ⟨.hbm, 542, rfl⟩
abbrev main_v388 : Ref sig .tc := ⟨.hbm, 543, rfl⟩
abbrev main_v389 : Ref sig .tc := ⟨.hbm, 544, rfl⟩
abbrev main_v390 : Ref sig .tc := ⟨.hbm, 545, rfl⟩
abbrev main_c_118 : Ref sig .tc := ⟨.hbm, 546, rfl⟩
abbrev main_v391 : Ref sig .tc := ⟨.hbm, 547, rfl⟩
abbrev main_v392 : Ref sig .tc := ⟨.hbm, 548, rfl⟩
abbrev main_c_119 : Ref sig .tc := ⟨.hbm, 549, rfl⟩
abbrev main_v393 : Ref sig .tc := ⟨.hbm, 550, rfl⟩
abbrev main_v394 : Ref sig .tc := ⟨.hbm, 551, rfl⟩
abbrev main_v395 : Ref sig .tc := ⟨.hbm, 552, rfl⟩
abbrev main_c_120 : Ref sig .tc := ⟨.hbm, 553, rfl⟩
abbrev main_v396 : Ref sig .tc := ⟨.hbm, 554, rfl⟩
abbrev main_v397 : Ref sig .tc := ⟨.hbm, 555, rfl⟩
abbrev main_c_121 : Ref sig .tc := ⟨.hbm, 556, rfl⟩
abbrev main_v398 : Ref sig .tc := ⟨.hbm, 557, rfl⟩
abbrev main_v399 : Ref sig .tc := ⟨.hbm, 558, rfl⟩
abbrev main_v400 : Ref sig .tc := ⟨.hbm, 559, rfl⟩
abbrev main_c_122 : Ref sig .tc := ⟨.hbm, 560, rfl⟩
abbrev main_v401 : Ref sig .tc := ⟨.hbm, 561, rfl⟩
abbrev main_v402 : Ref sig .tc := ⟨.hbm, 562, rfl⟩
abbrev main_c_123 : Ref sig .tc := ⟨.hbm, 563, rfl⟩
abbrev main_v403 : Ref sig .tc := ⟨.hbm, 564, rfl⟩
abbrev main_v404 : Ref sig .tc := ⟨.hbm, 565, rfl⟩
abbrev main_v405 : Ref sig .tc := ⟨.hbm, 566, rfl⟩
abbrev main_v406 : Ref sig .tc := ⟨.hbm, 567, rfl⟩
abbrev main_v407 : Ref sig .tc := ⟨.hbm, 568, rfl⟩
abbrev main_v408 : Ref sig .tc := ⟨.hbm, 569, rfl⟩
abbrev main_v409 : Ref sig .tc := ⟨.hbm, 570, rfl⟩
abbrev main_v410 : Ref sig .tc := ⟨.hbm, 571, rfl⟩
abbrev main_c_124 : Ref sig .tc := ⟨.hbm, 572, rfl⟩
abbrev main_v411 : Ref sig .tc := ⟨.hbm, 573, rfl⟩
abbrev main_v412 : Ref sig .tc := ⟨.hbm, 574, rfl⟩
abbrev main_c_125 : Ref sig .tc := ⟨.hbm, 575, rfl⟩
abbrev main_v413 : Ref sig .tc := ⟨.hbm, 576, rfl⟩
abbrev main_v414 : Ref sig .tc := ⟨.hbm, 577, rfl⟩
abbrev main_v415 : Ref sig .tc := ⟨.hbm, 578, rfl⟩
abbrev main_c_126 : Ref sig .tc := ⟨.hbm, 579, rfl⟩
abbrev main_v416 : Ref sig .tc := ⟨.hbm, 580, rfl⟩
abbrev main_v417 : Ref sig .tc := ⟨.hbm, 581, rfl⟩
abbrev main_c_127 : Ref sig .tc := ⟨.hbm, 582, rfl⟩
abbrev main_v418 : Ref sig .tc := ⟨.hbm, 583, rfl⟩
abbrev main_v419 : Ref sig .tc := ⟨.hbm, 584, rfl⟩
abbrev main_v420 : Ref sig .tc := ⟨.hbm, 585, rfl⟩
abbrev main_c_128 : Ref sig .tc := ⟨.hbm, 586, rfl⟩
abbrev main_v421 : Ref sig .tc := ⟨.hbm, 587, rfl⟩
abbrev main_v422 : Ref sig .tc := ⟨.hbm, 588, rfl⟩
abbrev main_c_129 : Ref sig .tc := ⟨.hbm, 589, rfl⟩
abbrev main_v423 : Ref sig .tc := ⟨.hbm, 590, rfl⟩
abbrev main_v424 : Ref sig .tc := ⟨.hbm, 591, rfl⟩
abbrev main_v425 : Ref sig .tc := ⟨.hbm, 592, rfl⟩
abbrev main_v426 : Ref sig .tc := ⟨.hbm, 593, rfl⟩
abbrev main_v427 : Ref sig .tc := ⟨.hbm, 594, rfl⟩
abbrev main_v428 : Ref sig .tc := ⟨.hbm, 595, rfl⟩
abbrev main_v429 : Ref sig .tc := ⟨.hbm, 596, rfl⟩
abbrev main_v430 : Ref sig .tc := ⟨.hbm, 597, rfl⟩
abbrev main_c_130 : Ref sig .tc := ⟨.hbm, 598, rfl⟩
abbrev main_v431 : Ref sig .tc := ⟨.hbm, 599, rfl⟩
abbrev main_v432 : Ref sig .tc := ⟨.hbm, 600, rfl⟩
abbrev main_c_131 : Ref sig .tc := ⟨.hbm, 601, rfl⟩
abbrev main_v433 : Ref sig .tc := ⟨.hbm, 602, rfl⟩
abbrev main_v434 : Ref sig .tc := ⟨.hbm, 603, rfl⟩
abbrev main_v435 : Ref sig .tc := ⟨.hbm, 604, rfl⟩
abbrev main_c_132 : Ref sig .tc := ⟨.hbm, 605, rfl⟩
abbrev main_v436 : Ref sig .tc := ⟨.hbm, 606, rfl⟩
abbrev main_v437 : Ref sig .tc := ⟨.hbm, 607, rfl⟩
abbrev main_c_133 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_c_134 : Ref sig .tc := ⟨.hbm, 612, rfl⟩
abbrev main_v441 : Ref sig .tc := ⟨.hbm, 613, rfl⟩
abbrev main_v442 : Ref sig .tc := ⟨.hbm, 614, rfl⟩
abbrev main_c_135 : Ref sig .tc := ⟨.hbm, 615, rfl⟩
abbrev main_v443 : Ref sig .tc := ⟨.hbm, 616, rfl⟩
abbrev main_v444 : Ref sig .tc := ⟨.hbm, 617, rfl⟩
abbrev main_v445 : Ref sig .tc := ⟨.hbm, 618, rfl⟩
abbrev main_v446 : Ref sig .tc := ⟨.hbm, 619, rfl⟩
abbrev main_v447 : Ref sig .tc := ⟨.hbm, 620, rfl⟩
abbrev main_v448 : Ref sig .tc := ⟨.hbm, 621, rfl⟩
abbrev main_v449 : Ref sig .tc := ⟨.hbm, 622, rfl⟩
abbrev main_v450 : Ref sig .tc := ⟨.hbm, 623, rfl⟩
abbrev main_c_136 : Ref sig .tc := ⟨.hbm, 624, rfl⟩
abbrev main_v451 : Ref sig .tc := ⟨.hbm, 625, rfl⟩
abbrev main_v452 : Ref sig .tc := ⟨.hbm, 626, rfl⟩
abbrev main_c_137 : Ref sig .tc := ⟨.hbm, 627, rfl⟩
abbrev main_v453 : Ref sig .tc := ⟨.hbm, 628, rfl⟩
abbrev main_v454 : Ref sig .tc := ⟨.hbm, 629, rfl⟩
abbrev main_v455 : Ref sig .tc := ⟨.hbm, 630, rfl⟩
abbrev main_c_138 : Ref sig .tc := ⟨.hbm, 631, rfl⟩
abbrev main_v456 : Ref sig .tc := ⟨.hbm, 632, rfl⟩
abbrev main_v457 : Ref sig .tc := ⟨.hbm, 633, rfl⟩
abbrev main_c_139 : Ref sig .tc := ⟨.hbm, 634, rfl⟩
abbrev main_v458 : Ref sig .tc := ⟨.hbm, 635, rfl⟩
abbrev main_v459 : Ref sig .tc := ⟨.hbm, 636, rfl⟩
abbrev main_v460 : Ref sig .tc := ⟨.hbm, 637, rfl⟩
abbrev main_c_140 : Ref sig .tc := ⟨.hbm, 638, rfl⟩
abbrev main_v461 : Ref sig .tc := ⟨.hbm, 639, rfl⟩
abbrev main_v462 : Ref sig .tc := ⟨.hbm, 640, rfl⟩
abbrev main_c_141 : Ref sig .tc := ⟨.hbm, 641, rfl⟩
abbrev main_v463 : Ref sig .tc := ⟨.hbm, 642, rfl⟩
abbrev main_v464 : Ref sig .tc := ⟨.hbm, 643, rfl⟩
abbrev main_v465 : Ref sig .tc := ⟨.hbm, 644, rfl⟩
abbrev main_v466 : Ref sig .tc := ⟨.hbm, 645, rfl⟩
abbrev main_v467 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_c_142 : Ref sig .tc := ⟨.hbm, 650, rfl⟩
abbrev main_v471 : Ref sig .tc := ⟨.hbm, 651, rfl⟩
abbrev main_v472 : Ref sig .tc := ⟨.hbm, 652, rfl⟩
abbrev main_c_143 : Ref sig .tc := ⟨.hbm, 653, rfl⟩
abbrev main_v473 : Ref sig .tc := ⟨.hbm, 654, rfl⟩
abbrev main_v474 : Ref sig .tc := ⟨.hbm, 655, rfl⟩
abbrev main_v475 : Ref sig .tc := ⟨.hbm, 656, rfl⟩
abbrev main_c_144 : Ref sig .tc := ⟨.hbm, 657, rfl⟩
abbrev main_v476 : Ref sig .tc := ⟨.hbm, 658, rfl⟩
abbrev main_v477 : Ref sig .tc := ⟨.hbm, 659, rfl⟩
abbrev main_c_145 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_c_146 : Ref sig .tc := ⟨.hbm, 664, rfl⟩
abbrev main_v481 : Ref sig .tc := ⟨.hbm, 665, rfl⟩
abbrev main_v482 : Ref sig .tc := ⟨.hbm, 666, rfl⟩
abbrev main_c_147 : Ref sig .tc := ⟨.hbm, 667, rfl⟩
abbrev main_v483 : Ref sig .tc := ⟨.hbm, 668, rfl⟩
abbrev main_v484 : Ref sig .tc := ⟨.hbm, 669, rfl⟩
abbrev main_v485 : Ref sig .tc := ⟨.hbm, 670, rfl⟩
abbrev main_v486 : Ref sig .tc := ⟨.hbm, 671, rfl⟩
abbrev main_v487 : Ref sig .tc := ⟨.hbm, 672, rfl⟩
abbrev main_v488 : Ref sig .tc := ⟨.hbm, 673, rfl⟩
abbrev main_v489 : Ref sig .tc := ⟨.hbm, 674, rfl⟩
abbrev main_v490 : Ref sig .tc := ⟨.hbm, 675, rfl⟩
abbrev main_v491 : Ref sig .tc := ⟨.hbm, 676, rfl⟩
abbrev main_v492 : Ref sig .tc := ⟨.hbm, 677, rfl⟩
abbrev main_v493 : Ref sig .tc := ⟨.hbm, 678, rfl⟩
abbrev main_v494 : Ref sig .tc := ⟨.hbm, 679, rfl⟩
abbrev main_v495 : Ref sig .tc := ⟨.hbm, 680, rfl⟩
abbrev main_v496 : Ref sig .tc := ⟨.hbm, 681, rfl⟩
abbrev main_v497 : Ref sig .tc := ⟨.hbm, 682, rfl⟩
abbrev main_v498 : Ref sig .tc := ⟨.hbm, 683, rfl⟩
abbrev main_v499 : Ref sig .tc := ⟨.hbm, 684, rfl⟩
abbrev main_v500 : Ref sig .tc := ⟨.hbm, 685, rfl⟩
abbrev main_v501 : Ref sig .tc := ⟨.hbm, 686, rfl⟩
abbrev main_v502 : Ref sig .tc := ⟨.hbm, 687, rfl⟩
abbrev main_v503 : Ref sig .tc := ⟨.hbm, 688, rfl⟩
abbrev main_v504 : Ref sig .tc := ⟨.hbm, 689, rfl⟩
abbrev main_v505 : Ref sig .tc := ⟨.hbm, 690, rfl⟩
abbrev main_v506 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_v511 : Ref sig .tc := ⟨.hbm, 696, rfl⟩
abbrev main_v512 : Ref sig .tc := ⟨.hbm, 697, rfl⟩
abbrev main_v513 : Ref sig .tc := ⟨.hbm, 698, rfl⟩
abbrev main_v514 : Ref sig .tc := ⟨.hbm, 699, rfl⟩
abbrev main_v515 : Ref sig .tc := ⟨.hbm, 700, rfl⟩
abbrev main_v516 : Ref sig .tc := ⟨.hbm, 701, rfl⟩
abbrev main_v517 : Ref sig .tc := ⟨.hbm, 702, rfl⟩
abbrev main_v518 : Ref sig .tc := ⟨.hbm, 703, rfl⟩
abbrev main_v519 : Ref sig .tc := ⟨.hbm, 704, rfl⟩
abbrev main_v520 : Ref sig .tc := ⟨.hbm, 705, rfl⟩
abbrev main_v521 : Ref sig .tc := ⟨.hbm, 706, rfl⟩
abbrev main_v522 : Ref sig .tc := ⟨.hbm, 707, rfl⟩
abbrev main_v523 : Ref sig .tc := ⟨.hbm, 708, rfl⟩
abbrev main_v524 : Ref sig .tc := ⟨.hbm, 709, rfl⟩
abbrev main_v525 : Ref sig .tc := ⟨.hbm, 710, rfl⟩
abbrev main_v526 : Ref sig .tc := ⟨.hbm, 711, rfl⟩
abbrev main_v527 : Ref sig .tc := ⟨.hbm, 712, rfl⟩
abbrev main_v528 : Ref sig .tc := ⟨.hbm, 713, rfl⟩
abbrev main_v529 : Ref sig .tc := ⟨.hbm, 714, rfl⟩
abbrev main_cst_148 : Ref sig .tc := ⟨.hbm, 715, rfl⟩
abbrev main_v530 : Ref sig .tc := ⟨.hbm, 716, rfl⟩
abbrev main_v531 : Ref sig .tc := ⟨.hbm, 717, rfl⟩
abbrev main_cst_149 : Ref sig .tc := ⟨.hbm, 718, rfl⟩
abbrev main_v532 : Ref sig .tc := ⟨.hbm, 719, rfl⟩
abbrev main_v533 : Ref sig .tc := ⟨.hbm, 720, rfl⟩
abbrev main_cst_150 : Ref sig .tc := ⟨.hbm, 721, rfl⟩
abbrev main_v534 : Ref sig .tc := ⟨.hbm, 722, rfl⟩
abbrev main_v535 : Ref sig .tc := ⟨.hbm, 723, rfl⟩
abbrev main_cst_151 : Ref sig .tc := ⟨.hbm, 724, rfl⟩
abbrev main_c_152 : Ref sig .tc := ⟨.hbm, 725, rfl⟩
abbrev main_call6_v0 : Ref sig .tc := ⟨.hbm, 726, rfl⟩
abbrev main_call6_v1 : Ref sig .tc := ⟨.hbm, 727, rfl⟩
abbrev main_call6_v2 : Ref sig .tc := ⟨.hbm, 728, rfl⟩
abbrev main_call6_v3 : Ref sig .tc := ⟨.hbm, 729, rfl⟩
abbrev main_call6_v4 : Ref sig .tc := ⟨.hbm, 730, rfl⟩
abbrev main_v536 : Ref sig .tc := ⟨.hbm, 731, rfl⟩
abbrev main_v537 : Ref sig .tc := ⟨.hbm, 732, rfl⟩
abbrev main_v538 : Ref sig .tc := ⟨.hbm, 733, rfl⟩
abbrev main_cst_153 : Ref sig .tc := ⟨.hbm, 734, rfl⟩
abbrev main_v539 : Ref sig .tc := ⟨.hbm, 735, rfl⟩
abbrev main_v540 : Ref sig .tc := ⟨.hbm, 736, rfl⟩
abbrev main_cst_154 : Ref sig .tc := ⟨.hbm, 737, rfl⟩
abbrev main_v541 : Ref sig .tc := ⟨.hbm, 738, rfl⟩
abbrev main_v542 : Ref sig .tc := ⟨.hbm, 739, rfl⟩
abbrev main_cst_155 : Ref sig .tc := ⟨.hbm, 740, rfl⟩
abbrev main_v543 : Ref sig .tc := ⟨.hbm, 741, rfl⟩
abbrev main_v544 : Ref sig .tc := ⟨.hbm, 742, rfl⟩
abbrev main_cst_156 : Ref sig .tc := ⟨.hbm, 743, rfl⟩
abbrev main_c_157 : Ref sig .tc := ⟨.hbm, 744, rfl⟩
abbrev main_call7_v0 : Ref sig .tc := ⟨.hbm, 745, rfl⟩
abbrev main_call7_v1 : Ref sig .tc := ⟨.hbm, 746, rfl⟩
abbrev main_call7_v2 : Ref sig .tc := ⟨.hbm, 747, rfl⟩
abbrev main_call7_v3 : Ref sig .tc := ⟨.hbm, 748, rfl⟩
abbrev main_call7_v4 : Ref sig .tc := ⟨.hbm, 749, rfl⟩
abbrev main_v545 : Ref sig .tc := ⟨.hbm, 750, rfl⟩
abbrev main_v546 : Ref sig .tc := ⟨.hbm, 751, rfl⟩
abbrev main_v547 : Ref sig .tc := ⟨.hbm, 752, rfl⟩
abbrev main_cst_158 : Ref sig .tc := ⟨.hbm, 753, rfl⟩
abbrev main_v548 : Ref sig .tc := ⟨.hbm, 754, rfl⟩
abbrev main_v549 : Ref sig .tc := ⟨.hbm, 755, rfl⟩
abbrev main_cst_159 : Ref sig .tc := ⟨.hbm, 756, rfl⟩
abbrev main_v550 : Ref sig .tc := ⟨.hbm, 757, rfl⟩
abbrev main_v551 : Ref sig .tc := ⟨.hbm, 758, rfl⟩
abbrev main_cst_160 : Ref sig .tc := ⟨.hbm, 759, rfl⟩
abbrev main_v552 : Ref sig .tc := ⟨.hbm, 760, rfl⟩
abbrev main_v553 : Ref sig .tc := ⟨.hbm, 761, rfl⟩
abbrev main_cst_161 : Ref sig .tc := ⟨.hbm, 762, rfl⟩
abbrev main_c_162 : Ref sig .tc := ⟨.hbm, 763, rfl⟩
abbrev main_call8_v0 : Ref sig .tc := ⟨.hbm, 764, rfl⟩
abbrev main_call8_v1 : Ref sig .tc := ⟨.hbm, 765, rfl⟩
abbrev main_call8_v2 : Ref sig .tc := ⟨.hbm, 766, rfl⟩
abbrev main_call8_v3 : Ref sig .tc := ⟨.hbm, 767, rfl⟩
abbrev main_call8_v4 : Ref sig .tc := ⟨.hbm, 768, rfl⟩
abbrev main_v554 : Ref sig .tc := ⟨.hbm, 769, rfl⟩
abbrev main_v555 : Ref sig .tc := ⟨.hbm, 770, rfl⟩
abbrev main_v556 : Ref sig .tc := ⟨.hbm, 771, rfl⟩
abbrev main_v557 : Ref sig .tc := ⟨.hbm, 772, rfl⟩
abbrev main_v558 : Ref sig .tc := ⟨.hbm, 773, rfl⟩
abbrev main_v559 : Ref sig .tc := ⟨.hbm, 774, rfl⟩
abbrev main_v560 : Ref sig .tc := ⟨.hbm, 775, rfl⟩
abbrev main_v561 : Ref sig .tc := ⟨.hbm, 776, rfl⟩
abbrev main_cst_163 : Ref sig .tc := ⟨.hbm, 777, rfl⟩
abbrev main_v562 : Ref sig .tc := ⟨.hbm, 778, rfl⟩
abbrev main_v563 : Ref sig .tc := ⟨.hbm, 779, rfl⟩
abbrev main_cst_164 : Ref sig .tc := ⟨.hbm, 780, rfl⟩
abbrev main_v564 : Ref sig .tc := ⟨.hbm, 781, rfl⟩
abbrev main_v565 : Ref sig .tc := ⟨.hbm, 782, rfl⟩
abbrev main_v566 : Ref sig .tc := ⟨.hbm, 783, rfl⟩
abbrev main_v567 : Ref sig .tc := ⟨.hbm, 784, rfl⟩
abbrev main_cst_165 : Ref sig .tc := ⟨.hbm, 785, rfl⟩
abbrev main_v568 : Ref sig .tc := ⟨.hbm, 786, rfl⟩
abbrev main_v569 : Ref sig .tc := ⟨.hbm, 787, rfl⟩
abbrev main_cst_166 : Ref sig .tc := ⟨.hbm, 788, rfl⟩
abbrev main_v570 : Ref sig .tc := ⟨.hbm, 789, rfl⟩
abbrev main_v571 : Ref sig .tc := ⟨.hbm, 790, rfl⟩
abbrev main_v572 : Ref sig .tc := ⟨.hbm, 791, rfl⟩
abbrev main_v573 : Ref sig .tc := ⟨.hbm, 792, rfl⟩
abbrev main_cst_167 : Ref sig .tc := ⟨.hbm, 793, rfl⟩
abbrev main_v574 : Ref sig .tc := ⟨.hbm, 794, rfl⟩
abbrev main_v575 : Ref sig .tc := ⟨.hbm, 795, rfl⟩
abbrev main_cst_168 : Ref sig .tc := ⟨.hbm, 796, rfl⟩
abbrev main_v576 : Ref sig .tc := ⟨.hbm, 797, rfl⟩
abbrev main_v577 : Ref sig .tc := ⟨.hbm, 798, rfl⟩
abbrev main_v578 : Ref sig .tc := ⟨.hbm, 799, rfl⟩
abbrev main_v579 : Ref sig .tc := ⟨.hbm, 800, rfl⟩
abbrev main_c_169 : Ref sig .tc := ⟨.hbm, 801, rfl⟩
abbrev main_v580 : Ref sig .tc := ⟨.hbm, 802, rfl⟩
abbrev main_v581 : Ref sig .tc := ⟨.hbm, 803, rfl⟩
abbrev main_c_170 : Ref sig .tc := ⟨.hbm, 804, rfl⟩
abbrev main_v582 : Ref sig .tc := ⟨.hbm, 805, rfl⟩
abbrev main_v583 : Ref sig .tc := ⟨.hbm, 806, rfl⟩
abbrev main_v584 : Ref sig .tc := ⟨.hbm, 807, rfl⟩
abbrev main_c_171 : Ref sig .tc := ⟨.hbm, 808, rfl⟩
abbrev main_v585 : Ref sig .tc := ⟨.hbm, 809, rfl⟩
abbrev main_v586 : Ref sig .tc := ⟨.hbm, 810, rfl⟩
abbrev main_c_172 : Ref sig .tc := ⟨.hbm, 811, rfl⟩
abbrev main_v587 : Ref sig .tc := ⟨.hbm, 812, rfl⟩
abbrev main_v588 : Ref sig .tc := ⟨.hbm, 813, rfl⟩
abbrev main_v589 : Ref sig .tc := ⟨.hbm, 814, rfl⟩
abbrev main_c_173 : Ref sig .tc := ⟨.hbm, 815, rfl⟩
abbrev main_v590 : Ref sig .tc := ⟨.hbm, 816, rfl⟩
abbrev main_v591 : Ref sig .tc := ⟨.hbm, 817, rfl⟩
abbrev main_c_174 : Ref sig .tc := ⟨.hbm, 818, rfl⟩
abbrev main_v592 : Ref sig .tc := ⟨.hbm, 819, rfl⟩
abbrev main_v593 : Ref sig .tc := ⟨.hbm, 820, rfl⟩
abbrev main_c_175 : Ref sig .tc := ⟨.hbm, 821, rfl⟩
abbrev main_v594 : Ref sig .tc := ⟨.hbm, 822, rfl⟩
abbrev main_v595 : Ref sig .tc := ⟨.hbm, 823, rfl⟩
abbrev main_c_176 : Ref sig .tc := ⟨.hbm, 824, rfl⟩
abbrev main_v596 : Ref sig .tc := ⟨.hbm, 825, rfl⟩
abbrev main_v597 : Ref sig .tc := ⟨.hbm, 826, rfl⟩
abbrev main_v598 : Ref sig .tc := ⟨.hbm, 827, rfl⟩
abbrev main_c_177 : Ref sig .tc := ⟨.hbm, 828, rfl⟩
abbrev main_v599 : Ref sig .tc := ⟨.hbm, 829, rfl⟩
abbrev main_v600 : Ref sig .tc := ⟨.hbm, 830, rfl⟩
abbrev main_c_178 : Ref sig .tc := ⟨.hbm, 831, rfl⟩
abbrev main_v601 : Ref sig .tc := ⟨.hbm, 832, rfl⟩
abbrev main_v602 : Ref sig .tc := ⟨.hbm, 833, rfl⟩
abbrev main_v603 : Ref sig .tc := ⟨.hbm, 834, rfl⟩
abbrev main_c_179 : Ref sig .tc := ⟨.hbm, 835, rfl⟩
abbrev main_v604 : Ref sig .tc := ⟨.hbm, 836, rfl⟩
abbrev main_v605 : Ref sig .tc := ⟨.hbm, 837, rfl⟩
abbrev main_c_180 : Ref sig .tc := ⟨.hbm, 838, rfl⟩
abbrev main_v606 : Ref sig .tc := ⟨.hbm, 839, rfl⟩
abbrev main_v607 : Ref sig .tc := ⟨.hbm, 840, rfl⟩
abbrev main_v608 : Ref sig .tc := ⟨.hbm, 841, rfl⟩
abbrev main_v609 : Ref sig .tc := ⟨.hbm, 842, rfl⟩
abbrev main_v610 : Ref sig .tc := ⟨.hbm, 843, rfl⟩
abbrev main_v611 : Ref sig .tc := ⟨.hbm, 844, rfl⟩
abbrev main_v612 : Ref sig .tc := ⟨.hbm, 845, rfl⟩
abbrev main_v613 : Ref sig .tc := ⟨.hbm, 846, rfl⟩
abbrev main_c_181 : Ref sig .tc := ⟨.hbm, 847, rfl⟩
abbrev main_v614 : Ref sig .tc := ⟨.hbm, 848, rfl⟩
abbrev main_v615 : Ref sig .tc := ⟨.hbm, 849, rfl⟩
abbrev main_c_182 : Ref sig .tc := ⟨.hbm, 850, rfl⟩
abbrev main_v616 : Ref sig .tc := ⟨.hbm, 851, rfl⟩
abbrev main_v617 : Ref sig .tc := ⟨.hbm, 852, rfl⟩
abbrev main_v618 : Ref sig .tc := ⟨.hbm, 853, rfl⟩
abbrev main_c_183 : Ref sig .tc := ⟨.hbm, 854, rfl⟩
abbrev main_v619 : Ref sig .tc := ⟨.hbm, 855, rfl⟩
abbrev main_v620 : Ref sig .tc := ⟨.hbm, 856, rfl⟩
abbrev main_c_184 : Ref sig .tc := ⟨.hbm, 857, rfl⟩
abbrev main_v621 : Ref sig .tc := ⟨.hbm, 858, rfl⟩
abbrev main_v622 : Ref sig .tc := ⟨.hbm, 859, rfl⟩
abbrev main_v623 : Ref sig .tc := ⟨.hbm, 860, rfl⟩
abbrev main_c_185 : Ref sig .tc := ⟨.hbm, 861, rfl⟩
abbrev main_v624 : Ref sig .tc := ⟨.hbm, 862, rfl⟩
abbrev main_v625 : Ref sig .tc := ⟨.hbm, 863, rfl⟩
abbrev main_c_186 : Ref sig .tc := ⟨.hbm, 864, rfl⟩
abbrev main_v626 : Ref sig .tc := ⟨.hbm, 865, rfl⟩
abbrev main_v627 : Ref sig .tc := ⟨.hbm, 866, rfl⟩
abbrev main_v628 : Ref sig .tc := ⟨.hbm, 867, rfl⟩
abbrev main_v629 : Ref sig .tc := ⟨.hbm, 868, rfl⟩
abbrev main_v630 : Ref sig .tc := ⟨.hbm, 869, rfl⟩
abbrev main_v631 : Ref sig .tc := ⟨.hbm, 870, rfl⟩
abbrev main_v632 : Ref sig .tc := ⟨.hbm, 871, rfl⟩
abbrev main_v633 : Ref sig .tc := ⟨.hbm, 872, rfl⟩
abbrev main_c_187 : Ref sig .tc := ⟨.hbm, 873, rfl⟩
abbrev main_v634 : Ref sig .tc := ⟨.hbm, 874, rfl⟩
abbrev main_v635 : Ref sig .tc := ⟨.hbm, 875, rfl⟩
abbrev main_c_188 : Ref sig .tc := ⟨.hbm, 876, rfl⟩
abbrev main_v636 : Ref sig .tc := ⟨.hbm, 877, rfl⟩
abbrev main_v637 : Ref sig .tc := ⟨.hbm, 878, rfl⟩
abbrev main_v638 : Ref sig .tc := ⟨.hbm, 879, rfl⟩
abbrev main_c_189 : Ref sig .tc := ⟨.hbm, 880, rfl⟩
abbrev main_v639 : Ref sig .tc := ⟨.hbm, 881, rfl⟩
abbrev main_v640 : Ref sig .tc := ⟨.hbm, 882, rfl⟩
abbrev main_c_190 : Ref sig .tc := ⟨.hbm, 883, rfl⟩
abbrev main_v641 : Ref sig .tc := ⟨.hbm, 884, rfl⟩
abbrev main_v642 : Ref sig .tc := ⟨.hbm, 885, rfl⟩
abbrev main_v643 : Ref sig .tc := ⟨.hbm, 886, rfl⟩
abbrev main_c_191 : Ref sig .tc := ⟨.hbm, 887, rfl⟩
abbrev main_v644 : Ref sig .tc := ⟨.hbm, 888, rfl⟩
abbrev main_v645 : Ref sig .tc := ⟨.hbm, 889, rfl⟩
abbrev main_c_192 : Ref sig .tc := ⟨.hbm, 890, rfl⟩
abbrev main_v646 : Ref sig .tc := ⟨.hbm, 891, rfl⟩
abbrev main_v647 : Ref sig .tc := ⟨.hbm, 892, rfl⟩
abbrev main_v648 : Ref sig .tc := ⟨.hbm, 893, rfl⟩
abbrev main_v649 : Ref sig .tc := ⟨.hbm, 894, rfl⟩
abbrev main_v650 : Ref sig .tc := ⟨.hbm, 895, rfl⟩
abbrev main_v651 : Ref sig .tc := ⟨.hbm, 896, rfl⟩
abbrev main_v652 : Ref sig .tc := ⟨.hbm, 897, rfl⟩
abbrev main_v653 : Ref sig .tc := ⟨.hbm, 898, rfl⟩
abbrev main_c_193 : Ref sig .tc := ⟨.hbm, 899, rfl⟩
abbrev main_v654 : Ref sig .tc := ⟨.hbm, 900, rfl⟩
abbrev main_v655 : Ref sig .tc := ⟨.hbm, 901, rfl⟩
abbrev main_c_194 : Ref sig .tc := ⟨.hbm, 902, rfl⟩
abbrev main_v656 : Ref sig .tc := ⟨.hbm, 903, rfl⟩
abbrev main_v657 : Ref sig .tc := ⟨.hbm, 904, rfl⟩
abbrev main_v658 : Ref sig .tc := ⟨.hbm, 905, rfl⟩
abbrev main_c_195 : Ref sig .tc := ⟨.hbm, 906, rfl⟩
abbrev main_v659 : Ref sig .tc := ⟨.hbm, 907, rfl⟩
abbrev main_v660 : Ref sig .tc := ⟨.hbm, 908, rfl⟩
abbrev main_c_196 : Ref sig .tc := ⟨.hbm, 909, rfl⟩
abbrev main_v661 : Ref sig .tc := ⟨.hbm, 910, rfl⟩
abbrev main_v662 : Ref sig .tc := ⟨.hbm, 911, rfl⟩
abbrev main_v663 : Ref sig .tc := ⟨.hbm, 912, rfl⟩
abbrev main_c_197 : Ref sig .tc := ⟨.hbm, 913, rfl⟩
abbrev main_v664 : Ref sig .tc := ⟨.hbm, 914, rfl⟩
abbrev main_v665 : Ref sig .tc := ⟨.hbm, 915, rfl⟩
abbrev main_c_198 : Ref sig .tc := ⟨.hbm, 916, rfl⟩
abbrev main_v666 : Ref sig .tc := ⟨.hbm, 917, rfl⟩
abbrev main_v667 : Ref sig .tc := ⟨.hbm, 918, rfl⟩
abbrev main_v668 : Ref sig .tc := ⟨.hbm, 919, rfl⟩
abbrev main_v669 : Ref sig .tc := ⟨.hbm, 920, rfl⟩
abbrev main_v670 : Ref sig .tc := ⟨.hbm, 921, rfl⟩
abbrev main_v671 : Ref sig .tc := ⟨.hbm, 922, rfl⟩
abbrev main_v672 : Ref sig .tc := ⟨.hbm, 923, rfl⟩
abbrev main_v673 : Ref sig .tc := ⟨.hbm, 924, rfl⟩
abbrev main_c_199 : Ref sig .tc := ⟨.hbm, 925, rfl⟩
abbrev main_v674 : Ref sig .tc := ⟨.hbm, 926, rfl⟩
abbrev main_v675 : Ref sig .tc := ⟨.hbm, 927, rfl⟩
abbrev main_c_200 : Ref sig .tc := ⟨.hbm, 928, rfl⟩
abbrev main_v676 : Ref sig .tc := ⟨.hbm, 929, rfl⟩
abbrev main_v677 : Ref sig .tc := ⟨.hbm, 930, rfl⟩
abbrev main_v678 : Ref sig .tc := ⟨.hbm, 931, rfl⟩
abbrev main_c_201 : Ref sig .tc := ⟨.hbm, 932, rfl⟩
abbrev main_v679 : Ref sig .tc := ⟨.hbm, 933, rfl⟩
abbrev main_v680 : Ref sig .tc := ⟨.hbm, 934, rfl⟩
abbrev main_c_202 : Ref sig .tc := ⟨.hbm, 935, rfl⟩
abbrev main_v681 : Ref sig .tc := ⟨.hbm, 936, rfl⟩
abbrev main_v682 : Ref sig .tc := ⟨.hbm, 937, rfl⟩
abbrev main_v683 : Ref sig .tc := ⟨.hbm, 938, rfl⟩
abbrev main_c_203 : Ref sig .tc := ⟨.hbm, 939, rfl⟩
abbrev main_v684 : Ref sig .tc := ⟨.hbm, 940, rfl⟩
abbrev main_v685 : Ref sig .tc := ⟨.hbm, 941, rfl⟩
abbrev main_c_204 : Ref sig .tc := ⟨.hbm, 942, rfl⟩
abbrev main_v686 : Ref sig .tc := ⟨.hbm, 943, rfl⟩
abbrev main_v687 : Ref sig .tc := ⟨.hbm, 944, rfl⟩
abbrev main_v688 : Ref sig .tc := ⟨.hbm, 945, rfl⟩
abbrev main_v689 : Ref sig .tc := ⟨.hbm, 946, rfl⟩
abbrev main_v690 : Ref sig .tc := ⟨.hbm, 947, rfl⟩
abbrev main_v691 : Ref sig .tc := ⟨.hbm, 948, rfl⟩
abbrev main_v692 : Ref sig .tc := ⟨.hbm, 949, rfl⟩
abbrev main_v693 : Ref sig .tc := ⟨.hbm, 950, rfl⟩
abbrev main_c_205 : Ref sig .tc := ⟨.hbm, 951, rfl⟩
abbrev main_v694 : Ref sig .tc := ⟨.hbm, 952, rfl⟩
abbrev main_v695 : Ref sig .tc := ⟨.hbm, 953, rfl⟩
abbrev main_c_206 : Ref sig .tc := ⟨.hbm, 954, rfl⟩
abbrev main_v696 : Ref sig .tc := ⟨.hbm, 955, rfl⟩
abbrev main_v697 : Ref sig .tc := ⟨.hbm, 956, rfl⟩
abbrev main_v698 : Ref sig .tc := ⟨.hbm, 957, rfl⟩
abbrev main_c_207 : Ref sig .tc := ⟨.hbm, 958, rfl⟩
abbrev main_v699 : Ref sig .tc := ⟨.hbm, 959, rfl⟩
abbrev main_v700 : Ref sig .tc := ⟨.hbm, 960, rfl⟩
abbrev main_c_208 : Ref sig .tc := ⟨.hbm, 961, rfl⟩
abbrev main_v701 : Ref sig .tc := ⟨.hbm, 962, rfl⟩
abbrev main_v702 : Ref sig .tc := ⟨.hbm, 963, rfl⟩
abbrev main_v703 : Ref sig .tc := ⟨.hbm, 964, rfl⟩
abbrev main_c_209 : Ref sig .tc := ⟨.hbm, 965, rfl⟩
abbrev main_v704 : Ref sig .tc := ⟨.hbm, 966, rfl⟩
abbrev main_v705 : Ref sig .tc := ⟨.hbm, 967, rfl⟩
abbrev main_c_210 : Ref sig .tc := ⟨.hbm, 968, rfl⟩
abbrev main_v706 : Ref sig .tc := ⟨.hbm, 969, rfl⟩
abbrev main_v707 : Ref sig .tc := ⟨.hbm, 970, rfl⟩
abbrev main_v708 : Ref sig .tc := ⟨.hbm, 971, rfl⟩
abbrev main_v709 : Ref sig .tc := ⟨.hbm, 972, rfl⟩
abbrev main_v710 : Ref sig .tc := ⟨.hbm, 973, rfl⟩
abbrev main_v711 : Ref sig .tc := ⟨.hbm, 974, rfl⟩
abbrev main_v712 : Ref sig .tc := ⟨.hbm, 975, rfl⟩
abbrev main_v713 : Ref sig .tc := ⟨.hbm, 976, rfl⟩
abbrev main_c_211 : Ref sig .tc := ⟨.hbm, 977, rfl⟩
abbrev main_v714 : Ref sig .tc := ⟨.hbm, 978, rfl⟩
abbrev main_v715 : Ref sig .tc := ⟨.hbm, 979, rfl⟩
abbrev main_c_212 : Ref sig .tc := ⟨.hbm, 980, rfl⟩
abbrev main_v716 : Ref sig .tc := ⟨.hbm, 981, rfl⟩
abbrev main_v717 : Ref sig .tc := ⟨.hbm, 982, rfl⟩
abbrev main_v718 : Ref sig .tc := ⟨.hbm, 983, rfl⟩
abbrev main_c_213 : Ref sig .tc := ⟨.hbm, 984, rfl⟩
abbrev main_v719 : Ref sig .tc := ⟨.hbm, 985, rfl⟩
abbrev main_v720 : Ref sig .tc := ⟨.hbm, 986, rfl⟩
abbrev main_c_214 : Ref sig .tc := ⟨.hbm, 987, rfl⟩
abbrev main_v721 : Ref sig .tc := ⟨.hbm, 988, rfl⟩
abbrev main_v722 : Ref sig .tc := ⟨.hbm, 989, rfl⟩
abbrev main_v723 : Ref sig .tc := ⟨.hbm, 990, rfl⟩
abbrev main_c_215 : Ref sig .tc := ⟨.hbm, 991, rfl⟩
abbrev main_v724 : Ref sig .tc := ⟨.hbm, 992, rfl⟩
abbrev main_v725 : Ref sig .tc := ⟨.hbm, 993, rfl⟩
abbrev main_c_216 : Ref sig .tc := ⟨.hbm, 994, rfl⟩
abbrev main_v726 : Ref sig .tc := ⟨.hbm, 995, rfl⟩
abbrev main_v727 : Ref sig .tc := ⟨.hbm, 996, rfl⟩
abbrev main_v728 : Ref sig .tc := ⟨.hbm, 997, rfl⟩
abbrev main_v729 : Ref sig .tc := ⟨.hbm, 998, rfl⟩
abbrev main_v730 : Ref sig .tc := ⟨.hbm, 999, rfl⟩
abbrev main_v731 : Ref sig .tc := ⟨.hbm, 1000, rfl⟩
abbrev main_v732 : Ref sig .tc := ⟨.hbm, 1001, rfl⟩
abbrev main_v733 : Ref sig .tc := ⟨.hbm, 1002, rfl⟩
abbrev main_c_217 : Ref sig .tc := ⟨.hbm, 1003, rfl⟩
abbrev main_v734 : Ref sig .tc := ⟨.hbm, 1004, rfl⟩
abbrev main_v735 : Ref sig .tc := ⟨.hbm, 1005, rfl⟩
abbrev main_c_218 : Ref sig .tc := ⟨.hbm, 1006, rfl⟩
abbrev main_v736 : Ref sig .tc := ⟨.hbm, 1007, rfl⟩
abbrev main_v737 : Ref sig .tc := ⟨.hbm, 1008, rfl⟩
abbrev main_v738 : Ref sig .tc := ⟨.hbm, 1009, rfl⟩
abbrev main_c_219 : Ref sig .tc := ⟨.hbm, 1010, rfl⟩
abbrev main_v739 : Ref sig .tc := ⟨.hbm, 1011, rfl⟩
abbrev main_v740 : Ref sig .tc := ⟨.hbm, 1012, rfl⟩
abbrev main_c_220 : Ref sig .tc := ⟨.hbm, 1013, rfl⟩
abbrev main_v741 : Ref sig .tc := ⟨.hbm, 1014, rfl⟩
abbrev main_v742 : Ref sig .tc := ⟨.hbm, 1015, rfl⟩
abbrev main_v743 : Ref sig .tc := ⟨.hbm, 1016, rfl⟩
abbrev main_c_221 : Ref sig .tc := ⟨.hbm, 1017, rfl⟩
abbrev main_v744 : Ref sig .tc := ⟨.hbm, 1018, rfl⟩
abbrev main_v745 : Ref sig .tc := ⟨.hbm, 1019, rfl⟩
abbrev main_c_222 : Ref sig .tc := ⟨.hbm, 1020, rfl⟩
abbrev main_v746 : Ref sig .tc := ⟨.hbm, 1021, rfl⟩
abbrev main_v747 : Ref sig .tc := ⟨.hbm, 1022, rfl⟩
abbrev main_v748 : Ref sig .tc := ⟨.hbm, 1023, rfl⟩
abbrev main_v749 : Ref sig .tc := ⟨.hbm, 1024, rfl⟩
abbrev main_v750 : Ref sig .tc := ⟨.hbm, 1025, rfl⟩
abbrev main_v751 : Ref sig .tc := ⟨.hbm, 1026, rfl⟩
abbrev main_v752 : Ref sig .tc := ⟨.hbm, 1027, rfl⟩
abbrev main_v753 : Ref sig .tc := ⟨.hbm, 1028, rfl⟩
abbrev main_v754 : Ref sig .tc := ⟨.hbm, 1029, rfl⟩
abbrev main_v755 : Ref sig .tc := ⟨.hbm, 1030, rfl⟩
abbrev main_v756 : Ref sig .tc := ⟨.hbm, 1031, rfl⟩
abbrev main_v757 : Ref sig .tc := ⟨.hbm, 1032, rfl⟩
abbrev main_v758 : Ref sig .tc := ⟨.hbm, 1033, rfl⟩
abbrev main_v759 : Ref sig .tc := ⟨.hbm, 1034, rfl⟩
abbrev main_v760 : Ref sig .tc := ⟨.hbm, 1035, rfl⟩
abbrev main_v761 : Ref sig .tc := ⟨.hbm, 1036, rfl⟩
abbrev main_v762 : Ref sig .tc := ⟨.hbm, 1037, rfl⟩
abbrev main_v763 : Ref sig .tc := ⟨.hbm, 1038, rfl⟩
abbrev main_v764 : Ref sig .tc := ⟨.hbm, 1039, rfl⟩
abbrev main_v765 : Ref sig .tc := ⟨.hbm, 1040, rfl⟩
abbrev main_v766 : Ref sig .tc := ⟨.hbm, 1041, rfl⟩
abbrev main_v767 : Ref sig .tc := ⟨.hbm, 1042, rfl⟩
abbrev main_v768 : Ref sig .tc := ⟨.hbm, 1043, rfl⟩
abbrev main_v769 : Ref sig .tc := ⟨.hbm, 1044, rfl⟩
abbrev main_v770 : Ref sig .tc := ⟨.hbm, 1045, rfl⟩
abbrev main_v771 : Ref sig .tc := ⟨.hbm, 1046, rfl⟩
abbrev main_v772 : Ref sig .tc := ⟨.hbm, 1047, rfl⟩
abbrev main_v773 : Ref sig .tc := ⟨.hbm, 1048, rfl⟩
abbrev main_v774 : Ref sig .tc := ⟨.hbm, 1049, rfl⟩
abbrev main_v775 : Ref sig .tc := ⟨.hbm, 1050, rfl⟩
abbrev main_v776 : Ref sig .tc := ⟨.hbm, 1051, rfl⟩
abbrev main_v777 : Ref sig .tc := ⟨.hbm, 1052, rfl⟩
abbrev main_v778 : Ref sig .tc := ⟨.hbm, 1053, rfl⟩
abbrev main_v779 : Ref sig .tc := ⟨.hbm, 1054, rfl⟩
abbrev main_v780 : Ref sig .tc := ⟨.hbm, 1055, rfl⟩
abbrev main_v781 : Ref sig .tc := ⟨.hbm, 1056, rfl⟩
abbrev main_v782 : Ref sig .tc := ⟨.hbm, 1057, rfl⟩
abbrev main_v783 : Ref sig .tc := ⟨.hbm, 1058, rfl⟩
abbrev main_v784 : Ref sig .tc := ⟨.hbm, 1059, rfl⟩
abbrev main_v785 : Ref sig .tc := ⟨.hbm, 1060, rfl⟩
abbrev main_v786 : Ref sig .tc := ⟨.hbm, 1061, rfl⟩
abbrev main_v787 : Ref sig .tc := ⟨.hbm, 1062, rfl⟩
abbrev main_v788 : Ref sig .tc := ⟨.hbm, 1063, rfl⟩
abbrev main_v789 : Ref sig .tc := ⟨.hbm, 1064, rfl⟩
abbrev main_v790 : Ref sig .tc := ⟨.hbm, 1065, rfl⟩
abbrev main_v791 : Ref sig .tc := ⟨.hbm, 1066, rfl⟩
abbrev main_v792 : Ref sig .tc := ⟨.hbm, 1067, rfl⟩
abbrev main_cst_223 : Ref sig .tc := ⟨.hbm, 1068, rfl⟩
abbrev main_v793 : Ref sig .tc := ⟨.hbm, 1069, rfl⟩
abbrev main_v794 : Ref sig .tc := ⟨.hbm, 1070, rfl⟩
abbrev main_cst_224 : Ref sig .tc := ⟨.hbm, 1071, rfl⟩
abbrev main_v795 : Ref sig .tc := ⟨.hbm, 1072, rfl⟩
abbrev main_v796 : Ref sig .tc := ⟨.hbm, 1073, rfl⟩
abbrev main_cst_225 : Ref sig .tc := ⟨.hbm, 1074, rfl⟩
abbrev main_v797 : Ref sig .tc := ⟨.hbm, 1075, rfl⟩
abbrev main_v798 : Ref sig .tc := ⟨.hbm, 1076, rfl⟩
abbrev main_cst_226 : Ref sig .tc := ⟨.hbm, 1077, rfl⟩
abbrev main_c_227 : Ref sig .tc := ⟨.hbm, 1078, rfl⟩
abbrev main_call9_v0 : Ref sig .tc := ⟨.hbm, 1079, rfl⟩
abbrev main_call9_v1 : Ref sig .tc := ⟨.hbm, 1080, rfl⟩
abbrev main_call9_v2 : Ref sig .tc := ⟨.hbm, 1081, rfl⟩
abbrev main_call9_v3 : Ref sig .tc := ⟨.hbm, 1082, rfl⟩
abbrev main_call9_v4 : Ref sig .tc := ⟨.hbm, 1083, rfl⟩
abbrev main_v799 : Ref sig .tc := ⟨.hbm, 1084, rfl⟩
abbrev main_v800 : Ref sig .tc := ⟨.hbm, 1085, rfl⟩
abbrev main_v801 : Ref sig .tc := ⟨.hbm, 1086, rfl⟩
abbrev main_cst_228 : Ref sig .tc := ⟨.hbm, 1087, rfl⟩
abbrev main_v802 : Ref sig .tc := ⟨.hbm, 1088, rfl⟩
abbrev main_v803 : Ref sig .tc := ⟨.hbm, 1089, rfl⟩
abbrev main_cst_229 : Ref sig .tc := ⟨.hbm, 1090, rfl⟩
abbrev main_v804 : Ref sig .tc := ⟨.hbm, 1091, rfl⟩
abbrev main_v805 : Ref sig .tc := ⟨.hbm, 1092, rfl⟩
abbrev main_cst_230 : Ref sig .tc := ⟨.hbm, 1093, rfl⟩
abbrev main_v806 : Ref sig .tc := ⟨.hbm, 1094, rfl⟩
abbrev main_v807 : Ref sig .tc := ⟨.hbm, 1095, rfl⟩
abbrev main_cst_231 : Ref sig .tc := ⟨.hbm, 1096, rfl⟩
abbrev main_c_232 : Ref sig .tc := ⟨.hbm, 1097, rfl⟩
abbrev main_call10_v0 : Ref sig .tc := ⟨.hbm, 1098, rfl⟩
abbrev main_call10_v1 : Ref sig .tc := ⟨.hbm, 1099, rfl⟩
abbrev main_call10_v2 : Ref sig .tc := ⟨.hbm, 1100, rfl⟩
abbrev main_call10_v3 : Ref sig .tc := ⟨.hbm, 1101, rfl⟩
abbrev main_call10_v4 : Ref sig .tc := ⟨.hbm, 1102, rfl⟩
abbrev main_v808 : Ref sig .tc := ⟨.hbm, 1103, rfl⟩
abbrev main_v809 : Ref sig .tc := ⟨.hbm, 1104, rfl⟩
abbrev main_v810 : Ref sig .tc := ⟨.hbm, 1105, rfl⟩
abbrev main_cst_233 : Ref sig .tc := ⟨.hbm, 1106, rfl⟩
abbrev main_v811 : Ref sig .tc := ⟨.hbm, 1107, rfl⟩
abbrev main_v812 : Ref sig .tc := ⟨.hbm, 1108, rfl⟩
abbrev main_cst_234 : Ref sig .tc := ⟨.hbm, 1109, rfl⟩
abbrev main_v813 : Ref sig .tc := ⟨.hbm, 1110, rfl⟩
abbrev main_v814 : Ref sig .tc := ⟨.hbm, 1111, rfl⟩
abbrev main_cst_235 : Ref sig .tc := ⟨.hbm, 1112, rfl⟩
abbrev main_v815 : Ref sig .tc := ⟨.hbm, 1113, rfl⟩
abbrev main_v816 : Ref sig .tc := ⟨.hbm, 1114, rfl⟩
abbrev main_cst_236 : Ref sig .tc := ⟨.hbm, 1115, rfl⟩
abbrev main_c_237 : Ref sig .tc := ⟨.hbm, 1116, rfl⟩
abbrev main_call11_v0 : Ref sig .tc := ⟨.hbm, 1117, rfl⟩
abbrev main_call11_v1 : Ref sig .tc := ⟨.hbm, 1118, rfl⟩
abbrev main_call11_v2 : Ref sig .tc := ⟨.hbm, 1119, rfl⟩
abbrev main_call11_v3 : Ref sig .tc := ⟨.hbm, 1120, rfl⟩
abbrev main_call11_v4 : Ref sig .tc := ⟨.hbm, 1121, rfl⟩
abbrev main_v817 : Ref sig .tc := ⟨.hbm, 1122, rfl⟩
abbrev main_v818 : Ref sig .tc := ⟨.hbm, 1123, rfl⟩
abbrev main_v819 : Ref sig .tc := ⟨.hbm, 1124, rfl⟩
abbrev main_v820 : Ref sig .tc := ⟨.hbm, 1125, rfl⟩
abbrev main_v821 : Ref sig .tc := ⟨.hbm, 1126, rfl⟩
abbrev main_v822 : Ref sig .tc := ⟨.hbm, 1127, rfl⟩
abbrev main_v823 : Ref sig .tc := ⟨.hbm, 1128, rfl⟩
abbrev main_v824 : Ref sig .tc := ⟨.hbm, 1129, rfl⟩
abbrev main_cst_238 : Ref sig .tc := ⟨.hbm, 1130, rfl⟩
abbrev main_v825 : Ref sig .tc := ⟨.hbm, 1131, rfl⟩
abbrev main_v826 : Ref sig .tc := ⟨.hbm, 1132, rfl⟩
abbrev main_cst_239 : Ref sig .tc := ⟨.hbm, 1133, rfl⟩
abbrev main_v827 : Ref sig .tc := ⟨.hbm, 1134, rfl⟩
abbrev main_v828 : Ref sig .tc := ⟨.hbm, 1135, rfl⟩
abbrev main_v829 : Ref sig .tc := ⟨.hbm, 1136, rfl⟩
abbrev main_v830 : Ref sig .tc := ⟨.hbm, 1137, rfl⟩
abbrev main_cst_240 : Ref sig .tc := ⟨.hbm, 1138, rfl⟩
abbrev main_v831 : Ref sig .tc := ⟨.hbm, 1139, rfl⟩
abbrev main_v832 : Ref sig .tc := ⟨.hbm, 1140, rfl⟩
abbrev main_cst_241 : Ref sig .tc := ⟨.hbm, 1141, rfl⟩
abbrev main_v833 : Ref sig .tc := ⟨.hbm, 1142, rfl⟩
abbrev main_v834 : Ref sig .tc := ⟨.hbm, 1143, rfl⟩
abbrev main_v835 : Ref sig .tc := ⟨.hbm, 1144, rfl⟩
abbrev main_v836 : Ref sig .tc := ⟨.hbm, 1145, rfl⟩
abbrev main_cst_242 : Ref sig .tc := ⟨.hbm, 1146, rfl⟩
abbrev main_v837 : Ref sig .tc := ⟨.hbm, 1147, rfl⟩
abbrev main_v838 : Ref sig .tc := ⟨.hbm, 1148, rfl⟩
abbrev main_cst_243 : Ref sig .tc := ⟨.hbm, 1149, rfl⟩
abbrev main_v839 : Ref sig .tc := ⟨.hbm, 1150, rfl⟩
abbrev main_v840 : Ref sig .tc := ⟨.hbm, 1151, rfl⟩
abbrev main_v841 : Ref sig .tc := ⟨.hbm, 1152, rfl⟩
abbrev main_v842 : Ref sig .tc := ⟨.hbm, 1153, rfl⟩
abbrev main_c_244 : Ref sig .tc := ⟨.hbm, 1154, rfl⟩
abbrev main_v843 : Ref sig .tc := ⟨.hbm, 1155, rfl⟩
abbrev main_v844 : Ref sig .tc := ⟨.hbm, 1156, rfl⟩
abbrev main_c_245 : Ref sig .tc := ⟨.hbm, 1157, rfl⟩
abbrev main_v845 : Ref sig .tc := ⟨.hbm, 1158, rfl⟩
abbrev main_v846 : Ref sig .tc := ⟨.hbm, 1159, rfl⟩
abbrev main_v847 : Ref sig .tc := ⟨.hbm, 1160, rfl⟩
abbrev main_c_246 : Ref sig .tc := ⟨.hbm, 1161, rfl⟩
abbrev main_v848 : Ref sig .tc := ⟨.hbm, 1162, rfl⟩
abbrev main_v849 : Ref sig .tc := ⟨.hbm, 1163, rfl⟩
abbrev main_c_247 : Ref sig .tc := ⟨.hbm, 1164, rfl⟩
abbrev main_v850 : Ref sig .tc := ⟨.hbm, 1165, rfl⟩
abbrev main_v851 : Ref sig .tc := ⟨.hbm, 1166, rfl⟩
abbrev main_v852 : Ref sig .tc := ⟨.hbm, 1167, rfl⟩
abbrev main_c_248 : Ref sig .tc := ⟨.hbm, 1168, rfl⟩
abbrev main_v853 : Ref sig .tc := ⟨.hbm, 1169, rfl⟩
abbrev main_v854 : Ref sig .tc := ⟨.hbm, 1170, rfl⟩
abbrev main_c_249 : Ref sig .tc := ⟨.hbm, 1171, rfl⟩
abbrev main_v855 : Ref sig .tc := ⟨.hbm, 1172, rfl⟩
abbrev main_v856 : Ref sig .tc := ⟨.hbm, 1173, rfl⟩
abbrev main_c_250 : Ref sig .tc := ⟨.hbm, 1174, rfl⟩
abbrev main_v857 : Ref sig .tc := ⟨.hbm, 1175, rfl⟩
abbrev main_v858 : Ref sig .tc := ⟨.hbm, 1176, rfl⟩
abbrev main_c_251 : Ref sig .tc := ⟨.hbm, 1177, rfl⟩
abbrev main_v859 : Ref sig .tc := ⟨.hbm, 1178, rfl⟩
abbrev main_v860 : Ref sig .tc := ⟨.hbm, 1179, rfl⟩
abbrev main_v861 : Ref sig .tc := ⟨.hbm, 1180, rfl⟩
abbrev main_c_252 : Ref sig .tc := ⟨.hbm, 1181, rfl⟩
abbrev main_v862 : Ref sig .tc := ⟨.hbm, 1182, rfl⟩
abbrev main_v863 : Ref sig .tc := ⟨.hbm, 1183, rfl⟩
abbrev main_c_253 : Ref sig .tc := ⟨.hbm, 1184, rfl⟩
abbrev main_v864 : Ref sig .tc := ⟨.hbm, 1185, rfl⟩
abbrev main_v865 : Ref sig .tc := ⟨.hbm, 1186, rfl⟩
abbrev main_v866 : Ref sig .tc := ⟨.hbm, 1187, rfl⟩
abbrev main_c_254 : Ref sig .tc := ⟨.hbm, 1188, rfl⟩
abbrev main_v867 : Ref sig .tc := ⟨.hbm, 1189, rfl⟩
abbrev main_v868 : Ref sig .tc := ⟨.hbm, 1190, rfl⟩
abbrev main_c_255 : Ref sig .tc := ⟨.hbm, 1191, rfl⟩
abbrev main_v869 : Ref sig .tc := ⟨.hbm, 1192, rfl⟩
abbrev main_v870 : Ref sig .tc := ⟨.hbm, 1193, rfl⟩
abbrev main_v871 : Ref sig .tc := ⟨.hbm, 1194, rfl⟩
abbrev main_v872 : Ref sig .tc := ⟨.hbm, 1195, rfl⟩
abbrev main_v873 : Ref sig .tc := ⟨.hbm, 1196, rfl⟩
abbrev main_v874 : Ref sig .tc := ⟨.hbm, 1197, rfl⟩
abbrev main_v875 : Ref sig .tc := ⟨.hbm, 1198, rfl⟩
abbrev main_v876 : Ref sig .tc := ⟨.hbm, 1199, rfl⟩
abbrev main_c_256 : Ref sig .tc := ⟨.hbm, 1200, rfl⟩
abbrev main_v877 : Ref sig .tc := ⟨.hbm, 1201, rfl⟩
abbrev main_v878 : Ref sig .tc := ⟨.hbm, 1202, rfl⟩
abbrev main_c_257 : Ref sig .tc := ⟨.hbm, 1203, rfl⟩
abbrev main_v879 : Ref sig .tc := ⟨.hbm, 1204, rfl⟩
abbrev main_v880 : Ref sig .tc := ⟨.hbm, 1205, rfl⟩
abbrev main_v881 : Ref sig .tc := ⟨.hbm, 1206, rfl⟩
abbrev main_c_258 : Ref sig .tc := ⟨.hbm, 1207, rfl⟩
abbrev main_v882 : Ref sig .tc := ⟨.hbm, 1208, rfl⟩
abbrev main_v883 : Ref sig .tc := ⟨.hbm, 1209, rfl⟩
abbrev main_c_259 : Ref sig .tc := ⟨.hbm, 1210, rfl⟩
abbrev main_v884 : Ref sig .tc := ⟨.hbm, 1211, rfl⟩
abbrev main_v885 : Ref sig .tc := ⟨.hbm, 1212, rfl⟩
abbrev main_v886 : Ref sig .tc := ⟨.hbm, 1213, rfl⟩
abbrev main_c_260 : Ref sig .tc := ⟨.hbm, 1214, rfl⟩
abbrev main_v887 : Ref sig .tc := ⟨.hbm, 1215, rfl⟩
abbrev main_v888 : Ref sig .tc := ⟨.hbm, 1216, rfl⟩
abbrev main_c_261 : Ref sig .tc := ⟨.hbm, 1217, rfl⟩
abbrev main_v889 : Ref sig .tc := ⟨.hbm, 1218, rfl⟩
abbrev main_v890 : Ref sig .tc := ⟨.hbm, 1219, rfl⟩
abbrev main_v891 : Ref sig .tc := ⟨.hbm, 1220, rfl⟩
abbrev main_v892 : Ref sig .tc := ⟨.hbm, 1221, rfl⟩
abbrev main_v893 : Ref sig .tc := ⟨.hbm, 1222, rfl⟩
abbrev main_v894 : Ref sig .tc := ⟨.hbm, 1223, rfl⟩
abbrev main_v895 : Ref sig .tc := ⟨.hbm, 1224, rfl⟩
abbrev main_v896 : Ref sig .tc := ⟨.hbm, 1225, rfl⟩
abbrev main_c_262 : Ref sig .tc := ⟨.hbm, 1226, rfl⟩
abbrev main_v897 : Ref sig .tc := ⟨.hbm, 1227, rfl⟩
abbrev main_v898 : Ref sig .tc := ⟨.hbm, 1228, rfl⟩
abbrev main_c_263 : Ref sig .tc := ⟨.hbm, 1229, rfl⟩
abbrev main_v899 : Ref sig .tc := ⟨.hbm, 1230, rfl⟩
abbrev main_v900 : Ref sig .tc := ⟨.hbm, 1231, rfl⟩
abbrev main_v901 : Ref sig .tc := ⟨.hbm, 1232, rfl⟩
abbrev main_c_264 : Ref sig .tc := ⟨.hbm, 1233, rfl⟩
abbrev main_v902 : Ref sig .tc := ⟨.hbm, 1234, rfl⟩
abbrev main_v903 : Ref sig .tc := ⟨.hbm, 1235, rfl⟩
abbrev main_c_265 : Ref sig .tc := ⟨.hbm, 1236, rfl⟩
abbrev main_v904 : Ref sig .tc := ⟨.hbm, 1237, rfl⟩
abbrev main_v905 : Ref sig .tc := ⟨.hbm, 1238, rfl⟩
abbrev main_v906 : Ref sig .tc := ⟨.hbm, 1239, rfl⟩
abbrev main_c_266 : Ref sig .tc := ⟨.hbm, 1240, rfl⟩
abbrev main_v907 : Ref sig .tc := ⟨.hbm, 1241, rfl⟩
abbrev main_v908 : Ref sig .tc := ⟨.hbm, 1242, rfl⟩
abbrev main_c_267 : Ref sig .tc := ⟨.hbm, 1243, rfl⟩
abbrev main_v909 : Ref sig .tc := ⟨.hbm, 1244, rfl⟩
abbrev main_v910 : Ref sig .tc := ⟨.hbm, 1245, rfl⟩
abbrev main_v911 : Ref sig .tc := ⟨.hbm, 1246, rfl⟩
abbrev main_v912 : Ref sig .tc := ⟨.hbm, 1247, rfl⟩
abbrev main_v913 : Ref sig .tc := ⟨.hbm, 1248, rfl⟩
abbrev main_v914 : Ref sig .tc := ⟨.hbm, 1249, rfl⟩
abbrev main_v915 : Ref sig .tc := ⟨.hbm, 1250, rfl⟩
abbrev main_v916 : Ref sig .tc := ⟨.hbm, 1251, rfl⟩
abbrev main_c_268 : Ref sig .tc := ⟨.hbm, 1252, rfl⟩
abbrev main_v917 : Ref sig .tc := ⟨.hbm, 1253, rfl⟩
abbrev main_v918 : Ref sig .tc := ⟨.hbm, 1254, rfl⟩
abbrev main_c_269 : Ref sig .tc := ⟨.hbm, 1255, rfl⟩
abbrev main_v919 : Ref sig .tc := ⟨.hbm, 1256, rfl⟩
abbrev main_v920 : Ref sig .tc := ⟨.hbm, 1257, rfl⟩
abbrev main_v921 : Ref sig .tc := ⟨.hbm, 1258, rfl⟩
abbrev main_c_270 : Ref sig .tc := ⟨.hbm, 1259, rfl⟩
abbrev main_v922 : Ref sig .tc := ⟨.hbm, 1260, rfl⟩
abbrev main_v923 : Ref sig .tc := ⟨.hbm, 1261, rfl⟩
abbrev main_c_271 : Ref sig .tc := ⟨.hbm, 1262, rfl⟩
abbrev main_v924 : Ref sig .tc := ⟨.hbm, 1263, rfl⟩
abbrev main_v925 : Ref sig .tc := ⟨.hbm, 1264, rfl⟩
abbrev main_v926 : Ref sig .tc := ⟨.hbm, 1265, rfl⟩
abbrev main_c_272 : Ref sig .tc := ⟨.hbm, 1266, rfl⟩
abbrev main_v927 : Ref sig .tc := ⟨.hbm, 1267, rfl⟩
abbrev main_v928 : Ref sig .tc := ⟨.hbm, 1268, rfl⟩
abbrev main_c_273 : Ref sig .tc := ⟨.hbm, 1269, rfl⟩
abbrev main_v929 : Ref sig .tc := ⟨.hbm, 1270, rfl⟩
abbrev main_v930 : Ref sig .tc := ⟨.hbm, 1271, rfl⟩
abbrev main_v931 : Ref sig .tc := ⟨.hbm, 1272, rfl⟩
abbrev main_v932 : Ref sig .tc := ⟨.hbm, 1273, rfl⟩
abbrev main_v933 : Ref sig .tc := ⟨.hbm, 1274, rfl⟩
abbrev main_v934 : Ref sig .tc := ⟨.hbm, 1275, rfl⟩
abbrev main_v935 : Ref sig .tc := ⟨.hbm, 1276, rfl⟩
abbrev main_v936 : Ref sig .tc := ⟨.hbm, 1277, rfl⟩
abbrev main_c_274 : Ref sig .tc := ⟨.hbm, 1278, rfl⟩
abbrev main_v937 : Ref sig .tc := ⟨.hbm, 1279, rfl⟩
abbrev main_v938 : Ref sig .tc := ⟨.hbm, 1280, rfl⟩
abbrev main_c_275 : Ref sig .tc := ⟨.hbm, 1281, rfl⟩
abbrev main_v939 : Ref sig .tc := ⟨.hbm, 1282, rfl⟩
abbrev main_v940 : Ref sig .tc := ⟨.hbm, 1283, rfl⟩
abbrev main_v941 : Ref sig .tc := ⟨.hbm, 1284, rfl⟩
abbrev main_c_276 : Ref sig .tc := ⟨.hbm, 1285, rfl⟩
abbrev main_v942 : Ref sig .tc := ⟨.hbm, 1286, rfl⟩
abbrev main_v943 : Ref sig .tc := ⟨.hbm, 1287, rfl⟩
abbrev main_c_277 : Ref sig .tc := ⟨.hbm, 1288, rfl⟩
abbrev main_v944 : Ref sig .tc := ⟨.hbm, 1289, rfl⟩
abbrev main_v945 : Ref sig .tc := ⟨.hbm, 1290, rfl⟩
abbrev main_v946 : Ref sig .tc := ⟨.hbm, 1291, rfl⟩
abbrev main_c_278 : Ref sig .tc := ⟨.hbm, 1292, rfl⟩
abbrev main_v947 : Ref sig .tc := ⟨.hbm, 1293, rfl⟩
abbrev main_v948 : Ref sig .tc := ⟨.hbm, 1294, rfl⟩
abbrev main_c_279 : Ref sig .tc := ⟨.hbm, 1295, rfl⟩
abbrev main_v949 : Ref sig .tc := ⟨.hbm, 1296, rfl⟩
abbrev main_v950 : Ref sig .tc := ⟨.hbm, 1297, rfl⟩
abbrev main_v951 : Ref sig .tc := ⟨.hbm, 1298, rfl⟩
abbrev main_v952 : Ref sig .tc := ⟨.hbm, 1299, rfl⟩
abbrev main_v953 : Ref sig .tc := ⟨.hbm, 1300, rfl⟩
abbrev main_v954 : Ref sig .tc := ⟨.hbm, 1301, rfl⟩
abbrev main_v955 : Ref sig .tc := ⟨.hbm, 1302, rfl⟩
abbrev main_v956 : Ref sig .tc := ⟨.hbm, 1303, rfl⟩
abbrev main_c_280 : Ref sig .tc := ⟨.hbm, 1304, rfl⟩
abbrev main_v957 : Ref sig .tc := ⟨.hbm, 1305, rfl⟩
abbrev main_v958 : Ref sig .tc := ⟨.hbm, 1306, rfl⟩
abbrev main_c_281 : Ref sig .tc := ⟨.hbm, 1307, rfl⟩
abbrev main_v959 : Ref sig .tc := ⟨.hbm, 1308, rfl⟩
abbrev main_v960 : Ref sig .tc := ⟨.hbm, 1309, rfl⟩
abbrev main_v961 : Ref sig .tc := ⟨.hbm, 1310, rfl⟩
abbrev main_c_282 : Ref sig .tc := ⟨.hbm, 1311, rfl⟩
abbrev main_v962 : Ref sig .tc := ⟨.hbm, 1312, rfl⟩
abbrev main_v963 : Ref sig .tc := ⟨.hbm, 1313, rfl⟩
abbrev main_c_283 : Ref sig .tc := ⟨.hbm, 1314, rfl⟩
abbrev main_v964 : Ref sig .tc := ⟨.hbm, 1315, rfl⟩
abbrev main_v965 : Ref sig .tc := ⟨.hbm, 1316, rfl⟩
abbrev main_v966 : Ref sig .tc := ⟨.hbm, 1317, rfl⟩
abbrev main_c_284 : Ref sig .tc := ⟨.hbm, 1318, rfl⟩
abbrev main_v967 : Ref sig .tc := ⟨.hbm, 1319, rfl⟩
abbrev main_v968 : Ref sig .tc := ⟨.hbm, 1320, rfl⟩
abbrev main_c_285 : Ref sig .tc := ⟨.hbm, 1321, rfl⟩
abbrev main_v969 : Ref sig .tc := ⟨.hbm, 1322, rfl⟩
abbrev main_v970 : Ref sig .tc := ⟨.hbm, 1323, rfl⟩
abbrev main_v971 : Ref sig .tc := ⟨.hbm, 1324, rfl⟩
abbrev main_v972 : Ref sig .tc := ⟨.hbm, 1325, rfl⟩
abbrev main_v973 : Ref sig .tc := ⟨.hbm, 1326, rfl⟩
abbrev main_v974 : Ref sig .tc := ⟨.hbm, 1327, rfl⟩
abbrev main_v975 : Ref sig .tc := ⟨.hbm, 1328, rfl⟩
abbrev main_v976 : Ref sig .tc := ⟨.hbm, 1329, rfl⟩
abbrev main_c_286 : Ref sig .tc := ⟨.hbm, 1330, rfl⟩
abbrev main_v977 : Ref sig .tc := ⟨.hbm, 1331, rfl⟩
abbrev main_v978 : Ref sig .tc := ⟨.hbm, 1332, rfl⟩
abbrev main_c_287 : Ref sig .tc := ⟨.hbm, 1333, rfl⟩
abbrev main_v979 : Ref sig .tc := ⟨.hbm, 1334, rfl⟩
abbrev main_v980 : Ref sig .tc := ⟨.hbm, 1335, rfl⟩
abbrev main_v981 : Ref sig .tc := ⟨.hbm, 1336, rfl⟩
abbrev main_c_288 : Ref sig .tc := ⟨.hbm, 1337, rfl⟩
abbrev main_v982 : Ref sig .tc := ⟨.hbm, 1338, rfl⟩
abbrev main_v983 : Ref sig .tc := ⟨.hbm, 1339, rfl⟩
abbrev main_c_289 : Ref sig .tc := ⟨.hbm, 1340, rfl⟩
abbrev main_v984 : Ref sig .tc := ⟨.hbm, 1341, rfl⟩
abbrev main_v985 : Ref sig .tc := ⟨.hbm, 1342, rfl⟩
abbrev main_v986 : Ref sig .tc := ⟨.hbm, 1343, rfl⟩
abbrev main_c_290 : Ref sig .tc := ⟨.hbm, 1344, rfl⟩
abbrev main_v987 : Ref sig .tc := ⟨.hbm, 1345, rfl⟩
abbrev main_v988 : Ref sig .tc := ⟨.hbm, 1346, rfl⟩
abbrev main_c_291 : Ref sig .tc := ⟨.hbm, 1347, rfl⟩
abbrev main_v989 : Ref sig .tc := ⟨.hbm, 1348, rfl⟩
abbrev main_v990 : Ref sig .tc := ⟨.hbm, 1349, rfl⟩
abbrev main_v991 : Ref sig .tc := ⟨.hbm, 1350, rfl⟩
abbrev main_v992 : Ref sig .tc := ⟨.hbm, 1351, rfl⟩
abbrev main_v993 : Ref sig .tc := ⟨.hbm, 1352, rfl⟩
abbrev main_v994 : Ref sig .tc := ⟨.hbm, 1353, rfl⟩
abbrev main_v995 : Ref sig .tc := ⟨.hbm, 1354, rfl⟩
abbrev main_v996 : Ref sig .tc := ⟨.hbm, 1355, rfl⟩
abbrev main_c_292 : Ref sig .tc := ⟨.hbm, 1356, rfl⟩
abbrev main_v997 : Ref sig .tc := ⟨.hbm, 1357, rfl⟩
abbrev main_v998 : Ref sig .tc := ⟨.hbm, 1358, rfl⟩
abbrev main_c_293 : Ref sig .tc := ⟨.hbm, 1359, rfl⟩
abbrev main_v999 : Ref sig .tc := ⟨.hbm, 1360, rfl⟩
abbrev main_v1000 : Ref sig .tc := ⟨.hbm, 1361, rfl⟩
abbrev main_v1001 : Ref sig .tc := ⟨.hbm, 1362, rfl⟩
abbrev main_c_294 : Ref sig .tc := ⟨.hbm, 1363, rfl⟩
abbrev main_v1002 : Ref sig .tc := ⟨.hbm, 1364, rfl⟩
abbrev main_v1003 : Ref sig .tc := ⟨.hbm, 1365, rfl⟩
abbrev main_c_295 : Ref sig .tc := ⟨.hbm, 1366, rfl⟩
abbrev main_v1004 : Ref sig .tc := ⟨.hbm, 1367, rfl⟩
abbrev main_v1005 : Ref sig .tc := ⟨.hbm, 1368, rfl⟩
abbrev main_v1006 : Ref sig .tc := ⟨.hbm, 1369, rfl⟩
abbrev main_c_296 : Ref sig .tc := ⟨.hbm, 1370, rfl⟩
abbrev main_v1007 : Ref sig .tc := ⟨.hbm, 1371, rfl⟩
abbrev main_v1008 : Ref sig .tc := ⟨.hbm, 1372, rfl⟩
abbrev main_c_297 : Ref sig .tc := ⟨.hbm, 1373, rfl⟩
abbrev main_v1009 : Ref sig .tc := ⟨.hbm, 1374, rfl⟩
abbrev main_v1010 : Ref sig .tc := ⟨.hbm, 1375, rfl⟩
abbrev main_v1011 : Ref sig .tc := ⟨.hbm, 1376, rfl⟩
abbrev main_v1012 : Ref sig .tc := ⟨.hbm, 1377, rfl⟩
abbrev main_v1013 : Ref sig .tc := ⟨.hbm, 1378, rfl⟩
abbrev main_v1014 : Ref sig .tc := ⟨.hbm, 1379, rfl⟩
abbrev main_v1015 : Ref sig .tc := ⟨.hbm, 1380, rfl⟩
abbrev main_v1016 : Ref sig .tc := ⟨.hbm, 1381, rfl⟩
abbrev main_v1017 : Ref sig .tc := ⟨.hbm, 1382, rfl⟩
abbrev main_v1018 : Ref sig .tc := ⟨.hbm, 1383, rfl⟩
abbrev main_v1019 : Ref sig .tc := ⟨.hbm, 1384, rfl⟩
abbrev main_v1020 : Ref sig .tc := ⟨.hbm, 1385, rfl⟩
abbrev main_v1021 : Ref sig .tc := ⟨.hbm, 1386, rfl⟩
abbrev main_v1022 : Ref sig .tc := ⟨.hbm, 1387, rfl⟩
abbrev main_v1023 : Ref sig .tc := ⟨.hbm, 1388, rfl⟩
abbrev main_v1024 : Ref sig .tc := ⟨.hbm, 1389, rfl⟩
abbrev main_v1025 : Ref sig .tc := ⟨.hbm, 1390, rfl⟩
abbrev main_v1026 : Ref sig .tc := ⟨.hbm, 1391, rfl⟩
abbrev main_v1027 : Ref sig .tc := ⟨.hbm, 1392, rfl⟩
abbrev main_v1028 : Ref sig .tc := ⟨.hbm, 1393, rfl⟩
abbrev main_v1029 : Ref sig .tc := ⟨.hbm, 1394, rfl⟩
abbrev main_v1030 : Ref sig .tc := ⟨.hbm, 1395, rfl⟩
abbrev main_v1031 : Ref sig .tc := ⟨.hbm, 1396, rfl⟩
abbrev main_v1032 : Ref sig .tc := ⟨.hbm, 1397, rfl⟩
abbrev main_v1033 : Ref sig .tc := ⟨.hbm, 1398, rfl⟩
abbrev main_v1034 : Ref sig .tc := ⟨.hbm, 1399, rfl⟩
abbrev main_v1035 : Ref sig .tc := ⟨.hbm, 1400, rfl⟩
abbrev main_v1036 : Ref sig .tc := ⟨.hbm, 1401, rfl⟩
abbrev main_v1037 : Ref sig .tc := ⟨.hbm, 1402, rfl⟩
abbrev main_v1038 : Ref sig .tc := ⟨.hbm, 1403, rfl⟩
abbrev main_v1039 : Ref sig .tc := ⟨.hbm, 1404, rfl⟩
abbrev main_v1040 : Ref sig .tc := ⟨.hbm, 1405, rfl⟩
abbrev main_v1041 : Ref sig .tc := ⟨.hbm, 1406, rfl⟩
abbrev main_v1042 : Ref sig .tc := ⟨.hbm, 1407, rfl⟩
abbrev main_v1043 : Ref sig .tc := ⟨.hbm, 1408, rfl⟩
abbrev main_v1044 : Ref sig .tc := ⟨.hbm, 1409, rfl⟩
abbrev main_v1045 : Ref sig .tc := ⟨.hbm, 1410, rfl⟩
abbrev main_v1046 : Ref sig .tc := ⟨.hbm, 1411, rfl⟩
abbrev main_v1047 : Ref sig .tc := ⟨.hbm, 1412, rfl⟩
abbrev main_v1048 : Ref sig .tc := ⟨.hbm, 1413, rfl⟩
abbrev main_v1049 : Ref sig .tc := ⟨.hbm, 1414, rfl⟩
abbrev main_v1050 : Ref sig .tc := ⟨.hbm, 1415, rfl⟩
abbrev main_v1051 : Ref sig .tc := ⟨.hbm, 1416, rfl⟩
abbrev main_v1052 : Ref sig .tc := ⟨.hbm, 1417, rfl⟩
abbrev main_v1053 : Ref sig .tc := ⟨.hbm, 1418, rfl⟩

abbrev nD : Nat := 1
abbrev τ : Topo := Topo.v7x

variable {F : FTy → Type} [FloatOps F]

class Facts₀ : Prop where
  shapeCasts_S1x1x1x1048576x3_S1048576x3 : S1x1x1x1048576x3.ShapeCasts S1048576x3
  shapeCasts_S1x4x32x32x32_S4x32x32x32 : S1x4x32x32x32.ShapeCasts S4x32x32x32
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576_S1x1048576_1 : S1048576.BroadcastsInDim S1x1048576 (![1] : Fin 1 → Fin S1x1048576.rank)
  bcast_S1x1048576_S4x1048576_0_1 : S1x1048576.BroadcastsInDim S4x1048576 (![0, 1] : Fin 2 → Fin S4x1048576.rank)
  shapeCasts_S4x1048576_S1x4x1x1x1048576 : S4x1048576.ShapeCasts S1x4x1x1x1048576
  shapeCasts_S1x4x64x64x64_S4x64x64x64 : S1x4x64x64x64.ShapeCasts S4x64x64x64
  shapeCasts_S1x4x128x128x128_S4x128x128x128 : S1x4x128x128x128.ShapeCasts S4x128x128x128
  shapeCasts_S1x4x256x256x256_S4x256x256x256 : S1x4x256x256x256.ShapeCasts S4x256x256x256
  concatenates_S1x4x1x1x1048576_S1x4x1x1x1048576_S1x4x1x1x1048576_S1x4x1x1x1048576_S1x16x1x1x1048576_d1 : Shape.Concatenates [S1x4x1x1x1048576, S1x4x1x1x1048576, S1x4x1x1x1048576, S1x4x1x1x1048576] S1x16x1x1x1048576 1
  gather_S4x32x32x32_S1048576x3_S4x1048576_0_123_n_n_123_1_4111_wf : GatherDims.WF S4x32x32x32 S1048576x3 S4x1048576 [0] [1, 2, 3] [] [1, 2, 3] [] 1 ![4, 1, 1, 1]
  gather_S4x64x64x64_S1048576x3_S4x1048576_0_123_n_n_123_1_4111_wf : GatherDims.WF S4x64x64x64 S1048576x3 S4x1048576 [0] [1, 2, 3] [] [1, 2, 3] [] 1 ![4, 1, 1, 1]
  gather_S4x128x128x128_S1048576x3_S4x1048576_0_123_n_n_123_1_4111_wf : GatherDims.WF S4x128x128x128 S1048576x3 S4x1048576 [0] [1, 2, 3] [] [1, 2, 3] [] 1 ![4, 1, 1, 1]
  gather_S4x256x256x256_S1048576x3_S4x1048576_0_123_n_n_123_1_4111_wf : GatherDims.WF S4x256x256x256 S1048576x3 S4x1048576 [0] [1, 2, 3] [] [1, 2, 3] [] 1 ![4, 1, 1, 1]

variable [Facts₀]

def gather_S4x32x32x32_S1048576x3_S4x1048576_0_123_n_n_123_1_4111 : GatherDims S4x32x32x32 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x32x32x32_S1048576x3_S4x1048576_0_123_n_n_123_1_4111_wf
def gather_S4x64x64x64_S1048576x3_S4x1048576_0_123_n_n_123_1_4111 : GatherDims S4x64x64x64 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x64x64x64_S1048576x3_S4x1048576_0_123_n_n_123_1_4111_wf
def gather_S4x128x128x128_S1048576x3_S4x1048576_0_123_n_n_123_1_4111 : GatherDims S4x128x128x128 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x128x128x128_S1048576x3_S4x1048576_0_123_n_n_123_1_4111_wf
def gather_S4x256x256x256_S1048576x3_S4x1048576_0_123_n_n_123_1_4111 : GatherDims S4x256x256x256 S1048576x3 S4x1048576 where
  offsetDims := [0]
  collapsedSliceDims := [1, 2, 3]
  operandBatchingDims := []
  startIndicesBatchingDims := []
  startIndexMap := [1, 2, 3]
  indexVectorDim := 1
  sliceSizes := ![4, 1, 1, 1]
  wf := gather_S4x256x256x256_S1048576x3_S4x1048576_0_123_n_n_123_1_4111_wf

class Facts : Prop extends Facts₀ where

variable [Facts]
-- ==== Proof.KOut.lean ====
/- The body's stored block as a pure function of its five loaded blocks. -/
import proofs.«421879_j36455682409092_3_alg».proof.Proof.Gen.Kernel.Skeleton
import Idealize.ShloMosaic.Lib.Pipeline.FrameBody

noncomputable section

namespace Cert.Kernel.Hand

open Idealize.ShloMosaic Idealize.ShloMosaic.TcCoe Cert.Kernel Cert.Kernel.Gen

variable {F : FTy → Type} [FloatOps F]

abbrev r3 : Rect S3x65536 := Rect.unit (s := S3x65536) ![0, 0] S3x65536.size inb_S3x65536_S3x65536_0_0
abbrev r8 : Rect S8x65536 := Rect.unit (s := S8x65536) ![0, 0] S8x65536.size inb_S8x65536_S8x65536_0_0
abbrev r4 : Rect S4x65536 := Rect.unit (s := S4x65536) ![0, 0] S4x65536.size inb_S4x65536_S4x65536_0_0

def pay5 (x0 : Vec F S3x65536 .f32) (x1 x2 x3 x4 : Vec F S8x65536 .f32) : FVec F S4x65536 .f32 :=
  let v0 := View.ld x0 r3
  let v2 := k0_pay3 v0
  let v3 := k0_pay4 v0
  let v4 := k0_pay5 v0
  let v33 := k0_pay6 v0
  let v34 := k0_pay7 v0
  let v40 := k0_pay8 v0
  let v41 := k0_pay9 v0
  let cst_14 : F .f32 := Scalar.ofBits .f32 0x40000000#32
  let v83 := k0_pay10 v33 v34 v40 v41 cst_14 (View.ld x1 r8)
  let v91 := k0_pay11 v2
  let cst_24 : F .f32 := Scalar.ofBits .f32 0x41FC0000#32
  let v132 := View.ld x2 r8
  let v119 := k0_pay12 v91
  let v125 := k0_pay13 v3 cst_24
  let v131 := k0_pay14 v4
  let v162 := k0_pay19 v119 v125 v131 (k0_pay15 v132) (k0_pay16 v132) (k0_pay17 v132) (k0_pay18 v132)
  let v170 := k0_pay20 v2
  let v178 := k0_pay21 v3
  let cst_51 : F .f32 := Scalar.ofBits .f32 0x42FE0000#32
  let v184 := k0_pay22 v4
  let v211 := View.ld x3 r8
  let v241 := k0_pay30 (k0_pay24 v178) (k0_pay25 cst_51 v184) (k0_pay27 v170 v211) (k0_pay28 v170 v178 v211) (k0_pay29 v170 v211)
  let cst_75 : F .f32 := Scalar.ofBits .f32 0x40400000#32
  k0_pay1 v83 v162 v241 (k0_pay32 v4) (k0_pay33 v2) (k0_pay34 v3) (k0_pay35 v3) cst_75 (View.ld x4 r8)

def out5 (x0 : Vec F S3x65536 .f32) (x1 x2 x3 x4 : Vec F S8x65536 .f32) : Vec F S4x65536 .f32 :=
  View.canon [⟨r4, pay5 x0 x1 x2 x3 x4⟩]

end Cert.Kernel.Hand

end
-- ==== Proof.KFrame.lean ====
/- Every execution of the program terminates without a fault, the region's output array is the blocks' cover, and every argument ends as launched. -/
import proofs.«421879_j36455682409092_3_alg».proof.Proof.Gen.Kernel.Launch
import proofs.«421879_j36455682409092_3_alg».proof.Proof.Gen.Kernel.Skeleton
import proofs.«421879_j36455682409092_3_alg».proof.Proof.Gen.Kernel.Points
import proofs.«421879_j36455682409092_3_alg».proof.Proof.KOut
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b))

abbrev V (c : Dev nD) (b : Ref sig .tc) : Buf (Elt F) ((c : Thread nD τ).loc b) := V0 m c (Proc.devRef .tc b)

abbrev argRefs : List (Ref sig .tc) := [main_arg0, main_arg1, main_arg2, main_arg3, main_arg4]

theorem argRefs_ne : ∀ b ∈ argRefs, b.isScoped = false ∧ ∀ w, Pipeline.arrRef spec0 w ≠ b := by decide

set_option maxHeartbeats 2000000 in
/- An argument is no window's array, and no host operation before or after the region writes it. -/
theorem W_arg (dats : (p : Fin _) → (c : Dev nD) → Dat τ (Elt F) Unit ℕ (UR sig nD τ) ℕ (cfgs p) c) (c : Dev nD) :
    ∀ b ∈ argRefs, Pipeline.afterTail₀ cfgs dats 0 (V0 m) [hostOps1] c b = m ((c : Thread nD τ).loc b) := by
  intro b hb
  unfold Pipeline.afterTail₀
  rw [StableHlo.after_of_forall_not_mem _ _ (List.forall_iff_forall_mem.mp ?_), Pipeline.withArrays_of_ne _ c _ _ b (argRefs_ne b hb).2]
  refine StableHlo.after_of_forall_not_mem _ _ (List.forall_iff_forall_mem.mp ?_)
  all_goals
    simp only [List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact fun h => absurd (Proc.devRef_injective _ h ▸ hb) (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c _ (by decide)

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c _ (by decide)

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c _ (by decide)

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c _ (by decide)

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem sound_kernel (c : Dev nD) (E : Set ℕ) (i : grid0.Coords)
    (arg1 : Memref sig .tc .vmem S3x65536 .f32) (harg1 : arg1.IsWhole)
    (arg2 : Memref sig .tc .vmem S8x65536 .f32) (harg2 : arg2.IsWhole)
    (arg3 : Memref sig .tc .vmem S8x65536 .f32) (harg3 : arg3.IsWhole)
    (arg4 : Memref sig .tc .vmem S8x65536 .f32) (harg4 : arg4.IsWhole)
    (arg5 : Memref sig .tc .vmem S8x65536 .f32) (harg5 : arg5.IsWhole)
    (arg6 : Memref sig .tc .vmem S4x65536 .f32) (harg6 : arg6.IsWhole)
    (x0 : Vec F S3x65536 .f32) (x1 x2 x3 x4 : Vec F S8x65536 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__lambda_ i arg1 harg1 arg2 harg2 arg3 harg3 arg4 harg4 arg5 harg5 arg6 harg6) K := by
  simp only [cc0__lambda__eq_skeleton]; unfold cc0__lambda__skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r4, _⟩] S4x65536.size (by rfl))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem after0_5 (c : Dev nD) (t : Fin cfg0.N) : (dats m 0 c).after 5 t
    = out5 (iblk m c 0 t) (iblk m c 1 t) (iblk m c 2 t) (iblk m c 3 t) (iblk m c 4 t) := by dsimp only [dats]

theorem before0_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
    ∧ (∀ d, (dats m 0 c).before 3 t d = iblk m c 3 t) ∧ (∀ d, (dats m 0 c).before 4 t d = iblk m c 4 t) := by
  refine ⟨?_, ?_, ?_, ?_, ?_⟩ <;> exact fun d => ((dats m 0 c).before_in_eq_fetched _ rfl (fun _ => rfl) (fun _ _ _ => rfl)
    (fun t => by dsimp only [dats, Dat.blockOf, iblk]) t d).trans (by dsimp only [dats, Dat.fetched, Dat.blockOf, iblk]; rfl)

theorem body_obligation (c : Dev nD) : BodyObligation (dats (F := F) m 0 c) (defs₀ (F := F)) Variants.none () Set.univ := fun t => by
  rw [bigSep_W0, bigSep_W0]
  change _ ⊢ wp _ _ _ (bodyAt0 t) _
  unfold bodyAt0
  simp only [show ∀ w i, cfg0.idle w i = false from fun _ _ => rfl, before0_in m c t,
    show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  iframe H0 H1 H2 H3 H4
  isplitl [H5]; · iexists _; iexact H5
  iintro ⟨H0, H1, H2, H3, H4, H5⟩
  iframe

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := List.forall_mem_singleton.mpr fun op hop =>
      Pipeline.tailRefs_none spec0 launch0.win.arr_unscoped ▸ Pipeline.sub_ucRefs op (List.forall_iff_forall_mem.mp hostOps1_sub op hop))
    (hfresh := List.forall_mem_singleton.mpr (List.forall_iff_forall_mem.mp (by simp only [List.Forall]; repeat' constructor)))
    (hkeep := List.forall_mem_singleton.mpr (List.forall_iff_forall_mem.mp (by
      simp only [List.Forall, StableHlo.unary_writes, StableHlo.reshape_writes, Finset.mem_singleton]
      repeat' apply And.intro
      all_goals exact fun w => StableHlo.devRef_ne_of_ne ((by decide : ∀ w, Pipeline.arrRef spec0 w ≠ _) w))))
    (hmain := Pipeline.hmain_around cfgs 0 defs₀ _ m main _ [hostOps1]
      (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
      (by simp only [List.Forall]; repeat' constructor) main_chain)
    (hA := fun _ _ => rfl) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have k : ∀ b ∈ argRefs, r.2.mem ((c.tc : Thread nD τ).loc b) = m ((c.tc : Thread nD τ).loc b) := fun b hb =>
      ((h c).2 b (Pipeline.mem_restRefs_of b (argRefs_ne b hb).1 (argRefs_ne b hb).2)).trans (W_arg m (dats m) c b hb)
    ⟨k _ (by decide), k _ (by decide), k _ (by decide), k _ (by decide), k _ (by decide)⟩)
    (run_main m ρ)

end Cert.Kernel.Hand

end
-- ==== Proof.KIOut.lean ====
/- The body's stored block as a pure function of its five loaded blocks. -/
import proofs.«421879_j36455682409092_3_alg».proof.Proof.Gen.KernelIdeal.Skeleton
import Idealize.ShloMosaic.Lib.Pipeline.FrameBody

noncomputable section

namespace Cert.KernelIdeal.Hand

open Idealize.ShloMosaic Idealize.ShloMosaic.TcCoe Cert.KernelIdeal Cert.KernelIdeal.Gen

variable {F : FTy → Type} [FloatOps F]

abbrev r3 : Rect S3x65536 := Rect.unit (s := S3x65536) ![0, 0] S3x65536.size inb_S3x65536_S3x65536_0_0
abbrev r8 : Rect S8x65536 := Rect.unit (s := S8x65536) ![0, 0] S8x65536.size inb_S8x65536_S8x65536_0_0
abbrev r4 : Rect S4x65536 := Rect.unit (s := S4x65536) ![0, 0] S4x65536.size inb_S4x65536_S4x65536_0_0

def pay5 (x0 : Vec F S3x65536 .f32) (x1 x2 x3 x4 : Vec F S8x65536 .f32) : FVec F S4x65536 .f32 :=
  let v0 := View.ld x0 r3
  let v2 := k0_pay3 v0
  let v3 := k0_pay4 v0
  let v4 := k0_pay5 v0
  let v33 := k0_pay6 v0
  let v34 := k0_pay7 v0
  let v40 := k0_pay8 v0
  let v41 := k0_pay9 v0
  let cst_14 : F .f32 := Scalar.ofBits .f32 0x40000000#32
  let v83 := k0_pay10 v33 v34 v40 v41 cst_14 (View.ld x1 r8)
  let v91 := k0_pay11 v2
  let cst_24 : F .f32 := Scalar.ofBits .f32 0x41FC0000#32
  let v132 := View.ld x2 r8
  let v119 := k0_pay12 v91
  let v125 := k0_pay13 v3 cst_24
  let v131 := k0_pay14 v4
  let v162 := k0_pay19 v119 v125 v131 (k0_pay15 v132) (k0_pay16 v132) (k0_pay17 v132) (k0_pay18 v132)
  let v170 := k0_pay20 v2
  let v178 := k0_pay21 v3
  let cst_51 : F .f32 := Scalar.ofBits .f32 0x42FE0000#32
  let v184 := k0_pay22 v4
  let v211 := View.ld x3 r8
  let v241 := k0_pay30 (k0_pay24 v178) (k0_pay25 cst_51 v184) (k0_pay27 v170 v211) (k0_pay28 v170 v178 v211) (k0_pay29 v170 v211)
  let cst_75 : F .f32 := Scalar.ofBits .f32 0x40400000#32
  k0_pay1 v83 v162 v241 (k0_pay32 v4) (k0_pay33 v2) (k0_pay34 v3) (k0_pay35 v3) cst_75 (View.ld x4 r8)

def out5 (x0 : Vec F S3x65536 .f32) (x1 x2 x3 x4 : Vec F S8x65536 .f32) : Vec F S4x65536 .f32 :=
  View.canon [⟨r4, pay5 x0 x1 x2 x3 x4⟩]

end Cert.KernelIdeal.Hand

end
-- ==== Proof.KIFrame.lean ====
/- Every execution of the program terminates without a fault, the region's output array is the blocks' cover, and every argument ends as launched. -/
import proofs.«421879_j36455682409092_3_alg».proof.Proof.Gen.KernelIdeal.Launch
import proofs.«421879_j36455682409092_3_alg».proof.Proof.Gen.KernelIdeal.Skeleton
import proofs.«421879_j36455682409092_3_alg».proof.Proof.Gen.KernelIdeal.Points
import proofs.«421879_j36455682409092_3_alg».proof.Proof.KIOut
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b))

abbrev V (c : Dev nD) (b : Ref sig .tc) : Buf (Elt F) ((c : Thread nD τ).loc b) := V0 m c (Proc.devRef .tc b)

abbrev argRefs : List (Ref sig .tc) := [main_arg0, main_arg1, main_arg2, main_arg3, main_arg4]

theorem argRefs_ne : ∀ b ∈ argRefs, b.isScoped = false ∧ ∀ w, Pipeline.arrRef spec0 w ≠ b := by decide

set_option maxHeartbeats 2000000 in
/- An argument is no window's array, and no host operation before or after the region writes it. -/
theorem W_arg (dats : (p : Fin _) → (c : Dev nD) → Dat τ (Elt F) Unit ℕ (UR sig nD τ) ℕ (cfgs p) c) (c : Dev nD) :
    ∀ b ∈ argRefs, Pipeline.afterTail₀ cfgs dats 0 (V0 m) [hostOps1] c b = m ((c : Thread nD τ).loc b) := by
  intro b hb
  unfold Pipeline.afterTail₀
  rw [StableHlo.after_of_forall_not_mem _ _ (List.forall_iff_forall_mem.mp ?_), Pipeline.withArrays_of_ne _ c _ _ b (argRefs_ne b hb).2]
  refine StableHlo.after_of_forall_not_mem _ _ (List.forall_iff_forall_mem.mp ?_)
  all_goals
    simp only [List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact fun h => absurd (Proc.devRef_injective _ h ▸ hb) (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c _ (by decide)

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c _ (by decide)

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c _ (by decide)

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c _ (by decide)

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem sound_kernel (c : Dev nD) (E : Set ℕ) (i : grid0.Coords)
    (arg1 : Memref sig .tc .vmem S3x65536 .f32) (harg1 : arg1.IsWhole)
    (arg2 : Memref sig .tc .vmem S8x65536 .f32) (harg2 : arg2.IsWhole)
    (arg3 : Memref sig .tc .vmem S8x65536 .f32) (harg3 : arg3.IsWhole)
    (arg4 : Memref sig .tc .vmem S8x65536 .f32) (harg4 : arg4.IsWhole)
    (arg5 : Memref sig .tc .vmem S8x65536 .f32) (harg5 : arg5.IsWhole)
    (arg6 : Memref sig .tc .vmem S4x65536 .f32) (harg6 : arg6.IsWhole)
    (x0 : Vec F S3x65536 .f32) (x1 x2 x3 x4 : Vec F S8x65536 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__lambda_ i arg1 harg1 arg2 harg2 arg3 harg3 arg4 harg4 arg5 harg5 arg6 harg6) K := by
  simp only [cc0__lambda__eq_skeleton]; unfold cc0__lambda__skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨r4, _⟩] S4x65536.size (by rfl))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem after0_5 (c : Dev nD) (t : Fin cfg0.N) : (dats m 0 c).after 5 t
    = out5 (iblk m c 0 t) (iblk m c 1 t) (iblk m c 2 t) (iblk m c 3 t) (iblk m c 4 t) := by dsimp only [dats]

theorem before0_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
    ∧ (∀ d, (dats m 0 c).before 3 t d = iblk m c 3 t) ∧ (∀ d, (dats m 0 c).before 4 t d = iblk m c 4 t) := by
  refine ⟨?_, ?_, ?_, ?_, ?_⟩ <;> exact fun d => ((dats m 0 c).before_in_eq_fetched _ rfl (fun _ => rfl) (fun _ _ _ => rfl)
    (fun t => by dsimp only [dats, Dat.blockOf, iblk]) t d).trans (by dsimp only [dats, Dat.fetched, Dat.blockOf, iblk]; rfl)

theorem body_obligation (c : Dev nD) : BodyObligation (dats (F := F) m 0 c) (defs₀ (F := F)) Variants.none () Set.univ := fun t => by
  rw [bigSep_W0, bigSep_W0]
  change _ ⊢ wp _ _ _ (bodyAt0 t) _
  unfold bodyAt0
  simp only [show ∀ w i, cfg0.idle w i = false from fun _ _ => rfl, before0_in m c t,
    show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  iframe H0 H1 H2 H3 H4
  isplitl [H5]; · iexists _; iexact H5
  iintro ⟨H0, H1, H2, H3, H4, H5⟩
  iframe

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := List.forall_mem_singleton.mpr fun op hop =>
      Pipeline.tailRefs_none spec0 launch0.win.arr_unscoped ▸ Pipeline.sub_ucRefs op (List.forall_iff_forall_mem.mp hostOps1_sub op hop))
    (hfresh := List.forall_mem_singleton.mpr (List.forall_iff_forall_mem.mp (by simp only [List.Forall]; repeat' constructor)))
    (hkeep := List.forall_mem_singleton.mpr (List.forall_iff_forall_mem.mp (by
      simp only [List.Forall, StableHlo.unary_writes, StableHlo.reshape_writes, Finset.mem_singleton]
      repeat' apply And.intro
      all_goals exact fun w => StableHlo.devRef_ne_of_ne ((by decide : ∀ w, Pipeline.arrRef spec0 w ≠ _) w))))
    (hmain := Pipeline.hmain_around cfgs 0 defs₀ _ m main _ [hostOps1]
      (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
      (by simp only [List.Forall]; repeat' constructor) main_chain)
    (hA := fun _ _ => rfl) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have k : ∀ b ∈ argRefs, r.2.mem ((c.tc : Thread nD τ).loc b) = m ((c.tc : Thread nD τ).loc b) := fun b hb =>
      ((h c).2 b (Pipeline.mem_restRefs_of b (argRefs_ne b hb).1 (argRefs_ne b hb).2)).trans (W_arg m (dats m) c b hb)
    ⟨k _ (by decide), k _ (by decide), k _ (by decide), k _ (by decide), k _ (by decide)⟩)
    (run_main m ρ)

end Cert.KernelIdeal.Hand

end
-- ==== Proof.Spec.lean ====
/- The scalar mathematics both programs share: the clipped voxel coordinate, the cell and its upper neighbour, the smoothstep weight t²(3 - 2t), and the trilinear interpolation as seven one-dimensional ones. -/
import Idealize.ShloMosaic.PureOps.Ideal
import Idealize.ShloMosaic.Lib.ValueIdx

noncomputable section

namespace Cert.Spec

open Idealize.ShloMosaic Idealize.ShloMosaic.ValueIdx

variable {F : FTy → Type} [FloatOps F]

abbrev lit (b : BitVec 32) : F .f32 := FloatOps.ofBits .f32 b

def coordK (s lo hi p : F .f32) : F .f32 :=
  FloatOps.minimumf hi (FloatOps.maximumf lo (FloatOps.addf (FloatOps.mulf p s) s))

def coordR (one half d lo hi p : F .f32) : F .f32 :=
  FloatOps.minimumf hi (FloatOps.maximumf lo (FloatOps.mulf (FloatOps.mulf (FloatOps.addf p one) half) d))

def weight (two three u f : F .f32) : F .f32 :=
  FloatOps.mulf (FloatOps.mulf (FloatOps.subf u f) (FloatOps.subf u f))
    (FloatOps.subf three (FloatOps.mulf two (FloatOps.subf u f)))

def lerp (a b w : F .f32) : F .f32 := FloatOps.addf a (FloatOps.mulf (FloatOps.subf b a) w)

def tri (c000 c001 c010 c011 c100 c101 c110 c111 wx wy wz : F .f32) : F .f32 :=
  lerp (lerp (lerp c000 c001 wx) (lerp c010 c011 wx) wy) (lerp (lerp c100 c101 wx) (lerp c110 c111 wx) wy) wz

def cell0 (u : F .f32) : BitVec 32 := FloatOps.fptosi 32 (FloatOps.hostUnary .floor u)

def cell1 (dm1 : BitVec 32) (i : BitVec 32) : BitVec 32 := IntOp.minsi (IntOp.addi i 1#32) dm1

def cidx (D : Nat) (hD : 0 < D) (w : BitVec 32) : Fin D := ⟨min w.toInt.toNat (D - 1), by omega⟩

def volAt {α : Type} (D : Nat) (hD : 0 < D) (vol : (⟨5, ![1, 4, D, D, D]⟩ : Shape).Idx → α) (ch : Fin 4) (wz wy wx : BitVec 32) : α :=
  vol (ix5 (0 : Fin 1) ch (cidx D hD wz) (cidx D hD wy) (cidx D hD wx))

def cellSel (dm1 : BitVec 32) (upper : Bool) (u : F .f32) : BitVec 32 :=
  if upper then cell1 dm1 (cell0 u) else cell0 u

def corner {α : Type} (D : Nat) (hD : 0 < D) (dm1 : BitVec 32) (vol : (⟨5, ![1, 4, D, D, D]⟩ : Shape).Idx → α) (ch : Fin 4)
    (k : Fin 8) (ux uy uz : F .f32) : α :=
  volAt D hD vol ch (cellSel dm1 (decide (k.val / 4 % 2 = 1)) uz) (cellSel dm1 (decide (k.val / 2 % 2 = 1)) uy)
    (cellSel dm1 (decide (k.val % 2 = 1)) ux)

def sampleC (two three : F .f32) (fl : F .f32 → F .f32) (c : Fin 8 → F .f32) (ux uy uz : F .f32) : F .f32 :=
  tri (c 0) (c 1) (c 2) (c 3) (c 4) (c 5) (c 6) (c 7)
    (weight two three ux (fl ux)) (weight two three uy (fl uy)) (weight two three uz (fl uz))

def sample {D : Nat} (hD : 0 < D) (dm1 : BitVec 32) (two three : F .f32) (fl : F .f32 → F .f32)
    (vol : (⟨5, ![1, 4, D, D, D]⟩ : Shape).Idx → F .f32) (ch : Fin 4) (ux uy uz : F .f32) : F .f32 :=
  sampleC two three fl (fun k => corner D hD dm1 vol ch k ux uy uz) ux uy uz

end Cert.Spec

end
-- ==== Proof.KBody.lean ====
/- Row v of the body's stored block at a lane is the trilinear interpolation, with smoothstep weights, of the lane's eight corner entries of volume v. -/
import proofs.«421879_j36455682409092_3_alg».proof.Proof.KIOut
import proofs.«421879_j36455682409092_3_alg».proof.Proof.Spec
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx Cert.KernelIdeal Cert.KernelIdeal.Gen

variable {F : FTy → Type} [FloatOps F]

theorem kbody_zeros : (![0, 0] : Fin 2 → Nat) = fun _ => 0 := funext fun a => by fin_cases a <;> rfl

theorem kbody_row_slice {α : Type} {m : Nat} (k : Nat) (v : (⟨2, ![m, 65536]⟩ : Shape).Idx → α)
    (h : (⟨2, ![m, 65536]⟩ : Shape).Slices ![k, 0] S1x65536) (j : Fin 65536) :
    extractStridedSlice S1x65536 ![k, 0] v h (ix2 (0 : Fin 1) j)
      = v (ix2 (⟨k, by have h0 := h.2 (0 : Fin 2); change k + 1 ≤ m at h0; omega⟩ : Fin m) j) :=
  extractStridedSlice_apply _ v h _ _ fun a => match a with
    | ⟨0, _⟩ => by show k = k + 0; omega
    | ⟨1, _⟩ => by show j.val = 0 + j.val; omega

/- Row v of four stacked one-row arrays is the v-th of them. -/
theorem kbody_stack_row {α : Type} (a b c d : S1x65536.Idx → α)
    (h : Shape.Concatenates [S1x65536, S1x65536, S1x65536, S1x65536] S4x65536 0) (v : Fin 4) (j : Fin 65536) :
    concatenate S4x65536 0 [⟨S1x65536, a⟩, ⟨S1x65536, b⟩, ⟨S1x65536, c⟩, ⟨S1x65536, d⟩] h (ix2 v j)
      = ![a, b, c, d] v (ix2 (0 : Fin 1) j) :=
  concatenate_ofFn_unit_apply (t := S4x65536) (s₁ := S1x65536) (0 : Fin 2) ![a, b, c, d] h rfl rfl (ix2 v j) v rfl
    (ix2 (0 : Fin 1) j) fun b hb => match b with | ⟨0, _⟩ => absurd rfl hb | ⟨1, _⟩ => rfl

theorem pay5_row0 (x0 : Vec F S3x65536 .f32) (x1 x2 x3 x4 : Vec F S8x65536 .f32) (j : Fin 65536) :
    pay5 x0 x1 x2 x3 x4 (ix2 (0 : Fin 4) j)
      = Cert.Spec.sampleC (Cert.Spec.lit 0x40000000#32) (Cert.Spec.lit 0x40400000#32) FloatOps.floor
          (fun k => x1 (ix2 k j))
          (Cert.Spec.coordK (Cert.Spec.lit 0x41780000#32) (Cert.Spec.lit 0x00000000#32) (Cert.Spec.lit 0x41F80000#32) (x0 (ix2 (0 : Fin 3) j)))
          (Cert.Spec.coordK (Cert.Spec.lit 0x41780000#32) (Cert.Spec.lit 0x00000000#32) (Cert.Spec.lit 0x41F80000#32) (x0 (ix2 (1 : Fin 3) j)))
          (Cert.Spec.coordK (Cert.Spec.lit 0x41780000#32) (Cert.Spec.lit 0x00000000#32) (Cert.Spec.lit 0x41F80000#32) (x0 (ix2 (2 : Fin 3) j))) := by
  unfold pay5
  simp only [View.ld_unit_zero (S := S3x65536) kbody_zeros, View.ld_unit_zero (S := S8x65536) kbody_zeros]
  unfold k0_pay1
  rw [kbody_stack_row]
  simp only [Matrix.cons_val]
  unfold k0_pay10 k0_pay9 k0_pay8 k0_pay7 k0_pay6 k0_pay5 k0_pay4 k0_pay3 k0_pay2
  simp only [shapeCast_self, mulf, addf, subf, maximumf, minimumf, floor, broadcast, kbody_row_slice]
  rfl

theorem pay5_row1 (x0 : Vec F S3x65536 .f32) (x1 x2 x3 x4 : Vec F S8x65536 .f32) (j : Fin 65536) :
    pay5 x0 x1 x2 x3 x4 (ix2 (1 : Fin 4) j)
      = Cert.Spec.sampleC (Cert.Spec.lit 0x40000000#32) (Cert.Spec.lit 0x40400000#32) FloatOps.floor
          (fun k => x2 (ix2 k j))
          (Cert.Spec.coordK (Cert.Spec.lit 0x41FC0000#32) (Cert.Spec.lit 0x00000000#32) (Cert.Spec.lit 0x427C0000#32) (x0 (ix2 (0 : Fin 3) j)))
          (Cert.Spec.coordK (Cert.Spec.lit 0x41FC0000#32) (Cert.Spec.lit 0x00000000#32) (Cert.Spec.lit 0x427C0000#32) (x0 (ix2 (1 : Fin 3) j)))
          (Cert.Spec.coordK (Cert.Spec.lit 0x41FC0000#32) (Cert.Spec.lit 0x00000000#32) (Cert.Spec.lit 0x427C0000#32) (x0 (ix2 (2 : Fin 3) j))) := by
  unfold pay5
  simp only [View.ld_unit_zero (S := S3x65536) kbody_zeros, View.ld_unit_zero (S := S8x65536) kbody_zeros]
  unfold k0_pay1
  rw [kbody_stack_row]
  simp only [Matrix.cons_val]
  unfold k0_pay19 k0_pay18 k0_pay17 k0_pay16 k0_pay15 k0_pay14 k0_pay13 k0_pay12 k0_pay11 k0_pay5 k0_pay4 k0_pay3 k0_pay2
  simp only [shapeCast_self, mulf, addf, subf, maximumf, minimumf, floor, broadcast, kbody_row_slice]
  rfl

theorem pay5_row2 (x0 : Vec F S3x65536 .f32) (x1 x2 x3 x4 : Vec F S8x65536 .f32) (j : Fin 65536) :
    pay5 x0 x1 x2 x3 x4 (ix2 (2 : Fin 4) j)
      = Cert.Spec.sampleC (Cert.Spec.lit 0x40000000#32) (Cert.Spec.lit 0x40400000#32) FloatOps.floor
          (fun k => x3 (ix2 k j))
          (Cert.Spec.coordK (Cert.Spec.lit 0x427E0000#32) (Cert.Spec.lit 0x00000000#32) (Cert.Spec.lit 0x42FE0000#32) (x0 (ix2 (0 : Fin 3) j)))
          (Cert.Spec.coordK (Cert.Spec.lit 0x427E0000#32) (Cert.Spec.lit 0x00000000#32) (Cert.Spec.lit 0x42FE0000#32) (x0 (ix2 (1 : Fin 3) j)))
          (Cert.Spec.coordK (Cert.Spec.lit 0x427E0000#32) (Cert.Spec.lit 0x00000000#32) (Cert.Spec.lit 0x42FE0000#32) (x0 (ix2 (2 : Fin 3) j))) := by
  unfold pay5
  simp only [View.ld_unit_zero (S := S3x65536) kbody_zeros, View.ld_unit_zero (S := S8x65536) kbody_zeros]
  unfold k0_pay1
  rw [kbody_stack_row]
  simp only [Matrix.cons_val]
  unfold k0_pay30 k0_pay29 k0_pay28 k0_pay27 k0_pay26 k0_pay25 k0_pay24 k0_pay23 k0_pay22 k0_pay21 k0_pay20 k0_pay5 k0_pay4 k0_pay3 k0_pay2
  simp only [shapeCast_self, mulf, addf, subf, maximumf, minimumf, floor, broadcast, kbody_row_slice]
  rfl

theorem pay5_row3 (x0 : Vec F S3x65536 .f32) (x1 x2 x3 x4 : Vec F S8x65536 .f32) (j : Fin 65536) :
    pay5 x0 x1 x2 x3 x4 (ix2 (3 : Fin 4) j)
      = Cert.Spec.sampleC (Cert.Spec.lit 0x40000000#32) (Cert.Spec.lit 0x40400000#32) FloatOps.floor
          (fun k => x4 (ix2 k j))
          (Cert.Spec.coordK (Cert.Spec.lit 0x42FF0000#32) (Cert.Spec.lit 0x00000000#32) (Cert.Spec.lit 0x437F0000#32) (x0 (ix2 (0 : Fin 3) j)))
          (Cert.Spec.coordK (Cert.Spec.lit 0x42FF0000#32) (Cert.Spec.lit 0x00000000#32) (Cert.Spec.lit 0x437F0000#32) (x0 (ix2 (1 : Fin 3) j)))
          (Cert.Spec.coordK (Cert.Spec.lit 0x42FF0000#32) (Cert.Spec.lit 0x00000000#32) (Cert.Spec.lit 0x437F0000#32) (x0 (ix2 (2 : Fin 3) j))) := by
  unfold pay5
  simp only [View.ld_unit_zero (S := S3x65536) kbody_zeros, View.ld_unit_zero (S := S8x65536) kbody_zeros]
  unfold k0_pay1
  rw [kbody_stack_row]
  simp only [Matrix.cons_val]
  unfold k0_pay35 k0_pay34 k0_pay33 k0_pay32 k0_pay31 k0_pay5 k0_pay4 k0_pay3 k0_pay2
  simp only [shapeCast_self, mulf, addf, subf, maximumf, minimumf, floor, broadcast, kbody_row_slice]
  rfl

theorem out5_apply (x0 : Vec F S3x65536 .f32) (x1 x2 x3 x4 : Vec F S8x65536 .f32) (y : S4x65536.Idx) :
    out5 x0 x1 x2 x3 x4 y = pay5 x0 x1 x2 x3 x4 y := by
  unfold out5
  rw [View.canon_unit_zero (S := S4x65536) kbody_zeros]

end Cert.KernelIdeal.Hand

end
-- ==== Proof.KFinal.lean ====
/- The region's output array is one function of its five input arrays, block by block; the operations after the region only regroup channels. -/
import proofs.«421879_j36455682409092_3_alg».proof.Proof.KIFrame
import proofs.«421879_j36455682409092_3_alg».proof.Proof.KBody
import Idealize.ShloMosaic.Lib.Pipeline.Value
import Idealize.ShloMosaic.Lib.ValueIdx
import Idealize.ShloMosaic.Lib.ValueLayout

set_option Elab.async false

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem pt_lt (t : Fin cfg0.N) : t.val < 64 := Nat.lt_of_lt_of_eq t.isLt (N_0 : cfg0.N = 64)

abbrev pt (t : Fin cfg0.N) : Fin 64 := ⟨t.val, pt_lt t⟩

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem lane0 {i r v : Nat} (h : i = 0) : i * r + 1 * v = v := by subst h; omega

theorem lane1 {i t v : Nat} (h : i = t) : i * 65536 + 1 * v = t * 65536 + v := by subst h; omega

abbrev lanePt (l : Fin 4194304) : Fin 64 := ⟨l.val / 65536, by omega⟩
abbrev laneIn (l : Fin 4194304) : Fin 65536 := ⟨l.val % 65536, by omega⟩

def laneBlock {α : Type} {r : Nat} (a : (⟨2, ![r, 4194304]⟩ : Shape).Idx → α) (t : Fin 64) :
    (⟨2, ![r, 65536]⟩ : Shape).Idx → α :=
  fun y => a (ix2 (n0 := r) (n1 := 4194304) (y 0) ⟨t.val * 65536 + (y 1).val, by have := idx2_lt1 y; have := t.isLt; omega⟩)

theorem laneBlock_lane {α : Type} {r : Nat} (a : (⟨2, ![r, 4194304]⟩ : Shape).Idx → α) (k : Fin r) (l : Fin 4194304) :
    laneBlock a (lanePt l) (ix2 k (laneIn l)) = a (ix2 k l) := by
  unfold laneBlock
  refine congrArg a (funext fun d => Fin.ext ?_)
  match d with
  | ⟨0, _⟩ => rfl
  | ⟨1, _⟩ => show l.val / 65536 * 65536 + l.val % 65536 = l.val; omega

theorem win0_read (t : Fin cfg0.N) (A : S3x4194304.Idx → Elt F .f32) :
    (((cfg0.win 0).blk t).view.read (Elt F) A : Vec F S3x65536 .f32) = laneBlock A (pt t) := by
  obtain ⟨e0, e1, -⟩ := idx_facts t
  funext y
  unfold laneBlock
  rw [View.read_apply]
  refine congrArg A (funext fun a => Fin.ext ?_)
  match a with
  | ⟨0, _⟩ => show win0_0.index t (0 : Fin 2) * 3 + 1 * (y 0).val = (y 0).val; rw [e0]; omega
  | ⟨1, _⟩ => show win0_0.index t (1 : Fin 2) * 65536 + 1 * (y 1).val = t.val * 65536 + (y 1).val; rw [e1]; omega

/- The four corner windows have one shape and one index map: block (0, t) of each is the array's lanes from 65536·t on. -/
theorem win8_read (t : Fin cfg0.N) (A : S8x4194304.Idx → Elt F .f32) :
    (((cfg0.win 1).blk t).view.read (Elt F) A : Vec F S8x65536 .f32) = laneBlock A (pt t)
      ∧ (((cfg0.win 2).blk t).view.read (Elt F) A : Vec F S8x65536 .f32) = laneBlock A (pt t)
      ∧ (((cfg0.win 3).blk t).view.read (Elt F) A : Vec F S8x65536 .f32) = laneBlock A (pt t)
      ∧ (((cfg0.win 4).blk t).view.read (Elt F) A : Vec F S8x65536 .f32) = laneBlock A (pt t) := by
  obtain ⟨-, -, a0, a1, b0, b1, c0, c1, d0, d1, -⟩ := idx_facts t
  refine ⟨?_, ?_, ?_, ?_⟩ <;> (
    funext y
    unfold laneBlock
    rw [View.read_apply]
    refine congrArg A (funext fun a => Fin.ext ?_)
    match a with
    | ⟨0, _⟩ =>
      show _ * 8 + 1 * (y 0).val = (y 0).val
      first | exact lane0 a0 | exact lane0 b0 | exact lane0 c0 | exact lane0 d0
    | ⟨1, _⟩ =>
      show _ * 65536 + 1 * (y 1).val = t.val * 65536 + (y 1).val
      first | exact lane1 a1 | exact lane1 b1 | exact lane1 c1 | exact lane1 d1)

theorem win5_read (t : Fin cfg0.N) (G : S4x4194304.Idx → Elt F .f32) (v : Fin 4) (j : Fin 65536) :
    (((cfg0.win 5).blk t).view.read (Elt F) G : Vec F S4x65536 .f32) (ix2 v j)
      = G (ix2 v (⟨t.val * 65536 + j.val, by have := pt_lt t; omega⟩ : Fin 4194304)) := by
  obtain ⟨-, -, -, -, -, -, -, -, -, -, e0, e1⟩ := idx_facts t
  rw [View.read_apply]
  refine congrArg G (funext fun a => Fin.ext ?_)
  match a with
  | ⟨0, _⟩ => show win0_5.index t (0 : Fin 2) * 4 + 1 * v.val = v.val; rw [e0]; omega
  | ⟨1, _⟩ => show win0_5.index t (1 : Fin 2) * 65536 + 1 * j.val = t.val * 65536 + j.val; rw [e1]; omega

theorem win5_cut {α : Type} (t : Fin cfg0.N) (X : S4x65536.Idx → α) : (cfg0.win 5).cut (grid0.coords t) X = X := rfl

def outFnAt (a0 : S3x4194304.Idx → Elt F .f32) (a1 a2 a3 a4 : S8x4194304.Idx → Elt F .f32) (v : Fin 4) (l : Fin 4194304) : Elt F .f32 :=
  out5 (laneBlock a0 (lanePt l)) (laneBlock a1 (lanePt l)) (laneBlock a2 (lanePt l)) (laneBlock a3 (lanePt l))
    (laneBlock a4 (lanePt l)) (ix2 v (laneIn l))

def outFn (a0 : S3x4194304.Idx → Elt F .f32) (a1 a2 a3 a4 : S8x4194304.Idx → Elt F .f32) : S4x4194304.Idx → Elt F .f32 :=
  fun i => outFnAt a0 a1 a2 a3 a4 (i 0) (i 1)

theorem outFn_block (a0 : S3x4194304.Idx → Elt F .f32) (a1 a2 a3 a4 : S8x4194304.Idx → Elt F .f32) (t : Fin 64)
    (v : Fin 4) (j : Fin 65536) :
    outFn a0 a1 a2 a3 a4 (ix2 v (⟨t.val * 65536 + j.val, by omega⟩ : Fin 4194304))
      = out5 (laneBlock a0 t) (laneBlock a1 t) (laneBlock a2 t) (laneBlock a3 t) (laneBlock a4 t) (ix2 v j) := by
  have ht : lanePt (⟨t.val * 65536 + j.val, by omega⟩ : Fin 4194304) = t :=
    Fin.ext (by show (t.val * 65536 + j.val) / 65536 = t.val; omega)
  have hj : laneIn (⟨t.val * 65536 + j.val, by omega⟩ : Fin 4194304) = j :=
    Fin.ext (by show (t.val * 65536 + j.val) % 65536 = j.val; omega)
  show outFnAt a0 a1 a2 a3 a4 v (⟨t.val * 65536 + j.val, _⟩ : Fin 4194304) = _
  unfold outFnAt
  rw [ht, hj]

theorem flushed5_eq (c : Dev nD) (t : Fin cfg0.N) :
    (dats m 0 c).flushed 5 t = ((cfg0.win 5).blk t).view.read (Elt F)
      (outFn (V m c main_v315) (V m c main_v79) (V m c main_v157) (V m c main_v235) (V m c main_v313)) := by
  show (cfg0.win 5).cut (grid0.coords t) ((dats m 0 c).after 5 t) = _
  rw [after0_5, win5_cut, show iblk m c 0 t = _ from win0_read t (V m c main_v315),
    show iblk m c 1 t = _ from (win8_read t (V m c main_v79)).1, show iblk m c 2 t = _ from (win8_read t (V m c main_v157)).2.1,
    show iblk m c 3 t = _ from (win8_read t (V m c main_v235)).2.2.1,
    show iblk m c 4 t = _ from (win8_read t (V m c main_v313)).2.2.2]
  refine funext fun (y : S4x65536.Idx) => ?_
  obtain ⟨v, j, rfl⟩ : ∃ (v : Fin 4) (j : Fin 65536), y = ix2 v j := ⟨y 0, y 1, eq_ix2 y⟩
  refine Eq.trans ?_ (win5_read t _ v j).symm
  exact (outFn_block _ _ _ _ _ (pt t) v j).symm

theorem mem_blk5 (t : Fin cfg0.N) (i : S4x4194304.Idx) :
    i ∈ ((cfg0.win 5).blk t).view.set ↔ ∀ a : Fin 2, win0_5.index t a * S4x65536.size a ≤ (i a).val ∧ (i a).val < win0_5.index t a * S4x65536.size a + S4x65536.size a := by
  show i ∈ ((View.whole main_v316).slice (win0_5.rect t)).set ↔ _
  rw [View.set_slice_whole, Rect.mem_set_unit]
  exact Iff.rfl

theorem outBlocks_cover (i : S4x4194304.Idx) :
    ∃ t : Fin cfg0.N, (cfg0.win 5).flush t = true ∧ i ∈ ((cfg0.win 5).blk t).view.set := by
  have hi0 : (i 0).val < 4 := idx2_lt0 i
  have hi1 : (i 1).val < 4194304 := idx2_lt1 i
  let t : Fin cfg0.N := ⟨(i 1).val / 65536, Nat.lt_of_lt_of_eq (by omega) (N_0 : cfg0.N = 64).symm⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 4 ≤ (i 0).val ∧ (i 0).val < win0_5.index t (0 : Fin 2) * 4 + 4
    rw [e0]; omega
  | ⟨1, _⟩ =>
    show win0_5.index t (1 : Fin 2) * 65536 ≤ (i 1).val ∧ (i 1).val < win0_5.index t (1 : Fin 2) * 65536 + 65536
    rw [e1]
    show (i 1).val / 65536 * 65536 ≤ (i 1).val ∧ (i 1).val < (i 1).val / 65536 * 65536 + 65536
    omega

theorem final5 (c : Dev nD) : (dats m 0 c).arrAt 5 cfg0.N
    = outFn (V m c main_v315) (V m c main_v79) (V m c main_v157) (V m c main_v235) (V m c main_v313) :=
  (dats m 0 c).arrAt_eq_of_cover 5 _ (fun t _ => flushed5_eq m c t) outBlocks_cover

/- Every row of the output function is the body's stored row at the lane's block. -/
theorem outFn_at (a0 : S3x4194304.Idx → Elt F .f32) (a1 a2 a3 a4 : S8x4194304.Idx → Elt F .f32) (v : Fin 4) (l : Fin 4194304) :
    outFn a0 a1 a2 a3 a4 (ix2 v l)
      = pay5 (laneBlock a0 (lanePt l)) (laneBlock a1 (lanePt l)) (laneBlock a2 (lanePt l)) (laneBlock a3 (lanePt l))
          (laneBlock a4 (lanePt l)) (ix2 v (laneIn l)) := by
  show outFnAt a0 a1 a2 a3 a4 v l = _
  unfold outFnAt
  rw [out5_apply]

theorem final5_row0 (c : Dev nD) (l : Fin 4194304) :
    ((dats m 0 c).arrAt 5 cfg0.N : S4x4194304.Idx → Elt F .f32) (ix2 (0 : Fin 4) l)
      = Cert.Spec.sampleC (Cert.Spec.lit 0x40000000#32) (Cert.Spec.lit 0x40400000#32) FloatOps.floor
          (fun k => (V m c main_v79 : S8x4194304.Idx → Elt F .f32) (ix2 k l))
          (Cert.Spec.coordK (Cert.Spec.lit 0x41780000#32) (Cert.Spec.lit 0x00000000#32) (Cert.Spec.lit 0x41F80000#32) ((V m c main_v315 : S3x4194304.Idx → Elt F .f32) (ix2 (0 : Fin 3) l)))
          (Cert.Spec.coordK (Cert.Spec.lit 0x41780000#32) (Cert.Spec.lit 0x00000000#32) (Cert.Spec.lit 0x41F80000#32) ((V m c main_v315 : S3x4194304.Idx → Elt F .f32) (ix2 (1 : Fin 3) l)))
          (Cert.Spec.coordK (Cert.Spec.lit 0x41780000#32) (Cert.Spec.lit 0x00000000#32) (Cert.Spec.lit 0x41F80000#32) ((V m c main_v315 : S3x4194304.Idx → Elt F .f32) (ix2 (2 : Fin 3) l))) := by
  rw [final5 m c, outFn_at, pay5_row0]
  simp only [laneBlock_lane]

theorem final5_row1 (c : Dev nD) (l : Fin 4194304) :
    ((dats m 0 c).arrAt 5 cfg0.N : S4x4194304.Idx → Elt F .f32) (ix2 (1 : Fin 4) l)
      = Cert.Spec.sampleC (Cert.Spec.lit 0x40000000#32) (Cert.Spec.lit 0x40400000#32) FloatOps.floor
          (fun k => (V m c main_v157 : S8x4194304.Idx → Elt F .f32) (ix2 k l))
          (Cert.Spec.coordK (Cert.Spec.lit 0x41FC0000#32) (Cert.Spec.lit 0x00000000#32) (Cert.Spec.lit 0x427C0000#32) ((V m c main_v315 : S3x4194304.Idx → Elt F .f32) (ix2 (0 : Fin 3) l)))
          (Cert.Spec.coordK (Cert.Spec.lit 0x41FC0000#32) (Cert.Spec.lit 0x00000000#32) (Cert.Spec.lit 0x427C0000#32) ((V m c main_v315 : S3x4194304.Idx → Elt F .f32) (ix2 (1 : Fin 3) l)))
          (Cert.Spec.coordK (Cert.Spec.lit 0x41FC0000#32) (Cert.Spec.lit 0x00000000#32) (Cert.Spec.lit 0x427C0000#32) ((V m c main_v315 : S3x4194304.Idx → Elt F .f32) (ix2 (2 : Fin 3) l))) := by
  rw [final5 m c, outFn_at, pay5_row1]
  simp only [laneBlock_lane]

theorem final5_row2 (c : Dev nD) (l : Fin 4194304) :
    ((dats m 0 c).arrAt 5 cfg0.N : S4x4194304.Idx → Elt F .f32) (ix2 (2 : Fin 4) l)
      = Cert.Spec.sampleC (Cert.Spec.lit 0x40000000#32) (Cert.Spec.lit 0x40400000#32) FloatOps.floor
          (fun k => (V m c main_v235 : S8x4194304.Idx → Elt F .f32) (ix2 k l))
          (Cert.Spec.coordK (Cert.Spec.lit 0x427E0000#32) (Cert.Spec.lit 0x00000000#32) (Cert.Spec.lit 0x42FE0000#32) ((V m c main_v315 : S3x4194304.Idx → Elt F .f32) (ix2 (0 : Fin 3) l)))
          (Cert.Spec.coordK (Cert.Spec.lit 0x427E0000#32) (Cert.Spec.lit 0x00000000#32) (Cert.Spec.lit 0x42FE0000#32) ((V m c main_v315 : S3x4194304.Idx → Elt F .f32) (ix2 (1 : Fin 3) l)))
          (Cert.Spec.coordK (Cert.Spec.lit 0x427E0000#32) (Cert.Spec.lit 0x00000000#32) (Cert.Spec.lit 0x42FE0000#32) ((V m c main_v315 : S3x4194304.Idx → Elt F .f32) (ix2 (2 : Fin 3) l))) := by
  rw [final5 m c, outFn_at, pay5_row2]
  simp only [laneBlock_lane]

theorem final5_row3 (c : Dev nD) (l : Fin 4194304) :
    ((dats m 0 c).arrAt 5 cfg0.N : S4x4194304.Idx → Elt F .f32) (ix2 (3 : Fin 4) l)
      = Cert.Spec.sampleC (Cert.Spec.lit 0x40000000#32) (Cert.Spec.lit 0x40400000#32) FloatOps.floor
          (fun k => (V m c main_v313 : S8x4194304.Idx → Elt F .f32) (ix2 k l))
          (Cert.Spec.coordK (Cert.Spec.lit 0x42FF0000#32) (Cert.Spec.lit 0x00000000#32) (Cert.Spec.lit 0x437F0000#32) ((V m c main_v315 : S3x4194304.Idx → Elt F .f32) (ix2 (0 : Fin 3) l)))
          (Cert.Spec.coordK (Cert.Spec.lit 0x42FF0000#32) (Cert.Spec.lit 0x00000000#32) (Cert.Spec.lit 0x437F0000#32) ((V m c main_v315 : S3x4194304.Idx → Elt F .f32) (ix2 (1 : Fin 3) l)))
          (Cert.Spec.coordK (Cert.Spec.lit 0x42FF0000#32) (Cert.Spec.lit 0x00000000#32) (Cert.Spec.lit 0x437F0000#32) ((V m c main_v315 : S3x4194304.Idx → Elt F .f32) (ix2 (2 : Fin 3) l))) := by
  rw [final5 m c, outFn_at, pay5_row3]
  simp only [laneBlock_lane]

/- The four layout operations after the region send (q, p) to row q / 4, lane 4p + q % 4. -/
theorem tail_read {α : Type} (x : S4x4194304.Idx → α) (q : Fin 16) (p : Fin 1048576) :
    shapeCast S1x16x1x1x1048576
        (shapeCast S16x1048576
          (transpose S4x4x1048576 [0, 2, 1] (shapeCast S4x1048576x4 x shapeCasts_S4x4194304_S4x1048576x4)
            transposes_S4x1048576x4_S4x4x1048576_0_2_1)
          shapeCasts_S4x4x1048576_S16x1048576)
        shapeCasts_S16x1048576_S1x16x1x1x1048576 (ix5 (0 : Fin 1) q (0 : Fin 1) (0 : Fin 1) p)
      = x (ix2 (⟨q.val / 4, by omega⟩ : Fin 4) (⟨p.val * 4 + q.val % 4, by omega⟩ : Fin 4194304)) := by
  refine (shapeCast_apply _ _ _ (ix2 q p) ?_).trans ((shapeCast_apply _ _ _
    (ix3 (⟨q.val / 4, by omega⟩ : Fin 4) (⟨q.val % 4, by omega⟩ : Fin 4) p) ?_).trans
    ((transpose_ix3_021_apply _ _ _ _ _).trans (shapeCast_apply x _ _ _ ?_)))
  · rw [Shape.rowMajor_val_five, Shape.rowMajor_val_two]
    show q.val * 1048576 + p.val = (((0 * 16 + q.val) * 1 + 0) * 1 + 0) * 1048576 + p.val
    omega
  · rw [Shape.rowMajor_val_three, Shape.rowMajor_val_two]
    show (q.val / 4 * 4 + q.val % 4) * 1048576 + p.val = q.val * 1048576 + p.val
    omega
  · rw [Shape.rowMajor_val_three, Shape.rowMajor_val_two]
    show q.val / 4 * 4194304 + (p.val * 4 + q.val % 4) = (q.val / 4 * 1048576 + p.val) * 4 + q.val % 4
    omega

theorem tail_eq (c : Dev nD) :
    (Pipeline.afterTail₀ cfgs (dats m) 0 (V0 m) [hostOps1] c main_v320 : S1x16x1x1x1048576.Idx → Elt F .f32)
      = shapeCast S1x16x1x1x1048576
        (shapeCast S16x1048576
          (transpose S4x4x1048576 [0, 2, 1]
            (shapeCast S4x1048576x4 ((dats m 0 c).arrAt 5 cfg0.N : S4x4194304.Idx → Elt F .f32) shapeCasts_S4x4194304_S4x1048576x4)
            transposes_S4x1048576x4_S4x4x1048576_0_2_1)
          shapeCasts_S4x4x1048576_S16x1048576)
        shapeCasts_S16x1048576_S1x16x1x1x1048576 := by
  unfold Pipeline.afterTail₀
  show StableHlo.after hostOps1 _ (Proc.devRef .tc main_v320) = _
  after_results
  rw [Pipeline.withArrays_arr spec0 launch0.win.arr_inj c _ _ 5]
  rfl

theorem tail_apply (c : Dev nD) (q : Fin 16) (p : Fin 1048576) :
    (Pipeline.afterTail₀ cfgs (dats m) 0 (V0 m) [hostOps1] c main_v320 : S1x16x1x1x1048576.Idx → Elt F .f32)
        (ix5 (0 : Fin 1) q (0 : Fin 1) (0 : Fin 1) p)
      = ((dats m 0 c).arrAt 5 cfg0.N : S4x4194304.Idx → Elt F .f32)
          (ix2 (⟨q.val / 4, by omega⟩ : Fin 4) (⟨p.val * 4 + q.val % 4, by omega⟩ : Fin 4194304)) := by
  rw [tail_eq m c]
  exact tail_read _ q p

end Cert.KernelIdeal.Hand

end
-- ==== Proof.KIV.lean ====
/- The buffers' contents when the region is entered: the launch contents carried through the operations before it. -/
import proofs.«421879_j36455682409092_3_alg».proof.Proof.Gen.KernelIdeal.Launch

noncomputable section

namespace Cert.KernelIdeal.Pre

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

abbrev W0 (c : Dev nD) : Valuation τ sig (Elt F) := StableHlo.after (List.flatten (stretches (F := F))) (fun b => m (c, b))

abbrev W (c : Dev nD) (b : Ref sig .tc) : Buf (Elt F) ((c : Thread nD τ).loc b) := W0 m c (Proc.devRef .tc b)

end Cert.KernelIdeal.Pre

end
-- ==== Proof.KPrePts.lean ====
/- The repeated-points array: pts_rep[a, 4p + ch] = grid[p, a]. -/
import proofs.«421879_j36455682409092_3_alg».proof.Proof.KIV
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.PrePts

open Idealize.ShloMosaic Idealize.ShloMosaic.TcCoe Idealize.SL.Sem Cert.KernelIdeal Cert.KernelIdeal.Gen
open Idealize.ShloMosaic.StableHlo Idealize.ShloMosaic.ValueIdx

variable {F : FTy → Type} [FloatOps F]

def gridT (g : S1x1x1x1048576x3.Idx → Elt F .f32) : S3x1048576.Idx → Elt F .f32 :=
  transpose S3x1048576 [1, 0] (shapeCast S1048576x3 g shapeCasts_S1x1x1x1048576x3_S1048576x3) transposes_S1048576x3_S3x1048576_1_0

def rep4 (y : S3x1048576.Idx → Elt F .f32) : S3x4194304.Idx → Elt F .f32 :=
  shapeCast S3x4194304 (broadcastInDim S3x1048576x4 ![0, 1] bcast_S3x1048576_S3x1048576x4_0_1 y) shapeCasts_S3x1048576x4_S3x4194304

theorem gridT_apply (g : S1x1x1x1048576x3.Idx → Elt F .f32) (a : Fin 3) (p : Fin 1048576) :
    gridT g (ix2 a p) = g (ix5 (0 : Fin 1) (0 : Fin 1) (0 : Fin 1) p a) := by
  unfold gridT
  refine (transpose_ix2_apply _ _ a p).trans ?_
  refine shapeCast_apply _ _ _ _ ?_
  rw [Shape.rowMajor_val_five, Shape.rowMajor_val_two]
  show ((((0 * 1 + 0) * 1 + 0) * 1048576 + p.val) * 3 + a.val) = p.val * 3 + a.val
  omega

theorem rep4_apply (y : S3x1048576.Idx → Elt F .f32) (a : Fin 3) (l : Fin 4194304) :
    rep4 y (ix2 a l) = y (ix2 a (⟨l.val / 4, by omega⟩ : Fin 1048576)) := by
  unfold rep4
  refine (shapeCast_apply _ _ _ (ix3 a (⟨l.val / 4, by omega⟩ : Fin 1048576) (⟨l.val % 4, by omega⟩ : Fin 4)) ?_).trans ?_
  · rw [Shape.rowMajor_val_three, Shape.rowMajor_val_two]
    show (a.val * 1048576 + l.val / 4) * 4 + l.val % 4 = a.val * 4194304 + l.val
    omega
  · refine broadcastInDim_apply _ _ _ _ _ fun ax => ?_
    match ax with
    | ⟨0, _⟩ => rfl
    | ⟨1, _⟩ => rfl

theorem v1_after0 (X : Valuation τ sig (Elt F)) :
    StableHlo.after hostOps0 X (Proc.devRef .tc main_v1) = gridT (X (Proc.devRef .tc main_arg0)) := by
  unfold hostOps0
  after_results
  rfl

theorem v315_after32 (X : Valuation τ sig (Elt F)) :
    StableHlo.after hostOps0_32 X (Proc.devRef .tc main_v315) = rep4 (X (Proc.devRef .tc main_v1)) := by
  unfold hostOps0_32
  after_results
  rfl

theorem v1_keep_1 (X : Valuation τ sig (Elt F)) : StableHlo.after hostOps0_1 X (Proc.devRef .tc main_v1) = X (Proc.devRef .tc main_v1) := by
  unfold hostOps0_1; after_results
theorem v1_keep_2 (X : Valuation τ sig (Elt F)) : StableHlo.after hostOps0_2 X (Proc.devRef .tc main_v1) = X (Proc.devRef .tc main_v1) := by
  unfold hostOps0_2; after_results
theorem v1_keep_3 (X : Valuation τ sig (Elt F)) : StableHlo.after hostOps0_3 X (Proc.devRef .tc main_v1) = X (Proc.devRef .tc main_v1) := by
  unfold hostOps0_3; after_results
theorem v1_keep_4 (X : Valuation τ sig (Elt F)) : StableHlo.after hostOps0_4 X (Proc.devRef .tc main_v1) = X (Proc.devRef .tc main_v1) := by
  unfold hostOps0_4; after_results
theorem v1_keep_5 (X : Valuation τ sig (Elt F)) : StableHlo.after hostOps0_5 X (Proc.devRef .tc main_v1) = X (Proc.devRef .tc main_v1) := by
  unfold hostOps0_5; after_results
theorem v1_keep_6 (X : Valuation τ sig (Elt F)) : StableHlo.after hostOps0_6 X (Proc.devRef .tc main_v1) = X (Proc.devRef .tc main_v1) := by
  unfold hostOps0_6; after_results
theorem v1_keep_7 (X : Valuation τ sig (Elt F)) : StableHlo.after hostOps0_7 X (Proc.devRef .tc main_v1) = X (Proc.devRef .tc main_v1) := by
  unfold hostOps0_7; after_results
theorem v1_keep_8 (X : Valuation τ sig (Elt F)) : StableHlo.after hostOps0_8 X (Proc.devRef .tc main_v1) = X (Proc.devRef .tc main_v1) := by
  unfold hostOps0_8; after_results
theorem v1_keep_9 (X : Valuation τ sig (Elt F)) : StableHlo.after hostOps0_9 X (Proc.devRef .tc main_v1) = X (Proc.devRef .tc main_v1) := by
  unfold hostOps0_9; after_results
theorem v1_keep_10 (X : Valuation τ sig (Elt F)) : StableHlo.after hostOps0_10 X (Proc.devRef .tc main_v1) = X (Proc.devRef .tc main_v1) := by
  unfold hostOps0_10; after_results
theorem v1_keep_11 (X : Valuation τ sig (Elt F)) : StableHlo.after hostOps0_11 X (Proc.devRef .tc main_v1) = X (Proc.devRef .tc main_v1) := by
  unfold hostOps0_11; after_results
theorem v1_keep_24 (X : Valuation τ sig (Elt F)) : StableHlo.after hostOps0_24 X (Proc.devRef .tc main_v1) = X (Proc.devRef .tc main_v1) := by
  unfold hostOps0_24; after_results
theorem v1_keep_25 (X : Valuation τ sig (Elt F)) : StableHlo.after hostOps0_25 X (Proc.devRef .tc main_v1) = X (Proc.devRef .tc main_v1) := by
  unfold hostOps0_25; after_results
theorem v1_keep_26 (X : Valuation τ sig (Elt F)) : StableHlo.after hostOps0_26 X (Proc.devRef .tc main_v1) = X (Proc.devRef .tc main_v1) := by
  unfold hostOps0_26; after_results
theorem v1_keep_27 (X : Valuation τ sig (Elt F)) : StableHlo.after hostOps0_27 X (Proc.devRef .tc main_v1) = X (Proc.devRef .tc main_v1) := by
  unfold hostOps0_27; after_results

/- The stretch s leaves the transposed grid as it found it. -/
abbrev Keeps (s : List (HloOp τ sig (Elt F))) : Prop :=
  ∀ Y : Valuation τ sig (Elt F), StableHlo.after s Y (Proc.devRef .tc main_v1) = Y (Proc.devRef .tc main_v1)

theorem keep_12 : Keeps (F := F) hostOps0_12 := fun Y => by unfold hostOps0_12; after_results
theorem keep_13 : Keeps (F := F) hostOps0_13 := fun Y => by unfold hostOps0_13; after_results
theorem keep_14 : Keeps (F := F) hostOps0_14 := fun Y => by unfold hostOps0_14; after_results
theorem keep_15 : Keeps (F := F) hostOps0_15 := fun Y => by unfold hostOps0_15; after_results
theorem keep_16 : Keeps (F := F) hostOps0_16 := fun Y => by unfold hostOps0_16; after_results
theorem keep_17 : Keeps (F := F) hostOps0_17 := fun Y => by unfold hostOps0_17; after_results
theorem keep_18 : Keeps (F := F) hostOps0_18 := fun Y => by unfold hostOps0_18; after_results
theorem keep_19 : Keeps (F := F) hostOps0_19 := fun Y => by unfold hostOps0_19; after_results
theorem keep_20 : Keeps (F := F) hostOps0_20 := fun Y => by unfold hostOps0_20; after_results
theorem keep_21 : Keeps (F := F) hostOps0_21 := fun Y => by unfold hostOps0_21; after_results
theorem keep_22 : Keeps (F := F) hostOps0_22 := fun Y => by unfold hostOps0_22; after_results
theorem keep_23 : Keeps (F := F) hostOps0_23 := fun Y => by unfold hostOps0_23; after_results
theorem keep_28 : Keeps (F := F) hostOps0_28 := fun Y => by unfold hostOps0_28; after_results
theorem keep_29 : Keeps (F := F) hostOps0_29 := fun Y => by unfold hostOps0_29; after_results
theorem keep_30 : Keeps (F := F) hostOps0_30 := fun Y => by unfold hostOps0_30; after_results
theorem keep_31 : Keeps (F := F) hostOps0_31 := fun Y => by unfold hostOps0_31; after_results
theorem keep_32 : Keeps (F := F) hostOps0_32 := fun Y => by unfold hostOps0_32; after_results

theorem after_flatten_keep {b : DevRef τ sig} :
    ∀ (L : List (List (HloOp τ sig (Elt F)))) (X : Valuation τ sig (Elt F)),
      (∀ s ∈ L, ∀ Y : Valuation τ sig (Elt F), StableHlo.after s Y b = Y b) → StableHlo.after (List.flatten L) X b = X b
  | [], _, _ => rfl
  | s :: L, X, h => by
    rw [List.flatten_cons, StableHlo.after_append, after_flatten_keep L _ fun t ht => h t (List.mem_cons_of_mem _ ht),
      h s List.mem_cons_self]

theorem after_first_mid_last (s₀ : List (HloOp τ sig (Elt F))) (M : List (List (HloOp τ sig (Elt F)))) (s₁ : List (HloOp τ sig (Elt F)))
    (X : Valuation τ sig (Elt F)) :
    StableHlo.after (List.flatten (s₀ :: (M ++ [s₁]))) X = StableHlo.after s₁ (StableHlo.after (List.flatten M) (StableHlo.after s₀ X)) := by
  rw [List.flatten_cons, List.flatten_append, List.flatten_cons, List.flatten_nil, List.append_nil,
    StableHlo.after_append, StableHlo.after_append]

abbrev midStretches : List (List (HloOp τ sig (Elt F))) :=
  [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

abbrev laterStretches : List (List (HloOp τ sig (Elt F))) := midStretches ++ [hostOps0_32]

theorem stretches_eq : (Pre.stretches (F := F)) = hostOps0 :: laterStretches := rfl

theorem v1_keep_mid : ∀ s ∈ (midStretches (F := F)), Keeps s :=
  List.forall_iff_forall_mem.mp
    (show (midStretches (F := F)).Forall Keeps from ⟨v1_keep_1, v1_keep_2, v1_keep_3, v1_keep_4, v1_keep_5,
      v1_keep_6, v1_keep_7, v1_keep_8, v1_keep_9, v1_keep_10, v1_keep_11, keep_12, keep_13, keep_14, keep_15,
      keep_16, keep_17, keep_18, keep_19, keep_20, keep_21, keep_22, keep_23, v1_keep_24, v1_keep_25, v1_keep_26,
      v1_keep_27, keep_28, keep_29, keep_30, keep_31⟩)

theorem v1_keep_later : ∀ s ∈ (laterStretches (F := F)), Keeps s := by
  intro s hs
  rcases List.mem_append.mp hs with h | h
  · exact v1_keep_mid s h
  · rw [List.mem_singleton.mp h]; exact keep_32

variable (m : (ℓ : Loc nD τ sig) → Buf (Elt F) ℓ) (c : Dev nD)

theorem gridT_kept (k : Nat) :
    StableHlo.after (List.flatten ((Pre.stretches (F := F)).take (k + 1))) (fun b => m (c, b)) (Proc.devRef .tc main_v1)
      = gridT (m ((c : Thread nD τ).loc main_arg0)) := by
  rw [stretches_eq, List.take_succ_cons, List.flatten_cons, StableHlo.after_append,
    after_flatten_keep _ _ fun s hs => v1_keep_later s (List.mem_of_mem_take hs), v1_after0]

theorem W_main_v315 : Pre.W m c main_v315 = rep4 (gridT (m ((c : Thread nD τ).loc main_arg0))) := by
  show StableHlo.after (List.flatten (Pre.stretches (F := F))) (fun b => m (c, b)) (Proc.devRef .tc main_v315) = _
  rw [stretches_eq, after_first_mid_last hostOps0 midStretches hostOps0_32, v315_after32,
    after_flatten_keep _ _ v1_keep_mid, v1_after0]

end Cert.KernelIdeal.PrePts

namespace Cert.KernelIdeal.PrePts

open Idealize.ShloMosaic Idealize.ShloMosaic.TcCoe Idealize.SL.Sem Cert.KernelIdeal Cert.KernelIdeal.Gen
open Idealize.ShloMosaic.StableHlo Idealize.ShloMosaic.ValueIdx

theorem pts_apply (m : (ℓ : Loc nD τ sig) → Buf (Elt Ideal) ℓ) (c : Dev nD) (a : Fin 3) (l : Fin 4194304) :
    (Cert.KernelIdeal.Pre.W (F := Ideal) m c main_v315 : S3x4194304.Idx → EReal) (ix2 a l)
      = (m ((c : Thread nD τ).loc main_arg0) : S1x1x1x1048576x3.Idx → EReal)
          (ix5 (0 : Fin 1) (0 : Fin 1) (0 : Fin 1) ⟨l.val / 4, by omega⟩ a) :=
  (congrFun (W_main_v315 (F := Ideal) m c) _).trans ((rep4_apply _ a l).trans (gridT_apply _ a _))

end Cert.KernelIdeal.PrePts

end
-- ==== Proof.LibTRef.lean ====
/- A typed reference's two transports cancel. -/
import Idealize.ShloMosaic.Lib.StableHlo

namespace Idealize.ShloMosaic.StableHlo.TRef

theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.SpecLaws.lean ====
/- Laws of the scalar specification on the extended reals: literals as numbers, ranges of coordinates and cell words, the integer arithmetic of the flat voxel index. -/
import proofs.«421879_j36455682409092_3_alg».proof.Proof.Spec
import Idealize.ShloMosaic.PureOps.Ideal
import Idealize.ShloMosaic.PureOps.Ideal.Laws

noncomputable section

namespace Cert.Spec

open Idealize.ShloMosaic

theorem lit_zero : lit (F := Ideal) 0x00000000#32 = 0 := by
  simp [Ideal.ofBits, Ideal.ieee]

theorem lit_half : lit (F := Ideal) 0x3F000000#32 = ((1 / 2 : ℝ) : EReal) := by
  simp [Ideal.ofBits, Ideal.ieee, -EReal.coe_mul]; norm_num

theorem lit_one : lit (F := Ideal) 0x3F800000#32 = 1 := by
  simp [Ideal.ofBits, Ideal.ieee, -EReal.coe_mul]; norm_num

theorem lit_s0 : lit (F := Ideal) 0x41780000#32 = ((31 / 2 : ℝ) : EReal) := by
  simp [Ideal.ofBits, Ideal.ieee, -EReal.coe_mul]; norm_num

theorem lit_s1 : lit (F := Ideal) 0x41FC0000#32 = ((63 / 2 : ℝ) : EReal) := by
  simp [Ideal.ofBits, Ideal.ieee, -EReal.coe_mul]; norm_num

theorem lit_s2 : lit (F := Ideal) 0x427E0000#32 = ((127 / 2 : ℝ) : EReal) := by
  simp [Ideal.ofBits, Ideal.ieee, -EReal.coe_mul]; norm_num

theorem lit_s3 : lit (F := Ideal) 0x42FF0000#32 = ((255 / 2 : ℝ) : EReal) := by
  simp [Ideal.ofBits, Ideal.ieee, -EReal.coe_mul]; norm_num

theorem lit_d0 : lit (F := Ideal) 0x41F80000#32 = ((31 : ℝ) : EReal) := by
  simp [Ideal.ofBits, Ideal.ieee, -EReal.coe_mul]; norm_num

theorem lit_d1 : lit (F := Ideal) 0x427C0000#32 = ((63 : ℝ) : EReal) := by
  simp [Ideal.ofBits, Ideal.ieee, -EReal.coe_mul]; norm_num

theorem lit_d2 : lit (F := Ideal) 0x42FE0000#32 = ((127 : ℝ) : EReal) := by
  simp [Ideal.ofBits, Ideal.ieee, -EReal.coe_mul]; norm_num

theorem lit_d3 : lit (F := Ideal) 0x437F0000#32 = ((255 : ℝ) : EReal) := by
  simp [Ideal.ofBits, Ideal.ieee, -EReal.coe_mul]; norm_num

theorem sitofp_d0 : FloatOps.sitofp (F := Ideal) .f32 (31#32 : BitVec 32) = ((31 : ℝ) : EReal) := by
  simp [FloatOps.sitofp]

theorem sitofp_d1 : FloatOps.sitofp (F := Ideal) .f32 (63#32 : BitVec 32) = ((63 : ℝ) : EReal) := by
  simp [FloatOps.sitofp]

theorem sitofp_d2 : FloatOps.sitofp (F := Ideal) .f32 (127#32 : BitVec 32) = ((127 : ℝ) : EReal) := by
  simp [FloatOps.sitofp]

theorem sitofp_d3 : FloatOps.sitofp (F := Ideal) .f32 (255#32 : BitVec 32) = ((255 : ℝ) : EReal) := by
  simp [FloatOps.sitofp]

/- With s = d / 2, p·s + s = ((p + 1)·½)·d, so the two clipped coordinates agree at a real p. -/
theorem coord_eq (ws wd n : BitVec 32) (d p : ℝ) (hs : lit (F := Ideal) ws = ((d / 2 : ℝ) : EReal))
    (hd : lit (F := Ideal) wd = (d : EReal)) (hn : FloatOps.sitofp (F := Ideal) .f32 n = (d : EReal)) :
    coordK (F := Ideal) (lit ws) (lit 0x00000000#32) (lit wd) (p : EReal)
      = coordR (lit 0x3F800000#32) (lit 0x3F000000#32) (lit wd) (lit 0x00000000#32) (FloatOps.sitofp .f32 n) (p : EReal) := by
  unfold coordK coordR
  rw [hs, lit_zero, hd, lit_one, lit_half, hn]
  simp only [Ideal.addf_def, Ideal.mulf_def, Ideal.maximumf_def, Ideal.minimumf_def]
  rw [← EReal.coe_one, ← EReal.coe_mul, ← EReal.coe_add, ← EReal.coe_add, ← EReal.coe_mul, ← EReal.coe_mul]
  congr 3
  ring

theorem coord_eq0 (p : ℝ) :
    coordK (F := Ideal) (lit 0x41780000#32) (lit 0x00000000#32) (lit 0x41F80000#32) (p : EReal)
      = coordR (lit 0x3F800000#32) (lit 0x3F000000#32) (lit 0x41F80000#32) (lit 0x00000000#32)
          (FloatOps.sitofp .f32 (31#32 : BitVec 32)) (p : EReal) :=
  coord_eq _ _ _ 31 p lit_s0 lit_d0 sitofp_d0

theorem coord_eq1 (p : ℝ) :
    coordK (F := Ideal) (lit 0x41FC0000#32) (lit 0x00000000#32) (lit 0x427C0000#32) (p : EReal)
      = coordR (lit 0x3F800000#32) (lit 0x3F000000#32) (lit 0x427C0000#32) (lit 0x00000000#32)
          (FloatOps.sitofp .f32 (63#32 : BitVec 32)) (p : EReal) :=
  coord_eq _ _ _ 63 p lit_s1 lit_d1 sitofp_d1

theorem coord_eq2 (p : ℝ) :
    coordK (F := Ideal) (lit 0x427E0000#32) (lit 0x00000000#32) (lit 0x42FE0000#32) (p : EReal)
      = coordR (lit 0x3F800000#32) (lit 0x3F000000#32) (lit 0x42FE0000#32) (lit 0x00000000#32)
          (FloatOps.sitofp .f32 (127#32 : BitVec 32)) (p : EReal) :=
  coord_eq _ _ _ 127 p lit_s2 lit_d2 sitofp_d2

theorem coord_eq3 (p : ℝ) :
    coordK (F := Ideal) (lit 0x42FF0000#32) (lit 0x00000000#32) (lit 0x437F0000#32) (p : EReal)
      = coordR (lit 0x3F800000#32) (lit 0x3F000000#32) (lit 0x437F0000#32) (lit 0x00000000#32)
          (FloatOps.sitofp .f32 (255#32 : BitVec 32)) (p : EReal) :=
  coord_eq _ _ _ 255 p lit_s3 lit_d3 sitofp_d3

theorem bmod_self (k : ℤ) (h1 : -2 ^ 31 ≤ k) (h2 : k < 2 ^ 31) : k.bmod (2 ^ 32) = k := by
  apply Int.bmod_eq_of_le_mul_two <;> omega

theorem toInt_ofNat_small (n : ℕ) (hn : n < 2 ^ 31) : (BitVec.ofNat 32 n).toInt = n := by
  rw [BitVec.toInt_ofNat']
  exact bmod_self _ (by omega) (by omega)

theorem cell0_coe (r : ℝ) (h0 : 0 ≤ r) (h1 : r < 2 ^ 31) : (cell0 (F := Ideal) (r : EReal)).toInt = ⌊r⌋ := by
  have hf0 : 0 ≤ ⌊r⌋ := Int.floor_nonneg.mpr h0
  have hf1 : ⌊r⌋ < 2 ^ 31 := by
    have : ((⌊r⌋ : ℤ) : ℝ) < ((2 ^ 31 : ℤ) : ℝ) := lt_of_le_of_lt (Int.floor_le r) (by exact_mod_cast h1)
    exact_mod_cast this
  have hc : cell0 (F := Ideal) (r : EReal) = BitVec.ofInt 32 ⌊r⌋ := by
    show Ideal.fptosi 32 (Ideal.liftRound Int.floor (r : EReal)) = _
    rw [Ideal.liftRound_coe]
    unfold Ideal.fptosi
    rw [Ideal.toIntClamped_coe]
    have hp : (0 : ℝ) ≤ ((⌊r⌋ : ℤ) : ℝ) := by exact_mod_cast hf0
    rw [if_pos hp, Int.floor_intCast]
    congr 1
    norm_num
    omega
  rw [hc, BitVec.toInt_ofInt]
  exact bmod_self _ (by omega) hf1

theorem cell0_mem (u : EReal) (n : ℕ) (hn : n < 2 ^ 31) (h0 : 0 ≤ u) (h1 : u ≤ ((n : ℝ) : EReal)) :
    0 ≤ (cell0 (F := Ideal) u).toInt ∧ (cell0 (F := Ideal) u).toInt ≤ n := by
  induction u using EReal.rec with
  | bot => exact absurd h0 (by simp)
  | top => exact absurd h1 (not_le.mpr (EReal.coe_lt_top _))
  | coe r =>
    have hr0 : 0 ≤ r := by exact_mod_cast h0
    have hr1 : r ≤ n := by exact_mod_cast h1
    have hn' : (n : ℝ) < 2 ^ 31 := by exact_mod_cast hn
    rw [cell0_coe r hr0 (lt_of_le_of_lt hr1 hn')]
    refine ⟨Int.floor_nonneg.mpr hr0, ?_⟩
    have : ⌊r⌋ ≤ ⌊(n : ℝ)⌋ := Int.floor_le_floor hr1
    simpa using this

theorem cell1_mem (n : ℕ) (hn : n + 1 < 2 ^ 31) (i : BitVec 32) (h : 0 ≤ i.toInt ∧ i.toInt ≤ n) :
    0 ≤ (cell1 (BitVec.ofNat 32 n) i).toInt ∧ (cell1 (BitVec.ofNat 32 n) i).toInt ≤ n := by
  have hN : (BitVec.ofNat 32 n).toInt = n := toInt_ofNat_small n (by omega)
  have hi1 : (IntOp.addi i 1#32).toInt = i.toInt + 1 := by
    show (i + 1#32).toInt = _
    rw [BitVec.toInt_add, show (1#32 : BitVec 32).toInt = 1 from by decide]
    exact bmod_self _ (by omega) (by omega)
  unfold cell1 IntOp.minsi
  by_cases hlt : i.toInt + 1 < (n : ℤ)
  · have hs : (IntOp.addi i 1#32).slt (BitVec.ofNat 32 n) = true := by
      rw [BitVec.slt_eq_decide, hi1, hN]; exact decide_eq_true hlt
    rw [hs, if_pos rfl, hi1]; omega
  · have hs : (IntOp.addi i 1#32).slt (BitVec.ofNat 32 n) = false := by
      rw [BitVec.slt_eq_decide, hi1, hN]; exact decide_eq_false hlt
    rw [hs, if_neg (by decide), hN]; omega

theorem norm_noop (i k : BitVec 32) (h : 0 ≤ i.toInt) :
    Scalar.select (IntOp.cmpi .slt i 0#32) (IntOp.addi i k) i = i := by
  have hs : i.slt 0#32 = false := by
    rw [BitVec.slt_eq_decide, BitVec.toInt_zero]; exact decide_eq_false (by omega)
  have hc : IntOp.cmpi .slt i 0#32 = 0#1 := by
    show BitVec.ofBool (i.slt 0#32) = 0#1
    rw [hs]; rfl
  unfold Scalar.select
  rw [hc, if_neg (by decide)]

theorem mask_one (f : BitVec 32) (n : ℕ) (hn : n < 2 ^ 31) (h : 0 ≤ f.toInt ∧ f.toInt ≤ n) :
    IntOp.andi (IntOp.cmpi .sge f 0#32) (IntOp.cmpi .sle f (BitVec.ofNat 32 n)) = 1#1 := by
  have h1 : IntOp.cmpi .sge f 0#32 = 1#1 := by
    show BitVec.ofBool ((0#32 : BitVec 32).sle f) = 1#1
    rw [BitVec.sle_eq_decide, BitVec.toInt_zero, decide_eq_true h.1]; rfl
  have h2 : IntOp.cmpi .sle f (BitVec.ofNat 32 n) = 1#1 := by
    show BitVec.ofBool (f.sle (BitVec.ofNat 32 n)) = 1#1
    rw [BitVec.sle_eq_decide, toInt_ofNat_small n hn, decide_eq_true h.2]; rfl
  rw [h1, h2]; rfl

theorem mask_one32767 (f : BitVec 32) (h : 0 ≤ f.toInt ∧ f.toInt ≤ 32767) :
    IntOp.andi (IntOp.cmpi .sge f 0#32) (IntOp.cmpi .sle f 32767#32) = 1#1 :=
  mask_one f 32767 (by norm_num) (by exact_mod_cast h)

theorem mask_one262143 (f : BitVec 32) (h : 0 ≤ f.toInt ∧ f.toInt ≤ 262143) :
    IntOp.andi (IntOp.cmpi .sge f 0#32) (IntOp.cmpi .sle f 262143#32) = 1#1 :=
  mask_one f 262143 (by norm_num) (by exact_mod_cast h)

theorem mask_one2097151 (f : BitVec 32) (h : 0 ≤ f.toInt ∧ f.toInt ≤ 2097151) :
    IntOp.andi (IntOp.cmpi .sge f 0#32) (IntOp.cmpi .sle f 2097151#32) = 1#1 :=
  mask_one f 2097151 (by norm_num) (by exact_mod_cast h)

theorem mask_one16777215 (f : BitVec 32) (h : 0 ≤ f.toInt ∧ f.toInt ≤ 16777215) :
    IntOp.andi (IntOp.cmpi .sge f 0#32) (IntOp.cmpi .sle f 16777215#32) = 1#1 :=
  mask_one f 16777215 (by norm_num) (by exact_mod_cast h)

theorem cellSel_mem (n : ℕ) (hn : n + 1 < 2 ^ 31) (upper : Bool) (u : EReal) (h0 : 0 ≤ u)
    (h1 : u ≤ ((n : ℝ) : EReal)) :
    0 ≤ (cellSel (F := Ideal) (BitVec.ofNat 32 n) upper u).toInt
      ∧ (cellSel (F := Ideal) (BitVec.ofNat 32 n) upper u).toInt ≤ n := by
  have hc := cell0_mem u n (by omega) h0 h1
  unfold cellSel
  cases upper
  · simpa using hc
  · simpa using cell1_mem n hn _ hc

theorem cidx_val (D : ℕ) (hD : 0 < D) (w : BitVec 32) (h : 0 ≤ w.toInt ∧ w.toInt ≤ (D : ℤ) - 1) :
    (cidx D hD w).val = w.toInt.toNat := by
  show min w.toInt.toNat (D - 1) = w.toInt.toNat
  omega

section Flat
variable (m A B T : ℕ) (hA : A < 2 ^ 31) (hB : B < 2 ^ 31) (hT : m * A + m * B + m = T) (hT' : T < 2 ^ 31)
  (z y x : BitVec 32) (hz : 0 ≤ z.toInt ∧ z.toInt ≤ m) (hy : 0 ≤ y.toInt ∧ y.toInt ≤ m) (hx : 0 ≤ x.toInt ∧ x.toInt ≤ m)
include hA hB hT hT' hz hy hx

/- For 0 ≤ z, y, x ≤ m and m·A + m·B + m = T < 2³¹ the word z·A + y·B + x does not wrap and lies in [0, T]. -/
theorem flat_toInt :
    (IntOp.addi (IntOp.addi (IntOp.muli z (BitVec.ofNat 32 A)) (IntOp.muli y (BitVec.ofNat 32 B))) x).toInt = z.toInt * A + y.toInt * B + x.toInt
      ∧ 0 ≤ z.toInt * A + y.toInt * B + x.toInt ∧ z.toInt * A + y.toInt * B + x.toInt ≤ T := by
  have hzA0 : 0 ≤ z.toInt * A := Int.mul_nonneg hz.1 (Int.natCast_nonneg A)
  have hzA1 : z.toInt * A ≤ m * A := Int.mul_le_mul_of_nonneg_right hz.2 (Int.natCast_nonneg A)
  have hyB0 : 0 ≤ y.toInt * B := Int.mul_nonneg hy.1 (Int.natCast_nonneg B)
  have hyB1 : y.toInt * B ≤ m * B := Int.mul_le_mul_of_nonneg_right hy.2 (Int.natCast_nonneg B)
  have hM : (m : ℤ) * A + m * B + m = T := by exact_mod_cast hT
  have hT2 : (T : ℤ) < 2 ^ 31 := by exact_mod_cast hT'
  refine ⟨?_, by omega, by omega⟩
  show ((z * BitVec.ofNat 32 A + y * BitVec.ofNat 32 B) + x).toInt = _
  rw [BitVec.toInt_add, BitVec.toInt_add, BitVec.toInt_mul, BitVec.toInt_mul,
    toInt_ofNat_small A hA, toInt_ofNat_small B hB]
  rw [bmod_self (z.toInt * A) (by omega) (by omega), bmod_self (y.toInt * B) (by omega) (by omega),
    bmod_self (z.toInt * A + y.toInt * B) (by omega) (by omega),
    bmod_self (z.toInt * A + y.toInt * B + x.toInt) (by omega) (by omega)]

theorem flat_mem : 0 ≤ (IntOp.addi (IntOp.addi (IntOp.muli z (BitVec.ofNat 32 A)) (IntOp.muli y (BitVec.ofNat 32 B))) x).toInt ∧ (IntOp.addi (IntOp.addi (IntOp.muli z (BitVec.ofNat 32 A)) (IntOp.muli y (BitVec.ofNat 32 B))) x).toInt ≤ T := by
  obtain ⟨e, h⟩ := flat_toInt m A B T hA hB hT hT' z y x hz hy hx
  rwa [e]

/- The clamped flat index is the flat index of the clamped coordinates. -/
theorem flat_cidx (h3 : 0 < T + 1) (h1 : 0 < m + 1) :
    (cidx (T + 1) h3 (IntOp.addi (IntOp.addi (IntOp.muli z (BitVec.ofNat 32 A)) (IntOp.muli y (BitVec.ofNat 32 B))) x)).val
      = (cidx (m + 1) h1 z).val * A + (cidx (m + 1) h1 y).val * B + (cidx (m + 1) h1 x).val := by
  obtain ⟨hf, h0, h2⟩ := flat_toInt m A B T hA hB hT hT' z y x hz hy hx
  have ez : ((z.toInt.toNat * A : ℕ) : ℤ) = z.toInt * A := by rw [Nat.cast_mul, Int.toNat_of_nonneg hz.1]
  have ey : ((y.toInt.toNat * B : ℕ) : ℤ) = y.toInt * B := by rw [Nat.cast_mul, Int.toNat_of_nonneg hy.1]
  rw [cidx_val _ h3 _ (by omega), cidx_val _ h1 z (by omega), cidx_val _ h1 y (by omega), cidx_val _ h1 x (by omega)]
  omega

end Flat

theorem flat_mem32 (z y x : BitVec 32) (hz : 0 ≤ z.toInt ∧ z.toInt ≤ 31) (hy : 0 ≤ y.toInt ∧ y.toInt ≤ 31)
    (hx : 0 ≤ x.toInt ∧ x.toInt ≤ 31) :
    0 ≤ (IntOp.addi (IntOp.addi (IntOp.muli z 1024#32) (IntOp.muli y 32#32)) x).toInt
      ∧ (IntOp.addi (IntOp.addi (IntOp.muli z 1024#32) (IntOp.muli y 32#32)) x).toInt ≤ 32767 :=
  flat_mem 31 1024 32 32767 (by norm_num) (by norm_num) rfl (by norm_num) z y x hz hy hx

theorem flat_mem64 (z y x : BitVec 32) (hz : 0 ≤ z.toInt ∧ z.toInt ≤ 63) (hy : 0 ≤ y.toInt ∧ y.toInt ≤ 63)
    (hx : 0 ≤ x.toInt ∧ x.toInt ≤ 63) :
    0 ≤ (IntOp.addi (IntOp.addi (IntOp.muli z 4096#32) (IntOp.muli y 64#32)) x).toInt
      ∧ (IntOp.addi (IntOp.addi (IntOp.muli z 4096#32) (IntOp.muli y 64#32)) x).toInt ≤ 262143 :=
  flat_mem 63 4096 64 262143 (by norm_num) (by norm_num) rfl (by norm_num) z y x hz hy hx

theorem flat_mem128 (z y x : BitVec 32) (hz : 0 ≤ z.toInt ∧ z.toInt ≤ 127) (hy : 0 ≤ y.toInt ∧ y.toInt ≤ 127)
    (hx : 0 ≤ x.toInt ∧ x.toInt ≤ 127) :
    0 ≤ (IntOp.addi (IntOp.addi (IntOp.muli z 16384#32) (IntOp.muli y 128#32)) x).toInt
      ∧ (IntOp.addi (IntOp.addi (IntOp.muli z 16384#32) (IntOp.muli y 128#32)) x).toInt ≤ 2097151 :=
  flat_mem 127 16384 128 2097151 (by norm_num) (by norm_num) rfl (by norm_num) z y x hz hy hx

theorem flat_mem256 (z y x : BitVec 32) (hz : 0 ≤ z.toInt ∧ z.toInt ≤ 255) (hy : 0 ≤ y.toInt ∧ y.toInt ≤ 255)
    (hx : 0 ≤ x.toInt ∧ x.toInt ≤ 255) :
    0 ≤ (IntOp.addi (IntOp.addi (IntOp.muli z 65536#32) (IntOp.muli y 256#32)) x).toInt
      ∧ (IntOp.addi (IntOp.addi (IntOp.muli z 65536#32) (IntOp.muli y 256#32)) x).toInt ≤ 16777215 :=
  flat_mem 255 65536 256 16777215 (by norm_num) (by norm_num) rfl (by norm_num) z y x hz hy hx

theorem flat_cidx32 (h3 : 0 < 32768) (h1 : 0 < 32) (z y x : BitVec 32) (hz : 0 ≤ z.toInt ∧ z.toInt ≤ 31)
    (hy : 0 ≤ y.toInt ∧ y.toInt ≤ 31) (hx : 0 ≤ x.toInt ∧ x.toInt ≤ 31) :
    (cidx 32768 h3 (IntOp.addi (IntOp.addi (IntOp.muli z 1024#32) (IntOp.muli y 32#32)) x)).val
      = (cidx 32 h1 z).val * 1024 + (cidx 32 h1 y).val * 32 + (cidx 32 h1 x).val :=
  flat_cidx 31 1024 32 32767 (by norm_num) (by norm_num) rfl (by norm_num) z y x hz hy hx h3 h1

theorem flat_cidx64 (h3 : 0 < 262144) (h1 : 0 < 64) (z y x : BitVec 32) (hz : 0 ≤ z.toInt ∧ z.toInt ≤ 63)
    (hy : 0 ≤ y.toInt ∧ y.toInt ≤ 63) (hx : 0 ≤ x.toInt ∧ x.toInt ≤ 63) :
    (cidx 262144 h3 (IntOp.addi (IntOp.addi (IntOp.muli z 4096#32) (IntOp.muli y 64#32)) x)).val
      = (cidx 64 h1 z).val * 4096 + (cidx 64 h1 y).val * 64 + (cidx 64 h1 x).val :=
  flat_cidx 63 4096 64 262143 (by norm_num) (by norm_num) rfl (by norm_num) z y x hz hy hx h3 h1

theorem flat_cidx128 (h3 : 0 < 2097152) (h1 : 0 < 128) (z y x : BitVec 32) (hz : 0 ≤ z.toInt ∧ z.toInt ≤ 127)
    (hy : 0 ≤ y.toInt ∧ y.toInt ≤ 127) (hx : 0 ≤ x.toInt ∧ x.toInt ≤ 127) :
    (cidx 2097152 h3 (IntOp.addi (IntOp.addi (IntOp.muli z 16384#32) (IntOp.muli y 128#32)) x)).val
      = (cidx 128 h1 z).val * 16384 + (cidx 128 h1 y).val * 128 + (cidx 128 h1 x).val :=
  flat_cidx 127 16384 128 2097151 (by norm_num) (by norm_num) rfl (by norm_num) z y x hz hy hx h3 h1

theorem flat_cidx256 (h3 : 0 < 16777216) (h1 : 0 < 256) (z y x : BitVec 32) (hz : 0 ≤ z.toInt ∧ z.toInt ≤ 255)
    (hy : 0 ≤ y.toInt ∧ y.toInt ≤ 255) (hx : 0 ≤ x.toInt ∧ x.toInt ≤ 255) :
    (cidx 16777216 h3 (IntOp.addi (IntOp.addi (IntOp.muli z 65536#32) (IntOp.muli y 256#32)) x)).val
      = (cidx 256 h1 z).val * 65536 + (cidx 256 h1 y).val * 256 + (cidx 256 h1 x).val :=
  flat_cidx 255 65536 256 16777215 (by norm_num) (by norm_num) rfl (by norm_num) z y x hz hy hx h3 h1

/- A coordinate clipped to [0, n] has both cell words in [0, n]. -/
theorem clip_cell_mem (n : ℕ) (d : ℝ) (hd : d = n) (hn : n + 1 < 2 ^ 31) (upper : Bool) (lo hi x : Ideal .f32) (hlo : lo = 0)
    (hhi : hi = (d : EReal)) :
    0 ≤ (cellSel (F := Ideal) (BitVec.ofNat 32 n) upper (FloatOps.minimumf hi (FloatOps.maximumf lo x))).toInt
      ∧ (cellSel (F := Ideal) (BitVec.ofNat 32 n) upper (FloatOps.minimumf hi (FloatOps.maximumf lo x))).toInt ≤ n := by
  rw [hlo, hhi, hd]
  simp only [Ideal.maximumf_def, Ideal.minimumf_def]
  exact cellSel_mem n hn upper _ (le_min (by exact_mod_cast (Nat.cast_nonneg n : (0 : ℝ) ≤ n)) (le_max_left _ _))
    (min_le_left _ _)

theorem cellSel_coordK_mem0 (upper : Bool) (p : Ideal .f32) :
    0 ≤ (cellSel (F := Ideal) 31#32 upper
          (coordK (lit 0x41780000#32) (lit 0x00000000#32) (lit 0x41F80000#32) p)).toInt
      ∧ (cellSel (F := Ideal) 31#32 upper
          (coordK (lit 0x41780000#32) (lit 0x00000000#32) (lit 0x41F80000#32) p)).toInt ≤ 31 := by
  exact_mod_cast clip_cell_mem 31 31 (by norm_num) (by norm_num) upper _ _ _ lit_zero lit_d0

theorem cellSel_coordK_mem1 (upper : Bool) (p : Ideal .f32) :
    0 ≤ (cellSel (F := Ideal) 63#32 upper
          (coordK (lit 0x41FC0000#32) (lit 0x00000000#32) (lit 0x427C0000#32) p)).toInt
      ∧ (cellSel (F := Ideal) 63#32 upper
          (coordK (lit 0x41FC0000#32) (lit 0x00000000#32) (lit 0x427C0000#32) p)).toInt ≤ 63 := by
  exact_mod_cast clip_cell_mem 63 63 (by norm_num) (by norm_num) upper _ _ _ lit_zero lit_d1

theorem cellSel_coordK_mem2 (upper : Bool) (p : Ideal .f32) :
    0 ≤ (cellSel (F := Ideal) 127#32 upper
          (coordK (lit 0x427E0000#32) (lit 0x00000000#32) (lit 0x42FE0000#32) p)).toInt
      ∧ (cellSel (F := Ideal) 127#32 upper
          (coordK (lit 0x427E0000#32) (lit 0x00000000#32) (lit 0x42FE0000#32) p)).toInt ≤ 127 := by
  exact_mod_cast clip_cell_mem 127 127 (by norm_num) (by norm_num) upper _ _ _ lit_zero lit_d2

theorem cellSel_coordK_mem3 (upper : Bool) (p : Ideal .f32) :
    0 ≤ (cellSel (F := Ideal) 255#32 upper
          (coordK (lit 0x42FF0000#32) (lit 0x00000000#32) (lit 0x437F0000#32) p)).toInt
      ∧ (cellSel (F := Ideal) 255#32 upper
          (coordK (lit 0x42FF0000#32) (lit 0x00000000#32) (lit 0x437F0000#32) p)).toInt ≤ 255 := by
  exact_mod_cast clip_cell_mem 255 255 (by norm_num) (by norm_num) upper _ _ _ lit_zero lit_d3

theorem cellSel_coordR_mem0 (upper : Bool) (p : Ideal .f32) :
    0 ≤ (cellSel (F := Ideal) 31#32 upper
          (coordR (lit 0x3F800000#32) (lit 0x3F000000#32) (lit 0x41F80000#32) (lit 0x00000000#32)
            (FloatOps.sitofp .f32 (31#32 : BitVec 32)) p)).toInt
      ∧ (cellSel (F := Ideal) 31#32 upper
          (coordR (lit 0x3F800000#32) (lit 0x3F000000#32) (lit 0x41F80000#32) (lit 0x00000000#32)
            (FloatOps.sitofp .f32 (31#32 : BitVec 32)) p)).toInt ≤ 31 := by
  exact_mod_cast clip_cell_mem 31 31 (by norm_num) (by norm_num) upper _ _ _ lit_zero sitofp_d0

theorem cellSel_coordR_mem1 (upper : Bool) (p : Ideal .f32) :
    0 ≤ (cellSel (F := Ideal) 63#32 upper
          (coordR (lit 0x3F800000#32) (lit 0x3F000000#32) (lit 0x427C0000#32) (lit 0x00000000#32)
            (FloatOps.sitofp .f32 (63#32 : BitVec 32)) p)).toInt
      ∧ (cellSel (F := Ideal) 63#32 upper
          (coordR (lit 0x3F800000#32) (lit 0x3F000000#32) (lit 0x427C0000#32) (lit 0x00000000#32)
            (FloatOps.sitofp .f32 (63#32 : BitVec 32)) p)).toInt ≤ 63 := by
  exact_mod_cast clip_cell_mem 63 63 (by norm_num) (by norm_num) upper _ _ _ lit_zero sitofp_d1

theorem cellSel_coordR_mem2 (upper : Bool) (p : Ideal .f32) :
    0 ≤ (cellSel (F := Ideal) 127#32 upper
          (coordR (lit 0x3F800000#32) (lit 0x3F000000#32) (lit 0x42FE0000#32) (lit 0x00000000#32)
            (FloatOps.sitofp .f32 (127#32 : BitVec 32)) p)).toInt
      ∧ (cellSel (F := Ideal) 127#32 upper
          (coordR (lit 0x3F800000#32) (lit 0x3F000000#32) (lit 0x42FE0000#32) (lit 0x00000000#32)
            (FloatOps.sitofp .f32 (127#32 : BitVec 32)) p)).toInt ≤ 127 := by
  exact_mod_cast clip_cell_mem 127 127 (by norm_num) (by norm_num) upper _ _ _ lit_zero sitofp_d2

theorem cellSel_coordR_mem3 (upper : Bool) (p : Ideal .f32) :
    0 ≤ (cellSel (F := Ideal) 255#32 upper
          (coordR (lit 0x3F800000#32) (lit 0x3F000000#32) (lit 0x437F0000#32) (lit 0x00000000#32)
            (FloatOps.sitofp .f32 (255#32 : BitVec 32)) p)).toInt
      ∧ (cellSel (F := Ideal) 255#32 upper
          (coordR (lit 0x3F800000#32) (lit 0x3F000000#32) (lit 0x437F0000#32) (lit 0x00000000#32)
            (FloatOps.sitofp .f32 (255#32 : BitVec 32)) p)).toInt ≤ 255 := by
  exact_mod_cast clip_cell_mem 255 255 (by norm_num) (by norm_num) upper _ _ _ lit_zero sitofp_d3

end Cert.Spec

end
-- ==== Proof.LibLayout.lean ====
/- A gather with unit slices and a concatenate of equal pieces, read at an index. -/
import Idealize.ShloMosaic.Lib.ValueIdx
import Idealize.ShloMosaic.Lib.Pipeline.Value
import Idealize.ShloMosaic.PureOps.ShapeOps
import proofs.«421879_j36455682409092_3_alg».proof.Proof.Spec

noncomputable section

namespace Cert.LibLayout

open Idealize.ShloMosaic Idealize.ShloMosaic.ValueIdx

variable {α : Type}

section Axis
variable {s si t : Shape} (d : GatherDims s si t) {w : Nat} (j : t.Idx) (idx : IVec si w) (a : Fin s.rank)
  (hb : d.operandBatchingDims = [])
include hb

/- A collapsed, start-indexed axis carries the clamped start index alone. -/
theorem operandIdx_started (hc : a ∈ d.collapsedSliceDims) (hm : a ∈ d.startIndexMap) :
    (d.operandIdx j idx a).val = min (idx (d.siIdx j ⟨d.startIndexMap.idxOf a, List.idxOf_lt_length_iff.2 hm⟩)).toInt.toNat
      (s.size a - d.sliceSizes a) := by
  show d.start j idx a + d.batchCoord j a + d.offCoord j a = _
  rw [GatherDims.batchCoord_eq_zero _ _ _ (hb ▸ List.not_mem_nil),
    GatherDims.offCoord_eq_zero _ _ _ (fun h => ((GatherDims.mem_sKept _ _).mp h).1 hc)]
  unfold GatherDims.start
  rw [dif_pos hm]
  rfl

/- A kept axis that is not start-indexed carries the result's own coordinate. -/
theorem operandIdx_kept (hm : a ∉ d.startIndexMap) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [GatherDims.batchCoord_eq_zero _ _ _ (hb ▸ List.not_mem_nil)]
  unfold GatherDims.start GatherDims.offCoord
  rw [dif_neg hm, dif_pos hk]
  simp only [Nat.zero_add]

end Axis

abbrev pointDims (D N : Nat)
    (wf : GatherDims.WF ⟨4, ![4, D, D, D]⟩ ⟨2, ![N, 3]⟩ ⟨2, ![4, N]⟩ [0] [1, 2, 3] [] [1, 2, 3] [] 1 ![4, 1, 1, 1]) :
    GatherDims ⟨4, ![4, D, D, D]⟩ ⟨2, ![N, 3]⟩ ⟨2, ![4, N]⟩ where
  offsetDims := [0]
  collapsedSliceDims := [1, 2, 3]
  operandBatchingDims := []
  startIndicesBatchingDims := []
  startIndexMap := [1, 2, 3]
  indexVectorDim := 1
  sliceSizes := ![4, 1, 1, 1]
  wf := wf

section Point
variable {D N : Nat}
  (wf : GatherDims.WF ⟨4, ![4, D, D, D]⟩ ⟨2, ![N, 3]⟩ ⟨2, ![4, N]⟩ [0] [1, 2, 3] [] [1, 2, 3] [] 1 ![4, 1, 1, 1])
  (idx : IVec ⟨2, ![N, 3]⟩ 32) (ch : Fin 4) (p : Fin N)

theorem point_axis0 : ((pointDims D N wf).operandIdx (ix2 ch p) idx 0).val = ch.val :=
  operandIdx_kept _ _ _ 0 rfl (show ¬ (0 : Fin 4) ∈ ([1, 2, 3] : List (Fin 4)) from by decide)
    ((GatherDims.mem_sKept _ _).2 ⟨show ¬ (0 : Fin 4) ∈ ([1, 2, 3] : List (Fin 4)) from by decide, List.not_mem_nil⟩)

theorem point_axis (a : Fin 3) :
    ((pointDims D N wf).operandIdx (ix2 ch p) idx a.succ).val = min (idx (ix2 p a)).toInt.toNat (D - 1) := by
  have ha : ∀ i : Fin 3, i.succ ∈ ([1, 2, 3] : List (Fin 4)) := by decide
  fin_cases a <;>
  · refine (operandIdx_started _ _ _ _ rfl (ha _) (ha _)).trans
      (congrArg (fun j => min (idx j).toInt.toNat (D - 1)) (funext fun b => Fin.ext ?_))
    match b with
    | ⟨0, _⟩ => rfl
    | ⟨1, _⟩ => rfl

theorem gather_pointDims_apply (hD : 0 < D) (x : (⟨4, ![4, D, D, D]⟩ : Shape).Idx → α) :
    Host.gather (pointDims D N wf) x idx (ix2 ch p)
      = x (ix4 ch (Cert.Spec.cidx D hD (idx (ix2 p 0))) (Cert.Spec.cidx D hD (idx (ix2 p 1)))
          (Cert.Spec.cidx D hD (idx (ix2 p 2)))) := by
  unfold Host.gather
  congr 1
  funext a
  refine Fin.ext ?_
  match a with
  | ⟨0, _⟩ => exact point_axis0 wf idx ch p
  | ⟨1, _⟩ => exact point_axis wf idx ch p 0
  | ⟨2, _⟩ => exact point_axis wf idx ch p 1
  | ⟨3, _⟩ => exact point_axis wf idx ch p 2

end Point

theorem gather_point_apply {D N : Nat} (hD : 0 < D)
    (d : GatherDims ⟨4, ![4, D, D, D]⟩ ⟨2, ![N, 3]⟩ ⟨2, ![4, N]⟩)
    (hod : d.offsetDims = [0]) (hcd : d.collapsedSliceDims = [1, 2, 3]) (hob : d.operandBatchingDims = [])
    (hsb : d.startIndicesBatchingDims = []) (hsm : d.startIndexMap = [1, 2, 3]) (hiv : d.indexVectorDim = 1)
    (hss : d.sliceSizes = ![4, 1, 1, 1])
    (x : (⟨4, ![4, D, D, D]⟩ : Shape).Idx → α) (idx : IVec ⟨2, ![N, 3]⟩ 32) (ch : Fin 4) (p : Fin N) :
    Host.gather d x idx (ix2 ch p)
      = x (ix4 ch (Cert.Spec.cidx D hD (idx (ix2 p 0))) (Cert.Spec.cidx D hD (idx (ix2 p 1)))
          (Cert.Spec.cidx D hD (idx (ix2 p 2)))) := by
  obtain ⟨od, cd, ob, sb, sm, iv, ss, wf⟩ := d
  dsimp only at hod hcd hob hsb hsm hiv hss
  subst hod hcd hob hsb hsm hiv hss
  exact gather_pointDims_apply wf idx ch p hD x

abbrev rowDims (M R : Nat)
    (wf : GatherDims.WF ⟨2, ![M, 4]⟩ ⟨2, ![R, 1]⟩ ⟨2, ![R, 4]⟩ [1] [0] [] [0] [] 1 ![1, 4]) :
    GatherDims ⟨2, ![M, 4]⟩ ⟨2, ![R, 1]⟩ ⟨2, ![R, 4]⟩ where
  offsetDims := [1]
  collapsedSliceDims := [0]
  operandBatchingDims := []
  startIndicesBatchingDims := []
  startIndexMap := [0]
  indexVectorDim := 1
  sliceSizes := ![1, 4]
  wf := wf

section Row
variable {M R : Nat}
  (wf : GatherDims.WF ⟨2, ![M, 4]⟩ ⟨2, ![R, 1]⟩ ⟨2, ![R, 4]⟩ [1] [0] [] [0] [] 1 ![1, 4])
  (idx : IVec ⟨2, ![R, 1]⟩ 32) (r : Fin R) (ch : Fin 4)

theorem row_axis0 :
    ((rowDims M R wf).operandIdx (ix2 r ch) idx 0).val = min (idx (ix2 r (0 : Fin 1))).toInt.toNat (M - 1) := by
  refine (operandIdx_started _ _ _ 0 rfl (show (0 : Fin 2) ∈ ([0] : List (Fin 2)) from by decide)
    (show (0 : Fin 2) ∈ ([0] : List (Fin 2)) from by decide)).trans
    (congrArg (fun j => min (idx j).toInt.toNat (M - 1)) (funext fun b => Fin.ext ?_))
  match b with
  | ⟨0, _⟩ => rfl
  | ⟨1, _⟩ => rfl

theorem row_axis1 : ((rowDims M R wf).operandIdx (ix2 r ch) idx 1).val = ch.val :=
  operandIdx_kept _ _ _ 1 rfl (show ¬ (1 : Fin 2) ∈ ([0] : List (Fin 2)) from by decide)
    ((GatherDims.mem_sKept _ _).2 ⟨show ¬ (1 : Fin 2) ∈ ([0] : List (Fin 2)) from by decide, List.not_mem_nil⟩)

theorem gather_rowDims_apply (hM : 0 < M) (x : (⟨2, ![M, 4]⟩ : Shape).Idx → α) :
    Host.gather (rowDims M R wf) x idx (ix2 r ch)
      = x (ix2 (Cert.Spec.cidx M hM (idx (ix2 r (0 : Fin 1)))) ch) := by
  unfold Host.gather
  congr 1
  funext a
  refine Fin.ext ?_
  match a with
  | ⟨0, _⟩ => exact row_axis0 wf idx r ch
  | ⟨1, _⟩ => exact row_axis1 wf idx r ch

end Row

theorem gather_row_apply {M R : Nat} (hM : 0 < M)
    (d : GatherDims ⟨2, ![M, 4]⟩ ⟨2, ![R, 1]⟩ ⟨2, ![R, 4]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, 4])
    (x : (⟨2, ![M, 4]⟩ : Shape).Idx → α) (idx : IVec ⟨2, ![R, 1]⟩ 32) (r : Fin R) (ch : Fin 4) :
    Host.gather d x idx (ix2 r ch) = x (ix2 (Cert.Spec.cidx M hM (idx (ix2 r (0 : Fin 1)))) ch) := by
  obtain ⟨od, cd, ob, sb, sm, iv, ss, wf⟩ := d
  dsimp only at hod hcd hob hsb hsm hiv hss
  subst hod hcd hob hsb hsm hiv hss
  exact gather_rowDims_apply wf idx r ch hM x

section Concat

theorem concatenate_cols3_apply {N : Nat} (y : Fin 3 → (⟨2, ![N, 1]⟩ : Shape).Idx → α)
    (h : Shape.Concatenates (([⟨⟨2, ![N, 1]⟩, y 0⟩, ⟨⟨2, ![N, 1]⟩, y 1⟩, ⟨⟨2, ![N, 1]⟩, y 2⟩] :
      List ((s : Shape) × (s.Idx → α))).map (·.1)) ⟨2, ![N, 3]⟩ 1)
    (p : Fin N) (a : Fin 3) :
    concatenate ⟨2, ![N, 3]⟩ 1 [⟨⟨2, ![N, 1]⟩, y 0⟩, ⟨⟨2, ![N, 1]⟩, y 1⟩, ⟨⟨2, ![N, 1]⟩, y 2⟩] h (ix2 p a)
      = y a (ix2 p 0) := by
  refine concatenate_ofFn_unit_apply (t := ⟨2, ![N, 3]⟩) (s₁ := ⟨2, ![N, 1]⟩) (1 : Fin 2) y h rfl rfl (ix2 p a) a rfl
    (ix2 p 0) ?_
  intro b hb
  match b with
  | ⟨0, _⟩ => rfl
  | ⟨1, _⟩ => exact absurd rfl hb

theorem concatenate_chan4x4_apply_add {N : Nat} (y : Fin 4 → (⟨5, ![1, 4, 1, 1, N]⟩ : Shape).Idx → α)
    (h : Shape.Concatenates (([⟨⟨5, ![1, 4, 1, 1, N]⟩, y 0⟩, ⟨⟨5, ![1, 4, 1, 1, N]⟩, y 1⟩,
      ⟨⟨5, ![1, 4, 1, 1, N]⟩, y 2⟩, ⟨⟨5, ![1, 4, 1, 1, N]⟩, y 3⟩] :
      List ((s : Shape) × (s.Idx → α))).map (·.1)) ⟨5, ![1, 16, 1, 1, N]⟩ 1)
    (v ch : Fin 4) (p : Fin N) :
    concatenate ⟨5, ![1, 16, 1, 1, N]⟩ 1 [⟨⟨5, ![1, 4, 1, 1, N]⟩, y 0⟩, ⟨⟨5, ![1, 4, 1, 1, N]⟩, y 1⟩,
        ⟨⟨5, ![1, 4, 1, 1, N]⟩, y 2⟩, ⟨⟨5, ![1, 4, 1, 1, N]⟩, y 3⟩] h
        (ix5 (0 : Fin 1) (⟨4 * v.val + ch.val, by have := v.isLt; have := ch.isLt; omega⟩ : Fin 16)
          (0 : Fin 1) (0 : Fin 1) p)
      = y v (ix5 (0 : Fin 1) ch (0 : Fin 1) (0 : Fin 1) p) := by
  refine concatenate_ofFn_apply (t := ⟨5, ![1, 16, 1, 1, N]⟩) (s₁ := ⟨5, ![1, 4, 1, 1, N]⟩) (1 : Fin 5) y h rfl 4 rfl _ v
    (by have := ch.isLt; show (4 * v.val + ch.val) / 4 = v.val; omega) (ix5 (0 : Fin 1) ch (0 : Fin 1) (0 : Fin 1) p)
    (by have := ch.isLt; show ch.val = (4 * v.val + ch.val) % 4; omega) ?_
  intro b hb
  match b with
  | ⟨0, _⟩ => rfl
  | ⟨1, _⟩ => exact absurd rfl hb
  | ⟨2, _⟩ => rfl
  | ⟨3, _⟩ => rfl
  | ⟨4, _⟩ => rfl

theorem concatenate_rows8_apply {N : Nat} (y : Fin 8 → (⟨2, ![1, N]⟩ : Shape).Idx → α)
    (h : Shape.Concatenates (([⟨⟨2, ![1, N]⟩, y 0⟩, ⟨⟨2, ![1, N]⟩, y 1⟩, ⟨⟨2, ![1, N]⟩, y 2⟩, ⟨⟨2, ![1, N]⟩, y 3⟩,
      ⟨⟨2, ![1, N]⟩, y 4⟩, ⟨⟨2, ![1, N]⟩, y 5⟩, ⟨⟨2, ![1, N]⟩, y 6⟩, ⟨⟨2, ![1, N]⟩, y 7⟩] :
      List ((s : Shape) × (s.Idx → α))).map (·.1)) ⟨2, ![8, N]⟩ 0)
    (k : Fin 8) (p : Fin N) :
    concatenate ⟨2, ![8, N]⟩ 0 [⟨⟨2, ![1, N]⟩, y 0⟩, ⟨⟨2, ![1, N]⟩, y 1⟩, ⟨⟨2, ![1, N]⟩, y 2⟩, ⟨⟨2, ![1, N]⟩, y 3⟩,
        ⟨⟨2, ![1, N]⟩, y 4⟩, ⟨⟨2, ![1, N]⟩, y 5⟩, ⟨⟨2, ![1, N]⟩, y 6⟩, ⟨⟨2, ![1, N]⟩, y 7⟩] h (ix2 k p)
      = y k (ix2 (0 : Fin 1) p) := by
  refine concatenate_ofFn_unit_apply (t := ⟨2, ![8, N]⟩) (s₁ := ⟨2, ![1, N]⟩) (0 : Fin 2) y h rfl rfl (ix2 k p) k rfl
    (ix2 (0 : Fin 1) p) ?_
  intro b hb
  match b with
  | ⟨0, _⟩ => exact absurd rfl hb
  | ⟨1, _⟩ => rfl

end Concat

end Cert.LibLayout
-- ==== Proof.KPreShared.lean ====
/- What the four corner arrays share whatever the volume's extent: the eight stacked index rows read at k·N + p, and the [8N, 4] array re-read as [8, 4N]. -/
import proofs.«421879_j36455682409092_3_alg».proof.Proof.KIV
import proofs.«421879_j36455682409092_3_alg».proof.Proof.LibLayout
import Idealize.ShloMosaic.Lib.ValueIdx
import Idealize.ShloMosaic.Lib.Pipeline.Value

noncomputable section

namespace Cert.KernelIdeal.PreS

open Idealize.ShloMosaic Idealize.ShloMosaic.ValueIdx Cert.KernelIdeal Cert.KernelIdeal.Gen

/- The eight index rows stacked corner-major and flattened. -/
def stackRows (R : Fin 8 → IVec S1x1048576 32) : IVec S8388608 32 :=
  shapeCast S8388608
    (concatenate S8x1048576 0
      [⟨S1x1048576, R 0⟩, ⟨S1x1048576, R 1⟩, ⟨S1x1048576, R 2⟩, ⟨S1x1048576, R 3⟩,
       ⟨S1x1048576, R 4⟩, ⟨S1x1048576, R 5⟩, ⟨S1x1048576, R 6⟩, ⟨S1x1048576, R 7⟩]
      concatenates_S1x1048576_S1x1048576_S1x1048576_S1x1048576_S1x1048576_S1x1048576_S1x1048576_S1x1048576_S8x1048576_d0)
    shapeCasts_S8x1048576_S8388608

theorem stackRows_apply (R : Fin 8 → IVec S1x1048576 32) (k : Fin 8) (p : Fin 1048576) (r : Fin 8388608)
    (hr : r.val = k.val * 1048576 + p.val) : stackRows R (ix1 r) = R k (ix2 (0 : Fin 1) p) := by
  unfold stackRows
  refine (shapeCast_apply _ _ _ (ix2 k p) ?_).trans (Cert.LibLayout.concatenate_rows8_apply R _ k p)
  rw [Shape.rowMajor_val_two, Shape.rowMajor_val_one]
  exact hr.symm

theorem reread_apply {α : Type} (T : S8388608x4.Idx → α) (k : Fin 8) (l : Fin 4194304) :
    shapeCast S8x4194304 T shapeCasts_S8388608x4_S8x4194304 (ix2 k l)
      = T (ix2 (⟨k.val * 1048576 + l.val / 4, by have := k.isLt; have := l.isLt; omega⟩ : Fin 8388608)
            (⟨l.val % 4, by omega⟩ : Fin 4)) := by
  refine shapeCast_apply _ _ _ _ ?_
  rw [Shape.rowMajor_val_two, Shape.rowMajor_val_two]
  show (k.val * 1048576 + l.val / 4) * 4 + l.val % 4 = k.val * 4194304 + l.val
  omega

end Cert.KernelIdeal.PreS

end
-- ==== Proof.KPre0.lean ====
/- Entry (k, 4p + ch) of volume 0's corner array is voxel (ch, corner k of point p's cell): every flat index lies in [0, D³), so the take reads the row it names. -/
import proofs.«421879_j36455682409092_3_alg».proof.Proof.KIV
import proofs.«421879_j36455682409092_3_alg».proof.Proof.Spec
import proofs.«421879_j36455682409092_3_alg».proof.Proof.LibTRef
import Idealize.ShloMosaic.Lib.StableHlo.Run
import Idealize.ShloMosaic.Lib.ValueIdx
import Idealize.ShloMosaic.Lib.Pipeline.Value
import Idealize.ShloMosaic.Lib.ValueLayout
import proofs.«421879_j36455682409092_3_alg».proof.Proof.SpecLaws
import proofs.«421879_j36455682409092_3_alg».proof.Proof.LibLayout
import Idealize.ShloMosaic.PureOps.Reduce
import proofs.«421879_j36455682409092_3_alg».proof.Proof.KPreShared

noncomputable section

namespace Cert.KernelIdeal.Pre0

open Idealize.ShloMosaic Idealize.ShloMosaic.TcCoe Idealize.SL.Sem Cert.KernelIdeal Cert.KernelIdeal.Gen
open Idealize.ShloMosaic.StableHlo Idealize.ShloMosaic.ValueIdx Cert.KernelIdeal.PreS

variable {F : FTy → Type} [FloatOps F]

def gridT (g : FVec F S1x1x1x1048576x3 .f32) : FVec F S3x1048576 .f32 :=
  transpose S3x1048576 [1, 0] (shapeCast S1048576x3 g shapeCasts_S1x1x1x1048576x3_S1048576x3) transposes_S1048576x3_S3x1048576_1_0

def volCl (v : FVec F S1x4x32x32x32 .f32) : FVec F S32768x4 .f32 :=
  shapeCast S32768x4 (transpose S32x32x32x4 [1, 2, 3, 0] (shapeCast S4x32x32x32 v shapeCasts_S1x4x32x32x32_S4x32x32x32)
    transposes_S4x32x32x32_S32x32x32x4_1_2_3_0) shapeCasts_S32x32x32x4_S32768x4

def cellLo (u : FVec F S1048576 .f32) : IVec S1048576 32 := fptosi 32 (Host.floor u)

def cellHi (i : IVec S1048576 32) : IVec S1048576 32 :=
  minsi (addi i (broadcastInDim S1048576 ![] bcast_S_S1048576 (constantI S_ 32 1#32)))
    (broadcastInDim S1048576 ![] bcast_S_S1048576 (constantI S_ 32 31#32))

def coordArr (r : FVec F S1x1048576 .f32) : FVec F S1048576 .f32 :=
  minimumf (broadcastInDim S1048576 ![] bcast_S_S1048576 (constant S_ .f32 0x41F80000#32))
    (maximumf (broadcastInDim S1048576 ![] bcast_S_S1048576 (constant S_ .f32 0x00000000#32))
      (addf (mulf (shapeCast S1048576 r shapeCasts_S1x1048576_S1048576)
          (broadcastInDim S1048576 ![] bcast_S_S1048576 (constant S_ .f32 0x41780000#32)))
        (broadcastInDim S1048576 ![] bcast_S_S1048576 (constant S_ .f32 0x41780000#32))))

theorem rowSl : ∀ k : Fin 3, S3x1048576.Slices ![k.val, 0] S1x1048576 := by decide

/- Axis k's voxel coordinate of every point: row k of the transposed grid, scaled, shifted and clipped to [0, 31]. -/
def coordAx (g : FVec F S1x1x1x1048576x3 .f32) (k : Fin 3) : FVec F S1048576 .f32 :=
  coordArr (extractStridedSlice S1x1048576 ![k.val, 0] (gridT g) (rowSl k))

/- Corner k's flat word z·1024 + y·32 + x, each cell word lower or upper by bit 2, 1, 0 of k. -/
def cornerRow (x0 x1 y0 y1 z0 z1 : IVec S1048576 32) (k : Fin 8) : IVec S1x1048576 32 :=
  broadcastInDim S1x1048576 ![1] bcast_S1048576_S1x1048576_1
    (addi (addi (muli (if decide (k.val / 4 % 2 = 1) then z1 else z0) (broadcastInDim S1048576 ![] bcast_S_S1048576 (constantI S_ 32 1024#32)))
        (muli (if decide (k.val / 2 % 2 = 1) then y1 else y0) (broadcastInDim S1048576 ![] bcast_S_S1048576 (constantI S_ 32 32#32))))
      (if decide (k.val % 2 = 1) then x1 else x0))

def cornerIdx (ux uy uz : FVec F S1048576 .f32) : IVec S8388608 32 :=
  stackRows (cornerRow (cellLo ux) (cellHi (cellLo ux)) (cellLo uy) (cellHi (cellLo uy)) (cellLo uz) (cellHi (cellLo uz)))

def normIdx (i : IVec S8388608 32) : IVec S8388608x1 32 :=
  broadcastInDim S8388608x1 ![0] bcast_S8388608_S8388608x1_0
    (select (cmpi .slt i (broadcastInDim S8388608 ![] bcast_S_S8388608 (constantI S_ 32 0#32)))
      (addi i (broadcastInDim S8388608 ![] bcast_S_S8388608 (constantI S_ 32 32768#32))) i)

def inBounds (j : IVec S8388608x1 32) : IVec S8388608 1 :=
  Host.reduce IntOp.andi
    (andi (cmpi .sge j (broadcastInDim S8388608x1 ![] bcast_S_S8388608x1 (constantI S_ 32 0#32)))
      (cmpi .sle j (broadcastInDim S8388608x1 ![0, 1] bcast_S1x1_S8388608x1_0_1
        (broadcastInDim S1x1 ![1] bcast_S1_S1x1_1 (constantI S1 32 32767#32)))))
    (constantI S_ 1 1#1) reducesTo_S8388608x1_S8388608_d1 h_S_

def takeRows (tbl : FVec F S32768x4 .f32) (i : IVec S8388608 32) : FVec F S8388608x4 .f32 :=
  select (broadcastInDim S8388608x4 ![0] bcast_S8388608_S8388608x4_0 (inBounds (normIdx i)))
    (Host.gather gather_S32768x4_S8388608x1_S8388608x4_1_0_n_n_0_1_14 tbl (normIdx i))
    (broadcastInDim S8388608x4 ![] bcast_S_S8388608x4 (constant S_ .f32 0x7FC00000#32))

/- The corner array as one pure function of the grid and the volume. -/
def cornersArr (g : FVec F S1x1x1x1048576x3 .f32) (v : FVec F S1x4x32x32x32 .f32) : FVec F S8x4194304 .f32 :=
  shapeCast S8x4194304
    (takeRows (volCl v)
      (cornerIdx (coordAx g 0) (coordAx g 1) (coordAx g 2)))
    shapeCasts_S8388608x4_S8x4194304

variable (X : Valuation τ sig (Elt F))

/- After the first six stretches: the channels-last volume and the three clipped coordinate arrays. -/
theorem pre05 :
    let Y := StableHlo.after (hostOps0_5 (F := F)) (StableHlo.after hostOps0_4 (StableHlo.after hostOps0_3 (StableHlo.after hostOps0_2
      (StableHlo.after hostOps0_1 (StableHlo.after hostOps0 X)))))
    (Y (Proc.devRef .tc main_v4) : FVec F S32768x4 .f32) = volCl (X (Proc.devRef .tc main_arg1))
      ∧ (Y (Proc.devRef .tc main_v11) : FVec F S1048576 .f32) = coordAx (X (Proc.devRef .tc main_arg0)) 0
      ∧ (Y (Proc.devRef .tc main_v18) : FVec F S1048576 .f32) = coordAx (X (Proc.devRef .tc main_arg0)) 1
      ∧ (Y (Proc.devRef .tc main_v25) : FVec F S1048576 .f32) = coordAx (X (Proc.devRef .tc main_arg0)) 2 := by
  after_results_simp
  simp only [TRef.ofBuf_toBuf]
  exact ⟨rfl, rfl, rfl, rfl⟩

/- The next three stretches: stacked corner words, the take, the re-reading as [8, 4N]. -/
theorem post68 : (StableHlo.after (hostOps0_8 (F := F)) (StableHlo.after hostOps0_7 (StableHlo.after hostOps0_6 X))
      (Proc.devRef .tc main_v79) : FVec F S8x4194304 .f32)
    = shapeCast S8x4194304 (takeRows (X (Proc.devRef .tc main_v4))
        (cornerIdx (X (Proc.devRef .tc main_v11)) (X (Proc.devRef .tc main_v18)) (X (Proc.devRef .tc main_v25))))
      shapeCasts_S8388608x4_S8x4194304 := by
  after_results_simp
  simp only [TRef.ofBuf_toBuf]
  simp only [TRef.ofBuf, TRef.toBuf, cast_eq]
  rfl

/- No later stretch writes the corner array. -/
theorem keep_v79_later :
    StableHlo.after (List.flatten (List.drop 9 (Pre.stretches (F := F)))) X (Proc.devRef .tc main_v79) = X (Proc.devRef .tc main_v79) := by
  refine StableHlo.after_of_forall_not_mem _ _ (List.forall_iff_forall_mem.mp ?_)
  simp only [List.drop_succ_cons, List.drop_zero, List.flatten_cons, List.flatten_nil, List.append_nil, List.cons_append,
    List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

variable (m : (ℓ : Loc nD τ sig) → Buf (Elt F) ℓ)

theorem W_v79 (c : Dev nD) :
    (Pre.W (F := F) m c main_v79 : FVec F S8x4194304 .f32)
      = cornersArr (m ((c : Thread nD τ).loc main_arg0)) (m ((c : Thread nD τ).loc main_arg1)) := by
  dsimp only [Pre.W, Pre.W0]
  rw [← List.take_append_drop 9 (Pre.stretches (F := F)), List.flatten_append, StableHlo.after_append, keep_v79_later]
  simp only [List.take_succ_cons, List.take_zero, List.flatten_cons, List.flatten_nil, List.append_nil, StableHlo.after_append]
  obtain ⟨h4, h11, h18, h25⟩ := pre05 (F := F) fun b => m (c, b)
  rw [post68, h4, h11, h18, h25]
  rfl

theorem gridT_apply (g : FVec F S1x1x1x1048576x3 .f32) (a : Fin 3) (p : Fin 1048576) :
    gridT g (ix2 a p) = g (ix5 (0 : Fin 1) (0 : Fin 1) (0 : Fin 1) p a) :=
  (transpose_ix2_apply _ _ a p).trans (shapeCast_apply g _ _ _ (by
    rw [Shape.rowMajor_val_five, Shape.rowMajor_val_two]
    show (((0 * 1 + 0) * 1 + 0) * 1048576 + p.val) * 3 + a.val = p.val * 3 + a.val
    omega))

abbrev cK (t : F .f32) : F .f32 :=
  Spec.coordK (Spec.lit 0x41780000#32) (Spec.lit 0x00000000#32) (Spec.lit 0x41F80000#32) t

theorem coordArr_apply (r : FVec F S1x1048576 .f32) (p : Fin 1048576) :
    coordArr r (ix1 p)
      = cK (r (ix2 (0 : Fin 1) p)) :=
  congrArg (fun t => FloatOps.minimumf (Spec.lit 0x41F80000#32) (FloatOps.maximumf (Spec.lit 0x00000000#32)
      (FloatOps.addf (FloatOps.mulf t (Spec.lit 0x41780000#32)) (Spec.lit 0x41780000#32))))
    (shapeCast_1a_a_apply r shapeCasts_S1x1048576_S1048576 p)

theorem coordAx_apply (g : FVec F S1x1x1x1048576x3 .f32) (k : Fin 3) (p : Fin 1048576) :
    coordAx g k (ix1 p) = cK (g (ix5 (0 : Fin 1) (0 : Fin 1) (0 : Fin 1) p k)) := by
  unfold coordAx
  rw [coordArr_apply, slice2_axis0_apply k.val _ _ (0 : Fin 1) p k (Nat.add_zero _).symm, gridT_apply]

theorem cornerRow_apply (x0 x1 y0 y1 z0 z1 : IVec S1048576 32) (k : Fin 8) (p : Fin 1048576) :
    cornerRow x0 x1 y0 y1 z0 z1 k (ix2 (0 : Fin 1) p)
      = IntOp.addi (IntOp.addi (IntOp.muli ((if decide (k.val / 4 % 2 = 1) then z1 else z0) (ix1 p)) 1024#32)
            (IntOp.muli ((if decide (k.val / 2 % 2 = 1) then y1 else y0) (ix1 p)) 32#32))
          ((if decide (k.val % 2 = 1) then x1 else x0) (ix1 p)) :=
  broadcastInDim_apply _ _ _ (ix2 (0 : Fin 1) p) (ix1 p) fun a => by
    match a with
    | ⟨0, _⟩ => rfl

theorem cornerIdx_apply (ux uy uz : FVec F S1048576 .f32) (k : Fin 8) (p : Fin 1048576) (r : Fin 8388608)
    (hr : r.val = k.val * 1048576 + p.val) :
    cornerIdx ux uy uz (ix1 r)
      = IntOp.addi (IntOp.addi
            (IntOp.muli (Spec.cellSel 31#32 (decide (k.val / 4 % 2 = 1)) (uz (ix1 p))) 1024#32)
            (IntOp.muli (Spec.cellSel 31#32 (decide (k.val / 2 % 2 = 1)) (uy (ix1 p))) 32#32))
          (Spec.cellSel 31#32 (decide (k.val % 2 = 1)) (ux (ix1 p))) := by
  have sel (b : Bool) (u : FVec F S1048576 .f32) :
      (if b then cellHi (cellLo u) else cellLo u) (ix1 p) = Spec.cellSel 31#32 b (u (ix1 p)) := by cases b <;> rfl
  unfold cornerIdx
  rw [stackRows_apply _ k p r hr, cornerRow_apply, sel, sel, sel]

theorem normIdx_apply (i : IVec S8388608 32) (r : Fin 8388608) :
    normIdx i (ix2 r (0 : Fin 1))
      = Scalar.select (IntOp.cmpi .slt (i (ix1 r)) 0#32) (IntOp.addi (i (ix1 r)) 32768#32) (i (ix1 r)) :=
  broadcastInDim_apply _ _ _ (ix2 r (0 : Fin 1)) (ix1 r) fun a => by
    match a with
    | ⟨0, _⟩ => rfl

theorem inBounds_apply (j : IVec S8388608x1 32) (r : Fin 8388608) :
    inBounds j (ix1 r)
      = IntOp.andi (IntOp.andi (IntOp.cmpi .sge (j (ix2 r (0 : Fin 1))) 0#32) (IntOp.cmpi .sle (j (ix2 r (0 : Fin 1))) 32767#32)) 1#1 := by
  unfold inBounds
  rw [Host.reduce_eq_fold]
  have hs : (Finset.univ.filter fun i : S8388608x1.Idx => reducesTo_S8388608x1_S8388608_d1.drop i = ix1 r)
      = {ix2 r (0 : Fin 1)} := by
    ext i
    simp only [Finset.mem_filter, Finset.mem_univ, true_and, Finset.mem_singleton]
    constructor
    · intro h
      obtain ⟨a, b, rfl⟩ : ∃ (a : Fin 8388608) (b : Fin 1), i = ix2 a b := ⟨i 0, i 1, eq_ix2 i⟩
      have ha : a = r := Fin.ext (congrArg Fin.val (congrFun h 0))
      have hb : b = 0 := Subsingleton.elim _ _
      rw [ha, hb]
    · rintro rfl
      funext b
      match b with
      | ⟨0, _⟩ => rfl
  rw [hs, Finset.fold_singleton]
  rfl

theorem takeRows_apply (tbl : FVec F S32768x4 .f32) (i : IVec S8388608 32) (r : Fin 8388608) (ch : Fin 4) :
    takeRows tbl i (ix2 r ch)
      = Scalar.select (inBounds (normIdx i) (ix1 r))
          (tbl (ix2 (Spec.cidx 32768 (by decide) (normIdx i (ix2 r (0 : Fin 1)))) ch)) (Spec.lit 0x7FC00000#32) := by
  unfold takeRows
  show Scalar.select (broadcastInDim _ _ _ _ _) (Host.gather _ _ _ _) _ = _
  rw [broadcastInDim_apply _ _ _ (ix2 r ch) (ix1 r) fun a => by
      match a with
      | ⟨0, _⟩ => rfl,
    Cert.LibLayout.gather_row_apply (by decide) _ rfl rfl rfl rfl rfl rfl rfl tbl (normIdx i) r ch]
  rfl

theorem volCl_apply (v : FVec F S1x4x32x32x32 .f32) (q : Fin 32768) (ch : Fin 4) (z y x : Fin 32)
    (hq : q.val = z.val * 1024 + y.val * 32 + x.val) :
    volCl v (ix2 q ch) = v (ix5 (0 : Fin 1) ch z y x) := by
  unfold volCl
  refine (shapeCast_apply _ _ (ix2 q ch) (ix4 z y x ch) ?_).trans ?_
  · rw [Shape.rowMajor_val_four, Shape.rowMajor_val_two]
    show ((z.val * 32 + y.val) * 32 + x.val) * 4 + ch.val = q.val * 4 + ch.val
    omega
  refine (transpose_apply [1, 2, 3, 0] _ _ (ix4 z y x ch) (ix4 ch z y x) fun b => ?_).trans ?_
  · match b with
    | ⟨0, _⟩ => rfl
    | ⟨1, _⟩ => rfl
    | ⟨2, _⟩ => rfl
    | ⟨3, _⟩ => rfl
  · refine shapeCast_apply v _ (ix4 ch z y x) (ix5 (0 : Fin 1) ch z y x) ?_
    rw [Shape.rowMajor_val_five, Shape.rowMajor_val_four]
    show (((0 * 4 + ch.val) * 32 + z.val) * 32 + y.val) * 32 + x.val = ((ch.val * 32 + z.val) * 32 + y.val) * 32 + x.val
    omega

/- Cell words of clipped coordinates lie in [0, 31], so each flat word lies in [0, 32768): the take reads the voxel it names. -/
theorem take_apply (g : FVec Ideal S1x1x1x1048576x3 .f32) (v : FVec Ideal S1x4x32x32x32 .f32) (k : Fin 8)
    (p : Fin 1048576) (ch : Fin 4) (r : Fin 8388608) (hr : r.val = k.val * 1048576 + p.val) :
    takeRows (volCl v) (cornerIdx (coordAx g 0) (coordAx g 1) (coordAx g 2))
        (ix2 r ch)
      = Spec.corner (F := Ideal) 32 (by decide) 31#32 v ch k
          (cK (g (ix5 (0 : Fin 1) (0 : Fin 1) (0 : Fin 1) p (0 : Fin 3))))
          (cK (g (ix5 (0 : Fin 1) (0 : Fin 1) (0 : Fin 1) p (1 : Fin 3))))
          (cK (g (ix5 (0 : Fin 1) (0 : Fin 1) (0 : Fin 1) p (2 : Fin 3)))) := by
  have hI := cornerIdx_apply (coordAx g 0) (coordAx g 1) (coordAx g 2) k p r hr
  rw [coordAx_apply, coordAx_apply, coordAx_apply] at hI
  have wx := Spec.cellSel_coordK_mem0 (decide (k.val % 2 = 1)) (g (ix5 (0 : Fin 1) (0 : Fin 1) (0 : Fin 1) p (0 : Fin 3)))
  have wy := Spec.cellSel_coordK_mem0 (decide (k.val / 2 % 2 = 1)) (g (ix5 (0 : Fin 1) (0 : Fin 1) (0 : Fin 1) p (1 : Fin 3)))
  have wz := Spec.cellSel_coordK_mem0 (decide (k.val / 4 % 2 = 1)) (g (ix5 (0 : Fin 1) (0 : Fin 1) (0 : Fin 1) p (2 : Fin 3)))
  have hf := Spec.flat_mem32 _ _ _ wz wy wx
  rw [takeRows_apply, inBounds_apply, normIdx_apply, hI, Spec.norm_noop _ _ hf.1, Spec.mask_one32767 _ hf,
    show IntOp.andi (1#1 : BitVec 1) 1#1 = 1#1 from rfl, select_one,
    volCl_apply v _ ch _ _ _ (Spec.flat_cidx32 (by decide) (by decide) _ _ _ wz wy wx)]
  rfl

theorem corners0 (m : (ℓ : Loc nD τ sig) → Buf (Elt Ideal) ℓ) (c : Dev nD) (k : Fin 8) (l : Fin 4194304) :
    (Pre.W (F := Ideal) m c main_v79 : S8x4194304.Idx → EReal) (ix2 k l)
      = Spec.corner (F := Ideal) 32 (by decide) 31#32 (m ((c : Thread nD τ).loc main_arg1)) (⟨l.val % 4, by omega⟩ : Fin 4) k
          (Spec.coordK (Spec.lit 0x41780000#32) (Spec.lit 0x00000000#32) (Spec.lit 0x41F80000#32)
            ((m ((c : Thread nD τ).loc main_arg0) : S1x1x1x1048576x3.Idx → EReal)
              (ix5 (0 : Fin 1) (0 : Fin 1) (0 : Fin 1) (⟨l.val / 4, by omega⟩ : Fin 1048576) (0 : Fin 3))))
          (Spec.coordK (Spec.lit 0x41780000#32) (Spec.lit 0x00000000#32) (Spec.lit 0x41F80000#32)
            ((m ((c : Thread nD τ).loc main_arg0) : S1x1x1x1048576x3.Idx → EReal)
              (ix5 (0 : Fin 1) (0 : Fin 1) (0 : Fin 1) (⟨l.val / 4, by omega⟩ : Fin 1048576) (1 : Fin 3))))
          (Spec.coordK (Spec.lit 0x41780000#32) (Spec.lit 0x00000000#32) (Spec.lit 0x41F80000#32)
            ((m ((c : Thread nD τ).loc main_arg0) : S1x1x1x1048576x3.Idx → EReal)
              (ix5 (0 : Fin 1) (0 : Fin 1) (0 : Fin 1) (⟨l.val / 4, by omega⟩ : Fin 1048576) (2 : Fin 3)))) :=
  (congrFun (W_v79 (F := Ideal) m c) (ix2 k l)).trans
    ((reread_apply _ k l).trans (take_apply _ _ k ⟨l.val / 4, by omega⟩ ⟨l.val % 4, by omega⟩ _ rfl))

end Cert.KernelIdeal.Pre0

end
-- ==== Proof.KPre1.lean ====
/- Entry (k, 4p + ch) of volume 1's corner array is voxel (ch, corner k of point p's cell): every flat index lies in [0, D³), so the take reads the row it names. -/
import proofs.«421879_j36455682409092_3_alg».proof.Proof.KIV
import proofs.«421879_j36455682409092_3_alg».proof.Proof.Spec
import proofs.«421879_j36455682409092_3_alg».proof.Proof.SpecLaws
import proofs.«421879_j36455682409092_3_alg».proof.Proof.LibTRef
import proofs.«421879_j36455682409092_3_alg».proof.Proof.LibLayout
import proofs.«421879_j36455682409092_3_alg».proof.Proof.KPrePts
import Idealize.ShloMosaic.Lib.StableHlo.Run
import Idealize.ShloMosaic.Lib.ValueIdx
import Idealize.ShloMosaic.Lib.Pipeline.Value
import Idealize.ShloMosaic.Lib.ValueLayout
import proofs.«421879_j36455682409092_3_alg».proof.Proof.KPreShared

noncomputable section

namespace Cert.KernelIdeal.Pre1

open Idealize.ShloMosaic Idealize.ShloMosaic.TcCoe Idealize.SL.Sem Cert.KernelIdeal Cert.KernelIdeal.Gen
open Idealize.ShloMosaic.StableHlo Idealize.ShloMosaic.ValueIdx
open Cert.KernelIdeal.PrePts

variable {F : FTy → Type} [FloatOps F]

def bc {α : Type} (y : S_.Idx → α) : S1048576.Idx → α := broadcastInDim S1048576 ![] bcast_S_S1048576 y

def rowV (a : Fin 3) (h : S3x1048576.Slices ![a.val, 0] S1x1048576) (g : FVec F S3x1048576 .f32) : FVec F S1048576 .f32 :=
  shapeCast S1048576 (extractStridedSlice S1x1048576 ![a.val, 0] g h) shapeCasts_S1x1048576_S1048576

def coordV (r : FVec F S1048576 .f32) : FVec F S1048576 .f32 :=
  minimumf (bc (constant S_ .f32 0x427C0000#32)) (maximumf (bc (constant S_ .f32 0x00000000#32))
    (addf (mulf r (bc (constant S_ .f32 0x41FC0000#32))) (bc (constant S_ .f32 0x41FC0000#32))))

def rowI (f : IVec S1048576 32) : IVec S1x1048576 32 := broadcastInDim S1x1048576 ![1] bcast_S1048576_S1x1048576_1 f

def stackV (f : Fin 8 → IVec S1048576 32) : IVec S8388608 32 := PreS.stackRows fun k => rowI (f k)

/- The flat word z·64² + y·64 + x of corner k's cell. -/
def flatW (k : Fin 8) (ux uy uz : F .f32) : BitVec 32 :=
  IntOp.addi (IntOp.addi (IntOp.muli (Cert.Spec.cellSel 63#32 (decide (k.val / 4 % 2 = 1)) uz) 4096#32)
    (IntOp.muli (Cert.Spec.cellSel 63#32 (decide (k.val / 2 % 2 = 1)) uy) 64#32))
    (Cert.Spec.cellSel 63#32 (decide (k.val % 2 = 1)) ux)

def idxV (ux uy uz : FVec F S1048576 .f32) : IVec S8388608 32 := stackV fun k i => flatW k (ux i) (uy i) (uz i)

def normV (i : IVec S8388608 32) : IVec S8388608 32 :=
  select (cmpi .slt i (broadcastInDim S8388608 ![] bcast_S_S8388608 (constantI S_ 32 0#32)))
    (addi i (broadcastInDim S8388608 ![] bcast_S_S8388608 (constantI S_ 32 262144#32))) i

def colV (j : IVec S8388608 32) : IVec S8388608x1 32 := broadcastInDim S8388608x1 ![0] bcast_S8388608_S8388608x1_0 j

def maskV (j : IVec S8388608 32) : IVec S8388608x4 1 :=
  broadcastInDim S8388608x4 ![0] bcast_S8388608_S8388608x4_0
    (Host.reduce IntOp.andi
      (andi (cmpi .sge (colV j) (broadcastInDim S8388608x1 ![] bcast_S_S8388608x1 (constantI S_ 32 0#32)))
        (cmpi .sle (colV j) (broadcastInDim S8388608x1 ![0, 1] bcast_S1x1_S8388608x1_0_1
          (broadcastInDim S1x1 ![1] bcast_S1_S1x1_1 (constantI S1 32 262143#32)))))
      (constantI S_ 1 1#1) reducesTo_S8388608x1_S8388608_d1 h_S_)

def takeV (vol : FVec F S262144x4 .f32) (i : IVec S8388608 32) : FVec F S8388608x4 .f32 :=
  select (maskV (normV i)) (Host.gather gather_S262144x4_S8388608x1_S8388608x4_1_0_n_n_0_1_14 vol (colV (normV i)))
    (broadcastInDim S8388608x4 ![] bcast_S_S8388608x4 (constant S_ .f32 0x7FC00000#32))

def vclV (vol : FVec F S1x4x64x64x64 .f32) : FVec F S262144x4 .f32 :=
  shapeCast S262144x4 (transpose S64x64x64x4 [1, 2, 3, 0] (shapeCast S4x64x64x64 vol shapeCasts_S1x4x64x64x64_S4x64x64x64)
    transposes_S4x64x64x64_S64x64x64x4_1_2_3_0) shapeCasts_S64x64x64x4_S262144x4

def cornersV (g : FVec F S3x1048576 .f32) (vol : FVec F S1x4x64x64x64 .f32) : FVec F S8x4194304 .f32 :=
  shapeCast S8x4194304 (takeV (vclV vol) (idxV (coordV (rowV 0 slices_S3x1048576_S1x1048576_0_0 g))
    (coordV (rowV 1 slices_S3x1048576_S1x1048576_1_0 g)) (coordV (rowV 2 slices_S3x1048576_S1x1048576_2_0 g))))
    shapeCasts_S8388608x4_S8x4194304

section Stretches
variable (X : Valuation τ sig (Elt F))

theorem ofBuf_v155 (h1 : main_v155.ty = (⟨S8388608, .i32⟩ : BufTy)) (h2 h3) (v : main_v155.ty.Contents (Elt F)) :
    (TRef.of main_v155 h1 h2 h3 : TRef sig ⟨S8388608, .i32⟩).ofBuf v = v := rfl
theorem ofBuf_v82 (h1 : main_v82.ty = (⟨S262144x4, .f32⟩ : BufTy)) (h2 h3) (v : main_v82.ty.Contents (Elt F)) :
    (TRef.of main_v82 h1 h2 h3 : TRef sig ⟨S262144x4, .f32⟩).ofBuf v = v := rfl
theorem toBuf_v156 (h1 : main_v156.ty = (⟨S8388608x4, .f32⟩ : BufTy)) (h2 h3) (v : (⟨S8388608x4, .f32⟩ : BufTy).Contents (Elt F)) :
    (TRef.of main_v156 h1 h2 h3 : TRef sig ⟨S8388608x4, .f32⟩).toBuf v = v := rfl

abbrev X13 : Valuation τ sig (Elt F) :=
  StableHlo.after hostOps0_13 (StableHlo.after hostOps0_12 (StableHlo.after hostOps0_11 (StableHlo.after hostOps0_10
    (StableHlo.after hostOps0_9 (StableHlo.after hostOps0_8 X)))))

/- After the six coordinate stretches the three rows hold the scaled and clipped rows of the transposed grid. -/
theorem coords13 : X13 X (Proc.devRef .tc main_v89) = coordV (rowV 0 slices_S3x1048576_S1x1048576_0_0 (X (Proc.devRef .tc main_v1)))
    ∧ X13 X (Proc.devRef .tc main_v96) = coordV (rowV 1 slices_S3x1048576_S1x1048576_1_0 (X (Proc.devRef .tc main_v1)))
    ∧ X13 X (Proc.devRef .tc main_v103) = coordV (rowV 2 slices_S3x1048576_S1x1048576_2_0 (X (Proc.devRef .tc main_v1))) := by
  refine ⟨?_, ?_, ?_⟩ <;>
    (dsimp only [X13, hostOps0_8, hostOps0_9, hostOps0_10, hostOps0_11, hostOps0_12, hostOps0_13]; after_results_simp; simp only [StableHlo.TRef.ofBuf_toBuf]; rfl)

theorem v82_14 : StableHlo.after hostOps0_14 (X13 X) (Proc.devRef .tc main_v82) = vclV (X (Proc.devRef .tc main_arg2)) := by
  dsimp only [X13, hostOps0_8, hostOps0_9, hostOps0_10, hostOps0_11, hostOps0_12, hostOps0_13, hostOps0_14]; after_results_simp; rfl

theorem s14_v155 : StableHlo.after hostOps0_14 X (Proc.devRef .tc main_v155)
    = idxV (X (Proc.devRef .tc main_v89)) (X (Proc.devRef .tc main_v96)) (X (Proc.devRef .tc main_v103)) := by
  dsimp only [hostOps0_14]; after_results_simp
  rfl

theorem s15_v156 : StableHlo.after hostOps0_15 X (Proc.devRef .tc main_v156)
    = takeV (X (Proc.devRef .tc main_v82)) (X (Proc.devRef .tc main_v155)) := by
  dsimp only [hostOps0_15, main_call7_call0]; after_results_simp; simp only [StableHlo.TRef.ofBuf_toBuf]
  rw [toBuf_v156]
  simp only [ofBuf_v155, ofBuf_v82]
  unfold takeV maskV normV colV
  rfl

theorem s16_v157 : StableHlo.after hostOps0_16 X (Proc.devRef .tc main_v157)
    = shapeCast S8x4194304 (X (Proc.devRef .tc main_v156)) shapeCasts_S8388608x4_S8x4194304 := by
  dsimp only [hostOps0_16]; after_results; rfl

end Stretches

abbrev preS : List (List (HloOp τ sig (Elt F))) := [hostOps0, hostOps0_1, hostOps0_2, hostOps0_3, hostOps0_4, hostOps0_5, hostOps0_6, hostOps0_7]

abbrev midS : List (List (HloOp τ sig (Elt F))) := [hostOps0_8, hostOps0_9, hostOps0_10, hostOps0_11, hostOps0_12, hostOps0_13, hostOps0_14, hostOps0_15, hostOps0_16]

abbrev postS : List (List (HloOp τ sig (Elt F))) :=
  [hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

theorem stretches_split : (Pre.stretches (F := F)) = preS ++ (midS ++ postS) := rfl

/- The nine middle stretches compute cornersV of the transposed grid and the volume. -/
theorem mid_v157 (X : Valuation τ sig (Elt F)) : StableHlo.after (List.flatten midS) X (Proc.devRef .tc main_v157)
    = cornersV (X (Proc.devRef .tc main_v1)) (X (Proc.devRef .tc main_arg2)) := by
  simp only [midS, List.flatten_cons, List.flatten_nil, List.append_nil, StableHlo.after_append]
  have h := coords13 X
  have h82 := v82_14 X
  dsimp only [X13] at h h82
  rw [s16_v157, s15_v156, s14_v155, h82, h.1, h.2.1, h.2.2]
  rfl

theorem v157_keep_post : ∀ s ∈ (postS (F := F)), ∀ Y : Valuation τ sig (Elt F),
    StableHlo.after s Y (Proc.devRef .tc main_v157) = Y (Proc.devRef .tc main_v157) :=
  List.forall_iff_forall_mem.mp (by
    refine ⟨?_, ?_, ?_, ?_, ?_, ?_, ?_, ?_, ?_, ?_, ?_, ?_, ?_, ?_, ?_, ?_⟩ <;> intro Y <;> after_results_simp)

theorem arg2_keep_pre : ∀ s ∈ (preS (F := F)), ∀ Y : Valuation τ sig (Elt F),
    StableHlo.after s Y (Proc.devRef .tc main_arg2) = Y (Proc.devRef .tc main_arg2) :=
  List.forall_iff_forall_mem.mp (by refine ⟨?_, ?_, ?_, ?_, ?_, ?_, ?_, ?_⟩ <;> intro Y <;> after_results_simp)

variable (m : (ℓ : Loc nD τ sig) → Buf (Elt F) ℓ) (c : Dev nD)

theorem W_main_v157 : Pre.W m c main_v157
    = cornersV (gridT (m ((c : Thread nD τ).loc main_arg0))) (m ((c : Thread nD τ).loc main_arg2)) := by
  show StableHlo.after (List.flatten (Pre.stretches (F := F))) (fun b => m (c, b)) (Proc.devRef .tc main_v157) = _
  rw [stretches_split, List.flatten_append, List.flatten_append, StableHlo.after_append, StableHlo.after_append,
    after_flatten_keep _ _ v157_keep_post, mid_v157]
  exact congrArg₂ cornersV (gridT_kept m c 7) (after_flatten_keep _ _ arg2_keep_pre)

section Apply

theorem row_apply (a : Fin 3) (h : S3x1048576.Slices ![a.val, 0] S1x1048576) (g : FVec F S3x1048576 .f32) (p : Fin 1048576) :
    rowV a h g (ix1 p) = g (ix2 a p) :=
  (shapeCast_1a_a_apply _ _ p).trans (slice2_axis0_apply a.val g h (0 : Fin 1) p a rfl)

theorem rowI_apply (f : IVec S1048576 32) (p : Fin 1048576) : rowI f (ix2 (0 : Fin 1) p) = f (ix1 p) :=
  broadcastInDim_apply _ _ _ _ _ fun a => match a with | ⟨0, _⟩ => rfl

theorem idxV_apply (ux uy uz : FVec F S1048576 .f32) (k : Fin 8) (p : Fin 1048576) (r : Fin 8388608)
    (hr : r.val = k.val * 1048576 + p.val) :
    idxV ux uy uz (ix1 r) = flatW k (ux (ix1 p)) (uy (ix1 p)) (uz (ix1 p)) :=
  (PreS.stackRows_apply (fun q => rowI fun i => flatW q (ux i) (uy i) (uz i)) k p r hr).trans (rowI_apply _ p)

theorem colV_apply (j : IVec S8388608 32) (r : Fin 8388608) : colV j (ix2 r (0 : Fin 1)) = j (ix1 r) :=
  broadcastInDim_apply _ _ _ _ _ fun a => match a with | ⟨0, _⟩ => rfl

theorem fold_fin_one {β : Type} (op : β → β → β) [Std.Commutative op] [Std.Associative op] (b : β) (n : Nat) (hn : n = 1)
    (f : Fin n → β) : (Finset.univ : Finset (Fin n)).fold op b f = op (f ⟨0, by omega⟩) b := by
  subst hn
  rw [Finset.univ_unique, Finset.fold_singleton]
  rfl

theorem maskV_apply (j : IVec S8388608 32) (r : Fin 8388608) (ch : Fin 4) :
    maskV j (ix2 r ch)
      = IntOp.andi (IntOp.andi (IntOp.cmpi .sge (j (ix1 r)) 0#32) (IntOp.cmpi .sle (j (ix1 r)) 262143#32)) 1#1 := by
  have hR : S8388608x1.Reduces [1] S8388608 := by decide
  have hl : hR.lift (ix1 r) (⟨0, by decide⟩ : Fin (S8388608x1.size 1)) = ix2 r (0 : Fin 1) := by
    funext a
    match a with
    | ⟨0, _⟩ => exact Fin.ext rfl
    | ⟨1, _⟩ => exact Fin.ext rfl
  unfold maskV
  refine (broadcastInDim_apply _ _ _ (ix2 r ch) (ix1 r) (fun a => match a with | ⟨0, _⟩ => rfl)).trans ?_
  refine (Host.reduce_eq_fold_single IntOp.andi _ _ reducesTo_S8388608x1_S8388608_d1 hR h_S_ (ix1 r)).trans ?_
  refine (fold_fin_one IntOp.andi _ (S8388608x1.size 1) rfl _).trans ?_
  show IntOp.andi (IntOp.andi (IntOp.cmpi .sge (colV j (hR.lift (ix1 r) ⟨0, by decide⟩)) 0#32)
      (IntOp.cmpi .sle (colV j (hR.lift (ix1 r) ⟨0, by decide⟩)) 262143#32)) 1#1 = _
  rw [hl, colV_apply]

/- A flat word in [0, 64³) passes the index normalisation and the bounds mask unchanged, so the take reads the row it names. -/
theorem takeV_apply_of_mem (vol : FVec F S262144x4 .f32) (i : IVec S8388608 32) (r : Fin 8388608) (ch : Fin 4)
    (h : 0 ≤ (i (ix1 r)).toInt ∧ (i (ix1 r)).toInt ≤ 262143) :
    takeV vol i (ix2 r ch) = vol (ix2 (Cert.Spec.cidx 262144 (by decide) (i (ix1 r))) ch) := by
  have hn : normV i (ix1 r) = i (ix1 r) := Cert.Spec.norm_noop _ _ h.1
  have hm : maskV (normV i) (ix2 r ch) = 1#1 := by
    rw [maskV_apply, hn, Cert.Spec.mask_one262143 _ h]; rfl
  unfold takeV
  rw [select_apply, hm, select_one]
  refine (Cert.LibLayout.gather_row_apply (by decide) _ rfl rfl rfl rfl rfl rfl rfl vol _ r ch).trans ?_
  rw [colV_apply, hn]

/- Row z·64² + y·64 + x of the channels-last volume is voxel (z, y, x). -/
theorem vclV_apply (vol : FVec F S1x4x64x64x64 .f32) (z y x : Fin 64) (ch : Fin 4) (row : Fin 262144)
    (h : row.val = z.val * 4096 + y.val * 64 + x.val) :
    vclV vol (ix2 row ch) = vol (ix5 (0 : Fin 1) ch z y x) := by
  unfold vclV
  refine (shapeCast_apply _ _ _ (ix4 z y x ch) ?_).trans ?_
  · rw [Shape.rowMajor_val_four, Shape.rowMajor_val_two]
    show ((z.val * 64 + y.val) * 64 + x.val) * 4 + ch.val = row.val * 4 + ch.val
    omega
  refine (transpose_apply _ _ _ (ix4 z y x ch) (ix4 ch z y x) fun b => ?_).trans ?_
  · match b with
    | ⟨0, _⟩ => rfl
    | ⟨1, _⟩ => rfl
    | ⟨2, _⟩ => rfl
    | ⟨3, _⟩ => rfl
  refine shapeCast_apply _ _ _ _ ?_
  rw [Shape.rowMajor_val_five, Shape.rowMajor_val_four]
  show ((((0 : Fin 1).val * 4 + ch.val) * 64 + z.val) * 64 + y.val) * 64 + x.val = ((ch.val * 64 + z.val) * 64 + y.val) * 64 + x.val
  simp only [Fin.val_zero, Nat.zero_mul, Nat.zero_add]

/- Entry (k, l) of the [8, 4N] reading is entry (k·N + l / 4, l % 4) of the [8N, 4] array. -/
end Apply

section Final

abbrev cK (p : Ideal .f32) : Ideal .f32 :=
  Cert.Spec.coordK (Cert.Spec.lit 0x41FC0000#32) (Cert.Spec.lit 0x00000000#32) (Cert.Spec.lit 0x427C0000#32) p

/- The three cell words lie in [0, 63], so the flat word lies in [0, 64³) and the take reads the row it names. -/
theorem corner_of_coords (g : FVec Ideal S3x1048576 .f32) (vol : FVec Ideal S1x4x64x64x64 .f32) (k : Fin 8) (l : Fin 4194304) :
    cornersV g vol (ix2 k l)
      = Cert.Spec.corner (F := Ideal) 64 (by decide) 63#32 vol ⟨l.val % 4, by omega⟩ k
          (cK (g (ix2 (0 : Fin 3) (⟨l.val / 4, by omega⟩ : Fin 1048576))))
          (cK (g (ix2 (1 : Fin 3) (⟨l.val / 4, by omega⟩ : Fin 1048576))))
          (cK (g (ix2 (2 : Fin 3) (⟨l.val / 4, by omega⟩ : Fin 1048576)))) := by
  have hu : ∀ (a : Fin 3) (h), coordV (rowV a h g) (ix1 (⟨l.val / 4, by omega⟩ : Fin 1048576))
      = cK (g (ix2 a (⟨l.val / 4, by omega⟩ : Fin 1048576))) := fun a h => congrArg cK (row_apply a h g _)
  have hz := Cert.Spec.cellSel_coordK_mem1 (decide (k.val / 4 % 2 = 1)) (g (ix2 (2 : Fin 3) (⟨l.val / 4, by omega⟩ : Fin 1048576)))
  have hy := Cert.Spec.cellSel_coordK_mem1 (decide (k.val / 2 % 2 = 1)) (g (ix2 (1 : Fin 3) (⟨l.val / 4, by omega⟩ : Fin 1048576)))
  have hx := Cert.Spec.cellSel_coordK_mem1 (decide (k.val % 2 = 1)) (g (ix2 (0 : Fin 3) (⟨l.val / 4, by omega⟩ : Fin 1048576)))
  have hidx := (idxV_apply _ _ _ k (⟨l.val / 4, by omega⟩ : Fin 1048576) (⟨k.val * 1048576 + l.val / 4, by omega⟩ : Fin 8388608) rfl).trans
    (congr (congr (congrArg (flatW k) (hu 0 (by decide))) (hu 1 (by decide))) (hu 2 (by decide)))
  unfold cornersV
  rw [PreS.reread_apply, takeV_apply_of_mem _ _ _ _ (by rw [hidx]; exact Cert.Spec.flat_mem64 _ _ _ hz hy hx), hidx]
  exact vclV_apply vol (Cert.Spec.cidx 64 (by decide) _) (Cert.Spec.cidx 64 (by decide) _) (Cert.Spec.cidx 64 (by decide) _)
    _ _ (Cert.Spec.flat_cidx64 _ _ _ _ _ hz hy hx)

variable (m : (ℓ : Loc nD τ sig) → Buf (Elt Ideal) ℓ) (c : Dev nD)

theorem corners1 (k : Fin 8) (l : Fin 4194304) :
    (Cert.KernelIdeal.Pre.W (F := Ideal) m c main_v157 : S8x4194304.Idx → EReal) (ix2 k l)
      = Cert.Spec.corner (F := Ideal) 64 (by decide) 63#32 (m ((c : Thread nD τ).loc main_arg2)) ⟨l.val % 4, by omega⟩ k
          (Cert.Spec.coordK (Cert.Spec.lit 0x41FC0000#32) (Cert.Spec.lit 0x00000000#32) (Cert.Spec.lit 0x427C0000#32)
            ((m ((c : Thread nD τ).loc main_arg0) : S1x1x1x1048576x3.Idx → EReal)
              (ix5 (0 : Fin 1) (0 : Fin 1) (0 : Fin 1) ⟨l.val / 4, by omega⟩ (0 : Fin 3))))
          (Cert.Spec.coordK (Cert.Spec.lit 0x41FC0000#32) (Cert.Spec.lit 0x00000000#32) (Cert.Spec.lit 0x427C0000#32)
            ((m ((c : Thread nD τ).loc main_arg0) : S1x1x1x1048576x3.Idx → EReal)
              (ix5 (0 : Fin 1) (0 : Fin 1) (0 : Fin 1) ⟨l.val / 4, by omega⟩ (1 : Fin 3))))
          (Cert.Spec.coordK (Cert.Spec.lit 0x41FC0000#32) (Cert.Spec.lit 0x00000000#32) (Cert.Spec.lit 0x427C0000#32)
            ((m ((c : Thread nD τ).loc main_arg0) : S1x1x1x1048576x3.Idx → EReal)
              (ix5 (0 : Fin 1) (0 : Fin 1) (0 : Fin 1) ⟨l.val / 4, by omega⟩ (2 : Fin 3)))) := by
  refine (congrFun (W_main_v157 (F := Ideal) m c) (ix2 k l)).trans ((corner_of_coords _ _ k l).trans ?_)
  rw [gridT_apply, gridT_apply, gridT_apply]

end Final

end Cert.KernelIdeal.Pre1

end
-- ==== Proof.KPre2.lean ====
/- Entry (k, 4p + ch) of volume 2's corner array is voxel (ch, corner k of point p's cell): every flat index lies in [0, D³), so the take reads the row it names. -/
import proofs.«421879_j36455682409092_3_alg».proof.Proof.KIV
import proofs.«421879_j36455682409092_3_alg».proof.Proof.Spec
import proofs.«421879_j36455682409092_3_alg».proof.Proof.LibTRef
import proofs.«421879_j36455682409092_3_alg».proof.Proof.SpecLaws
import proofs.«421879_j36455682409092_3_alg».proof.Proof.LibLayout
import proofs.«421879_j36455682409092_3_alg».proof.Proof.KPrePts
import Idealize.ShloMosaic.Lib.StableHlo.Run
import Idealize.ShloMosaic.Lib.ValueIdx
import Idealize.ShloMosaic.Lib.Pipeline.Value
import Idealize.ShloMosaic.Lib.ValueLayout
import proofs.«421879_j36455682409092_3_alg».proof.Proof.KPreShared

noncomputable section

namespace Cert.KernelIdeal.Pre2

open Idealize.ShloMosaic Idealize.ShloMosaic.TcCoe Idealize.SL.Sem Cert.KernelIdeal Cert.KernelIdeal.Gen
open Idealize.ShloMosaic.ValueIdx Idealize.ShloMosaic.StableHlo

variable {F : FTy → Type} [FloatOps F]

theorem nary8_result' {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (G : Valuation τ sig Val) :
    (nary (τ := τ) ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) :=
  (nary_result' _ f hxs hy G).trans (congrArg f (funext fun k => by fin_cases k <;> rfl))

macro "results_pass_pre2" : tactic =>
  `(tactic| (simp (disch := decide) only [after_cons, after_nil,
      nullary_result', unary_result', binary_result', ternary_result', reshape_result', nary8_result',
      nullary_result_ne', unary_result_ne', binary_result_ne', ternary_result_ne', reshape_result_ne', nary_result_ne']))

def clipV (lo hi : FVec F S_ .f32) (x : FVec F S1048576 .f32) :
    FVec F S1048576 .f32 :=
  minimumf (broadcastInDim S1048576 ![] bcast_S_S1048576 hi) (maximumf (broadcastInDim S1048576 ![] bcast_S_S1048576 lo) x)

def coordV (off : Fin 2 → Nat) (h : S3x1048576.Slices off S1x1048576) (r : FVec F S3x1048576 .f32) :
    FVec F S1048576 .f32 :=
  clipV (constant S_ .f32 0x00000000#32) (constant S_ .f32 0x42FE0000#32)
    (addf (mulf (shapeCast S1048576 (extractStridedSlice S1x1048576 off r h) shapeCasts_S1x1048576_S1048576)
        (broadcastInDim S1048576 ![] bcast_S_S1048576 (constant S_ .f32 0x427E0000#32)))
      (broadcastInDim S1048576 ![] bcast_S_S1048576 (constant S_ .f32 0x427E0000#32)))

def volCl (v : FVec F S1x4x128x128x128 .f32) : FVec F S2097152x4 .f32 :=
  shapeCast S2097152x4 (transpose S128x128x128x4 [1, 2, 3, 0] (shapeCast S4x128x128x128 v shapeCasts_S1x4x128x128x128_S4x128x128x128)
    transposes_S4x128x128x128_S128x128x128x4_1_2_3_0) shapeCasts_S128x128x128x4_S2097152x4

def cell0V (u : FVec F S1048576 .f32) : IVec S1048576 32 :=
  fptosi 32 (Host.floor u)

def cell1V (i : IVec S1048576 32) : IVec S1048576 32 :=
  minsi (addi i (broadcastInDim S1048576 ![] bcast_S_S1048576 (constantI S_ 32 1#32)))
    (broadcastInDim S1048576 ![] bcast_S_S1048576 (constantI S_ 32 127#32))

def cellV (upper : Bool) (u : FVec F S1048576 .f32) : IVec S1048576 32 :=
  if upper then cell1V (cell0V u) else cell0V u

def flatV (z y x : IVec S1048576 32) : IVec S1048576 32 :=
  addi (addi (muli z (broadcastInDim S1048576 ![] bcast_S_S1048576 (constantI S_ 32 16384#32)))
    (muli y (broadcastInDim S1048576 ![] bcast_S_S1048576 (constantI S_ 32 128#32)))) x

def rowK (ux uy uz : FVec F S1048576 .f32) (k : Fin 8) : IVec S1x1048576 32 :=
  broadcastInDim S1x1048576 ![1] bcast_S1048576_S1x1048576_1
    (flatV (cellV (decide (k.val / 4 % 2 = 1)) uz) (cellV (decide (k.val / 2 % 2 = 1)) uy) (cellV (decide (k.val % 2 = 1)) ux))

def idx8V (ux uy uz : FVec F S1048576 .f32) : IVec S8388608 32 := PreS.stackRows (rowK ux uy uz)

def normV (ix : IVec S8388608 32) : IVec S8388608 32 :=
  select (cmpi .slt ix (broadcastInDim S8388608 ![] bcast_S_S8388608 (constantI S_ 32 0#32)))
    (addi ix (broadcastInDim S8388608 ![] bcast_S_S8388608 (constantI S_ 32 2097152#32))) ix

def colV (ix : IVec S8388608 32) : IVec S8388608x1 32 :=
  broadcastInDim S8388608x1 ![0] bcast_S8388608_S8388608x1_0 (normV ix)

def maskV (col : IVec S8388608x1 32) : IVec S8388608 1 :=
  Host.reduce IntOp.andi
    (andi (cmpi .sge col (broadcastInDim S8388608x1 ![] bcast_S_S8388608x1 (constantI S_ 32 0#32)))
      (cmpi .sle col (broadcastInDim S8388608x1 ![0, 1] bcast_S1x1_S8388608x1_0_1
        (broadcastInDim S1x1 ![1] bcast_S1_S1x1_1 (constantI S1 32 2097151#32)))))
    (constantI S_ 1 1#1) reducesTo_S8388608x1_S8388608_d1 h_S_

def takeV (vol : FVec F S2097152x4 .f32) (ix : IVec S8388608 32) :
    FVec F S8388608x4 .f32 :=
  select (broadcastInDim S8388608x4 ![0] bcast_S8388608_S8388608x4_0 (maskV (colV ix)))
    (Host.gather gather_S2097152x4_S8388608x1_S8388608x4_1_0_n_n_0_1_14 vol (colV ix))
    (broadcastInDim S8388608x4 ![] bcast_S_S8388608x4 (constant S_ .f32 0x7FC00000#32))

section Stretches
variable (X : Valuation τ sig (Elt F))

/- What the six stretches that scale and clip the three grid rows and lay the volume channels-last leave behind. -/
theorem mid_16_21 (Y : Valuation τ sig (Elt F))
    (hY : Y = StableHlo.after hostOps0_21 (StableHlo.after hostOps0_20 (StableHlo.after hostOps0_19 (StableHlo.after hostOps0_18
      (StableHlo.after hostOps0_17 (StableHlo.after hostOps0_16 X)))))) :
    Y (Proc.devRef .tc main_v167) = coordV ![0, 0] slices_S3x1048576_S1x1048576_0_0 (X (Proc.devRef .tc main_v1))
      ∧ Y (Proc.devRef .tc main_v174) = coordV ![1, 0] slices_S3x1048576_S1x1048576_1_0 (X (Proc.devRef .tc main_v1))
      ∧ Y (Proc.devRef .tc main_v181) = coordV ![2, 0] slices_S3x1048576_S1x1048576_2_0 (X (Proc.devRef .tc main_v1))
      ∧ Y (Proc.devRef .tc main_v160) = volCl (X (Proc.devRef .tc main_arg3)) := by
  subst hY
  unfold hostOps0_21 hostOps0_20 hostOps0_19 hostOps0_18 hostOps0_17 hostOps0_16
  results_pass_pre2
  exact ⟨rfl, rfl, rfl, rfl⟩

set_option maxHeartbeats 1600000 in
theorem s22_v233 : StableHlo.after hostOps0_22 X (Proc.devRef .tc main_v233)
    = idx8V (X (Proc.devRef .tc main_v167)) (X (Proc.devRef .tc main_v174)) (X (Proc.devRef .tc main_v181)) := by
  unfold hostOps0_22
  results_pass_pre2
  rfl

theorem s22_v160 : StableHlo.after hostOps0_22 X (Proc.devRef .tc main_v160) = X (Proc.devRef .tc main_v160) := by
  unfold hostOps0_22
  results_pass_pre2

theorem s23_v234 : StableHlo.after hostOps0_23 X (Proc.devRef .tc main_v234)
    = takeV (X (Proc.devRef .tc main_v160)) (X (Proc.devRef .tc main_v233)) := by
  have e234 : ∀ w : (⟨S8388608x4, .f32⟩ : BufTy).Contents (Elt F),
      ((TRef.of main_v234 : TRef sig ⟨S8388608x4, .f32⟩).toBuf w
        : (Proc.devRef (τ := τ) .tc main_v234).ty.Contents (Elt F)) = w := fun _ => rfl
  unfold hostOps0_23
  results_pass_pre2
  simp only [TRef.ofBuf_toBuf]
  exact e234 _

theorem s24_v235 : StableHlo.after hostOps0_24 X (Proc.devRef .tc main_v235)
    = shapeCast S8x4194304 (X (Proc.devRef .tc main_v234)) shapeCasts_S8388608x4_S8x4194304 := by
  unfold hostOps0_24
  results_pass_pre2
  rfl

theorem suf_v235 : StableHlo.after hostOps0_32 (StableHlo.after hostOps0_31 (StableHlo.after hostOps0_30 (StableHlo.after hostOps0_29
      (StableHlo.after hostOps0_28 (StableHlo.after hostOps0_27 (StableHlo.after hostOps0_26 (StableHlo.after hostOps0_25 X)))))))
      (Proc.devRef .tc main_v235) = X (Proc.devRef .tc main_v235) := by
  unfold hostOps0_32 hostOps0_31 hostOps0_30 hostOps0_29 hostOps0_28 hostOps0_27 hostOps0_26 hostOps0_25
  results_pass_pre2

theorem arg3_kept : StableHlo.after (List.flatten ((Pre.stretches (F := F)).take (15 + 1))) X (Proc.devRef .tc main_arg3)
    = X (Proc.devRef .tc main_arg3) := by
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15]) X
    (Proc.devRef .tc main_arg3) = _
  simp only [List.flatten_cons, List.flatten_nil, List.append_nil, StableHlo.after_append]
  unfold hostOps0_15 hostOps0_14 hostOps0_13 hostOps0_12 hostOps0_11 hostOps0_10 hostOps0_9 hostOps0_8
    hostOps0_7 hostOps0_6 hostOps0_5 hostOps0_4 hostOps0_3 hostOps0_2 hostOps0_1 hostOps0
  results_pass_pre2

end Stretches

def cornersV (g : S1x1x1x1048576x3.Idx → Elt F .f32) (vol : FVec F S1x4x128x128x128 .f32) : FVec F S8x4194304 .f32 :=
  shapeCast S8x4194304
    (takeV (F := F) (volCl vol)
      (idx8V (coordV ![0, 0] slices_S3x1048576_S1x1048576_0_0 (PrePts.gridT g))
        (coordV ![1, 0] slices_S3x1048576_S1x1048576_1_0 (PrePts.gridT g))
        (coordV ![2, 0] slices_S3x1048576_S1x1048576_2_0 (PrePts.gridT g))))
    shapeCasts_S8388608x4_S8x4194304

section Compose
variable (m : (ℓ : Loc nD τ sig) → Buf (Elt F) ℓ) (c : Dev nD)

theorem drop16 : (Pre.stretches (F := F)).drop (15 + 1) = [hostOps0_16, hostOps0_17, hostOps0_18, hostOps0_19,
    hostOps0_20, hostOps0_21, hostOps0_22, hostOps0_23, hostOps0_24, hostOps0_25, hostOps0_26, hostOps0_27, hostOps0_28, hostOps0_29,
    hostOps0_30, hostOps0_31, hostOps0_32] := rfl

theorem W_v235 : Pre.W m c main_v235
    = cornersV (m ((c : Thread nD τ).loc main_arg0)) (m ((c : Thread nD τ).loc main_arg3)) := by
  show StableHlo.after (List.flatten (Pre.stretches (F := F))) (fun b => m (c, b)) (Proc.devRef .tc main_v235) = _
  rw [← List.take_append_drop (15 + 1) (Pre.stretches (F := F)), drop16, List.flatten_append, StableHlo.after_append]
  simp only [List.flatten_cons, List.flatten_nil, List.append_nil, StableHlo.after_append]
  rw [suf_v235, s24_v235, s23_v234, s22_v233, s22_v160, (mid_16_21 _ _ rfl).1, (mid_16_21 _ _ rfl).2.1,
    (mid_16_21 _ _ rfl).2.2.1, (mid_16_21 _ _ rfl).2.2.2, PrePts.gridT_kept m c 15, arg3_kept]
  unfold cornersV
  rfl

end Compose

section Index
open Cert.Spec

abbrev cK (g : EReal) : EReal := coordK (F := Ideal) (lit 0x427E0000#32) (lit 0x00000000#32) (lit 0x42FE0000#32) g

theorem coordV_grid (g : S1x1x1x1048576x3.Idx → EReal) (a : Fin 3) (h : S3x1048576.Slices ![a.val, 0] S1x1048576)
    (p : Fin 1048576) :
    coordV (F := Ideal) ![a.val, 0] h (PrePts.gridT (F := Ideal) g) (ix1 p)
      = cK (g (ix5 (0 : Fin 1) (0 : Fin 1) (0 : Fin 1) p a)) :=
  congrArg cK ((shapeCast_1a_a_apply _ _ p).trans
    ((slice2_axis0_apply a.val _ h 0 p a rfl).trans (PrePts.gridT_apply (F := Ideal) g a p)))

theorem cellV_apply (b : Bool) (u : S1048576.Idx → EReal) (p : Fin 1048576) :
    cellV (F := Ideal) b u (ix1 p) = cellSel (F := Ideal) 127#32 b (u (ix1 p)) := by
  cases b <;> rfl

/- Word k·N + p of the stacked index array is corner k's flat word z·D² + y·D + x at point p. -/
theorem idx8V_apply (ux uy uz : S1048576.Idx → EReal) (k : Fin 8) (p : Fin 1048576) (r : Fin 8388608)
    (hr : r.val = k.val * 1048576 + p.val) :
    idx8V (F := Ideal) ux uy uz (ix1 r)
      = IntOp.addi (IntOp.addi (IntOp.muli (cellSel (F := Ideal) 127#32 (decide (k.val / 4 % 2 = 1)) (uz (ix1 p))) 16384#32)
            (IntOp.muli (cellSel (F := Ideal) 127#32 (decide (k.val / 2 % 2 = 1)) (uy (ix1 p))) 128#32))
          (cellSel (F := Ideal) 127#32 (decide (k.val % 2 = 1)) (ux (ix1 p))) := by
  refine (PreS.stackRows_apply _ k p r hr).trans ?_
  unfold rowK
  refine (broadcastInDim_apply _ _ _ _ (ix1 p) fun ax => match ax with | ⟨0, _⟩ => rfl).trans ?_
  rw [← cellV_apply, ← cellV_apply, ← cellV_apply]
  rfl

/- A nonnegative index is left as it is. -/
theorem colV_apply (ix : S8388608.Idx → BitVec 32) (r : Fin 8388608) (z : Fin 1) (h : 0 ≤ (ix (ix1 r)).toInt) :
    colV ix (ix2 r z) = ix (ix1 r) :=
  (broadcastInDim_apply _ bcast_S8388608_S8388608x1_0 _ _ (ix1 r) fun ax => match ax with | ⟨0, _⟩ => rfl).trans
    (norm_noop _ _ h)

/- A conjunction of words that are all 1 is 1. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have key : ∀ L : List s.Idx, L.foldl (fun r i => IntOp.andi r (x i)) 1#1 = 1#1 := by
    intro L
    induction L with
    | nil => rfl
    | cons a L ih =>
      rw [List.foldl_cons, hx a, show IntOp.andi (1#1 : BitVec 1) 1#1 = 1#1 from by decide]
      exact ih
  rw [Host.reduce_eq_foldl, hi]
  exact key _

theorem maskV_apply (col : S8388608x1.Idx → BitVec 32)
    (hcol : ∀ (a : Fin 8388608) (b : Fin 1), 0 ≤ (col (ix2 a b)).toInt ∧ (col (ix2 a b)).toInt ≤ 2097151) (r : Fin 8388608) :
    maskV col (ix1 r) = 1#1 := by
  unfold maskV
  refine reduce_andi_one _ _ _ _ (fun i => ?_) (fun _ => rfl) _
  obtain ⟨a, b, rfl⟩ : ∃ (a : Fin 8388608) (b : Fin 1), i = ix2 a b := ⟨i 0, i 1, eq_ix2 i⟩
  exact mask_one2097151 (col (ix2 a b)) (hcol a b)

/- Indices in [0, D³) pass the bounds test, so the take reads the row each one names. -/
theorem takeV_apply (vol : S2097152x4.Idx → EReal) (ix : S8388608.Idx → BitVec 32)
    (hix : ∀ r : Fin 8388608, 0 ≤ (ix (ix1 r)).toInt ∧ (ix (ix1 r)).toInt ≤ 2097151) (r : Fin 8388608) (ch : Fin 4) :
    takeV (F := Ideal) vol ix (ix2 r ch)
      = vol (ix2 (cidx 2097152 (by decide) (ix (ix1 r))) ch) := by
  have hcol : ∀ (a : Fin 8388608) (b : Fin 1), colV ix (ix2 a b) = ix (ix1 a) :=
    fun a b => colV_apply ix a b (hix a).1
  have hm : broadcastInDim S8388608x4 ![0] bcast_S8388608_S8388608x4_0 (maskV (colV ix)) (ix2 r ch) = 1#1 := by
    refine (broadcastInDim_apply _ _ _ _ (ix1 r) fun ax => ?_).trans ?_
    · match ax with
      | ⟨0, _⟩ => rfl
    · exact maskV_apply _ (fun a b => by rw [hcol]; exact hix a) r
  unfold takeV
  rw [select_apply, hm, select_one, Cert.LibLayout.gather_row_apply (by decide) _ rfl rfl rfl rfl rfl rfl rfl, hcol]

/- Row z·D² + y·D + x of the channels-last volume is voxel (z, y, x). -/
theorem volCl_apply (v : S1x4x128x128x128.Idx → EReal) (r : Fin 2097152) (z y x : Fin 128) (ch : Fin 4)
    (hr : r.val = z.val * 16384 + y.val * 128 + x.val) :
    volCl (F := Ideal) v (ix2 r ch) = v (ix5 (0 : Fin 1) ch z y x) := by
  unfold volCl
  refine (shapeCast_apply _ _ _ (ix4 z y x ch) ?_).trans ?_
  · rw [Shape.rowMajor_val_four, Shape.rowMajor_val_two]
    show ((z.val * 128 + y.val) * 128 + x.val) * 4 + ch.val = r.val * 4 + ch.val
    omega
  refine (transpose_apply _ _ _ _ (ix4 ch z y x) fun b => ?_).trans ?_
  · match b with
    | ⟨0, _⟩ => rfl
    | ⟨1, _⟩ => rfl
    | ⟨2, _⟩ => rfl
    | ⟨3, _⟩ => rfl
  · refine shapeCast_apply _ _ _ _ ?_
    rw [Shape.rowMajor_val_five, Shape.rowMajor_val_four]
    show ((((0 * 4 + ch.val) * 128 + z.val) * 128 + y.val) * 128 + x.val) = ((ch.val * 128 + z.val) * 128 + y.val) * 128 + x.val
    omega

end Index

section Final
open Cert.Spec

/- Both cell words of every value of u lie in [0, 127]. -/
def cellsIn (u : S1048576.Idx → EReal) : Prop :=
  ∀ (b : Bool) (p : Fin 1048576), 0 ≤ (cellSel (F := Ideal) 127#32 b (u (ix1 p))).toInt
    ∧ (cellSel (F := Ideal) 127#32 b (u (ix1 p))).toInt ≤ 127

/- With cells in range, entry (k, l) is corner k of point l / 4, channel l % 4. -/
theorem corner_of_coords (vol : S1x4x128x128x128.Idx → EReal) (ux uy uz : S1048576.Idx → EReal)
    (hx : cellsIn ux) (hy : cellsIn uy) (hz : cellsIn uz) (k : Fin 8) (l : Fin 4194304) :
    shapeCast S8x4194304 (takeV (F := Ideal) (volCl (F := Ideal) vol) (idx8V (F := Ideal) ux uy uz))
        shapeCasts_S8388608x4_S8x4194304 (ix2 k l)
      = corner (F := Ideal) 128 (by decide) 127#32 vol ⟨l.val % 4, by omega⟩ k
          (ux (ix1 ⟨l.val / 4, by omega⟩)) (uy (ix1 ⟨l.val / 4, by omega⟩)) (uz (ix1 ⟨l.val / 4, by omega⟩)) := by
  have hix : ∀ r' : Fin 8388608, 0 ≤ (idx8V (F := Ideal) ux uy uz (ix1 r')).toInt
      ∧ (idx8V (F := Ideal) ux uy uz (ix1 r')).toInt ≤ 2097151 := by
    intro r'
    rw [idx8V_apply ux uy uz ⟨r'.val / 1048576, by omega⟩ ⟨r'.val % 1048576, Nat.mod_lt _ (by decide)⟩ r'
      (by show r'.val = r'.val / 1048576 * 1048576 + r'.val % 1048576; omega)]
    exact flat_mem128 _ _ _ (hz _ _) (hy _ _) (hx _ _)
  refine (shapeCast_apply _ _ _ (ix2 (⟨k.val * 1048576 + l.val / 4, by omega⟩ : Fin 8388608) (⟨l.val % 4, by omega⟩ : Fin 4)) ?_).trans ?_
  · rw [Shape.rowMajor_val_two, Shape.rowMajor_val_two]
    show (k.val * 1048576 + l.val / 4) * 4 + l.val % 4 = k.val * 4194304 + l.val
    omega
  rw [takeV_apply _ _ hix, idx8V_apply ux uy uz k ⟨l.val / 4, by omega⟩ _ rfl]
  exact volCl_apply vol _ _ _ _ _ (flat_cidx128 _ _ _ _ _ (hz _ _) (hy _ _) (hx _ _))

theorem cornersV_apply (g : S1x1x1x1048576x3.Idx → EReal) (vol : S1x4x128x128x128.Idx → EReal) (k : Fin 8) (l : Fin 4194304) :
    cornersV (F := Ideal) g vol (ix2 k l)
      = corner (F := Ideal) 128 (by decide) 127#32 vol ⟨l.val % 4, by omega⟩ k
          (cK (g (ix5 (0 : Fin 1) (0 : Fin 1) (0 : Fin 1) ⟨l.val / 4, by omega⟩ (0 : Fin 3))))
          (cK (g (ix5 (0 : Fin 1) (0 : Fin 1) (0 : Fin 1) ⟨l.val / 4, by omega⟩ (1 : Fin 3))))
          (cK (g (ix5 (0 : Fin 1) (0 : Fin 1) (0 : Fin 1) ⟨l.val / 4, by omega⟩ (2 : Fin 3)))) := by
  have hu : ∀ (a : Fin 3) (h : S3x1048576.Slices ![a.val, 0] S1x1048576),
      cellsIn (coordV (F := Ideal) ![a.val, 0] h (PrePts.gridT (F := Ideal) g)) :=
    fun a h b p => by rw [coordV_grid]; exact cellSel_coordK_mem2 b _
  rw [← coordV_grid g 0 slices_S3x1048576_S1x1048576_0_0, ← coordV_grid g 1 slices_S3x1048576_S1x1048576_1_0,
    ← coordV_grid g 2 slices_S3x1048576_S1x1048576_2_0]
  exact corner_of_coords vol _ _ _ (hu 0 _) (hu 1 _) (hu 2 _) k l

end Final

theorem corners2 (m : (ℓ : Loc nD τ sig) → Buf (Elt Ideal) ℓ) (c : Dev nD) (k : Fin 8) (l : Fin 4194304) :
    (Cert.KernelIdeal.Pre.W (F := Ideal) m c main_v235 : S8x4194304.Idx → EReal) (ix2 k l)
      = Cert.Spec.corner (F := Ideal) 128 (by decide) 127#32 (m ((c : Thread nD τ).loc main_arg3)) ⟨l.val % 4, by omega⟩ k
          (Cert.Spec.coordK (Cert.Spec.lit 0x427E0000#32) (Cert.Spec.lit 0x00000000#32) (Cert.Spec.lit 0x42FE0000#32)
            ((m ((c : Thread nD τ).loc main_arg0) : S1x1x1x1048576x3.Idx → EReal)
              (ix5 (0 : Fin 1) (0 : Fin 1) (0 : Fin 1) ⟨l.val / 4, by omega⟩ (0 : Fin 3))))
          (Cert.Spec.coordK (Cert.Spec.lit 0x427E0000#32) (Cert.Spec.lit 0x00000000#32) (Cert.Spec.lit 0x42FE0000#32)
            ((m ((c : Thread nD τ).loc main_arg0) : S1x1x1x1048576x3.Idx → EReal)
              (ix5 (0 : Fin 1) (0 : Fin 1) (0 : Fin 1) ⟨l.val / 4, by omega⟩ (1 : Fin 3))))
          (Cert.Spec.coordK (Cert.Spec.lit 0x427E0000#32) (Cert.Spec.lit 0x00000000#32) (Cert.Spec.lit 0x42FE0000#32)
            ((m ((c : Thread nD τ).loc main_arg0) : S1x1x1x1048576x3.Idx → EReal)
              (ix5 (0 : Fin 1) (0 : Fin 1) (0 : Fin 1) ⟨l.val / 4, by omega⟩ (2 : Fin 3)))) :=
  (congrFun (W_v235 (F := Ideal) m c) _).trans (cornersV_apply _ _ k l)

end Cert.KernelIdeal.Pre2

end
-- ==== Proof.KPre3.lean ====
/- Entry (k, 4p + ch) of volume 3's corner array is voxel (ch, corner k of point p's cell): every flat index lies in [0, D³), so the take reads the row it names. -/
import proofs.«421879_j36455682409092_3_alg».proof.Proof.KIV
import proofs.«421879_j36455682409092_3_alg».proof.Proof.Spec
import proofs.«421879_j36455682409092_3_alg».proof.Proof.LibTRef
import proofs.«421879_j36455682409092_3_alg».proof.Proof.KPrePts
import proofs.«421879_j36455682409092_3_alg».proof.Proof.SpecLaws
import proofs.«421879_j36455682409092_3_alg».proof.Proof.LibLayout
import Idealize.ShloMosaic.Lib.StableHlo.Run
import Idealize.ShloMosaic.Lib.ValueIdx
import Idealize.ShloMosaic.Lib.Pipeline.Value
import Idealize.ShloMosaic.Lib.ValueLayout
import proofs.«421879_j36455682409092_3_alg».proof.Proof.KPreShared

set_option maxRecDepth 16384

noncomputable section

namespace Cert.KernelIdeal.Pre3

open Idealize.ShloMosaic Idealize.ShloMosaic.TcCoe Idealize.ShloMosaic.ValueIdx Idealize.SL.Sem Cert.KernelIdeal Cert.KernelIdeal.Gen Cert.KernelIdeal.Pre
open Idealize.ShloMosaic.StableHlo (after)
open Cert.KernelIdeal.PrePts (gridT gridT_apply gridT_kept after_flatten_keep)

variable {F : FTy → Type} [FloatOps F]

def volCl (vol : Vec F S1x4x256x256x256 .f32) : Vec F S16777216x4 .f32 :=
  fun i => shapeCast S16777216x4
    ((transpose S256x256x256x4 [1, 2, 3, 0] · transposes_S4x256x256x256_S256x256x256x4_1_2_3_0)
      (fun j => shapeCast S4x256x256x256 vol shapeCasts_S1x4x256x256x256_S4x256x256x256 j))
    shapeCasts_S256x256x256x4_S16777216x4 i

def fillF (b : BitVec 32) : Vec F S1048576 .f32 := broadcastInDim S1048576 ![] bcast_S_S1048576 (constant S_ .f32 b)

def fillI (b : BitVec 32) : IVec S1048576 32 := broadcastInDim S1048576 ![] bcast_S_S1048576 (constantI S_ 32 b)

def coordArr (r : Vec F S1x1048576 .f32) : Vec F S1048576 .f32 :=
  minimumf (fillF 0x437F0000#32) (maximumf (fillF 0x00000000#32)
    (addf (mulf (fun i => shapeCast S1048576 r shapeCasts_S1x1048576_S1048576 i) (fillF 0x42FF0000#32)) (fillF 0x42FF0000#32)))

def cellLo (u : Vec F S1048576 .f32) : IVec S1048576 32 := fptosi 32 (Host.floor u)

def cellHi (u : Vec F S1048576 .f32) : IVec S1048576 32 := minsi (addi (cellLo u) (fillI 1#32)) (fillI 255#32)

def flatRow (wz wy wx : IVec S1048576 32) : IVec S1x1048576 32 :=
  broadcastInDim S1x1048576 ![1] bcast_S1048576_S1x1048576_1 (addi (addi (muli wz (fillI 65536#32)) (muli wy (fillI 256#32))) wx)

def cellV (upper : Bool) (u : Vec F S1048576 .f32) : IVec S1048576 32 := if upper then cellHi u else cellLo u

def cornerRow (ux uy uz : Vec F S1048576 .f32) (k : Fin 8) : IVec S1x1048576 32 :=
  flatRow (cellV (decide (k.val / 4 % 2 = 1)) uz) (cellV (decide (k.val / 2 % 2 = 1)) uy) (cellV (decide (k.val % 2 = 1)) ux)

def flatIdx (ux uy uz : Vec F S1048576 .f32) : IVec S8388608 32 := PreS.stackRows (cornerRow ux uy uz)

def normIdx (f : IVec S8388608 32) : IVec S8388608x1 32 :=
  broadcastInDim S8388608x1 ![0] bcast_S8388608_S8388608x1_0
    (select (cmpi .slt f (broadcastInDim S8388608 ![] bcast_S_S8388608 (constantI S_ 32 0#32)))
      (addi f (broadcastInDim S8388608 ![] bcast_S_S8388608 (constantI S_ 32 16777216#32))) f)

def inBounds (i5 : IVec S8388608x1 32) : IVec S8388608 1 :=
  Host.reduce IntOp.andi
    (andi (cmpi .sge i5 (broadcastInDim S8388608x1 ![] bcast_S_S8388608x1 (constantI S_ 32 0#32)))
      (cmpi .sle i5 (broadcastInDim S8388608x1 ![0, 1] bcast_S1x1_S8388608x1_0_1
        (broadcastInDim S1x1 ![1] bcast_S1_S1x1_1 (constantI S1 32 16777215#32)))))
    (constantI S_ 1 1#1) reducesTo_S8388608x1_S8388608_d1 h_S_

def takeRows (vcl : Vec F S16777216x4 .f32) (f : IVec S8388608 32) : Vec F S8388608x4 .f32 :=
  select (broadcastInDim S8388608x4 ![0] bcast_S8388608_S8388608x4_0 (inBounds (normIdx f)))
    (Host.gather gather_S16777216x4_S8388608x1_S8388608x4_1_0_n_n_0_1_14 vcl (normIdx f))
    (broadcastInDim S8388608x4 ![] bcast_S_S8388608x4 (constant S_ .f32 0x7FC00000#32))

def axisCoord (t : Vec F S3x1048576 .f32) (o : Nat) (h : S3x1048576.Slices ![o, 0] S1x1048576) : Vec F S1048576 .f32 :=
  coordArr (extractStridedSlice S1x1048576 ![o, 0] t h)

def flatOf (t : Vec F S3x1048576 .f32) : IVec S8388608 32 :=
  flatIdx (axisCoord t 0 slices_S3x1048576_S1x1048576_0_0) (axisCoord t 1 slices_S3x1048576_S1x1048576_1_0)
    (axisCoord t 2 slices_S3x1048576_S1x1048576_2_0)

variable (X : Valuation τ sig (Elt F))

def axisOps : List (List (HloOp τ sig (Elt F))) :=
  [hostOps0_24, hostOps0_25, hostOps0_26, hostOps0_27, hostOps0_28, hostOps0_29]

/- After the six stretches of the three axes: the channels-last volume, and each axis' clipped coordinate as a function of the transposed grid alone. -/
theorem sAxes : after (List.flatten (axisOps (F := F))) X (Proc.devRef .tc main_v238) = volCl (X (Proc.devRef .tc main_arg4))
    ∧ after (List.flatten (axisOps (F := F))) X (Proc.devRef .tc main_v245)
      = axisCoord (X (Proc.devRef .tc main_v1)) 0 slices_S3x1048576_S1x1048576_0_0
    ∧ after (List.flatten (axisOps (F := F))) X (Proc.devRef .tc main_v252)
      = axisCoord (X (Proc.devRef .tc main_v1)) 1 slices_S3x1048576_S1x1048576_1_0
    ∧ after (List.flatten (axisOps (F := F))) X (Proc.devRef .tc main_v259)
      = axisCoord (X (Proc.devRef .tc main_v1)) 2 slices_S3x1048576_S1x1048576_2_0 := by
  simp only [axisOps, List.flatten_cons, List.flatten_nil, List.append_nil, StableHlo.after_append]
  refine ⟨?_, ?_, ?_, ?_⟩ <;> after_results_simp <;> (try simp only [StableHlo.TRef.ofBuf_toBuf]) <;> rfl

theorem s30 : after hostOps0_30 X (Proc.devRef .tc main_v311)
    = flatIdx (X (Proc.devRef .tc main_v245)) (X (Proc.devRef .tc main_v252)) (X (Proc.devRef .tc main_v259)) := by
  dsimp only [hostOps0_30]; after_results_simp; rfl

theorem cast312 (v : Vec F S8388608x4 .f32) : (StableHlo.TRef.of main_v312 : StableHlo.TRef sig ⟨S8388608x4, .f32⟩).toBuf v = v := rfl
theorem cast238 (v : Vec F S16777216x4 .f32) : (StableHlo.TRef.of main_v238 : StableHlo.TRef sig ⟨S16777216x4, .f32⟩).ofBuf v = v := rfl
theorem cast311 (v : IVec S8388608 32) : (StableHlo.TRef.of main_v311 : StableHlo.TRef sig ⟨S8388608, .i32⟩).ofBuf (Val := Elt F) v = v := rfl

theorem s31 : after hostOps0_31 X (Proc.devRef .tc main_v312)
    = takeRows (X (Proc.devRef .tc main_v238)) (X (Proc.devRef .tc main_v311)) := by
  dsimp only [hostOps0_31]; after_results_simp; simp only [StableHlo.TRef.ofBuf_toBuf]
  rw [cast312, cast238, cast311]
  rfl

theorem s32 : after hostOps0_32 X (Proc.devRef .tc main_v313)
    = fun i => shapeCast S8x4194304 (X (Proc.devRef .tc main_v312)) shapeCasts_S8388608x4_S8x4194304 i := by
  dsimp only [hostOps0_32]; after_results; rfl

theorem kV30 : after hostOps0_30 X (Proc.devRef .tc main_v238) = X (Proc.devRef .tc main_v238) := by
  after_results_simp

def KeepsVol (s : List (HloOp τ sig (Elt F))) : Prop :=
  ∀ Y : Valuation τ sig (Elt F), after s Y (Proc.devRef .tc main_arg4) = Y (Proc.devRef .tc main_arg4)

/- No operation of the stretches before volume 3's writes the volume argument. -/
theorem keep0 : ((stretches (F := F)).take 8).Forall KeepsVol := by
  refine ⟨?_, ?_, ?_, ?_, ?_, ?_, ?_, ?_⟩ <;> intro Y <;> after_results_simp

theorem keep1 : (((stretches (F := F)).drop 8).take 8).Forall KeepsVol := by
  refine ⟨?_, ?_, ?_, ?_, ?_, ?_, ?_, ?_⟩ <;> intro Y <;> after_results_simp

theorem keep2 : (((stretches (F := F)).drop 16).take 8).Forall KeepsVol := by
  refine ⟨?_, ?_, ?_, ?_, ?_, ?_, ?_, ?_⟩ <;> intro Y <;> after_results_simp

def pre : List (List (HloOp τ sig (Elt F))) := (stretches (F := F)).take 24

theorem pre_vol : after (List.flatten (pre (F := F))) X (Proc.devRef .tc main_arg4) = X (Proc.devRef .tc main_arg4) :=
  after_flatten_keep _ X (List.forall_iff_forall_mem.mp (show ((stretches (F := F)).take 8 ++ (((stretches (F := F)).drop 8).take 8
    ++ ((stretches (F := F)).drop 16).take 8)).Forall KeepsVol from List.forall_append.2 ⟨keep0, List.forall_append.2 ⟨keep1, keep2⟩⟩))

variable (m : (ℓ : Loc nD τ sig) → Buf (Elt F) ℓ) (c : Dev nD)

theorem pre_grid : after (List.flatten (pre (F := F))) (fun b => m (c, b)) (Proc.devRef .tc main_v1)
    = gridT (m ((c : Thread nD τ).loc main_arg0)) := gridT_kept m c 23

/- On entry the corner array is one pure function of the grid and the volume. -/
theorem W_v313 : Pre.W m c main_v313 = fun i => shapeCast S8x4194304
    (takeRows (volCl (m ((c : Thread nD τ).loc main_arg4)))
      (flatOf (gridT (m ((c : Thread nD τ).loc main_arg0)))))
    shapeCasts_S8388608x4_S8x4194304 i := by
  show after (List.flatten (stretches (F := F))) (fun b => m (c, b)) (Proc.devRef .tc main_v313) = _
  rw [show stretches (F := F) = pre ++ (axisOps ++ [hostOps0_30, hostOps0_31, hostOps0_32]) from rfl, List.flatten_append,
    List.flatten_append, StableHlo.after_append, StableHlo.after_append]
  simp only [List.flatten_cons, List.flatten_nil, List.append_nil, StableHlo.after_append]
  rw [s32, s31, s30, kV30, (sAxes _).1, (sAxes _).2.1, (sAxes _).2.2.1, (sAxes _).2.2.2, pre_vol, pre_grid]
  rfl

section Index

open Cert.Spec

theorem volCl_apply (vol : Vec F S1x4x256x256x256 .f32) (q : Fin 16777216) (ch : Fin 4) (z y x : Fin 256)
    (hq : q.val = z.val * 65536 + y.val * 256 + x.val) :
    volCl vol (ix2 q ch) = vol (ix5 (0 : Fin 1) ch z y x) := by
  unfold volCl
  refine (shapeCast_apply _ _ _ (ix4 z y x ch) ?_).trans ?_
  · rw [Shape.rowMajor_val_four, Shape.rowMajor_val_two]
    show ((z.val * 256 + y.val) * 256 + x.val) * 4 + ch.val = q.val * 4 + ch.val
    omega
  refine (transpose_apply _ _ _ _ (ix4 ch z y x) ?_).trans ?_
  · intro b
    match b with
    | ⟨0, _⟩ => rfl
    | ⟨1, _⟩ => rfl
    | ⟨2, _⟩ => rfl
    | ⟨3, _⟩ => rfl
  refine shapeCast_apply _ _ _ _ ?_
  rw [Shape.rowMajor_val_five, Shape.rowMajor_val_four]
  show (((0 * 4 + ch.val) * 256 + z.val) * 256 + y.val) * 256 + x.val = ((ch.val * 256 + z.val) * 256 + y.val) * 256 + x.val
  omega

theorem flatIdx_apply (ux uy uz : Vec F S1048576 .f32) (k : Fin 8) (p : Fin 1048576) (q : Fin 8388608)
    (hq : q.val = k.val * 1048576 + p.val) :
    flatIdx ux uy uz (ix1 q) = cornerRow ux uy uz k (ix2 (0 : Fin 1) p) :=
  PreS.stackRows_apply _ k p q hq

theorem fold_andi_one {ι : Type} (S : Finset ι) (g : ι → BitVec 1) (hg : ∀ i, g i = 1#1) :
    S.fold IntOp.andi 1#1 g = 1#1 := by
  induction S using Finset.cons_induction with
  | empty => rfl
  | cons a S ha ih => rw [Finset.fold_cons, ih, hg a]; rfl

theorem inBounds_one (i5 : IVec S8388608x1 32) (h : ∀ i, 0 ≤ (i5 i).toInt ∧ (i5 i).toInt ≤ 16777215) (j : S8388608.Idx) :
    inBounds i5 j = 1#1 := by
  unfold inBounds
  rw [Host.reduce_eq_fold]
  exact fold_andi_one _ _ fun i => mask_one16777215 (i5 i) (h i)

/- Flat words in [0, D³) pass the normalisation and the bounds test unchanged, so the take reads the row they name. -/
theorem takeRows_apply (vcl : Vec F S16777216x4 .f32) (f : IVec S8388608 32)
    (hf : ∀ q : Fin 8388608, 0 ≤ (f (ix1 q)).toInt ∧ (f (ix1 q)).toInt ≤ 16777215) (r : Fin 8388608) (ch : Fin 4) :
    takeRows vcl f (ix2 r ch) = vcl (ix2 (cidx 16777216 (by decide) (f (ix1 r))) ch) := by
  have hn : ∀ i : S8388608x1.Idx, normIdx f i = f (ix1 (i 0)) := fun i =>
    (broadcastInDim_apply _ _ _ _ (ix1 (i 0)) fun a => match a with | ⟨0, _⟩ => rfl).trans (norm_noop _ _ (hf (i 0)).1)
  have hm : ∀ j, inBounds (normIdx f) j = 1#1 := inBounds_one _ fun i => by rw [hn]; exact hf _
  unfold takeRows
  show Scalar.select (broadcastInDim S8388608x4 ![0] bcast_S8388608_S8388608x4_0 (inBounds (normIdx f)) (ix2 r ch))
      (Host.gather gather_S16777216x4_S8388608x1_S8388608x4_1_0_n_n_0_1_14 vcl (normIdx f) (ix2 r ch)) _ = _
  rw [broadcastInDim_apply _ _ _ (ix2 r ch) (ix1 r) (fun a => by match a with | ⟨0, _⟩ => rfl), hm, select_one,
    Cert.LibLayout.gather_row_apply (by decide) _ rfl rfl rfl rfl rfl rfl rfl vcl (normIdx f) r ch, hn]

theorem cornerRow_apply (ux uy uz : Vec F S1048576 .f32) (k : Fin 8) (p : Fin 1048576) :
    cornerRow ux uy uz k (ix2 (0 : Fin 1) p)
      = IntOp.addi (IntOp.addi (IntOp.muli (cellSel 255#32 (decide (k.val / 4 % 2 = 1)) (uz (ix1 p))) 65536#32)
            (IntOp.muli (cellSel 255#32 (decide (k.val / 2 % 2 = 1)) (uy (ix1 p))) 256#32))
          (cellSel 255#32 (decide (k.val % 2 = 1)) (ux (ix1 p))) := by
  have hc : ∀ (b : Bool) (u : Vec F S1048576 .f32), cellV b u (ix1 p) = cellSel 255#32 b (u (ix1 p)) := fun b u => by
    cases b <;> rfl
  rw [← hc, ← hc, ← hc]
  unfold cornerRow flatRow
  exact broadcastInDim_apply _ _ _ _ (ix1 p) fun a => match a with | ⟨0, _⟩ => rfl

def uK (g : Vec F S1x1x1x1048576x3 .f32) (a : Fin 3) (p : Fin 1048576) : F .f32 :=
  coordK (lit 0x42FF0000#32) (lit 0x00000000#32) (lit 0x437F0000#32)
    (g (ix5 (0 : Fin 1) (0 : Fin 1) (0 : Fin 1) p a))

theorem axisCoord_apply (g : Vec F S1x1x1x1048576x3 .f32) (o : Nat) (h : S3x1048576.Slices ![o, 0] S1x1048576) (a : Fin 3)
    (ha : a.val = o) (p : Fin 1048576) : axisCoord (gridT g) o h (ix1 p) = uK g a p :=
  (congrArg (coordK (lit 0x42FF0000#32) (lit 0x00000000#32) (lit 0x437F0000#32)) (shapeCast_1a_a_apply _ _ p)).trans
    (by rw [slice2_axis0_apply o (gridT g) h (0 : Fin 1) p a ha, gridT_apply]; rfl)

theorem flat_of_grid (g : Vec F S1x1x1x1048576x3 .f32) (k : Fin 8) (p : Fin 1048576) (q : Fin 8388608)
    (hq : q.val = k.val * 1048576 + p.val) :
    flatOf (gridT g) (ix1 q)
      = IntOp.addi (IntOp.addi (IntOp.muli (cellSel 255#32 (decide (k.val / 4 % 2 = 1)) (uK g 2 p)) 65536#32)
            (IntOp.muli (cellSel 255#32 (decide (k.val / 2 % 2 = 1)) (uK g 1 p)) 256#32))
          (cellSel 255#32 (decide (k.val % 2 = 1)) (uK g 0 p)) := by
  unfold flatOf
  rw [flatIdx_apply _ _ _ k p q hq, cornerRow_apply, axisCoord_apply g 0 _ 0 rfl, axisCoord_apply g 1 _ 1 rfl,
    axisCoord_apply g 2 _ 2 rfl]

/- A flat word z·D² + y·D + x of cell words in [0, D) lies in [0, D³). -/
theorem flat_range (g : Vec Ideal S1x1x1x1048576x3 .f32) (q : Fin 8388608) :
    0 ≤ (flatOf (gridT g) (ix1 q)).toInt ∧ (flatOf (gridT g) (ix1 q)).toInt ≤ 16777215 := by
  rw [flat_of_grid g ⟨q.val / 1048576, by have := q.isLt; omega⟩ ⟨q.val % 1048576, Nat.mod_lt _ (by decide)⟩ q
    (by show q.val = q.val / 1048576 * 1048576 + q.val % 1048576; omega)]
  exact flat_mem256 _ _ _ (cellSel_coordK_mem3 _ _) (cellSel_coordK_mem3 _ _) (cellSel_coordK_mem3 _ _)

/- Entry (k, 4p + ch) is voxel (ch, corner k of point p's cell). -/
theorem corner_read (g : Vec Ideal S1x1x1x1048576x3 .f32) (vol : Vec Ideal S1x4x256x256x256 .f32) (k : Fin 8)
    (l : Fin 4194304) :
    shapeCast S8x4194304 (takeRows (volCl vol) (flatOf (gridT g))) shapeCasts_S8388608x4_S8x4194304 (ix2 k l)
      = corner (F := Ideal) 256 (by decide) 255#32 vol ⟨l.val % 4, Nat.mod_lt _ (by decide)⟩ k
          (uK g 0 ⟨l.val / 4, by have := l.isLt; omega⟩) (uK g 1 ⟨l.val / 4, by have := l.isLt; omega⟩)
          (uK g 2 ⟨l.val / 4, by have := l.isLt; omega⟩) := by
  refine (PreS.reread_apply _ k l).trans ?_
  rw [takeRows_apply _ _ (flat_range g), flat_of_grid g k ⟨l.val / 4, by have := l.isLt; omega⟩ _ rfl]
  exact volCl_apply vol _ _ _ _ _ (flat_cidx256 _ _ _ _ _ (cellSel_coordK_mem3 _ _) (cellSel_coordK_mem3 _ _)
    (cellSel_coordK_mem3 _ _))

end Index

theorem corners3 (m : (ℓ : Loc nD τ sig) → Buf (Elt Ideal) ℓ) (c : Dev nD) (k : Fin 8) (l : Fin 4194304) :
    (Cert.KernelIdeal.Pre.W (F := Ideal) m c main_v313 : S8x4194304.Idx → EReal) (ix2 k l)
      = Cert.Spec.corner (F := Ideal) 256 (by decide) 255#32 (m ((c : Thread nD τ).loc main_arg4)) ⟨l.val % 4, by omega⟩ k
          (Cert.Spec.coordK (Cert.Spec.lit 0x42FF0000#32) (Cert.Spec.lit 0x00000000#32) (Cert.Spec.lit 0x437F0000#32)
            ((m ((c : Thread nD τ).loc main_arg0) : S1x1x1x1048576x3.Idx → EReal)
              (ix5 (0 : Fin 1) (0 : Fin 1) (0 : Fin 1) ⟨l.val / 4, by omega⟩ (0 : Fin 3))))
          (Cert.Spec.coordK (Cert.Spec.lit 0x42FF0000#32) (Cert.Spec.lit 0x00000000#32) (Cert.Spec.lit 0x437F0000#32)
            ((m ((c : Thread nD τ).loc main_arg0) : S1x1x1x1048576x3.Idx → EReal)
              (ix5 (0 : Fin 1) (0 : Fin 1) (0 : Fin 1) ⟨l.val / 4, by omega⟩ (1 : Fin 3))))
          (Cert.Spec.coordK (Cert.Spec.lit 0x42FF0000#32) (Cert.Spec.lit 0x00000000#32) (Cert.Spec.lit 0x437F0000#32)
            ((m ((c : Thread nD τ).loc main_arg0) : S1x1x1x1048576x3.Idx → EReal)
              (ix5 (0 : Fin 1) (0 : Fin 1) (0 : Fin 1) ⟨l.val / 4, by omega⟩ (2 : Fin 3)))) := by
  refine (congrFun (W_v313 (F := Ideal) m c) (ix2 k l)).trans ?_
  exact corner_read _ _ k l

end Cert.KernelIdeal.Pre3
end
-- ==== Proof.RefShared.lean ====
/- What the four volumes' samples share: a grid column read at a point, the three-column index table, a nonnegative index column, and the array interpolation read at an index. -/
import proofs.«421879_j36455682409092_3_alg».proof.Proof.RefReadP
import proofs.«421879_j36455682409092_3_alg».proof.Proof.Spec
import proofs.«421879_j36455682409092_3_alg».proof.Proof.SpecLaws
import proofs.«421879_j36455682409092_3_alg».proof.Proof.LibLayout

noncomputable section

namespace Cert.ReferenceIdeal.HandS

open Cert.ReferenceIdeal Cert.ReferenceIdeal.Gen Cert.ReferenceIdeal.ReadP Idealize.ShloMosaic Idealize.ShloMosaic.ValueIdx

variable {F : FTy → Type} [FloatOps F]

/- Column k of the point table, read at point p, is entry (p, k) of the input: both reshapes keep the row-major position. -/
theorem colG (x0 : (⟨S1x1x1x1048576x3, .f32⟩ : BufTy).Contents (Elt F)) (k : Fin 3) (h : S1048576x3.Slices ![0, k.val] S1048576x1) (p : Fin 1048576) :
    shapeCast S1048576 (extractStridedSlice S1048576x1 ![0, k.val] (val_main_v0 (F := F) x0) h) shapeCasts_S1048576x1_S1048576 (ix1 p)
      = x0 (ix5 (0 : Fin 1) (0 : Fin 1) (0 : Fin 1) p k) :=
  (shapeCast_apply _ _ _ (ix2 p 0) (by
    rewrite [Shape.rowMajor_val_two, Shape.rowMajor_val_one]
    show p.val * 1 + 0 = p.val
    omega)).trans (shapeCast_apply x0 _ _ _ (by
    rewrite [Shape.rowMajor_val_five, Shape.rowMajor_val_two]
    show (((0 * 1 + 0) * 1 + 0) * 1048576 + p.val) * 3 + k.val = (0 + p.val) * 3 + (k.val + 0)
    omega))

theorem cols3 (a b c : IVec S1048576x1 32) (p : Fin 1048576) (k : Fin 3) :
    concatenate S1048576x3 1 [⟨S1048576x1, a⟩, ⟨S1048576x1, b⟩, ⟨S1048576x1, c⟩]
        concatenates_S1048576x1_S1048576x1_S1048576x1_S1048576x3_d1 (ix2 p k)
      = (![a, b, c] k) (ix2 p (0 : Fin 1)) :=
  Cert.LibLayout.concatenate_cols3_apply ![a, b, c] concatenates_S1048576x1_S1048576x1_S1048576x1_S1048576x3_d1 p k

/- The index column of one axis: i + k where i < 0, else i. -/
def normCol (k : BitVec 32) (a : IVec S1048576 32) : IVec S1048576x1 32 :=
  broadcastInDim S1048576x1 ![0] bcast_S1048576_S1048576x1_0
    (select (cmpi .slt a (broadcastInDim S1048576 ![] bcast_S_S1048576 (constantI S_ 32 0#32)))
      (addi a (broadcastInDim S1048576 ![] bcast_S_S1048576 (constantI S_ 32 k))) a)

/- A nonnegative index is left as it is. -/
theorem normCol_apply (k : BitVec 32) (a : IVec S1048576 32) (p : Fin 1048576) (h : 0 ≤ (a (ix1 p)).toInt) :
    normCol k a (ix2 p (0 : Fin 1)) = a (ix1 p) :=
  (broadcastInDim_apply _ bcast_S1048576_S1048576x1_0 _ _ (ix1 p) (fun d => match d with | ⟨0, _⟩ => rfl)).trans
    (Cert.Spec.norm_noop _ _ h)

/- a + (b - a) * w, the weight w the same on every channel. -/
def lerpA (a b : FVec F S4x1048576 .f32) (w : FVec F S1048576 .f32) : FVec F S4x1048576 .f32 :=
  addf a (mulf (subf b a) (broadcastInDim S4x1048576 ![0, 1] bcast_S1x1048576_S4x1048576_0_1
    (broadcastInDim S1x1048576 ![1] bcast_S1048576_S1x1048576_1 w)))

theorem lerpA_apply (a b : FVec F S4x1048576 .f32) (w : FVec F S1048576 .f32) (ch : Fin 4) (p : Fin 1048576) :
    lerpA a b w (ix2 ch p) = Cert.Spec.lerp (a (ix2 ch p)) (b (ix2 ch p)) (w (ix1 p)) :=
  congrArg (fun i => Cert.Spec.lerp (a (ix2 ch p)) (b (ix2 ch p)) (w i)) (eq_ix1 _)

end Cert.ReferenceIdeal.HandS

end
-- ==== Proof.Ref0.lean ====
/- The reference's sample of volume 0 at a point is the shared scalar specification: cell words in range make each point gather read the voxel it names. -/
import proofs.«421879_j36455682409092_3_alg».proof.Proof.RefReadP
import proofs.«421879_j36455682409092_3_alg».proof.Proof.Spec
import proofs.«421879_j36455682409092_3_alg».proof.Proof.SpecLaws
import proofs.«421879_j36455682409092_3_alg».proof.Proof.LibLayout
import proofs.«421879_j36455682409092_3_alg».proof.Proof.RefShared

noncomputable section

namespace Cert.ReferenceIdeal.Hand0

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx
  Cert.ReferenceIdeal.HandS

variable {F : FTy → Type} [FloatOps F]

abbrev GridT (F : FTy → Type) : Type := (⟨S1x1x1x1048576x3, .f32⟩ : BufTy).Contents (Elt F)
abbrev VolT (F : FTy → Type) : Type := (⟨S1x4x32x32x32, .f32⟩ : BufTy).Contents (Elt F)

abbrev uOf (g : F .f32) : F .f32 :=
  Cert.Spec.coordR (Cert.Spec.lit 0x3F800000#32) (Cert.Spec.lit 0x3F000000#32) (Cert.Spec.lit 0x41F80000#32)
    (Cert.Spec.lit 0x00000000#32) (FloatOps.sitofp .f32 (31#32 : BitVec 32)) g

abbrev wOf (u : F .f32) : F .f32 :=
  Cert.Spec.weight (Cert.Spec.lit 0x40000000#32) (Cert.Spec.lit 0x40400000#32) u (FloatOps.hostUnary .floor u)

/- The lower (b = false) or upper (b = true) cell word of a coordinate column, and its smoothstep weight, pointwise. -/
def cellA (c : FVec F S1048576 .f32) (b : Bool) : IVec S1048576 32 := fun i => Cert.Spec.cellSel 31#32 b (uOf (c i))

def wA (c : FVec F S1048576 .f32) : FVec F S1048576 .f32 := fun i => wOf (uOf (c i))

abbrev nrm (w : BitVec 32) : BitVec 32 := Scalar.select (IntOp.cmpi .slt w 0#32) (IntOp.addi w 32#32) w

theorem ne1 : ¬(1048576 : ℕ) = 1 := by decide

/- One index column of a point gather: a word w < 0 becomes w + 32, any other stays. -/
def ncol (w : IVec S1048576 32) : IVec S1048576x1 32 :=
  broadcastInDim S1048576x1 ![0] bcast_S1048576_S1048576x1_0
    (select (cmpi .slt w (broadcastInDim S1048576 ![] bcast_S_S1048576 (constantI S_ 32 0#32)))
      (addi w (broadcastInDim S1048576 ![] bcast_S_S1048576 (constantI S_ 32 32#32))) w)

theorem ncol_apply (w : IVec S1048576 32) (p : Fin 1048576) (q : Fin 1) : ncol w (ix2 p q) = nrm (w (ix1 p)) :=
  broadcastInDim_apply _ _ _ _ (ix1 p) (fun a => match a with | ⟨0, _⟩ => (if_neg ne1).symm)

theorem out263 (x0 : GridT F) (x1 : VolT F) (ch : Fin 4) (p : Fin 1048576) :
    val_main_v263 (F := F) x0 x1 (ix5 (0 : Fin 1) ch (0 : Fin 1) (0 : Fin 1) p) = val_main_v262 (F := F) x0 x1 (ix2 ch p) :=
  shapeCast_apply _ _ _ _ (by
    rewrite [Shape.rowMajor_val_two, Shape.rowMajor_val_five]
    show ch.val * 1048576 + p.val = (((0 * 4 + ch.val) * 1 + 0) * 1 + 0) * 1048576 + p.val
    omega)

theorem vol_at (x1 : VolT F) (ch : Fin 4) (cz cy cx : Fin 32) :
    val_main_v1 (F := F) x1 (ix4 ch cz cy cx) = x1 (ix5 (0 : Fin 1) ch cz cy cx) :=
  shapeCast_apply _ _ _ _ (by
    rewrite [Shape.rowMajor_val_five, Shape.rowMajor_val_four]
    show (((0 * 4 + ch.val) * 32 + cz.val) * 32 + cy.val) * 32 + cx.val = ((ch.val * 32 + cz.val) * 32 + cy.val) * 32 + cx.val
    omega)

def cornerA (x1 : VolT F) (wz wy wx : IVec S1048576 32) : FVec F S4x1048576 .f32 :=
  Host.gather gather_S4x32x32x32_S1048576x3_S4x1048576_0_123_n_n_123_1_4111 (val_main_v1 (F := F) x1)
    (concatenate S1048576x3 1 [⟨S1048576x1, ncol wz⟩, ⟨S1048576x1, ncol wy⟩, ⟨S1048576x1, ncol wx⟩]
      concatenates_S1048576x1_S1048576x1_S1048576x1_S1048576x3_d1)

/- A point gather on three normalised word columns reads the voxel those words name. -/
theorem cornerA_apply (x1 : VolT F) (wz wy wx : IVec S1048576 32) (ch : Fin 4) (p : Fin 1048576) :
    cornerA x1 wz wy wx (ix2 ch p)
      = Cert.Spec.volAt 32 (by decide) x1 ch (nrm (wz (ix1 p))) (nrm (wy (ix1 p))) (nrm (wx (ix1 p))) := by
  have A (k : Fin 3) := Cert.LibLayout.concatenate_cols3_apply (y := ![ncol wz, ncol wy, ncol wx])
    concatenates_S1048576x1_S1048576x1_S1048576x1_S1048576x3_d1 p k
  unfold cornerA
  rw [Cert.LibLayout.gather_point_apply (by decide : 0 < 32) _ rfl rfl rfl rfl rfl rfl rfl, vol_at]
  show Cert.Spec.volAt 32 (by decide) x1 ch _ _ _ = _
  exact congr (congr (congrArg _ ((A 0).trans (ncol_apply wz p 0))) ((A 1).trans (ncol_apply wy p 0)))
    ((A 2).trans (ncol_apply wx p 0))

/- Seven interpolations over a cube of corners indexed by (z, y, x) upper flags: along x, then y, then z. -/
def triA (c : Bool → Bool → Bool → FVec F S4x1048576 .f32) (wx wy wz : FVec F S1048576 .f32) : FVec F S4x1048576 .f32 :=
  lerpA (lerpA (lerpA (c false false false) (c false false true) wx) (lerpA (c false true false) (c false true true) wx) wy)
    (lerpA (lerpA (c true false false) (c true false true) wx) (lerpA (c true true false) (c true true true) wx) wy) wz

/- A cell word of a clipped coordinate is nonnegative, so normalising it changes nothing. -/
theorem nrm_sel (b : Bool) (g : Ideal .f32) :
    nrm (Cert.Spec.cellSel (F := Ideal) 31#32 b (uOf g)) = Cert.Spec.cellSel (F := Ideal) 31#32 b (uOf g) :=
  Cert.Spec.norm_noop _ _ (Cert.Spec.cellSel_coordR_mem0 b g).1

theorem ref0 (x0 : (⟨S1x1x1x1048576x3, .f32⟩ : BufTy).Contents (Elt Ideal))
    (x1 : (⟨S1x4x32x32x32, .f32⟩ : BufTy).Contents (Elt Ideal)) (ch : Fin 4) (p : Fin 1048576) :
    Cert.ReferenceIdeal.ReadP.val_main_v263 (F := Ideal) x0 x1 (ix5 (0 : Fin 1) ch (0 : Fin 1) (0 : Fin 1) p)
      = Cert.Spec.sample (F := Ideal) (D := 32) (by decide) 31#32 (Cert.Spec.lit 0x40000000#32) (Cert.Spec.lit 0x40400000#32)
          (fun u => FloatOps.hostUnary .floor u) x1 ch
          (Cert.Spec.coordR (Cert.Spec.lit 0x3F800000#32) (Cert.Spec.lit 0x3F000000#32) (Cert.Spec.lit 0x41F80000#32)
            (Cert.Spec.lit 0x00000000#32) (FloatOps.sitofp .f32 (31#32 : BitVec 32))
            (x0 (ix5 (0 : Fin 1) (0 : Fin 1) (0 : Fin 1) p (0 : Fin 3))))
          (Cert.Spec.coordR (Cert.Spec.lit 0x3F800000#32) (Cert.Spec.lit 0x3F000000#32) (Cert.Spec.lit 0x41F80000#32)
            (Cert.Spec.lit 0x00000000#32) (FloatOps.sitofp .f32 (31#32 : BitVec 32))
            (x0 (ix5 (0 : Fin 1) (0 : Fin 1) (0 : Fin 1) p (1 : Fin 3))))
          (Cert.Spec.coordR (Cert.Spec.lit 0x3F800000#32) (Cert.Spec.lit 0x3F000000#32) (Cert.Spec.lit 0x41F80000#32)
            (Cert.Spec.lit 0x00000000#32) (FloatOps.sitofp .f32 (31#32 : BitVec 32))
            (x0 (ix5 (0 : Fin 1) (0 : Fin 1) (0 : Fin 1) p (2 : Fin 3)))) := by
  rw [out263]
  show triA (fun a b c => cornerA x1 (cellA (val_main_v21 x0) a) (cellA (val_main_v12 x0) b) (cellA (val_main_v3 x0) c))
    (wA (val_main_v3 x0)) (wA (val_main_v12 x0)) (wA (val_main_v21 x0)) (ix2 ch p) = _
  simp only [triA, lerpA_apply, cornerA_apply, cellA, wA, nrm_sel, show val_main_v3 x0 (ix1 p) = _ from colG x0 0 _ p,
    show val_main_v12 x0 (ix1 p) = _ from colG x0 1 _ p, show val_main_v21 x0 (ix1 p) = _ from colG x0 2 _ p]
  rfl

end Cert.ReferenceIdeal.Hand0
-- ==== Proof.Ref1.lean ====
/- The reference's sample of volume 1 at a point is the shared scalar specification: cell words in range make each point gather read the voxel it names. -/
import proofs.«421879_j36455682409092_3_alg».proof.Proof.RefReadP
import proofs.«421879_j36455682409092_3_alg».proof.Proof.Spec
import proofs.«421879_j36455682409092_3_alg».proof.Proof.LibLayout
import proofs.«421879_j36455682409092_3_alg».proof.Proof.RefShared
import proofs.«421879_j36455682409092_3_alg».proof.Proof.SpecLaws

noncomputable section

namespace Cert.ReferenceIdeal.Hand1

open Cert.ReferenceIdeal Cert.ReferenceIdeal.Gen Cert.ReferenceIdeal.ReadP Idealize.ShloMosaic Idealize.ShloMosaic.ValueIdx
  Idealize.ShloMosaic.StableHlo
  Cert.ReferenceIdeal.HandS

abbrev A (F : FTy → Type) (s : Shape) (e : EltTy) := (⟨s, e⟩ : BufTy).Contents (Elt F)

abbrev gOf (x0 : A Ideal S1x1x1x1048576x3 .f32) (p : Fin 1048576) (a : Fin 3) : Ideal .f32 :=
  x0 (ix5 (0 : Fin 1) (0 : Fin 1) (0 : Fin 1) p a)

abbrev uOf (g : Ideal .f32) : Ideal .f32 :=
  Cert.Spec.coordR (F := Ideal) (Cert.Spec.lit 0x3F800000#32) (Cert.Spec.lit 0x3F000000#32) (Cert.Spec.lit 0x427C0000#32)
    (Cert.Spec.lit 0x00000000#32) (FloatOps.sitofp .f32 (63#32 : BitVec 32)) g

theorem vol_eq (x2 : A Ideal S1x4x64x64x64 .f32) (ch : Fin 4) (a b c : Fin 64) :
    val_main_v264 (F := Ideal) x2 (ix4 ch a b c) = x2 (ix5 (0 : Fin 1) ch a b c) :=
  (shapeCast_dropUnit_apply _ x2 _ _).trans (congrArg x2 (funext fun d => match d with
    | ⟨0, _⟩ => rfl | ⟨1, _⟩ => rfl | ⟨2, _⟩ => rfl | ⟨3, _⟩ => rfl | ⟨4, _⟩ => rfl))

variable {F : FTy → Type} [FloatOps F]

def bc {α : Type} (y : S_.Idx → α) : S1048576.Idx → α := broadcastInDim S1048576 ![] bcast_S_S1048576 y

/- The lower (b = false) or upper (b = true) cell word of a coordinate array. -/
def cellA (b : Bool) (u : A F S1048576 .f32) : A F S1048576 .i32 :=
  bif b then minsi (addi (fptosi 32 (Host.floor u)) (bc (constantI S_ 32 1#32))) (bc (constantI S_ 32 63#32))
  else fptosi 32 (Host.floor u)

theorem cellA_eq (b : Bool) (u : A Ideal S1048576 .f32) (i : S1048576.Idx) :
    cellA b u i = Cert.Spec.cellSel (F := Ideal) 63#32 b (u i) := by
  cases b <;> rfl

def cornerA (x2 : A F S1x4x64x64x64 .f32) (uz uy ux : A F S1048576 .f32) (k : Fin 8) : A F S4x1048576 .f32 :=
  Host.gather gather_S4x64x64x64_S1048576x3_S4x1048576_0_123_n_n_123_1_4111 (val_main_v264 x2)
    (concatenate S1048576x3 1 [⟨S1048576x1, normCol 64#32 (cellA (decide (k.val / 4 % 2 = 1)) uz)⟩,
      ⟨S1048576x1, normCol 64#32 (cellA (decide (k.val / 2 % 2 = 1)) uy)⟩, ⟨S1048576x1, normCol 64#32 (cellA (decide (k.val % 2 = 1)) ux)⟩]
      concatenates_S1048576x1_S1048576x1_S1048576x1_S1048576x3_d1)

/- The point gather reads the voxel that the three cell words in row p of the index table name. -/
theorem point_eq (x2 : A Ideal S1x4x64x64x64 .f32) (iv : A Ideal S1048576x3 .i32) (ch : Fin 4) (p : Fin 1048576)
    (wz wy wx : BitVec 32) (hz : iv (ix2 p (0 : Fin 3)) = wz) (hy : iv (ix2 p (1 : Fin 3)) = wy) (hx : iv (ix2 p (2 : Fin 3)) = wx) :
    Host.gather gather_S4x64x64x64_S1048576x3_S4x1048576_0_123_n_n_123_1_4111 (val_main_v264 (F := Ideal) x2) iv (ix2 ch p)
      = Cert.Spec.volAt 64 (by decide) x2 ch wz wy wx := by
  rw [Cert.LibLayout.gather_point_apply (D := 64) (N := 1048576) (by decide) _ rfl rfl rfl rfl rfl rfl rfl, vol_eq, hz, hy, hx]
  rfl

/- Cell words of a clipped coordinate lie in [0, 63], so corner k of the array program is the specification's corner k. -/
theorem corner_eq (x2 : A Ideal S1x4x64x64x64 .f32) (uz uy ux : A Ideal S1048576 .f32) (k : Fin 8) (ch : Fin 4) (p : Fin 1048576)
    (gz gy gx : Ideal .f32) (hz : uz (ix1 p) = uOf gz) (hy : uy (ix1 p) = uOf gy) (hx : ux (ix1 p) = uOf gx) :
    cornerA x2 uz uy ux k (ix2 ch p)
      = Cert.Spec.corner (F := Ideal) 64 (by decide) 63#32 x2 ch k (ux (ix1 p)) (uy (ix1 p)) (uz (ix1 p)) := by
  have n : ∀ (b : Bool) (u : A Ideal S1048576 .f32) (g : Ideal .f32), u (ix1 p) = uOf g →
      normCol 64#32 (cellA b u) (ix2 p (0 : Fin 1)) = Cert.Spec.cellSel (F := Ideal) 63#32 b (u (ix1 p)) := fun b u g h =>
    (normCol_apply _ _ p (by rw [cellA_eq, h]; exact (Cert.Spec.cellSel_coordR_mem1 b g).1)).trans (cellA_eq b u _)
  refine point_eq x2 _ ch p _ _ _ ?_ ?_ ?_
  · exact (Cert.LibLayout.concatenate_cols3_apply ![_, _, _] _ p 0).trans (n _ _ _ hz)
  · exact (Cert.LibLayout.concatenate_cols3_apply ![_, _, _] _ p 1).trans (n _ _ _ hy)
  · exact (Cert.LibLayout.concatenate_cols3_apply ![_, _, _] _ p 2).trans (n _ _ _ hx)

def weightA (u : A F S1048576 .f32) : A F S1048576 .f32 :=
  mulf (mulf (subf u (Host.floor u)) (subf u (Host.floor u)))
    (subf (bc (constant S_ .f32 0x40400000#32)) (mulf (bc (constant S_ .f32 0x40000000#32)) (subf u (Host.floor u))))

theorem weightA_eq (u : A Ideal S1048576 .f32) (i : S1048576.Idx) :
    weightA u i = Cert.Spec.weight (F := Ideal) (Cert.Spec.lit 0x40000000#32) (Cert.Spec.lit 0x40400000#32) (u i)
      (FloatOps.hostUnary .floor (u i)) := rfl

/- Trilinear interpolation of the eight corners as seven one-dimensional ones, over arbitrary coordinate arrays. -/
def sampleA (x2 : A F S1x4x64x64x64 .f32) (ux uy uz : A F S1048576 .f32) : A F S4x1048576 .f32 :=
  let c := cornerA x2 uz uy ux
  let wx := weightA ux
  let wy := weightA uy
  lerpA (lerpA (lerpA (c 0) (c 1) wx) (lerpA (c 2) (c 3) wx) wy) (lerpA (lerpA (c 4) (c 5) wx) (lerpA (c 6) (c 7) wx) wy)
    (weightA uz)

theorem sampleA_eq (x2 : A Ideal S1x4x64x64x64 .f32) (ux uy uz : A Ideal S1048576 .f32) (ch : Fin 4) (p : Fin 1048576)
    (gx gy gz : Ideal .f32) (hx : ux (ix1 p) = uOf gx) (hy : uy (ix1 p) = uOf gy) (hz : uz (ix1 p) = uOf gz) :
    sampleA x2 ux uy uz (ix2 ch p)
      = Cert.Spec.sample (F := Ideal) (D := 64) (by decide) 63#32 (Cert.Spec.lit 0x40000000#32) (Cert.Spec.lit 0x40400000#32)
          (fun u => FloatOps.hostUnary .floor u) x2 ch (uOf gx) (uOf gy) (uOf gz) := by
  unfold sampleA
  simp only [lerpA_apply, weightA_eq, corner_eq x2 uz uy ux _ ch p gz gy gx hz hy hx]
  rw [hx, hy, hz]
  rfl

theorem ref1 (x0 : (⟨S1x1x1x1048576x3, .f32⟩ : BufTy).Contents (Elt Ideal)) (x2 : (⟨S1x4x64x64x64, .f32⟩ : BufTy).Contents (Elt Ideal))
    (ch : Fin 4) (p : Fin 1048576) :
    Cert.ReferenceIdeal.ReadP.val_main_v526 (F := Ideal) x0 x2 (ix5 (0 : Fin 1) ch (0 : Fin 1) (0 : Fin 1) p)
      = Cert.Spec.sample (F := Ideal) (D := 64) (by decide) 63#32 (Cert.Spec.lit 0x40000000#32) (Cert.Spec.lit 0x40400000#32)
          (fun u => FloatOps.hostUnary .floor u) x2 ch
          (Cert.Spec.coordR (Cert.Spec.lit 0x3F800000#32) (Cert.Spec.lit 0x3F000000#32) (Cert.Spec.lit 0x427C0000#32)
            (Cert.Spec.lit 0x00000000#32) (FloatOps.sitofp .f32 (63#32 : BitVec 32))
            (x0 (ix5 (0 : Fin 1) (0 : Fin 1) (0 : Fin 1) p (0 : Fin 3))))
          (Cert.Spec.coordR (Cert.Spec.lit 0x3F800000#32) (Cert.Spec.lit 0x3F000000#32) (Cert.Spec.lit 0x427C0000#32)
            (Cert.Spec.lit 0x00000000#32) (FloatOps.sitofp .f32 (63#32 : BitVec 32))
            (x0 (ix5 (0 : Fin 1) (0 : Fin 1) (0 : Fin 1) p (1 : Fin 3))))
          (Cert.Spec.coordR (Cert.Spec.lit 0x3F800000#32) (Cert.Spec.lit 0x3F000000#32) (Cert.Spec.lit 0x427C0000#32)
            (Cert.Spec.lit 0x00000000#32) (FloatOps.sitofp .f32 (63#32 : BitVec 32))
            (x0 (ix5 (0 : Fin 1) (0 : Fin 1) (0 : Fin 1) p (2 : Fin 3)))) := by
  rw [val_main_v526_apply]
  have e : idx_main_v526 (ix5 (0 : Fin 1) ch (0 : Fin 1) (0 : Fin 1) p) = ix2 ch p := by
    funext d
    match d with
    | ⟨0, _⟩ => exact Fin.ext (by show ((((0 * 4 + ch.val) * 1 + 0) * 1 + 0) * 1048576 + p.val) / 1048576 = ch.val; omega)
    | ⟨1, _⟩ => exact Fin.ext (by show ((((0 * 4 + ch.val) * 1 + 0) * 1 + 0) * 1048576 + p.val) % 1048576 = p.val; omega)
  rw [e]
  exact sampleA_eq x2 (val_main_v273 x0) (val_main_v282 x0) (val_main_v291 x0) ch p _ _ _
    (congrArg uOf (colG x0 0 _ p)) (congrArg uOf (colG x0 1 _ p)) (congrArg uOf (colG x0 2 _ p))

end Cert.ReferenceIdeal.Hand1

end
-- ==== Proof.Ref2.lean ====
/- The reference's sample of volume 2 at a point is the shared scalar specification: cell words in range make each point gather read the voxel it names. -/
import proofs.«421879_j36455682409092_3_alg».proof.Proof.RefReadP
import proofs.«421879_j36455682409092_3_alg».proof.Proof.Spec
import proofs.«421879_j36455682409092_3_alg».proof.Proof.SpecLaws
import proofs.«421879_j36455682409092_3_alg».proof.Proof.LibLayout
import proofs.«421879_j36455682409092_3_alg».proof.Proof.RefShared

noncomputable section

namespace Cert.ReferenceIdeal.Hand2

open Cert.ReferenceIdeal Cert.ReferenceIdeal.Gen Cert.ReferenceIdeal.ReadP Idealize.ShloMosaic Idealize.ShloMosaic.ValueIdx
  Cert.ReferenceIdeal.HandS

theorem gather_at (x : FVec Ideal S4x128x128x128 .f32) (idx : IVec S1048576x3 32) (ch : Fin 4) (p : Fin 1048576) :
    Host.gather gather_S4x128x128x128_S1048576x3_S4x1048576_0_123_n_n_123_1_4111 x idx (ix2 ch p)
      = x (ix4 ch (Cert.Spec.cidx 128 (by decide) (idx (ix2 p (0 : Fin 3))))
          (Cert.Spec.cidx 128 (by decide) (idx (ix2 p (1 : Fin 3))))
          (Cert.Spec.cidx 128 (by decide) (idx (ix2 p (2 : Fin 3))))) :=
  Cert.LibLayout.gather_point_apply (by decide) gather_S4x128x128x128_S1048576x3_S4x1048576_0_123_n_n_123_1_4111
    rfl rfl rfl rfl rfl rfl rfl x idx ch p

theorem vol_527 (x3 : (⟨S1x4x128x128x128, .f32⟩ : BufTy).Contents (Elt Ideal)) (ch : Fin 4) (cz cy cx : Fin 128) :
    val_main_v527 (F := Ideal) x3 (ix4 ch cz cy cx) = x3 (ix5 (0 : Fin 1) ch cz cy cx) :=
  (shapeCast_dropUnit_apply ![4, 128, 128, 128] x3 shapeCasts_S1x4x128x128x128_S4x128x128x128 (ix4 ch cz cy cx)).trans
    (congrArg x3 (funext fun a => match a with
      | ⟨0, _⟩ => rfl | ⟨1, _⟩ => rfl | ⟨2, _⟩ => rfl | ⟨3, _⟩ => rfl | ⟨4, _⟩ => rfl))

/- Three nonnegative index columns make the point gather read the voxel they name. -/
theorem corner_gen (x3 : (⟨S1x4x128x128x128, .f32⟩ : BufTy).Contents (Elt Ideal)) (cz cy cx : IVec S1048576 32)
    (ch : Fin 4) (p : Fin 1048576)
    (hz : 0 ≤ (cz (ix1 p)).toInt) (hy : 0 ≤ (cy (ix1 p)).toInt) (hx : 0 ≤ (cx (ix1 p)).toInt) :
    Host.gather gather_S4x128x128x128_S1048576x3_S4x1048576_0_123_n_n_123_1_4111 (val_main_v527 (F := Ideal) x3)
        (concatenate S1048576x3 1 [⟨S1048576x1, normCol 128#32 cz⟩, ⟨S1048576x1, normCol 128#32 cy⟩, ⟨S1048576x1, normCol 128#32 cx⟩]
          concatenates_S1048576x1_S1048576x1_S1048576x1_S1048576x3_d1) (ix2 ch p)
      = Cert.Spec.volAt 128 (by decide) x3 ch (cz (ix1 p)) (cy (ix1 p)) (cx (ix1 p)) := by
  rw [gather_at, vol_527, cols3, cols3, cols3]
  show x3 (ix5 (0 : Fin 1) ch (Cert.Spec.cidx 128 _ (normCol 128#32 cz (ix2 p (0 : Fin 1))))
    (Cert.Spec.cidx 128 _ (normCol 128#32 cy (ix2 p (0 : Fin 1))))
    (Cert.Spec.cidx 128 _ (normCol 128#32 cx (ix2 p (0 : Fin 1))))) = _
  rw [normCol_apply _ cz p hz, normCol_apply _ cy p hy, normCol_apply _ cx p hx]
  rfl

/- Seven such interpolations of eight corner arrays are the trilinear formula at every point. -/
theorem tri_gen (c0 c1 c2 c3 c4 c5 c6 c7 : FVec Ideal S4x1048576 .f32) (wx wy wz : FVec Ideal S1048576 .f32)
    (ch : Fin 4) (p : Fin 1048576) :
    lerpA (lerpA (lerpA c0 c1 wx) (lerpA c2 c3 wx) wy) (lerpA (lerpA c4 c5 wx) (lerpA c6 c7 wx) wy) wz (ix2 ch p)
      = Cert.Spec.tri (c0 (ix2 ch p)) (c1 (ix2 ch p)) (c2 (ix2 ch p)) (c3 (ix2 ch p)) (c4 (ix2 ch p)) (c5 (ix2 ch p))
          (c6 (ix2 ch p)) (c7 (ix2 ch p)) (wx (ix1 p)) (wy (ix1 p)) (wz (ix1 p)) := by
  simp only [lerpA_apply]
  rfl

theorem out_789 (x0 : (⟨S1x1x1x1048576x3, .f32⟩ : BufTy).Contents (Elt Ideal))
    (x3 : (⟨S1x4x128x128x128, .f32⟩ : BufTy).Contents (Elt Ideal)) (ch : Fin 4) (p : Fin 1048576) :
    val_main_v789 (F := Ideal) x0 x3 (ix5 (0 : Fin 1) ch (0 : Fin 1) (0 : Fin 1) p)
      = val_main_v788 (F := Ideal) x0 x3 (ix2 ch p) :=
  shapeCast_apply _ shapeCasts_S4x1048576_S1x4x1x1x1048576 _ (ix2 ch p) (by
    rw [Shape.rowMajor_val_two, Shape.rowMajor_val_five]
    show ch.val * 1048576 + p.val = (((0 * 4 + ch.val) * 1 + 0) * 1 + 0) * 1048576 + p.val; omega)

theorem ref2 (x0 : (⟨S1x1x1x1048576x3, .f32⟩ : BufTy).Contents (Elt Ideal))
    (x3 : (⟨S1x4x128x128x128, .f32⟩ : BufTy).Contents (Elt Ideal)) (ch : Fin 4) (p : Fin 1048576) :
    Cert.ReferenceIdeal.ReadP.val_main_v789 (F := Ideal) x0 x3 (ix5 (0 : Fin 1) ch (0 : Fin 1) (0 : Fin 1) p)
      = Cert.Spec.sample (F := Ideal) (D := 128) (by decide) 127#32 (Cert.Spec.lit 0x40000000#32)
          (Cert.Spec.lit 0x40400000#32) (fun u => FloatOps.hostUnary .floor u) x3 ch
          (Cert.Spec.coordR (Cert.Spec.lit 0x3F800000#32) (Cert.Spec.lit 0x3F000000#32) (Cert.Spec.lit 0x42FE0000#32)
            (Cert.Spec.lit 0x00000000#32) (FloatOps.sitofp .f32 (127#32 : BitVec 32))
            (x0 (ix5 (0 : Fin 1) (0 : Fin 1) (0 : Fin 1) p (0 : Fin 3))))
          (Cert.Spec.coordR (Cert.Spec.lit 0x3F800000#32) (Cert.Spec.lit 0x3F000000#32) (Cert.Spec.lit 0x42FE0000#32)
            (Cert.Spec.lit 0x00000000#32) (FloatOps.sitofp .f32 (127#32 : BitVec 32))
            (x0 (ix5 (0 : Fin 1) (0 : Fin 1) (0 : Fin 1) p (1 : Fin 3))))
          (Cert.Spec.coordR (Cert.Spec.lit 0x3F800000#32) (Cert.Spec.lit 0x3F000000#32) (Cert.Spec.lit 0x42FE0000#32)
            (Cert.Spec.lit 0x00000000#32) (FloatOps.sitofp .f32 (127#32 : BitVec 32))
            (x0 (ix5 (0 : Fin 1) (0 : Fin 1) (0 : Fin 1) p (2 : Fin 3)))) := by
  have lx : 0 ≤ (val_main_v579 x0 (ix1 p)).toInt := (Cert.Spec.cellSel_coordR_mem2 false _).1
  have hx : 0 ≤ (val_main_v583 x0 (ix1 p)).toInt := (Cert.Spec.cellSel_coordR_mem2 true _).1
  have ly : 0 ≤ (val_main_v584 x0 (ix1 p)).toInt := (Cert.Spec.cellSel_coordR_mem2 false _).1
  have hy : 0 ≤ (val_main_v588 x0 (ix1 p)).toInt := (Cert.Spec.cellSel_coordR_mem2 true _).1
  have lz : 0 ≤ (val_main_v589 x0 (ix1 p)).toInt := (Cert.Spec.cellSel_coordR_mem2 false _).1
  have hz : 0 ≤ (val_main_v593 x0 (ix1 p)).toInt := (Cert.Spec.cellSel_coordR_mem2 true _).1
  rw [← colG x0 0 slices_S1048576x3_S1048576x1_0_0 p, ← colG x0 1 slices_S1048576x3_S1048576x1_0_1 p,
    ← colG x0 2 slices_S1048576x3_S1048576x1_0_2 p, out_789,
    show val_main_v788 x0 x3 (ix2 ch p) = _ from tri_gen (val_main_v613 x0 x3) (val_main_v633 x0 x3)
      (val_main_v653 x0 x3) (val_main_v673 x0 x3) (val_main_v693 x0 x3) (val_main_v713 x0 x3) (val_main_v733 x0 x3)
      (val_main_v753 x0 x3) (val_main_v566 x0) (val_main_v572 x0) (val_main_v578 x0) ch p,
    show val_main_v613 x0 x3 (ix2 ch p) = _ from corner_gen x3 _ _ _ ch p lz ly lx,
    show val_main_v633 x0 x3 (ix2 ch p) = _ from corner_gen x3 _ _ _ ch p lz ly hx,
    show val_main_v653 x0 x3 (ix2 ch p) = _ from corner_gen x3 _ _ _ ch p lz hy lx,
    show val_main_v673 x0 x3 (ix2 ch p) = _ from corner_gen x3 _ _ _ ch p lz hy hx,
    show val_main_v693 x0 x3 (ix2 ch p) = _ from corner_gen x3 _ _ _ ch p hz ly lx,
    show val_main_v713 x0 x3 (ix2 ch p) = _ from corner_gen x3 _ _ _ ch p hz ly hx,
    show val_main_v733 x0 x3 (ix2 ch p) = _ from corner_gen x3 _ _ _ ch p hz hy lx,
    show val_main_v753 x0 x3 (ix2 ch p) = _ from corner_gen x3 _ _ _ ch p hz hy hx]
  rfl

end Cert.ReferenceIdeal.Hand2

end
-- ==== Proof.Ref3.lean ====
/- The reference's sample of volume 3 at a point is the shared scalar specification: cell words in range make each point gather read the voxel it names. -/
import proofs.«421879_j36455682409092_3_alg».proof.Proof.RefReadP
import proofs.«421879_j36455682409092_3_alg».proof.Proof.Spec
import proofs.«421879_j36455682409092_3_alg».proof.Proof.LibLayout
import proofs.«421879_j36455682409092_3_alg».proof.Proof.RefShared
import proofs.«421879_j36455682409092_3_alg».proof.Proof.SpecLaws

noncomputable section

namespace Cert.ReferenceIdeal.Hand3

open Cert.ReferenceIdeal Cert.ReferenceIdeal.Gen Cert.ReferenceIdeal.ReadP Idealize.ShloMosaic Idealize.ShloMosaic.ValueIdx Cert.Spec
  Cert.ReferenceIdeal.HandS

abbrev Grid : Type := (⟨S1x1x1x1048576x3, .f32⟩ : BufTy).Contents (Elt Ideal)

abbrev Vol : Type := (⟨S1x4x256x256x256, .f32⟩ : BufTy).Contents (Elt Ideal)

abbrev FV : Type := FVec Ideal S1048576 .f32

abbrev IV : Type := IVec S1048576 32

abbrev Out : Type := FVec Ideal S4x1048576 .f32

def fillI (b : BitVec 32) : IV := broadcastInDim S1048576 ![] bcast_S_S1048576 (constantI S_ 32 b)

def fillF (b : BitVec 32) : FV := broadcastInDim S1048576 ![] bcast_S_S1048576 (constant S_ .f32 b)

def voxel (x4 : Vol) (cz cy cx : IV) : Out :=
  Host.gather gather_S4x256x256x256_S1048576x3_S4x1048576_0_123_n_n_123_1_4111 (val_main_v790 (F := Ideal) x4)
    (concatenate S1048576x3 1 [⟨S1048576x1, normCol 256#32 cz⟩, ⟨S1048576x1, normCol 256#32 cy⟩, ⟨S1048576x1, normCol 256#32 cx⟩]
      concatenates_S1048576x1_S1048576x1_S1048576x1_S1048576x3_d1)

def cellLo (u : FV) : IV := fptosi 32 (Host.floor u)

def cellHi (u : FV) : IV := minsi (addi (cellLo u) (fillI 1#32)) (fillI 255#32)

def wgt (u : FV) : FV :=
  mulf (mulf (subf u (Host.floor u)) (subf u (Host.floor u)))
    (subf (fillF 0x40400000#32) (mulf (fillF 0x40000000#32) (subf u (Host.floor u))))

def trilin (x4 : Vol) (ux uy uz : FV) : Out :=
  lerpA
    (lerpA (lerpA (voxel x4 (cellLo uz) (cellLo uy) (cellLo ux)) (voxel x4 (cellLo uz) (cellLo uy) (cellHi ux)) (wgt ux))
      (lerpA (voxel x4 (cellLo uz) (cellHi uy) (cellLo ux)) (voxel x4 (cellLo uz) (cellHi uy) (cellHi ux)) (wgt ux)) (wgt uy))
    (lerpA (lerpA (voxel x4 (cellHi uz) (cellLo uy) (cellLo ux)) (voxel x4 (cellHi uz) (cellLo uy) (cellHi ux)) (wgt ux))
      (lerpA (voxel x4 (cellHi uz) (cellHi uy) (cellLo ux)) (voxel x4 (cellHi uz) (cellHi uy) (cellHi ux)) (wgt ux)) (wgt uy))
    (wgt uz)

theorem vol_rd (x4 : Vol) (ch : Fin 4) (a b c : Fin 256) :
    val_main_v790 (F := Ideal) x4 (ix4 ch a b c) = x4 (ix5 (0 : Fin 1) ch a b c) :=
  shapeCast_apply x4 _ _ _ (by
    rw [Shape.rowMajor_val_five, Shape.rowMajor_val_four]
    show (((0 * 4 + ch.val) * 256 + a.val) * 256 + b.val) * 256 + c.val = ((ch.val * 256 + a.val) * 256 + b.val) * 256 + c.val
    omega)

/- Three cell words that are not negative make the point gather read the voxel they name. -/
theorem voxel_apply (x4 : Vol) (cz cy cx : IV) (ch : Fin 4) (p : Fin 1048576) (hz : 0 ≤ (cz (ix1 p)).toInt)
    (hy : 0 ≤ (cy (ix1 p)).toInt) (hx : 0 ≤ (cx (ix1 p)).toInt) :
    voxel x4 cz cy cx (ix2 ch p) = volAt 256 (by decide) x4 ch (cz (ix1 p)) (cy (ix1 p)) (cx (ix1 p)) := by
  unfold voxel
  rw [Cert.LibLayout.gather_point_apply (by decide) gather_S4x256x256x256_S1048576x3_S4x1048576_0_123_n_n_123_1_4111
      rfl rfl rfl rfl rfl rfl rfl, cols3, cols3, cols3, vol_rd]
  show x4 (ix5 _ ch (cidx _ _ (normCol 256#32 cz _)) (cidx _ _ (normCol 256#32 cy _)) (cidx _ _ (normCol 256#32 cx _))) = _
  rw [normCol_apply _ cz p hz, normCol_apply _ cy p hy, normCol_apply _ cx p hx]
  rfl

/- Seven interpolations of the eight corner voxels, all cell words in range, are the specification's sample. -/
theorem trilin_apply (x4 : Vol) (ux uy uz : FV) (ch : Fin 4) (p : Fin 1048576) (vx vy vz : Ideal .f32)
    (ex : ux (ix1 p) = vx) (ey : uy (ix1 p) = vy) (ez : uz (ix1 p) = vz)
    (hx : ∀ b, 0 ≤ (cellSel (F := Ideal) 255#32 b vx).toInt) (hy : ∀ b, 0 ≤ (cellSel (F := Ideal) 255#32 b vy).toInt)
    (hz : ∀ b, 0 ≤ (cellSel (F := Ideal) 255#32 b vz).toInt) :
    trilin x4 ux uy uz (ix2 ch p)
      = sample (F := Ideal) (D := 256) (by decide) 255#32 (lit 0x40000000#32) (lit 0x40400000#32)
          (fun u => FloatOps.hostUnary .floor u) x4 ch vx vy vz := by
  subst ex ey ez
  unfold trilin
  rw [lerpA_apply, lerpA_apply, lerpA_apply, lerpA_apply, lerpA_apply, lerpA_apply, lerpA_apply,
    voxel_apply x4 (cellLo uz) (cellLo uy) (cellLo ux) ch p (hz false) (hy false) (hx false),
    voxel_apply x4 (cellLo uz) (cellLo uy) (cellHi ux) ch p (hz false) (hy false) (hx true),
    voxel_apply x4 (cellLo uz) (cellHi uy) (cellLo ux) ch p (hz false) (hy true) (hx false),
    voxel_apply x4 (cellLo uz) (cellHi uy) (cellHi ux) ch p (hz false) (hy true) (hx true),
    voxel_apply x4 (cellHi uz) (cellLo uy) (cellLo ux) ch p (hz true) (hy false) (hx false),
    voxel_apply x4 (cellHi uz) (cellLo uy) (cellHi ux) ch p (hz true) (hy false) (hx true),
    voxel_apply x4 (cellHi uz) (cellHi uy) (cellLo ux) ch p (hz true) (hy true) (hx false),
    voxel_apply x4 (cellHi uz) (cellHi uy) (cellHi ux) ch p (hz true) (hy true) (hx true)]
  rfl

abbrev cR (v : Ideal .f32) : Ideal .f32 :=
  coordR (F := Ideal) (lit 0x3F800000#32) (lit 0x3F000000#32) (lit 0x437F0000#32) (lit 0x00000000#32)
    (FloatOps.sitofp .f32 (255#32 : BitVec 32)) v

theorem grid_rd (x0 : Grid) (p : Fin 1048576) (k : Fin 3) (j : S1048576x3.Idx) (h0 : (j 0).val = p.val)
    (h1 : (j 1).val = k.val) :
    val_main_v0 (F := Ideal) x0 j = x0 (ix5 (0 : Fin 1) (0 : Fin 1) (0 : Fin 1) p k) :=
  shapeCast_apply x0 _ _ _ (by
    rw [Shape.rowMajor_val_five, Shape.rowMajor_val_two]
    show (((0 * 1 + 0) * 1 + 0) * 1048576 + p.val) * 3 + k.val = (j 0).val * 3 + (j 1).val
    omega)

theorem ux_eq (x0 : Grid) (p : Fin 1048576) :
    val_main_v799 (F := Ideal) x0 (ix1 p) = cR (x0 (ix5 (0 : Fin 1) (0 : Fin 1) (0 : Fin 1) p (0 : Fin 3))) :=
  congrArg cR (by rw [val_main_v792_apply, val_main_v791_apply]; exact grid_rd x0 p 0 _ (Nat.div_one _) rfl)

theorem uy_eq (x0 : Grid) (p : Fin 1048576) :
    val_main_v808 (F := Ideal) x0 (ix1 p) = cR (x0 (ix5 (0 : Fin 1) (0 : Fin 1) (0 : Fin 1) p (1 : Fin 3))) :=
  congrArg cR (by rw [val_main_v801_apply, val_main_v800_apply]; exact grid_rd x0 p 1 _ (Nat.div_one _) rfl)

theorem uz_eq (x0 : Grid) (p : Fin 1048576) :
    val_main_v817 (F := Ideal) x0 (ix1 p) = cR (x0 (ix5 (0 : Fin 1) (0 : Fin 1) (0 : Fin 1) p (2 : Fin 3))) :=
  congrArg cR (by rw [val_main_v810_apply, val_main_v809_apply]; exact grid_rd x0 p 2 _ (Nat.div_one _) rfl)

theorem out_rd (x0 : Grid) (x4 : Vol) (ch : Fin 4) (p : Fin 1048576) :
    val_main_v1052 (F := Ideal) x0 x4 (ix5 (0 : Fin 1) ch (0 : Fin 1) (0 : Fin 1) p)
      = val_main_v1051 (F := Ideal) x0 x4 (ix2 ch p) :=
  shapeCast_apply _ _ _ _ (by
    rw [Shape.rowMajor_val_two, Shape.rowMajor_val_five]
    show ch.val * 1048576 + p.val = (((0 * 4 + ch.val) * 1 + 0) * 1 + 0) * 1048576 + p.val
    omega)

theorem ref3 (x0 : (⟨S1x1x1x1048576x3, .f32⟩ : BufTy).Contents (Elt Ideal))
    (x4 : (⟨S1x4x256x256x256, .f32⟩ : BufTy).Contents (Elt Ideal)) (ch : Fin 4) (p : Fin 1048576) :
    Cert.ReferenceIdeal.ReadP.val_main_v1052 (F := Ideal) x0 x4 (ix5 (0 : Fin 1) ch (0 : Fin 1) (0 : Fin 1) p)
      = Cert.Spec.sample (F := Ideal) (D := 256) (by decide) 255#32 (Cert.Spec.lit 0x40000000#32)
          (Cert.Spec.lit 0x40400000#32) (fun u => FloatOps.hostUnary .floor u) x4 ch
          (Cert.Spec.coordR (Cert.Spec.lit 0x3F800000#32) (Cert.Spec.lit 0x3F000000#32) (Cert.Spec.lit 0x437F0000#32)
            (Cert.Spec.lit 0x00000000#32) (FloatOps.sitofp .f32 (255#32 : BitVec 32))
            (x0 (ix5 (0 : Fin 1) (0 : Fin 1) (0 : Fin 1) p (0 : Fin 3))))
          (Cert.Spec.coordR (Cert.Spec.lit 0x3F800000#32) (Cert.Spec.lit 0x3F000000#32) (Cert.Spec.lit 0x437F0000#32)
            (Cert.Spec.lit 0x00000000#32) (FloatOps.sitofp .f32 (255#32 : BitVec 32))
            (x0 (ix5 (0 : Fin 1) (0 : Fin 1) (0 : Fin 1) p (1 : Fin 3))))
          (Cert.Spec.coordR (Cert.Spec.lit 0x3F800000#32) (Cert.Spec.lit 0x3F000000#32) (Cert.Spec.lit 0x437F0000#32)
            (Cert.Spec.lit 0x00000000#32) (FloatOps.sitofp .f32 (255#32 : BitVec 32))
            (x0 (ix5 (0 : Fin 1) (0 : Fin 1) (0 : Fin 1) p (2 : Fin 3)))) := by
  exact (out_rd x0 x4 ch p).trans (trilin_apply x4 (val_main_v799 (F := Ideal) x0) (val_main_v808 (F := Ideal) x0)
    (val_main_v817 (F := Ideal) x0) ch p _ _ _ (ux_eq x0 p) (uy_eq x0 p) (uz_eq x0 p) (fun b => (cellSel_coordR_mem3 b _).1)
    (fun b => (cellSel_coordR_mem3 b _).1) (fun b => (cellSel_coordR_mem3 b _).1))

end Cert.ReferenceIdeal.Hand3

end
-- ==== Proof.RefOut.lean ====
/- Channel 4·v + ch of the reference's result is channel ch of volume v's samples. -/
import proofs.«421879_j36455682409092_3_alg».proof.Proof.RefReadP
import proofs.«421879_j36455682409092_3_alg».proof.Proof.LibLayout

noncomputable section

namespace Cert.ReferenceIdeal.HandOut

open Cert.ReferenceIdeal Cert.ReferenceIdeal.Gen Cert.ReferenceIdeal.ReadP Idealize.ShloMosaic Idealize.ShloMosaic.TcCoe Idealize.ShloMosaic.ValueIdx

variable {F : FTy → Type} [FloatOps F]

def parts (x0 : (⟨S1x1x1x1048576x3, .f32⟩ : BufTy).Contents (Elt F)) (x1 : (⟨S1x4x32x32x32, .f32⟩ : BufTy).Contents (Elt F))
    (x2 : (⟨S1x4x64x64x64, .f32⟩ : BufTy).Contents (Elt F)) (x3 : (⟨S1x4x128x128x128, .f32⟩ : BufTy).Contents (Elt F))
    (x4 : (⟨S1x4x256x256x256, .f32⟩ : BufTy).Contents (Elt F)) : Fin 4 → S1x4x1x1x1048576.Idx → Elt F .f32
  | ⟨0, _⟩ => val_main_v263 (F := F) x0 x1
  | ⟨1, _⟩ => val_main_v526 (F := F) x0 x2
  | ⟨2, _⟩ => val_main_v789 (F := F) x0 x3
  | ⟨3, _⟩ => val_main_v1052 (F := F) x0 x4

theorem out_apply (x0 : (⟨S1x1x1x1048576x3, .f32⟩ : BufTy).Contents (Elt F)) (x1 : (⟨S1x4x32x32x32, .f32⟩ : BufTy).Contents (Elt F))
    (x2 : (⟨S1x4x64x64x64, .f32⟩ : BufTy).Contents (Elt F)) (x3 : (⟨S1x4x128x128x128, .f32⟩ : BufTy).Contents (Elt F))
    (x4 : (⟨S1x4x256x256x256, .f32⟩ : BufTy).Contents (Elt F)) (v ch : Fin 4) (p : Fin 1048576) :
    val_main_v1053 (F := F) x0 x1 x2 x3 x4
        (ix5 (0 : Fin 1) (⟨4 * v.val + ch.val, by have := v.isLt; have := ch.isLt; omega⟩ : Fin 16) (0 : Fin 1) (0 : Fin 1) p)
      = parts x0 x1 x2 x3 x4 v (ix5 (0 : Fin 1) ch (0 : Fin 1) (0 : Fin 1) p) := by
  unfold val_main_v1053
  exact Cert.LibLayout.concatenate_chan4x4_apply_add (parts x0 x1 x2 x3 x4) _ v ch p

end Cert.ReferenceIdeal.HandOut

end
-- ==== Proof.Bridge.lean ====
/- For a real p, p·s + s with s = (D-1)/2 is ((p + 1)·½)·(D-1): both sides clip to the same voxel coordinate, hence the same cell, corners and smoothstep weights. -/
import proofs.«421879_j36455682409092_3_alg».proof.Proof.Spec
import proofs.«421879_j36455682409092_3_alg».proof.Proof.SpecLaws

noncomputable section

namespace Cert.Spec

open Idealize.ShloMosaic Idealize.ShloMosaic.ValueIdx

/- Two maps that agree on the reals agree at a finite value. -/
theorem of_real {cK cR : Ideal .f32 → Ideal .f32} (he : ∀ r : ℝ, cK (r : EReal) = cR (r : EReal)) {g : Ideal .f32}
    (h : ∃ r : ℝ, g = (r : EReal)) : cK g = cR g := by
  obtain ⟨r, rfl⟩ := h
  exact he r

theorem sample_bridge0 (vol : (⟨5, ![1, 4, 32, 32, 32]⟩ : Shape).Idx → Ideal .f32) (ch : Fin 4) (g0 g1 g2 : Ideal .f32)
    (h0 : ∃ r : ℝ, g0 = (r : EReal)) (h1 : ∃ r : ℝ, g1 = (r : EReal)) (h2 : ∃ r : ℝ, g2 = (r : EReal)) :
    sampleC (F := Ideal) (lit 0x40000000#32) (lit 0x40400000#32) FloatOps.floor
        (fun k => corner (F := Ideal) 32 (by decide) 31#32 vol ch k
          (coordK (lit 0x41780000#32) (lit 0x00000000#32) (lit 0x41F80000#32) g0)
          (coordK (lit 0x41780000#32) (lit 0x00000000#32) (lit 0x41F80000#32) g1)
          (coordK (lit 0x41780000#32) (lit 0x00000000#32) (lit 0x41F80000#32) g2))
        (coordK (lit 0x41780000#32) (lit 0x00000000#32) (lit 0x41F80000#32) g0)
        (coordK (lit 0x41780000#32) (lit 0x00000000#32) (lit 0x41F80000#32) g1)
        (coordK (lit 0x41780000#32) (lit 0x00000000#32) (lit 0x41F80000#32) g2)
      = sample (F := Ideal) (D := 32) (by decide) 31#32 (lit 0x40000000#32) (lit 0x40400000#32)
          (fun u => FloatOps.hostUnary .floor u) vol ch
          (coordR (lit 0x3F800000#32) (lit 0x3F000000#32) (lit 0x41F80000#32) (lit 0x00000000#32) (FloatOps.sitofp .f32 (31#32 : BitVec 32)) g0)
          (coordR (lit 0x3F800000#32) (lit 0x3F000000#32) (lit 0x41F80000#32) (lit 0x00000000#32) (FloatOps.sitofp .f32 (31#32 : BitVec 32)) g1)
          (coordR (lit 0x3F800000#32) (lit 0x3F000000#32) (lit 0x41F80000#32) (lit 0x00000000#32) (FloatOps.sitofp .f32 (31#32 : BitVec 32)) g2) := by
  rw [of_real coord_eq0 h0, of_real coord_eq0 h1, of_real coord_eq0 h2]
  rfl

theorem sample_bridge1 (vol : (⟨5, ![1, 4, 64, 64, 64]⟩ : Shape).Idx → Ideal .f32) (ch : Fin 4) (g0 g1 g2 : Ideal .f32)
    (h0 : ∃ r : ℝ, g0 = (r : EReal)) (h1 : ∃ r : ℝ, g1 = (r : EReal)) (h2 : ∃ r : ℝ, g2 = (r : EReal)) :
    sampleC (F := Ideal) (lit 0x40000000#32) (lit 0x40400000#32) FloatOps.floor
        (fun k => corner (F := Ideal) 64 (by decide) 63#32 vol ch k
          (coordK (lit 0x41FC0000#32) (lit 0x00000000#32) (lit 0x427C0000#32) g0)
          (coordK (lit 0x41FC0000#32) (lit 0x00000000#32) (lit 0x427C0000#32) g1)
          (coordK (lit 0x41FC0000#32) (lit 0x00000000#32) (lit 0x427C0000#32) g2))
        (coordK (lit 0x41FC0000#32) (lit 0x00000000#32) (lit 0x427C0000#32) g0)
        (coordK (lit 0x41FC0000#32) (lit 0x00000000#32) (lit 0x427C0000#32) g1)
        (coordK (lit 0x41FC0000#32) (lit 0x00000000#32) (lit 0x427C0000#32) g2)
      = sample (F := Ideal) (D := 64) (by decide) 63#32 (lit 0x40000000#32) (lit 0x40400000#32)
          (fun u => FloatOps.hostUnary .floor u) vol ch
          (coordR (lit 0x3F800000#32) (lit 0x3F000000#32) (lit 0x427C0000#32) (lit 0x00000000#32) (FloatOps.sitofp .f32 (63#32 : BitVec 32)) g0)
          (coordR (lit 0x3F800000#32) (lit 0x3F000000#32) (lit 0x427C0000#32) (lit 0x00000000#32) (FloatOps.sitofp .f32 (63#32 : BitVec 32)) g1)
          (coordR (lit 0x3F800000#32) (lit 0x3F000000#32) (lit 0x427C0000#32) (lit 0x00000000#32) (FloatOps.sitofp .f32 (63#32 : BitVec 32)) g2) := by
  rw [of_real coord_eq1 h0, of_real coord_eq1 h1, of_real coord_eq1 h2]
  rfl

theorem sample_bridge2 (vol : (⟨5, ![1, 4, 128, 128, 128]⟩ : Shape).Idx → Ideal .f32) (ch : Fin 4) (g0 g1 g2 : Ideal .f32)
    (h0 : ∃ r : ℝ, g0 = (r : EReal)) (h1 : ∃ r : ℝ, g1 = (r : EReal)) (h2 : ∃ r : ℝ, g2 = (r : EReal)) :
    sampleC (F := Ideal) (lit 0x40000000#32) (lit 0x40400000#32) FloatOps.floor
        (fun k => corner (F := Ideal) 128 (by decide) 127#32 vol ch k
          (coordK (lit 0x427E0000#32) (lit 0x00000000#32) (lit 0x42FE0000#32) g0)
          (coordK (lit 0x427E0000#32) (lit 0x00000000#32) (lit 0x42FE0000#32) g1)
          (coordK (lit 0x427E0000#32) (lit 0x00000000#32) (lit 0x42FE0000#32) g2))
        (coordK (lit 0x427E0000#32) (lit 0x00000000#32) (lit 0x42FE0000#32) g0)
        (coordK (lit 0x427E0000#32) (lit 0x00000000#32) (lit 0x42FE0000#32) g1)
        (coordK (lit 0x427E0000#32) (lit 0x00000000#32) (lit 0x42FE0000#32) g2)
      = sample (F := Ideal) (D := 128) (by decide) 127#32 (lit 0x40000000#32) (lit 0x40400000#32)
          (fun u => FloatOps.hostUnary .floor u) vol ch
          (coordR (lit 0x3F800000#32) (lit 0x3F000000#32) (lit 0x42FE0000#32) (lit 0x00000000#32) (FloatOps.sitofp .f32 (127#32 : BitVec 32)) g0)
          (coordR (lit 0x3F800000#32) (lit 0x3F000000#32) (lit 0x42FE0000#32) (lit 0x00000000#32) (FloatOps.sitofp .f32 (127#32 : BitVec 32)) g1)
          (coordR (lit 0x3F800000#32) (lit 0x3F000000#32) (lit 0x42FE0000#32) (lit 0x00000000#32) (FloatOps.sitofp .f32 (127#32 : BitVec 32)) g2) := by
  rw [of_real coord_eq2 h0, of_real coord_eq2 h1, of_real coord_eq2 h2]
  rfl

theorem sample_bridge3 (vol : (⟨5, ![1, 4, 256, 256, 256]⟩ : Shape).Idx → Ideal .f32) (ch : Fin 4) (g0 g1 g2 : Ideal .f32)
    (h0 : ∃ r : ℝ, g0 = (r : EReal)) (h1 : ∃ r : ℝ, g1 = (r : EReal)) (h2 : ∃ r : ℝ, g2 = (r : EReal)) :
    sampleC (F := Ideal) (lit 0x40000000#32) (lit 0x40400000#32) FloatOps.floor
        (fun k => corner (F := Ideal) 256 (by decide) 255#32 vol ch k
          (coordK (lit 0x42FF0000#32) (lit 0x00000000#32) (lit 0x437F0000#32) g0)
          (coordK (lit 0x42FF0000#32) (lit 0x00000000#32) (lit 0x437F0000#32) g1)
          (coordK (lit 0x42FF0000#32) (lit 0x00000000#32) (lit 0x437F0000#32) g2))
        (coordK (lit 0x42FF0000#32) (lit 0x00000000#32) (lit 0x437F0000#32) g0)
        (coordK (lit 0x42FF0000#32) (lit 0x00000000#32) (lit 0x437F0000#32) g1)
        (coordK (lit 0x42FF0000#32) (lit 0x00000000#32) (lit 0x437F0000#32) g2)
      = sample (F := Ideal) (D := 256) (by decide) 255#32 (lit 0x40000000#32) (lit 0x40400000#32)
          (fun u => FloatOps.hostUnary .floor u) vol ch
          (coordR (lit 0x3F800000#32) (lit 0x3F000000#32) (lit 0x437F0000#32) (lit 0x00000000#32) (FloatOps.sitofp .f32 (255#32 : BitVec 32)) g0)
          (coordR (lit 0x3F800000#32) (lit 0x3F000000#32) (lit 0x437F0000#32) (lit 0x00000000#32) (FloatOps.sitofp .f32 (255#32 : BitVec 32)) g1)
          (coordR (lit 0x3F800000#32) (lit 0x3F000000#32) (lit 0x437F0000#32) (lit 0x00000000#32) (FloatOps.sitofp .f32 (255#32 : BitVec 32)) g2) := by
  rw [of_real coord_eq3 h0, of_real coord_eq3 h1, of_real coord_eq3 h2]
  rfl

end Cert.Spec

end
-- ==== Proof.KJoin.lean ====
/- At finite sample points the kernel program's result is the reference's last stage of the same arguments, index by index. -/
import proofs.«421879_j36455682409092_3_alg».proof.Proof.KIFrame
import proofs.«421879_j36455682409092_3_alg».proof.Proof.KFinal
import proofs.«421879_j36455682409092_3_alg».proof.Proof.KPrePts
import proofs.«421879_j36455682409092_3_alg».proof.Proof.KPre0
import proofs.«421879_j36455682409092_3_alg».proof.Proof.KPre1
import proofs.«421879_j36455682409092_3_alg».proof.Proof.KPre2
import proofs.«421879_j36455682409092_3_alg».proof.Proof.KPre3
import proofs.«421879_j36455682409092_3_alg».proof.Proof.Ref0
import proofs.«421879_j36455682409092_3_alg».proof.Proof.Ref1
import proofs.«421879_j36455682409092_3_alg».proof.Proof.Ref2
import proofs.«421879_j36455682409092_3_alg».proof.Proof.Ref3
import proofs.«421879_j36455682409092_3_alg».proof.Proof.RefOut
import proofs.«421879_j36455682409092_3_alg».proof.Proof.Bridge

noncomputable section

namespace Cert.KernelIdeal.Join

open Idealize.ShloMosaic Idealize.ShloMosaic.TcCoe Idealize.SL.Sem Idealize.ShloMosaic.ValueIdx Cert.KernelIdeal Cert.KernelIdeal.Gen

theorem lane_div (p : Fin 1048576) (ch : Fin 4) :
    (⟨(p.val * 4 + ch.val) / 4, by have := p.isLt; have := ch.isLt; omega⟩ : Fin 1048576) = p :=
  Fin.ext (by have := ch.isLt; show (p.val * 4 + ch.val) / 4 = p.val; omega)

theorem lane_mod (p : Fin 1048576) (ch : Fin 4) : (⟨(p.val * 4 + ch.val) % 4, by omega⟩ : Fin 4) = ch :=
  Fin.ext (by have := ch.isLt; show (p.val * 4 + ch.val) % 4 = ch.val; omega)

/- One volume: the kernel's interpolation of its corner array at lane 4p + ch is the reference's sample at point p, channel ch. -/
theorem join {D : Nat} (hD : 0 < D) (dm1 : BitVec 32) (K R : Ideal .f32 → Ideal .f32)
    (vol : (⟨5, ![1, 4, D, D, D]⟩ : Shape).Idx → Ideal .f32) (Wc : S8x4194304.Idx → EReal) (P : S3x4194304.Idx → EReal)
    (g : S1x1x1x1048576x3.Idx → EReal) (hfin : ∀ j, ∃ r : ℝ, g j = (r : EReal)) (ch : Fin 4) (p : Fin 1048576)
    (hp : ∀ (a : Fin 3) (l : Fin 4194304), P (ix2 a l) = g (ix5 (0 : Fin 1) (0 : Fin 1) (0 : Fin 1) ⟨l.val / 4, by omega⟩ a))
    (hc : ∀ (k : Fin 8) (l : Fin 4194304), Wc (ix2 k l) = Cert.Spec.corner (F := Ideal) D hD dm1 vol ⟨l.val % 4, by omega⟩ k
      (K (g (ix5 (0 : Fin 1) (0 : Fin 1) (0 : Fin 1) ⟨l.val / 4, by omega⟩ (0 : Fin 3)))) (K (g (ix5 (0 : Fin 1) (0 : Fin 1) (0 : Fin 1) ⟨l.val / 4, by omega⟩ (1 : Fin 3))))
      (K (g (ix5 (0 : Fin 1) (0 : Fin 1) (0 : Fin 1) ⟨l.val / 4, by omega⟩ (2 : Fin 3)))))
    (hb : ∀ g0 g1 g2 : Ideal .f32, (∃ r : ℝ, g0 = (r : EReal)) → (∃ r : ℝ, g1 = (r : EReal)) → (∃ r : ℝ, g2 = (r : EReal)) →
      Cert.Spec.sampleC (F := Ideal) (Cert.Spec.lit 0x40000000#32) (Cert.Spec.lit 0x40400000#32) FloatOps.floor
          (fun k => Cert.Spec.corner D hD dm1 vol ch k (K g0) (K g1) (K g2)) (K g0) (K g1) (K g2)
        = Cert.Spec.sample hD dm1 (Cert.Spec.lit 0x40000000#32) (Cert.Spec.lit 0x40400000#32)
            (fun u => FloatOps.hostUnary .floor u) vol ch (R g0) (R g1) (R g2)) :
    Cert.Spec.sampleC (F := Ideal) (Cert.Spec.lit 0x40000000#32) (Cert.Spec.lit 0x40400000#32) FloatOps.floor
        (fun k => Wc (ix2 k (⟨p.val * 4 + ch.val, by have := p.isLt; have := ch.isLt; omega⟩ : Fin 4194304)))
        (K (P (ix2 (0 : Fin 3) (⟨p.val * 4 + ch.val, by have := p.isLt; have := ch.isLt; omega⟩ : Fin 4194304))))
        (K (P (ix2 (1 : Fin 3) (⟨p.val * 4 + ch.val, by have := p.isLt; have := ch.isLt; omega⟩ : Fin 4194304))))
        (K (P (ix2 (2 : Fin 3) (⟨p.val * 4 + ch.val, by have := p.isLt; have := ch.isLt; omega⟩ : Fin 4194304))))
      = Cert.Spec.sample hD dm1 (Cert.Spec.lit 0x40000000#32) (Cert.Spec.lit 0x40400000#32)
          (fun u => FloatOps.hostUnary .floor u) vol ch (R (g (ix5 (0 : Fin 1) (0 : Fin 1) (0 : Fin 1) p (0 : Fin 3)))) (R (g (ix5 (0 : Fin 1) (0 : Fin 1) (0 : Fin 1) p (1 : Fin 3)))) (R (g (ix5 (0 : Fin 1) (0 : Fin 1) (0 : Fin 1) p (2 : Fin 3)))) := by
  rw [funext fun k => hc k _, hp, hp, hp]
  simp only [lane_div, lane_mod]
  exact hb _ _ _ (hfin _) (hfin _) (hfin _)

theorem kernel_value (m : (ℓ : Loc nD τ sig) → Buf (Elt Ideal) ℓ) (c : Dev nD)
    (hfin : ∀ j, ∃ r : ℝ, (m ((c : Thread nD τ).loc main_arg0) : S1x1x1x1048576x3.Idx → EReal) j = (r : EReal)) :
    (Pipeline.afterTail₀ cfgs (Hand.dats (F := Ideal) m) 0 (Hand.V0 m) [hostOps1] c main_v320 : S1x16x1x1x1048576.Idx → EReal)
      = Cert.ReferenceIdeal.ReadP.val_main_v1053 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨a, q, b, e, p, rfl⟩ : ∃ (a : Fin 1) (q : Fin 16) (b e : Fin 1) (p : Fin 1048576), i = ix5 a q b e p :=
    ⟨i 0, i 1, i 2, i 3, i 4, eq_ix5 i⟩
  obtain rfl : a = 0 := Subsingleton.elim _ _
  obtain rfl : b = 0 := Subsingleton.elim _ _
  obtain rfl : e = 0 := Subsingleton.elim _ _
  obtain ⟨v, ch, rfl⟩ : ∃ (v ch : Fin 4), q = (⟨4 * v.val + ch.val, by have := v.isLt; have := ch.isLt; omega⟩ : Fin 16) :=
    ⟨⟨q.val / 4, by have := q.isLt; omega⟩, ⟨q.val % 4, by omega⟩, Fin.ext (by show q.val = 4 * (q.val / 4) + q.val % 4; omega)⟩
  rw [Hand.tail_apply, Cert.ReferenceIdeal.HandOut.out_apply]
  have hq4 : (⟨(4 * v.val + ch.val) / 4, by have := v.isLt; have := ch.isLt; omega⟩ : Fin 4) = v :=
    Fin.ext (by have := ch.isLt; show (4 * v.val + ch.val) / 4 = v.val; omega)
  have hqm : (⟨p.val * 4 + (4 * v.val + ch.val) % 4, by have := p.isLt; omega⟩ : Fin 4194304)
      = (⟨p.val * 4 + ch.val, by have := p.isLt; have := ch.isLt; omega⟩ : Fin 4194304) :=
    Fin.ext (by have := ch.isLt; show p.val * 4 + (4 * v.val + ch.val) % 4 = p.val * 4 + ch.val; omega)
  simp only [hq4, hqm]
  have hp := Cert.KernelIdeal.PrePts.pts_apply m c
  match v with
  | ⟨0, _⟩ => exact (Hand.final5_row0 m c _).trans ((join _ _ _ _ _ _ _ _ hfin ch p hp (Cert.KernelIdeal.Pre0.corners0 m c)
      (Cert.Spec.sample_bridge0 _ ch)).trans (Cert.ReferenceIdeal.Hand0.ref0 _ _ ch p).symm)
  | ⟨1, _⟩ => exact (Hand.final5_row1 m c _).trans ((join _ _ _ _ _ _ _ _ hfin ch p hp (Cert.KernelIdeal.Pre1.corners1 m c)
      (Cert.Spec.sample_bridge1 _ ch)).trans (Cert.ReferenceIdeal.Hand1.ref1 _ _ ch p).symm)
  | ⟨2, _⟩ => exact (Hand.final5_row2 m c _).trans ((join _ _ _ _ _ _ _ _ hfin ch p hp (Cert.KernelIdeal.Pre2.corners2 m c)
      (Cert.Spec.sample_bridge2 _ ch)).trans (Cert.ReferenceIdeal.Hand2.ref2 _ _ ch p).symm)
  | ⟨3, _⟩ => exact (Hand.final5_row3 m c _).trans ((join _ _ _ _ _ _ _ _ hfin ch p hp (Cert.KernelIdeal.Pre3.corners3 m c)
      (Cert.Spec.sample_bridge3 _ ch)).trans (Cert.ReferenceIdeal.Hand3.ref3 _ _ ch p).symm)

end Cert.KernelIdeal.Join

end
-- ==== Proof.RefOps.lean ====
import proofs.«421879_j36455682409092_3_alg».proof.Proof.Gen.ReferenceIdeal
import Idealize.ShloMosaic.Lib.StableHlo.Run
import Idealize.ShloMosaic.Lib.Pipeline.Frame

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ reshape main_arg0 main_v0 rfl shapeCasts_S1x1x1x1048576x3_S1048576x3,
    reshape main_arg1 main_v1 rfl shapeCasts_S1x4x32x32x32_S4x32x32x32,
    unary main_v0 main_v2 (extractStridedSlice S1048576x1 ![0, 0] · slices_S1048576x3_S1048576x1_0_0),
    reshape main_v2 main_v3 rfl shapeCasts_S1048576x1_S1048576,
    nullary main_cst (constant S_ .f32 0x3F800000#32),
    unary main_cst main_v4 (broadcastInDim S1048576 ![] bcast_S_S1048576),
    binary main_v3 main_v4 main_v5 addf,
    nullary main_cst_0 (constant S_ .f32 0x3F000000#32),
    unary main_cst_0 main_v6 (broadcastInDim S1048576 ![] bcast_S_S1048576),
    binary main_v5 main_v6 main_v7 mulf,
    nullary main_cst_1 (constant S_ .f32 0x41F80000#32),
    unary main_cst_1 main_v8 (broadcastInDim S1048576 ![] bcast_S_S1048576),
    binary main_v7 main_v8 main_v9 mulf,
    nullary main_cst_2 (constant S_ .f32 0x00000000#32),
    nullary main_c (constantI S_ 32 31#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_v9) (TRef.of (T := ⟨S1048576, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S1048576, .f32⟩) main_call0_v4) (broadcastInDim S1048576 ![] bcast_S_S1048576),
    TRef.binary (TRef.of (T := ⟨S1048576, .f32⟩) main_call0_v4) (TRef.of (T := ⟨S1048576, .f32⟩) main_call0_v2) (TRef.of (T := ⟨S1048576, .f32⟩) main_v10) minimumf,
    unary main_v0 main_v11 (extractStridedSlice S1048576x1 ![0, 1] · slices_S1048576x3_S1048576x1_0_1),
    reshape main_v11 main_v12 rfl shapeCasts_S1048576x1_S1048576,
    nullary main_cst_3 (constant S_ .f32 0x3F800000#32),
    unary main_cst_3 main_v13 (broadcastInDim S1048576 ![] bcast_S_S1048576),
    binary main_v12 main_v13 main_v14 addf,
    nullary main_cst_4 (constant S_ .f32 0x3F000000#32),
    unary main_cst_4 main_v15 (broadcastInDim S1048576 ![] bcast_S_S1048576),
    binary main_v14 main_v15 main_v16 mulf,
    nullary main_cst_5 (constant S_ .f32 0x41F80000#32),
    unary main_cst_5 main_v17 (broadcastInDim S1048576 ![] bcast_S_S1048576),
    binary main_v16 main_v17 main_v18 mulf,
    nullary main_cst_6 (constant S_ .f32 0x00000000#32),
    nullary main_c_7 (constantI S_ 32 31#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S1048576, .f32⟩) main_call1_v1) (broadcastInDim S1048576 ![] bcast_S_S1048576),
    TRef.binary (TRef.of (T := ⟨S1048576, .f32⟩) main_call1_v1) (TRef.of (T := ⟨S1048576, .f32⟩) main_v18) (TRef.of (T := ⟨S1048576, .f32⟩) main_call1_v2) maximumf,
    TRef.unary (TRef.of (T := ⟨S_, .i32⟩) main_c_7) (TRef.of (T := ⟨S_, .f32⟩) main_call1_v3) (sitofp .f32),
    TRef.unary (TRef.of (T := ⟨S_, .f32⟩) main_call1_v3) (TRef.of (T := ⟨S1048576, .f32⟩) main_call1_v4) (broadcastInDim S1048576 ![] bcast_S_S1048576),
    TRef.binary (TRef.of (T := ⟨S1048576, .f32⟩) main_call1_v4) (TRef.of (T := ⟨S1048576, .f32⟩) main_call1_v2) (TRef.of (T := ⟨S1048576, .f32⟩) main_v19) minimumf,
    unary main_v0 main_v20 (extractStridedSlice S1048576x1 ![0, 2] · slices_S1048576x3_S1048576x1_0_2),
    reshape main_v20 main_v21 rfl shapeCasts_S1048576x1_S1048576,
    nullary main_cst_8 (constant S_ .f32 0x3F800000#32),
    unary main_cst_8 main_v22 (broadcastInDim S1048576 ![] bcast_S_S1048576),
    binary main_v21 main_v22 main_v23 addf,
    nullary main_cst_9 (constant S_ .f32 0x3F000000#32),
    unary main_cst_9 main_v24 (broadcastInDim S1048576 ![] bcast_S_S1048576),
    binary main_v23 main_v24 main_v25 mulf,
    nullary main_cst_10 (constant S_ .f32 0x41F80000#32),
    unary main_cst_10 main_v26 (broadcastInDim S1048576 ![] bcast_S_S1048576),
    binary main_v25 main_v26 main_v27 mulf,
    nullary main_cst_11 (constant S_ .f32 0x00000000#32),
    nullary main_c_12 (constantI S_ 32 31#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S1048576, .f32⟩) main_call2_v1) (broadcastInDim S1048576 ![] bcast_S_S1048576),
    TRef.binary (TRef.of (T := ⟨S1048576, .f32⟩) main_call2_v1) (TRef.of (T := ⟨S1048576, .f32⟩) main_v27) (TRef.of (T := ⟨S1048576, .f32⟩) main_call2_v2) maximumf,
    TRef.unary (TRef.of (T := ⟨S_, .i32⟩) main_c_12) (TRef.of (T := ⟨S_, .f32⟩) main_call2_v3) (sitofp .f32),
    TRef.unary (TRef.of (T := ⟨S_, .f32⟩) main_call2_v3) (TRef.of (T := ⟨S1048576, .f32⟩) main_call2_v4) (broadcastInDim S1048576 ![] bcast_S_S1048576),
    TRef.binary (TRef.of (T := ⟨S1048576, .f32⟩) main_call2_v4) (TRef.of (T := ⟨S1048576, .f32⟩) main_call2_v2) (TRef.of (T := ⟨S1048576, .f32⟩) main_v28) minimumf,
    unary main_v10 main_v29 Host.floor,
    unary main_v19 main_v30 Host.floor,
    unary main_v28 main_v31 Host.floor,
    binary main_v10 main_v29 main_v32 subf,
    binary main_v19 main_v30 main_v33 subf,
    binary main_v28 main_v31 main_v34 subf,
    binary main_v32 main_v32 main_v35 mulf,
    nullary main_cst_13 (constant S_ .f32 0x40000000#32),
    unary main_cst_13 main_v36 (broadcastInDim S1048576 ![] bcast_S_S1048576),
    binary main_v36 main_v32 main_v37 mulf,
    nullary main_cst_14 (constant S_ .f32 0x40400000#32),
    unary main_cst_14 main_v38 (broadcastInDim S1048576 ![] bcast_S_S1048576),
    binary main_v38 main_v37 main_v39 subf,
    binary main_v35 main_v39 main_v40 mulf,
    binary main_v33 main_v33 main_v41 mulf,
    nullary main_cst_15 (constant S_ .f32 0x40000000#32) ]

abbrev ops_part1 : List (HloOp τ sig (Elt F)) :=
  [ unary main_cst_15 main_v42 (broadcastInDim S1048576 ![] bcast_S_S1048576),
    binary main_v42 main_v33 main_v43 mulf,
    nullary main_cst_16 (constant S_ .f32 0x40400000#32),
    unary main_cst_16 main_v44 (broadcastInDim S1048576 ![] bcast_S_S1048576),
    binary main_v44 main_v43 main_v45 subf,
    binary main_v41 main_v45 main_v46 mulf,
    binary main_v34 main_v34 main_v47 mulf,
    nullary main_cst_17 (constant S_ .f32 0x40000000#32),
    unary main_cst_17 main_v48 (broadcastInDim S1048576 ![] bcast_S_S1048576),
    binary main_v48 main_v34 main_v49 mulf,
    nullary main_cst_18 (constant S_ .f32 0x40400000#32),
    unary main_cst_18 main_v50 (broadcastInDim S1048576 ![] bcast_S_S1048576),
    binary main_v50 main_v49 main_v51 subf,
    binary main_v47 main_v51 main_v52 mulf,
    unary main_v29 main_v53 (fptosi 32),
    nullary main_c_19 (constantI S_ 32 1#32),
    unary main_c_19 main_v54 (broadcastInDim S1048576 ![] bcast_S_S1048576),
    binary main_v53 main_v54 main_v55 addi,
    nullary main_c_20 (constantI S_ 32 31#32),
    unary main_c_20 main_v56 (broadcastInDim S1048576 ![] bcast_S_S1048576),
    binary main_v55 main_v56 main_v57 minsi,
    unary main_v30 main_v58 (fptosi 32),
    nullary main_c_21 (constantI S_ 32 1#32),
    unary main_c_21 main_v59 (broadcastInDim S1048576 ![] bcast_S_S1048576),
    binary main_v58 main_v59 main_v60 addi,
    nullary main_c_22 (constantI S_ 32 31#32),
    unary main_c_22 main_v61 (broadcastInDim S1048576 ![] bcast_S_S1048576),
    binary main_v60 main_v61 main_v62 minsi,
    unary main_v31 main_v63 (fptosi 32),
    nullary main_c_23 (constantI S_ 32 1#32),
    unary main_c_23 main_v64 (broadcastInDim S1048576 ![] bcast_S_S1048576),
    binary main_v63 main_v64 main_v65 addi,
    nullary main_c_24 (constantI S_ 32 31#32),
    unary main_c_24 main_v66 (broadcastInDim S1048576 ![] bcast_S_S1048576),
    binary main_v65 main_v66 main_v67 minsi,
    nullary main_c_25 (constantI S_ 32 0#32),
    unary main_c_25 main_v68 (broadcastInDim S1048576 ![] bcast_S_S1048576),
    binary main_v63 main_v68 main_v69 (cmpi .slt),
    nullary main_c_26 (constantI S_ 32 32#32),
    unary main_c_26 main_v70 (broadcastInDim S1048576 ![] bcast_S_S1048576),
    binary main_v63 main_v70 main_v71 addi,
    ternary main_v69 main_v71 main_v63 main_v72 select,
    nullary main_c_27 (constantI S_ 32 0#32),
    unary main_c_27 main_v73 (broadcastInDim S1048576 ![] bcast_S_S1048576),
    binary main_v58 main_v73 main_v74 (cmpi .slt),
    nullary main_c_28 (constantI S_ 32 32#32),
    unary main_c_28 main_v75 (broadcastInDim S1048576 ![] bcast_S_S1048576),
    binary main_v58 main_v75 main_v76 addi,
    ternary main_v74 main_v76 main_v58 main_v77 select,
    nullary main_c_29 (constantI S_ 32 0#32),
    unary main_c_29 main_v78 (broadcastInDim S1048576 ![] bcast_S_S1048576),
    binary main_v53 main_v78 main_v79 (cmpi .slt),
    nullary main_c_30 (constantI S_ 32 32#32),
    unary main_c_30 main_v80 (broadcastInDim S1048576 ![] bcast_S_S1048576),
    binary main_v53 main_v80 main_v81 addi,
    ternary main_v79 main_v81 main_v53 main_v82 select,
    unary main_v72 main_v83 (broadcastInDim S1048576x1 ![0] bcast_S1048576_S1048576x1_0),
    unary main_v77 main_v84 (broadcastInDim S1048576x1 ![0] bcast_S1048576_S1048576x1_0),
    unary main_v82 main_v85 (broadcastInDim S1048576x1 ![0] bcast_S1048576_S1048576x1_0),
    nary ![main_v83, main_v84, main_v85] main_v86 (fun u => concatenate S1048576x3 1 [⟨S1048576x1, u 0⟩, ⟨S1048576x1, u 1⟩, ⟨S1048576x1, u 2⟩] concatenates_S1048576x1_S1048576x1_S1048576x1_S1048576x3_d1) ]

abbrev ops_part2 : List (HloOp τ sig (Elt F)) :=
  [ binary main_v1 main_v86 main_v87 (fun x i => Host.gather gather_S4x32x32x32_S1048576x3_S4x1048576_0_123_n_n_123_1_4111 x i),
    nullary main_c_31 (constantI S_ 32 0#32),
    unary main_c_31 main_v88 (broadcastInDim S1048576 ![] bcast_S_S1048576),
    binary main_v63 main_v88 main_v89 (cmpi .slt),
    nullary main_c_32 (constantI S_ 32 32#32),
    unary main_c_32 main_v90 (broadcastInDim S1048576 ![] bcast_S_S1048576),
    binary main_v63 main_v90 main_v91 addi,
    ternary main_v89 main_v91 main_v63 main_v92 select,
    nullary main_c_33 (constantI S_ 32 0#32),
    unary main_c_33 main_v93 (broadcastInDim S1048576 ![] bcast_S_S1048576),
    binary main_v58 main_v93 main_v94 (cmpi .slt),
    nullary main_c_34 (constantI S_ 32 32#32),
    unary main_c_34 main_v95 (broadcastInDim S1048576 ![] bcast_S_S1048576),
    binary main_v58 main_v95 main_v96 addi,
    ternary main_v94 main_v96 main_v58 main_v97 select,
    nullary main_c_35 (constantI S_ 32 0#32),
    unary main_c_35 main_v98 (broadcastInDim S1048576 ![] bcast_S_S1048576),
    binary main_v57 main_v98 main_v99 (cmpi .slt),
    nullary main_c_36 (constantI S_ 32 32#32),
    unary main_c_36 main_v100 (broadcastInDim S1048576 ![] bcast_S_S1048576),
    binary main_v57 main_v100 main_v101 addi,
    ternary main_v99 main_v101 main_v57 main_v102 select,
    unary main_v92 main_v103 (broadcastInDim S1048576x1 ![0] bcast_S1048576_S1048576x1_0),
    unary main_v97 main_v104 (broadcastInDim S1048576x1 ![0] bcast_S1048576_S1048576x1_0),
    unary main_v102 main_v105 (broadcastInDim S1048576x1 ![0] bcast_S1048576_S1048576x1_0),
    nary ![main_v103, main_v104, main_v105] main_v106 (fun u => concatenate S1048576x3 1 [⟨S1048576x1, u 0⟩, ⟨S1048576x1, u 1⟩, ⟨S1048576x1, u 2⟩] concatenates_S1048576x1_S1048576x1_S1048576x1_S1048576x3_d1),
    binary main_v1 main_v106 main_v107 (fun x i => Host.gather gather_S4x32x32x32_S1048576x3_S4x1048576_0_123_n_n_123_1_4111 x i),
    nullary main_c_37 (constantI S_ 32 0#32),
    unary main_c_37 main_v108 (broadcastInDim S1048576 ![] bcast_S_S1048576),
    binary main_v63 main_v108 main_v109 (cmpi .slt),
    nullary main_c_38 (constantI S_ 32 32#32),
    unary main_c_38 main_v110 (broadcastInDim S1048576 ![] bcast_S_S1048576),
    binary main_v63 main_v110 main_v111 addi,
    ternary main_v109 main_v111 main_v63 main_v112 select,
    nullary main_c_39 (constantI S_ 32 0#32),
    unary main_c_39 main_v113 (broadcastInDim S1048576 ![] bcast_S_S1048576),
    binary main_v62 main_v113 main_v114 (cmpi .slt),
    nullary main_c_40 (constantI S_ 32 32#32),
    unary main_c_40 main_v115 (broadcastInDim S1048576 ![] bcast_S_S1048576),
    binary main_v62 main_v115 main_v116 addi,
    ternary main_v114 main_v116 main_v62 main_v117 select,
    nullary main_c_41 (constantI S_ 32 0#32),
    unary main_c_41 main_v118 (broadcastInDim S1048576 ![] bcast_S_S1048576),
    binary main_v53 main_v118 main_v119 (cmpi .slt),
    nullary main_c_42 (constantI S_ 32 32#32),
    unary main_c_42 main_v120 (broadcastInDim S1048576 ![] bcast_S_S1048576),
    binary main_v53 main_v120 main_v121 addi,
    ternary main_v119 main_v121 main_v53 main_v122 select,
    unary main_v112 main_v123 (broadcastInDim S1048576x1 ![0] bcast_S1048576_S1048576x1_0),
    unary main_v117 main_v124 (broadcastInDim S1048576x1 ![0] bcast_S1048576_S1048576x1_0),
    unary main_v122 main_v125 (broadcastInDim S1048576x1 ![0] bcast_S1048576_S1048576x1_0),
    nary ![main_v123, main_v124, main_v125] main_v126 (fun u => concatenate S1048576x3 1 [⟨S1048576x1, u 0⟩, ⟨S1048576x1, u 1⟩, ⟨S1048576x1, u 2⟩] concatenates_S1048576x1_S1048576x1_S1048576x1_S1048576x3_d1),
    binary main_v1 main_v126 main_v127 (fun x i => Host.gather gather_S4x32x32x32_S1048576x3_S4x1048576_0_123_n_n_123_1_4111 x i),
    nullary main_c_43 (constantI S_ 32 0#32),
    unary main_c_43 main_v128 (broadcastInDim S1048576 ![] bcast_S_S1048576),
    binary main_v63 main_v128 main_v129 (cmpi .slt),
    nullary main_c_44 (constantI S_ 32 32#32),
    unary main_c_44 main_v130 (broadcastInDim S1048576 ![] bcast_S_S1048576),
    binary main_v63 main_v130 main_v131 addi,
    ternary main_v129 main_v131 main_v63 main_v132 select ]

abbrev ops_part3 : List (HloOp τ sig (Elt F)) :=
  [ nullary main_c_45 (constantI S_ 32 0#32),
    unary main_c_45 main_v133 (broadcastInDim S1048576 ![] bcast_S_S1048576),
    binary main_v62 main_v133 main_v134 (cmpi .slt),
    nullary main_c_46 (constantI S_ 32 32#32),
    unary main_c_46 main_v135 (broadcastInDim S1048576 ![] bcast_S_S1048576),
    binary main_v62 main_v135 main_v136 addi,
    ternary main_v134 main_v136 main_v62 main_v137 select,
    nullary main_c_47 (constantI S_ 32 0#32),
    unary main_c_47 main_v138 (broadcastInDim S1048576 ![] bcast_S_S1048576),
    binary main_v57 main_v138 main_v139 (cmpi .slt),
    nullary main_c_48 (constantI S_ 32 32#32),
    unary main_c_48 main_v140 (broadcastInDim S1048576 ![] bcast_S_S1048576),
    binary main_v57 main_v140 main_v141 addi,
    ternary main_v139 main_v141 main_v57 main_v142 select,
    unary main_v132 main_v143 (broadcastInDim S1048576x1 ![0] bcast_S1048576_S1048576x1_0),
    unary main_v137 main_v144 (broadcastInDim S1048576x1 ![0] bcast_S1048576_S1048576x1_0),
    unary main_v142 main_v145 (broadcastInDim S1048576x1 ![0] bcast_S1048576_S1048576x1_0),
    nary ![main_v143, main_v144, main_v145] main_v146 (fun u => concatenate S1048576x3 1 [⟨S1048576x1, u 0⟩, ⟨S1048576x1, u 1⟩, ⟨S1048576x1, u 2⟩] concatenates_S1048576x1_S1048576x1_S1048576x1_S1048576x3_d1),
    binary main_v1 main_v146 main_v147 (fun x i => Host.gather gather_S4x32x32x32_S1048576x3_S4x1048576_0_123_n_n_123_1_4111 x i),
    nullary main_c_49 (constantI S_ 32 0#32),
    unary main_c_49 main_v148 (broadcastInDim S1048576 ![] bcast_S_S1048576),
    binary main_v67 main_v148 main_v149 (cmpi .slt),
    nullary main_c_50 (constantI S_ 32 32#32),
    unary main_c_50 main_v150 (broadcastInDim S1048576 ![] bcast_S_S1048576),
    binary main_v67 main_v150 main_v151 addi,
    ternary main_v149 main_v151 main_v67 main_v152 select,
    nullary main_c_51 (constantI S_ 32 0#32),
    unary main_c_51 main_v153 (broadcastInDim S1048576 ![] bcast_S_S1048576),
    binary main_v58 main_v153 main_v154 (cmpi .slt),
    nullary main_c_52 (constantI S_ 32 32#32),
    unary main_c_52 main_v155 (broadcastInDim S1048576 ![] bcast_S_S1048576),
    binary main_v58 main_v155 main_v156 addi,
    ternary main_v154 main_v156 main_v58 main_v157 select,
    nullary main_c_53 (constantI S_ 32 0#32),
    unary main_c_53 main_v158 (broadcastInDim S1048576 ![] bcast_S_S1048576),
    binary main_v53 main_v158 main_v159 (cmpi .slt),
    nullary main_c_54 (constantI S_ 32 32#32),
    unary main_c_54 main_v160 (broadcastInDim S1048576 ![] bcast_S_S1048576),
    binary main_v53 main_v160 main_v161 addi,
    ternary main_v159 main_v161 main_v53 main_v162 select,
    unary main_v152 main_v163 (broadcastInDim S1048576x1 ![0] bcast_S1048576_S1048576x1_0),
    unary main_v157 main_v164 (broadcastInDim S1048576x1 ![0] bcast_S1048576_S1048576x1_0),
    unary main_v162 main_v165 (broadcastInDim S1048576x1 ![0] bcast_S1048576_S1048576x1_0),
    nary ![main_v163, main_v164, main_v165] main_v166 (fun u => concatenate S1048576x3 1 [⟨S1048576x1, u 0⟩, ⟨S1048576x1, u 1⟩, ⟨S1048576x1, u 2⟩] concatenates_S1048576x1_S1048576x1_S1048576x1_S1048576x3_d1),
    binary main_v1 main_v166 main_v167 (fun x i => Host.gather gather_S4x32x32x32_S1048576x3_S4x1048576_0_123_n_n_123_1_4111 x i),
    nullary main_c_55 (constantI S_ 32 0#32),
    unary main_c_55 main_v168 (broadcastInDim S1048576 ![] bcast_S_S1048576),
    binary main_v67 main_v168 main_v169 (cmpi .slt),
    nullary main_c_56 (constantI S_ 32 32#32),
    unary main_c_56 main_v170 (broadcastInDim S1048576 ![] bcast_S_S1048576),
    binary main_v67 main_v170 main_v171 addi,
    ternary main_v169 main_v171 main_v67 main_v172 select,
    nullary main_c_57 (constantI S_ 32 0#32),
    unary main_c_57 main_v173 (broadcastInDim S1048576 ![] bcast_S_S1048576),
    binary main_v58 main_v173 main_v174 (cmpi .slt),
    nullary main_c_58 (constantI S_ 32 32#32),
    unary main_c_58 main_v175 (broadcastInDim S1048576 ![] bcast_S_S1048576),
    binary main_v58 main_v175 main_v176 addi,
    ternary main_v174 main_v176 main_v58 main_v177 select,
    nullary main_c_59 (constantI S_ 32 0#32) ]

abbrev ops_part4 : List (HloOp τ sig (Elt F)) :=
  [ unary main_c_59 main_v178 (broadcastInDim S1048576 ![] bcast_S_S1048576),
    binary main_v57 main_v178 main_v179 (cmpi .slt),
    nullary main_c_60 (constantI S_ 32 32#32),
    unary main_c_60 main_v180 (broadcastInDim S1048576 ![] bcast_S_S1048576),
    binary main_v57 main_v180 main_v181 addi,
    ternary main_v179 main_v181 main_v57 main_v182 select,
    unary main_v172 main_v183 (broadcastInDim S1048576x1 ![0] bcast_S1048576_S1048576x1_0),
    unary main_v177 main_v184 (broadcastInDim S1048576x1 ![0] bcast_S1048576_S1048576x1_0),
    unary main_v182 main_v185 (broadcastInDim S1048576x1 ![0] bcast_S1048576_S1048576x1_0),
    nary ![main_v183, main_v184, main_v185] main_v186 (fun u => concatenate S1048576x3 1 [⟨S1048576x1, u 0⟩, ⟨S1048576x1, u 1⟩, ⟨S1048576x1, u 2⟩] concatenates_S1048576x1_S1048576x1_S1048576x1_S1048576x3_d1),
    binary main_v1 main_v186 main_v187 (fun x i => Host.gather gather_S4x32x32x32_S1048576x3_S4x1048576_0_123_n_n_123_1_4111 x i),
    nullary main_c_61 (constantI S_ 32 0#32),
    unary main_c_61 main_v188 (broadcastInDim S1048576 ![] bcast_S_S1048576),
    binary main_v67 main_v188 main_v189 (cmpi .slt),
    nullary main_c_62 (constantI S_ 32 32#32),
    unary main_c_62 main_v190 (broadcastInDim S1048576 ![] bcast_S_S1048576),
    binary main_v67 main_v190 main_v191 addi,
    ternary main_v189 main_v191 main_v67 main_v192 select,
    nullary main_c_63 (constantI S_ 32 0#32),
    unary main_c_63 main_v193 (broadcastInDim S1048576 ![] bcast_S_S1048576),
    binary main_v62 main_v193 main_v194 (cmpi .slt),
    nullary main_c_64 (constantI S_ 32 32#32),
    unary main_c_64 main_v195 (broadcastInDim S1048576 ![] bcast_S_S1048576),
    binary main_v62 main_v195 main_v196 addi,
    ternary main_v194 main_v196 main_v62 main_v197 select,
    nullary main_c_65 (constantI S_ 32 0#32),
    unary main_c_65 main_v198 (broadcastInDim S1048576 ![] bcast_S_S1048576),
    binary main_v53 main_v198 main_v199 (cmpi .slt),
    nullary main_c_66 (constantI S_ 32 32#32),
    unary main_c_66 main_v200 (broadcastInDim S1048576 ![] bcast_S_S1048576),
    binary main_v53 main_v200 main_v201 addi,
    ternary main_v199 main_v201 main_v53 main_v202 select,
    unary main_v192 main_v203 (broadcastInDim S1048576x1 ![0] bcast_S1048576_S1048576x1_0),
    unary main_v197 main_v204 (broadcastInDim S1048576x1 ![0] bcast_S1048576_S1048576x1_0),
    unary main_v202 main_v205 (broadcastInDim S1048576x1 ![0] bcast_S1048576_S1048576x1_0),
    nary ![main_v203, main_v204, main_v205] main_v206 (fun u => concatenate S1048576x3 1 [⟨S1048576x1, u 0⟩, ⟨S1048576x1, u 1⟩, ⟨S1048576x1, u 2⟩] concatenates_S1048576x1_S1048576x1_S1048576x1_S1048576x3_d1),
    binary main_v1 main_v206 main_v207 (fun x i => Host.gather gather_S4x32x32x32_S1048576x3_S4x1048576_0_123_n_n_123_1_4111 x i),
    nullary main_c_67 (constantI S_ 32 0#32),
    unary main_c_67 main_v208 (broadcastInDim S1048576 ![] bcast_S_S1048576),
    binary main_v67 main_v208 main_v209 (cmpi .slt),
    nullary main_c_68 (constantI S_ 32 32#32),
    unary main_c_68 main_v210 (broadcastInDim S1048576 ![] bcast_S_S1048576),
    binary main_v67 main_v210 main_v211 addi,
    ternary main_v209 main_v211 main_v67 main_v212 select,
    nullary main_c_69 (constantI S_ 32 0#32),
    unary main_c_69 main_v213 (broadcastInDim S1048576 ![] bcast_S_S1048576),
    binary main_v62 main_v213 main_v214 (cmpi .slt),
    nullary main_c_70 (constantI S_ 32 32#32),
    unary main_c_70 main_v215 (broadcastInDim S1048576 ![] bcast_S_S1048576),
    binary main_v62 main_v215 main_v216 addi,
    ternary main_v214 main_v216 main_v62 main_v217 select,
    nullary main_c_71 (constantI S_ 32 0#32),
    unary main_c_71 main_v218 (broadcastInDim S1048576 ![] bcast_S_S1048576),
    binary main_v57 main_v218 main_v219 (cmpi .slt),
    nullary main_c_72 (constantI S_ 32 32#32),
    unary main_c_72 main_v220 (broadcastInDim S1048576 ![] bcast_S_S1048576),
    binary main_v57 main_v220 main_v221 addi,
    ternary main_v219 main_v221 main_v57 main_v222 select,
    unary main_v212 main_v223 (broadcastInDim S1048576x1 ![0] bcast_S1048576_S1048576x1_0),
    unary main_v217 main_v224 (broadcastInDim S1048576x1 ![0] bcast_S1048576_S1048576x1_0) ]

abbrev ops_part5 : List (HloOp τ sig (Elt F)) :=
  [ unary main_v222 main_v225 (broadcastInDim S1048576x1 ![0] bcast_S1048576_S1048576x1_0),
    nary ![main_v223, main_v224, main_v225] main_v226 (fun u => concatenate S1048576x3 1 [⟨S1048576x1, u 0⟩, ⟨S1048576x1, u 1⟩, ⟨S1048576x1, u 2⟩] concatenates_S1048576x1_S1048576x1_S1048576x1_S1048576x3_d1),
    binary main_v1 main_v226 main_v227 (fun x i => Host.gather gather_S4x32x32x32_S1048576x3_S4x1048576_0_123_n_n_123_1_4111 x i),
    binary main_v107 main_v87 main_v228 subf,
    unary main_v40 main_v229 (broadcastInDim S1x1048576 ![1] bcast_S1048576_S1x1048576_1),
    unary main_v229 main_v230 (broadcastInDim S4x1048576 ![0, 1] bcast_S1x1048576_S4x1048576_0_1),
    binary main_v228 main_v230 main_v231 mulf,
    binary main_v87 main_v231 main_v232 addf,
    binary main_v147 main_v127 main_v233 subf,
    unary main_v40 main_v234 (broadcastInDim S1x1048576 ![1] bcast_S1048576_S1x1048576_1),
    unary main_v234 main_v235 (broadcastInDim S4x1048576 ![0, 1] bcast_S1x1048576_S4x1048576_0_1),
    binary main_v233 main_v235 main_v236 mulf,
    binary main_v127 main_v236 main_v237 addf,
    binary main_v187 main_v167 main_v238 subf,
    unary main_v40 main_v239 (broadcastInDim S1x1048576 ![1] bcast_S1048576_S1x1048576_1),
    unary main_v239 main_v240 (broadcastInDim S4x1048576 ![0, 1] bcast_S1x1048576_S4x1048576_0_1),
    binary main_v238 main_v240 main_v241 mulf,
    binary main_v167 main_v241 main_v242 addf,
    binary main_v227 main_v207 main_v243 subf,
    unary main_v40 main_v244 (broadcastInDim S1x1048576 ![1] bcast_S1048576_S1x1048576_1),
    unary main_v244 main_v245 (broadcastInDim S4x1048576 ![0, 1] bcast_S1x1048576_S4x1048576_0_1),
    binary main_v243 main_v245 main_v246 mulf,
    binary main_v207 main_v246 main_v247 addf,
    binary main_v237 main_v232 main_v248 subf,
    unary main_v46 main_v249 (broadcastInDim S1x1048576 ![1] bcast_S1048576_S1x1048576_1),
    unary main_v249 main_v250 (broadcastInDim S4x1048576 ![0, 1] bcast_S1x1048576_S4x1048576_0_1),
    binary main_v248 main_v250 main_v251 mulf,
    binary main_v232 main_v251 main_v252 addf,
    binary main_v247 main_v242 main_v253 subf,
    unary main_v46 main_v254 (broadcastInDim S1x1048576 ![1] bcast_S1048576_S1x1048576_1),
    unary main_v254 main_v255 (broadcastInDim S4x1048576 ![0, 1] bcast_S1x1048576_S4x1048576_0_1),
    binary main_v253 main_v255 main_v256 mulf,
    binary main_v242 main_v256 main_v257 addf,
    binary main_v257 main_v252 main_v258 subf,
    unary main_v52 main_v259 (broadcastInDim S1x1048576 ![1] bcast_S1048576_S1x1048576_1),
    unary main_v259 main_v260 (broadcastInDim S4x1048576 ![0, 1] bcast_S1x1048576_S4x1048576_0_1),
    binary main_v258 main_v260 main_v261 mulf,
    binary main_v252 main_v261 main_v262 addf,
    reshape main_v262 main_v263 rfl shapeCasts_S4x1048576_S1x4x1x1x1048576,
    reshape main_arg2 main_v264 rfl shapeCasts_S1x4x64x64x64_S4x64x64x64,
    unary main_v0 main_v265 (extractStridedSlice S1048576x1 ![0, 0] · slices_S1048576x3_S1048576x1_0_0),
    reshape main_v265 main_v266 rfl shapeCasts_S1048576x1_S1048576,
    nullary main_cst_73 (constant S_ .f32 0x3F800000#32),
    unary main_cst_73 main_v267 (broadcastInDim S1048576 ![] bcast_S_S1048576),
    binary main_v266 main_v267 main_v268 addf,
    nullary main_cst_74 (constant S_ .f32 0x3F000000#32),
    unary main_cst_74 main_v269 (broadcastInDim S1048576 ![] bcast_S_S1048576),
    binary main_v268 main_v269 main_v270 mulf,
    nullary main_cst_75 (constant S_ .f32 0x427C0000#32),
    unary main_cst_75 main_v271 (broadcastInDim S1048576 ![] bcast_S_S1048576),
    binary main_v270 main_v271 main_v272 mulf,
    nullary main_cst_76 (constant S_ .f32 0x00000000#32),
    nullary main_c_77 (constantI S_ 32 63#32),
    TRef.unary (TRef.of (T := ⟨S_, .f32⟩) main_cst_76) (TRef.of (T := ⟨S_, .f32⟩) main_call3_v0) id,
    TRef.unary (TRef.of (T := ⟨S_, .f32⟩) main_call3_v0) (TRef.of (T := ⟨S1048576, .f32⟩) main_call3_v1) (broadcastInDim S1048576 ![] bcast_S_S1048576),
    TRef.binary (TRef.of (T := ⟨S1048576, .f32⟩) main_call3_v1) (TRef.of (T := ⟨S1048576, .f32⟩) main_v272) (TRef.of (T := ⟨S1048576, .f32⟩) main_call3_v2) maximumf,
    TRef.unary (TRef.of (T := ⟨S_, .i32⟩) main_c_77) (TRef.of (T := ⟨S_, .f32⟩) main_call3_v3) (sitofp .f32),
    TRef.unary (TRef.of (T := ⟨S_, .f32⟩) main_call3_v3) (TRef.of (T := ⟨S1048576, .f32⟩) main_call3_v4) (broadcastInDim S1048576 ![] bcast_S_S1048576),
    TRef.binary (TRef.of (T := ⟨S1048576, .f32⟩) main_call3_v4) (TRef.of (T := ⟨S1048576, .f32⟩) main_call3_v2) (TRef.of (T := ⟨S1048576, .f32⟩) main_v273) minimumf,
    unary main_v0 main_v274 (extractStridedSlice S1048576x1 ![0, 1] · slices_S1048576x3_S1048576x1_0_1),
    reshape main_v274 main_v275 rfl shapeCasts_S1048576x1_S1048576,
    nullary main_cst_78 (constant S_ .f32 0x3F800000#32),
    unary main_cst_78 main_v276 (broadcastInDim S1048576 ![] bcast_S_S1048576),
    binary main_v275 main_v276 main_v277 addf,
    nullary main_cst_79 (constant S_ .f32 0x3F000000#32) ]

abbrev ops_part6 : List (HloOp τ sig (Elt F)) :=
  [ unary main_cst_79 main_v278 (broadcastInDim S1048576 ![] bcast_S_S1048576),
    binary main_v277 main_v278 main_v279 mulf,
    nullary main_cst_80 (constant S_ .f32 0x427C0000#32),
    unary main_cst_80 main_v280 (broadcastInDim S1048576 ![] bcast_S_S1048576),
    binary main_v279 main_v280 main_v281 mulf,
    nullary main_cst_81 (constant S_ .f32 0x00000000#32),
    nullary main_c_82 (constantI S_ 32 63#32),
    TRef.unary (TRef.of (T := ⟨S_, .f32⟩) main_cst_81) (TRef.of (T := ⟨S_, .f32⟩) main_call4_v0) id,
    TRef.unary (TRef.of (T := ⟨S_, .f32⟩) main_call4_v0) (TRef.of (T := ⟨S1048576, .f32⟩) main_call4_v1) (broadcastInDim S1048576 ![] bcast_S_S1048576),
    TRef.binary (TRef.of (T := ⟨S1048576, .f32⟩) main_call4_v1) (TRef.of (T := ⟨S1048576, .f32⟩) main_v281) (TRef.of (T := ⟨S1048576, .f32⟩) main_call4_v2) maximumf,
    TRef.unary (TRef.of (T := ⟨S_, .i32⟩) main_c_82) (TRef.of (T := ⟨S_, .f32⟩) main_call4_v3) (sitofp .f32),
    TRef.unary (TRef.of (T := ⟨S_, .f32⟩) main_call4_v3) (TRef.of (T := ⟨S1048576, .f32⟩) main_call4_v4) (broadcastInDim S1048576 ![] bcast_S_S1048576),
    TRef.binary (TRef.of (T := ⟨S1048576, .f32⟩) main_call4_v4) (TRef.of (T := ⟨S1048576, .f32⟩) main_call4_v2) (TRef.of (T := ⟨S1048576, .f32⟩) main_v282) minimumf,
    unary main_v0 main_v283 (extractStridedSlice S1048576x1 ![0, 2] · slices_S1048576x3_S1048576x1_0_2),
    reshape main_v283 main_v284 rfl shapeCasts_S1048576x1_S1048576,
    nullary main_cst_83 (constant S_ .f32 0x3F800000#32),
    unary main_cst_83 main_v285 (broadcastInDim S1048576 ![] bcast_S_S1048576),
    binary main_v284 main_v285 main_v286 addf,
    nullary main_cst_84 (constant S_ .f32 0x3F000000#32),
    unary main_cst_84 main_v287 (broadcastInDim S1048576 ![] bcast_S_S1048576),
    binary main_v286 main_v287 main_v288 mulf,
    nullary main_cst_85 (constant S_ .f32 0x427C0000#32),
    unary main_cst_85 main_v289 (broadcastInDim S1048576 ![] bcast_S_S1048576),
    binary main_v288 main_v289 main_v290 mulf,
    nullary main_cst_86 (constant S_ .f32 0x00000000#32),
    nullary main_c_87 (constantI S_ 32 63#32),
    TRef.unary (TRef.of (T := ⟨S_, .f32⟩) main_cst_86) (TRef.of (T := ⟨S_, .f32⟩) main_call5_v0) id,
    TRef.unary (TRef.of (T := ⟨S_, .f32⟩) main_call5_v0) (TRef.of (T := ⟨S1048576, .f32⟩) main_call5_v1) (broadcastInDim S1048576 ![] bcast_S_S1048576),
    TRef.binary (TRef.of (T := ⟨S1048576, .f32⟩) main_call5_v1) (TRef.of (T := ⟨S1048576, .f32⟩) main_v290) (TRef.of (T := ⟨S1048576, .f32⟩) main_call5_v2) maximumf,
    TRef.unary (TRef.of (T := ⟨S_, .i32⟩) main_c_87) (TRef.of (T := ⟨S_, .f32⟩) main_call5_v3) (sitofp .f32),
    TRef.unary (TRef.of (T := ⟨S_, .f32⟩) main_call5_v3) (TRef.of (T := ⟨S1048576, .f32⟩) main_call5_v4) (broadcastInDim S1048576 ![] bcast_S_S1048576),
    TRef.binary (TRef.of (T := ⟨S1048576, .f32⟩) main_call5_v4) (TRef.of (T := ⟨S1048576, .f32⟩) main_call5_v2) (TRef.of (T := ⟨S1048576, .f32⟩) main_v291) minimumf,
    unary main_v273 main_v292 Host.floor,
    unary main_v282 main_v293 Host.floor,
    unary main_v291 main_v294 Host.floor,
    binary main_v273 main_v292 main_v295 subf,
    binary main_v282 main_v293 main_v296 subf,
    binary main_v291 main_v294 main_v297 subf,
    binary main_v295 main_v295 main_v298 mulf,
    nullary main_cst_88 (constant S_ .f32 0x40000000#32),
    unary main_cst_88 main_v299 (broadcastInDim S1048576 ![] bcast_S_S1048576),
    binary main_v299 main_v295 main_v300 mulf,
    nullary main_cst_89 (constant S_ .f32 0x40400000#32),
    unary main_cst_89 main_v301 (broadcastInDim S1048576 ![] bcast_S_S1048576),
    binary main_v301 main_v300 main_v302 subf,
    binary main_v298 main_v302 main_v303 mulf,
    binary main_v296 main_v296 main_v304 mulf,
    nullary main_cst_90 (constant S_ .f32 0x40000000#32),
    unary main_cst_90 main_v305 (broadcastInDim S1048576 ![] bcast_S_S1048576),
    binary main_v305 main_v296 main_v306 mulf,
    nullary main_cst_91 (constant S_ .f32 0x40400000#32),
    unary main_cst_91 main_v307 (broadcastInDim S1048576 ![] bcast_S_S1048576),
    binary main_v307 main_v306 main_v308 subf,
    binary main_v304 main_v308 main_v309 mulf,
    binary main_v297 main_v297 main_v310 mulf,
    nullary main_cst_92 (constant S_ .f32 0x40000000#32),
    unary main_cst_92 main_v311 (broadcastInDim S1048576 ![] bcast_S_S1048576),
    binary main_v311 main_v297 main_v312 mulf,
    nullary main_cst_93 (constant S_ .f32 0x40400000#32),
    unary main_cst_93 main_v313 (broadcastInDim S1048576 ![] bcast_S_S1048576),
    binary main_v313 main_v312 main_v314 subf,
    binary main_v310 main_v314 main_v315 mulf,
    unary main_v292 main_v316 (fptosi 32),
    nullary main_c_94 (constantI S_ 32 1#32),
    unary main_c_94 main_v317 (broadcastInDim S1048576 ![] bcast_S_S1048576),
    binary main_v316 main_v317 main_v318 addi,
    nullary main_c_95 (constantI S_ 32 63#32),
    unary main_c_95 main_v319 (broadcastInDim S1048576 ![] bcast_S_S1048576),
    binary main_v318 main_v319 main_v320 minsi,
    unary main_v293 main_v321 (fptosi 32) ]

abbrev ops_part7 : List (HloOp τ sig (Elt F)) :=
  [ nullary main_c_96 (constantI S_ 32 1#32),
    unary main_c_96 main_v322 (broadcastInDim S1048576 ![] bcast_S_S1048576),
    binary main_v321 main_v322 main_v323 addi,
    nullary main_c_97 (constantI S_ 32 63#32),
    unary main_c_97 main_v324 (broadcastInDim S1048576 ![] bcast_S_S1048576),
    binary main_v323 main_v324 main_v325 minsi,
    unary main_v294 main_v326 (fptosi 32),
    nullary main_c_98 (constantI S_ 32 1#32),
    unary main_c_98 main_v327 (broadcastInDim S1048576 ![] bcast_S_S1048576),
    binary main_v326 main_v327 main_v328 addi,
    nullary main_c_99 (constantI S_ 32 63#32),
    unary main_c_99 main_v329 (broadcastInDim S1048576 ![] bcast_S_S1048576),
    binary main_v328 main_v329 main_v330 minsi,
    nullary main_c_100 (constantI S_ 32 0#32),
    unary main_c_100 main_v331 (broadcastInDim S1048576 ![] bcast_S_S1048576),
    binary main_v326 main_v331 main_v332 (cmpi .slt),
    nullary main_c_101 (constantI S_ 32 64#32),
    unary main_c_101 main_v333 (broadcastInDim S1048576 ![] bcast_S_S1048576),
    binary main_v326 main_v333 main_v334 addi,
    ternary main_v332 main_v334 main_v326 main_v335 select,
    nullary main_c_102 (constantI S_ 32 0#32),
    unary main_c_102 main_v336 (broadcastInDim S1048576 ![] bcast_S_S1048576),
    binary main_v321 main_v336 main_v337 (cmpi .slt),
    nullary main_c_103 (constantI S_ 32 64#32),
    unary main_c_103 main_v338 (broadcastInDim S1048576 ![] bcast_S_S1048576),
    binary main_v321 main_v338 main_v339 addi,
    ternary main_v337 main_v339 main_v321 main_v340 select,
    nullary main_c_104 (constantI S_ 32 0#32),
    unary main_c_104 main_v341 (broadcastInDim S1048576 ![] bcast_S_S1048576),
    binary main_v316 main_v341 main_v342 (cmpi .slt),
    nullary main_c_105 (constantI S_ 32 64#32),
    unary main_c_105 main_v343 (broadcastInDim S1048576 ![] bcast_S_S1048576),
    binary main_v316 main_v343 main_v344 addi,
    ternary main_v342 main_v344 main_v316 main_v345 select,
    unary main_v335 main_v346 (broadcastInDim S1048576x1 ![0] bcast_S1048576_S1048576x1_0),
    unary main_v340 main_v347 (broadcastInDim S1048576x1 ![0] bcast_S1048576_S1048576x1_0),
    unary main_v345 main_v348 (broadcastInDim S1048576x1 ![0] bcast_S1048576_S1048576x1_0),
    nary ![main_v346, main_v347, main_v348] main_v349 (fun u => concatenate S1048576x3 1 [⟨S1048576x1, u 0⟩, ⟨S1048576x1, u 1⟩, ⟨S1048576x1, u 2⟩] concatenates_S1048576x1_S1048576x1_S1048576x1_S1048576x3_d1),
    binary main_v264 main_v349 main_v350 (fun x i => Host.gather gather_S4x64x64x64_S1048576x3_S4x1048576_0_123_n_n_123_1_4111 x i),
    nullary main_c_106 (constantI S_ 32 0#32),
    unary main_c_106 main_v351 (broadcastInDim S1048576 ![] bcast_S_S1048576),
    binary main_v326 main_v351 main_v352 (cmpi .slt),
    nullary main_c_107 (constantI S_ 32 64#32),
    unary main_c_107 main_v353 (broadcastInDim S1048576 ![] bcast_S_S1048576),
    binary main_v326 main_v353 main_v354 addi,
    ternary main_v352 main_v354 main_v326 main_v355 select,
    nullary main_c_108 (constantI S_ 32 0#32),
    unary main_c_108 main_v356 (broadcastInDim S1048576 ![] bcast_S_S1048576),
    binary main_v321 main_v356 main_v357 (cmpi .slt),
    nullary main_c_109 (constantI S_ 32 64#32),
    unary main_c_109 main_v358 (broadcastInDim S1048576 ![] bcast_S_S1048576),
    binary main_v321 main_v358 main_v359 addi,
    ternary main_v357 main_v359 main_v321 main_v360 select,
    nullary main_c_110 (constantI S_ 32 0#32),
    unary main_c_110 main_v361 (broadcastInDim S1048576 ![] bcast_S_S1048576),
    binary main_v320 main_v361 main_v362 (cmpi .slt),
    nullary main_c_111 (constantI S_ 32 64#32),
    unary main_c_111 main_v363 (broadcastInDim S1048576 ![] bcast_S_S1048576),
    binary main_v320 main_v363 main_v364 addi,
    ternary main_v362 main_v364 main_v320 main_v365 select ]

abbrev ops_part8 : List (HloOp τ sig (Elt F)) :=
  [ unary main_v355 main_v366 (broadcastInDim S1048576x1 ![0] bcast_S1048576_S1048576x1_0),
    unary main_v360 main_v367 (broadcastInDim S1048576x1 ![0] bcast_S1048576_S1048576x1_0),
    unary main_v365 main_v368 (broadcastInDim S1048576x1 ![0] bcast_S1048576_S1048576x1_0),
    nary ![main_v366, main_v367, main_v368] main_v369 (fun u => concatenate S1048576x3 1 [⟨S1048576x1, u 0⟩, ⟨S1048576x1, u 1⟩, ⟨S1048576x1, u 2⟩] concatenates_S1048576x1_S1048576x1_S1048576x1_S1048576x3_d1),
    binary main_v264 main_v369 main_v370 (fun x i => Host.gather gather_S4x64x64x64_S1048576x3_S4x1048576_0_123_n_n_123_1_4111 x i),
    nullary main_c_112 (constantI S_ 32 0#32),
    unary main_c_112 main_v371 (broadcastInDim S1048576 ![] bcast_S_S1048576),
    binary main_v326 main_v371 main_v372 (cmpi .slt),
    nullary main_c_113 (constantI S_ 32 64#32),
    unary main_c_113 main_v373 (broadcastInDim S1048576 ![] bcast_S_S1048576),
    binary main_v326 main_v373 main_v374 addi,
    ternary main_v372 main_v374 main_v326 main_v375 select,
    nullary main_c_114 (constantI S_ 32 0#32),
    unary main_c_114 main_v376 (broadcastInDim S1048576 ![] bcast_S_S1048576),
    binary main_v325 main_v376 main_v377 (cmpi .slt),
    nullary main_c_115 (constantI S_ 32 64#32),
    unary main_c_115 main_v378 (broadcastInDim S1048576 ![] bcast_S_S1048576),
    binary main_v325 main_v378 main_v379 addi,
    ternary main_v377 main_v379 main_v325 main_v380 select,
    nullary main_c_116 (constantI S_ 32 0#32),
    unary main_c_116 main_v381 (broadcastInDim S1048576 ![] bcast_S_S1048576),
    binary main_v316 main_v381 main_v382 (cmpi .slt),
    nullary main_c_117 (constantI S_ 32 64#32),
    unary main_c_117 main_v383 (broadcastInDim S1048576 ![] bcast_S_S1048576),
    binary main_v316 main_v383 main_v384 addi,
    ternary main_v382 main_v384 main_v316 main_v385 select,
    unary main_v375 main_v386 (broadcastInDim S1048576x1 ![0] bcast_S1048576_S1048576x1_0),
    unary main_v380 main_v387 (broadcastInDim S1048576x1 ![0] bcast_S1048576_S1048576x1_0),
    unary main_v385 main_v388 (broadcastInDim S1048576x1 ![0] bcast_S1048576_S1048576x1_0),
    nary ![main_v386, main_v387, main_v388] main_v389 (fun u => concatenate S1048576x3 1 [⟨S1048576x1, u 0⟩, ⟨S1048576x1, u 1⟩, ⟨S1048576x1, u 2⟩] concatenates_S1048576x1_S1048576x1_S1048576x1_S1048576x3_d1),
    binary main_v264 main_v389 main_v390 (fun x i => Host.gather gather_S4x64x64x64_S1048576x3_S4x1048576_0_123_n_n_123_1_4111 x i),
    nullary main_c_118 (constantI S_ 32 0#32),
    unary main_c_118 main_v391 (broadcastInDim S1048576 ![] bcast_S_S1048576),
    binary main_v326 main_v391 main_v392 (cmpi .slt),
    nullary main_c_119 (constantI S_ 32 64#32),
    unary main_c_119 main_v393 (broadcastInDim S1048576 ![] bcast_S_S1048576),
    binary main_v326 main_v393 main_v394 addi,
    ternary main_v392 main_v394 main_v326 main_v395 select,
    nullary main_c_120 (constantI S_ 32 0#32),
    unary main_c_120 main_v396 (broadcastInDim S1048576 ![] bcast_S_S1048576),
    binary main_v325 main_v396 main_v397 (cmpi .slt),
    nullary main_c_121 (constantI S_ 32 64#32),
    unary main_c_121 main_v398 (broadcastInDim S1048576 ![] bcast_S_S1048576),
    binary main_v325 main_v398 main_v399 addi,
    ternary main_v397 main_v399 main_v325 main_v400 select,
    nullary main_c_122 (constantI S_ 32 0#32),
    unary main_c_122 main_v401 (broadcastInDim S1048576 ![] bcast_S_S1048576),
    binary main_v320 main_v401 main_v402 (cmpi .slt),
    nullary main_c_123 (constantI S_ 32 64#32),
    unary main_c_123 main_v403 (broadcastInDim S1048576 ![] bcast_S_S1048576),
    binary main_v320 main_v403 main_v404 addi,
    ternary main_v402 main_v404 main_v320 main_v405 select,
    unary main_v395 main_v406 (broadcastInDim S1048576x1 ![0] bcast_S1048576_S1048576x1_0),
    unary main_v400 main_v407 (broadcastInDim S1048576x1 ![0] bcast_S1048576_S1048576x1_0),
    unary main_v405 main_v408 (broadcastInDim S1048576x1 ![0] bcast_S1048576_S1048576x1_0),
    nary ![main_v406, main_v407, main_v408] main_v409 (fun u => concatenate S1048576x3 1 [⟨S1048576x1, u 0⟩, ⟨S1048576x1, u 1⟩, ⟨S1048576x1, u 2⟩] concatenates_S1048576x1_S1048576x1_S1048576x1_S1048576x3_d1),
    binary main_v264 main_v409 main_v410 (fun x i => Host.gather gather_S4x64x64x64_S1048576x3_S4x1048576_0_123_n_n_123_1_4111 x i),
    nullary main_c_124 (constantI S_ 32 0#32),
    unary main_c_124 main_v411 (broadcastInDim S1048576 ![] bcast_S_S1048576),
    binary main_v330 main_v411 main_v412 (cmpi .slt) ]

abbrev ops_part9 : List (HloOp τ sig (Elt F)) :=
  [ nullary main_c_125 (constantI S_ 32 64#32),
    unary main_c_125 main_v413 (broadcastInDim S1048576 ![] bcast_S_S1048576),
    binary main_v330 main_v413 main_v414 addi,
    ternary main_v412 main_v414 main_v330 main_v415 select,
    nullary main_c_126 (constantI S_ 32 0#32),
    unary main_c_126 main_v416 (broadcastInDim S1048576 ![] bcast_S_S1048576),
    binary main_v321 main_v416 main_v417 (cmpi .slt),
    nullary main_c_127 (constantI S_ 32 64#32),
    unary main_c_127 main_v418 (broadcastInDim S1048576 ![] bcast_S_S1048576),
    binary main_v321 main_v418 main_v419 addi,
    ternary main_v417 main_v419 main_v321 main_v420 select,
    nullary main_c_128 (constantI S_ 32 0#32),
    unary main_c_128 main_v421 (broadcastInDim S1048576 ![] bcast_S_S1048576),
    binary main_v316 main_v421 main_v422 (cmpi .slt),
    nullary main_c_129 (constantI S_ 32 64#32),
    unary main_c_129 main_v423 (broadcastInDim S1048576 ![] bcast_S_S1048576),
    binary main_v316 main_v423 main_v424 addi,
    ternary main_v422 main_v424 main_v316 main_v425 select,
    unary main_v415 main_v426 (broadcastInDim S1048576x1 ![0] bcast_S1048576_S1048576x1_0),
    unary main_v420 main_v427 (broadcastInDim S1048576x1 ![0] bcast_S1048576_S1048576x1_0),
    unary main_v425 main_v428 (broadcastInDim S1048576x1 ![0] bcast_S1048576_S1048576x1_0),
    nary ![main_v426, main_v427, main_v428] main_v429 (fun u => concatenate S1048576x3 1 [⟨S1048576x1, u 0⟩, ⟨S1048576x1, u 1⟩, ⟨S1048576x1, u 2⟩] concatenates_S1048576x1_S1048576x1_S1048576x1_S1048576x3_d1),
    binary main_v264 main_v429 main_v430 (fun x i => Host.gather gather_S4x64x64x64_S1048576x3_S4x1048576_0_123_n_n_123_1_4111 x i),
    nullary main_c_130 (constantI S_ 32 0#32),
    unary main_c_130 main_v431 (broadcastInDim S1048576 ![] bcast_S_S1048576),
    binary main_v330 main_v431 main_v432 (cmpi .slt),
    nullary main_c_131 (constantI S_ 32 64#32),
    unary main_c_131 main_v433 (broadcastInDim S1048576 ![] bcast_S_S1048576),
    binary main_v330 main_v433 main_v434 addi,
    ternary main_v432 main_v434 main_v330 main_v435 select,
    nullary main_c_132 (constantI S_ 32 0#32),
    unary main_c_132 main_v436 (broadcastInDim S1048576 ![] bcast_S_S1048576),
    binary main_v321 main_v436 main_v437 (cmpi .slt),
    nullary main_c_133 (constantI S_ 32 64#32),
    unary main_c_133 main_v438 (broadcastInDim S1048576 ![] bcast_S_S1048576),
    binary main_v321 main_v438 main_v439 addi,
    ternary main_v437 main_v439 main_v321 main_v440 select,
    nullary main_c_134 (constantI S_ 32 0#32),
    unary main_c_134 main_v441 (broadcastInDim S1048576 ![] bcast_S_S1048576),
    binary main_v320 main_v441 main_v442 (cmpi .slt),
    nullary main_c_135 (constantI S_ 32 64#32),
    unary main_c_135 main_v443 (broadcastInDim S1048576 ![] bcast_S_S1048576),
    binary main_v320 main_v443 main_v444 addi,
    ternary main_v442 main_v444 main_v320 main_v445 select,
    unary main_v435 main_v446 (broadcastInDim S1048576x1 ![0] bcast_S1048576_S1048576x1_0),
    unary main_v440 main_v447 (broadcastInDim S1048576x1 ![0] bcast_S1048576_S1048576x1_0),
    unary main_v445 main_v448 (broadcastInDim S1048576x1 ![0] bcast_S1048576_S1048576x1_0),
    nary ![main_v446, main_v447, main_v448] main_v449 (fun u => concatenate S1048576x3 1 [⟨S1048576x1, u 0⟩, ⟨S1048576x1, u 1⟩, ⟨S1048576x1, u 2⟩] concatenates_S1048576x1_S1048576x1_S1048576x1_S1048576x3_d1),
    binary main_v264 main_v449 main_v450 (fun x i => Host.gather gather_S4x64x64x64_S1048576x3_S4x1048576_0_123_n_n_123_1_4111 x i),
    nullary main_c_136 (constantI S_ 32 0#32),
    unary main_c_136 main_v451 (broadcastInDim S1048576 ![] bcast_S_S1048576),
    binary main_v330 main_v451 main_v452 (cmpi .slt),
    nullary main_c_137 (constantI S_ 32 64#32),
    unary main_c_137 main_v453 (broadcastInDim S1048576 ![] bcast_S_S1048576),
    binary main_v330 main_v453 main_v454 addi,
    ternary main_v452 main_v454 main_v330 main_v455 select,
    nullary main_c_138 (constantI S_ 32 0#32),
    unary main_c_138 main_v456 (broadcastInDim S1048576 ![] bcast_S_S1048576),
    binary main_v325 main_v456 main_v457 (cmpi .slt),
    nullary main_c_139 (constantI S_ 32 64#32) ]

abbrev ops_part10 : List (HloOp τ sig (Elt F)) :=
  [ unary main_c_139 main_v458 (broadcastInDim S1048576 ![] bcast_S_S1048576),
    binary main_v325 main_v458 main_v459 addi,
    ternary main_v457 main_v459 main_v325 main_v460 select,
    nullary main_c_140 (constantI S_ 32 0#32),
    unary main_c_140 main_v461 (broadcastInDim S1048576 ![] bcast_S_S1048576),
    binary main_v316 main_v461 main_v462 (cmpi .slt),
    nullary main_c_141 (constantI S_ 32 64#32),
    unary main_c_141 main_v463 (broadcastInDim S1048576 ![] bcast_S_S1048576),
    binary main_v316 main_v463 main_v464 addi,
    ternary main_v462 main_v464 main_v316 main_v465 select,
    unary main_v455 main_v466 (broadcastInDim S1048576x1 ![0] bcast_S1048576_S1048576x1_0),
    unary main_v460 main_v467 (broadcastInDim S1048576x1 ![0] bcast_S1048576_S1048576x1_0),
    unary main_v465 main_v468 (broadcastInDim S1048576x1 ![0] bcast_S1048576_S1048576x1_0),
    nary ![main_v466, main_v467, main_v468] main_v469 (fun u => concatenate S1048576x3 1 [⟨S1048576x1, u 0⟩, ⟨S1048576x1, u 1⟩, ⟨S1048576x1, u 2⟩] concatenates_S1048576x1_S1048576x1_S1048576x1_S1048576x3_d1),
    binary main_v264 main_v469 main_v470 (fun x i => Host.gather gather_S4x64x64x64_S1048576x3_S4x1048576_0_123_n_n_123_1_4111 x i),
    nullary main_c_142 (constantI S_ 32 0#32),
    unary main_c_142 main_v471 (broadcastInDim S1048576 ![] bcast_S_S1048576),
    binary main_v330 main_v471 main_v472 (cmpi .slt),
    nullary main_c_143 (constantI S_ 32 64#32),
    unary main_c_143 main_v473 (broadcastInDim S1048576 ![] bcast_S_S1048576),
    binary main_v330 main_v473 main_v474 addi,
    ternary main_v472 main_v474 main_v330 main_v475 select,
    nullary main_c_144 (constantI S_ 32 0#32),
    unary main_c_144 main_v476 (broadcastInDim S1048576 ![] bcast_S_S1048576),
    binary main_v325 main_v476 main_v477 (cmpi .slt),
    nullary main_c_145 (constantI S_ 32 64#32),
    unary main_c_145 main_v478 (broadcastInDim S1048576 ![] bcast_S_S1048576),
    binary main_v325 main_v478 main_v479 addi,
    ternary main_v477 main_v479 main_v325 main_v480 select,
    nullary main_c_146 (constantI S_ 32 0#32),
    unary main_c_146 main_v481 (broadcastInDim S1048576 ![] bcast_S_S1048576),
    binary main_v320 main_v481 main_v482 (cmpi .slt),
    nullary main_c_147 (constantI S_ 32 64#32),
    unary main_c_147 main_v483 (broadcastInDim S1048576 ![] bcast_S_S1048576),
    binary main_v320 main_v483 main_v484 addi,
    ternary main_v482 main_v484 main_v320 main_v485 select,
    unary main_v475 main_v486 (broadcastInDim S1048576x1 ![0] bcast_S1048576_S1048576x1_0),
    unary main_v480 main_v487 (broadcastInDim S1048576x1 ![0] bcast_S1048576_S1048576x1_0),
    unary main_v485 main_v488 (broadcastInDim S1048576x1 ![0] bcast_S1048576_S1048576x1_0),
    nary ![main_v486, main_v487, main_v488] main_v489 (fun u => concatenate S1048576x3 1 [⟨S1048576x1, u 0⟩, ⟨S1048576x1, u 1⟩, ⟨S1048576x1, u 2⟩] concatenates_S1048576x1_S1048576x1_S1048576x1_S1048576x3_d1),
    binary main_v264 main_v489 main_v490 (fun x i => Host.gather gather_S4x64x64x64_S1048576x3_S4x1048576_0_123_n_n_123_1_4111 x i),
    binary main_v370 main_v350 main_v491 subf,
    unary main_v303 main_v492 (broadcastInDim S1x1048576 ![1] bcast_S1048576_S1x1048576_1),
    unary main_v492 main_v493 (broadcastInDim S4x1048576 ![0, 1] bcast_S1x1048576_S4x1048576_0_1),
    binary main_v491 main_v493 main_v494 mulf,
    binary main_v350 main_v494 main_v495 addf,
    binary main_v410 main_v390 main_v496 subf,
    unary main_v303 main_v497 (broadcastInDim S1x1048576 ![1] bcast_S1048576_S1x1048576_1),
    unary main_v497 main_v498 (broadcastInDim S4x1048576 ![0, 1] bcast_S1x1048576_S4x1048576_0_1),
    binary main_v496 main_v498 main_v499 mulf,
    binary main_v390 main_v499 main_v500 addf,
    binary main_v450 main_v430 main_v501 subf,
    unary main_v303 main_v502 (broadcastInDim S1x1048576 ![1] bcast_S1048576_S1x1048576_1),
    unary main_v502 main_v503 (broadcastInDim S4x1048576 ![0, 1] bcast_S1x1048576_S4x1048576_0_1),
    binary main_v501 main_v503 main_v504 mulf,
    binary main_v430 main_v504 main_v505 addf,
    binary main_v490 main_v470 main_v506 subf,
    unary main_v303 main_v507 (broadcastInDim S1x1048576 ![1] bcast_S1048576_S1x1048576_1),
    unary main_v507 main_v508 (broadcastInDim S4x1048576 ![0, 1] bcast_S1x1048576_S4x1048576_0_1),
    binary main_v506 main_v508 main_v509 mulf ]

abbrev ops_part11 : List (HloOp τ sig (Elt F)) :=
  [ binary main_v470 main_v509 main_v510 addf,
    binary main_v500 main_v495 main_v511 subf,
    unary main_v309 main_v512 (broadcastInDim S1x1048576 ![1] bcast_S1048576_S1x1048576_1),
    unary main_v512 main_v513 (broadcastInDim S4x1048576 ![0, 1] bcast_S1x1048576_S4x1048576_0_1),
    binary main_v511 main_v513 main_v514 mulf,
    binary main_v495 main_v514 main_v515 addf,
    binary main_v510 main_v505 main_v516 subf,
    unary main_v309 main_v517 (broadcastInDim S1x1048576 ![1] bcast_S1048576_S1x1048576_1),
    unary main_v517 main_v518 (broadcastInDim S4x1048576 ![0, 1] bcast_S1x1048576_S4x1048576_0_1),
    binary main_v516 main_v518 main_v519 mulf,
    binary main_v505 main_v519 main_v520 addf,
    binary main_v520 main_v515 main_v521 subf,
    unary main_v315 main_v522 (broadcastInDim S1x1048576 ![1] bcast_S1048576_S1x1048576_1),
    unary main_v522 main_v523 (broadcastInDim S4x1048576 ![0, 1] bcast_S1x1048576_S4x1048576_0_1),
    binary main_v521 main_v523 main_v524 mulf,
    binary main_v515 main_v524 main_v525 addf,
    reshape main_v525 main_v526 rfl shapeCasts_S4x1048576_S1x4x1x1x1048576,
    reshape main_arg3 main_v527 rfl shapeCasts_S1x4x128x128x128_S4x128x128x128,
    unary main_v0 main_v528 (extractStridedSlice S1048576x1 ![0, 0] · slices_S1048576x3_S1048576x1_0_0),
    reshape main_v528 main_v529 rfl shapeCasts_S1048576x1_S1048576,
    nullary main_cst_148 (constant S_ .f32 0x3F800000#32),
    unary main_cst_148 main_v530 (broadcastInDim S1048576 ![] bcast_S_S1048576),
    binary main_v529 main_v530 main_v531 addf,
    nullary main_cst_149 (constant S_ .f32 0x3F000000#32),
    unary main_cst_149 main_v532 (broadcastInDim S1048576 ![] bcast_S_S1048576),
    binary main_v531 main_v532 main_v533 mulf,
    nullary main_cst_150 (constant S_ .f32 0x42FE0000#32),
    unary main_cst_150 main_v534 (broadcastInDim S1048576 ![] bcast_S_S1048576),
    binary main_v533 main_v534 main_v535 mulf,
    nullary main_cst_151 (constant S_ .f32 0x00000000#32),
    nullary main_c_152 (constantI S_ 32 127#32),
    TRef.unary (TRef.of (T := ⟨S_, .f32⟩) main_cst_151) (TRef.of (T := ⟨S_, .f32⟩) main_call6_v0) id,
    TRef.unary (TRef.of (T := ⟨S_, .f32⟩) main_call6_v0) (TRef.of (T := ⟨S1048576, .f32⟩) main_call6_v1) (broadcastInDim S1048576 ![] bcast_S_S1048576),
    TRef.binary (TRef.of (T := ⟨S1048576, .f32⟩) main_call6_v1) (TRef.of (T := ⟨S1048576, .f32⟩) main_v535) (TRef.of (T := ⟨S1048576, .f32⟩) main_call6_v2) maximumf,
    TRef.unary (TRef.of (T := ⟨S_, .i32⟩) main_c_152) (TRef.of (T := ⟨S_, .f32⟩) main_call6_v3) (sitofp .f32),
    TRef.unary (TRef.of (T := ⟨S_, .f32⟩) main_call6_v3) (TRef.of (T := ⟨S1048576, .f32⟩) main_call6_v4) (broadcastInDim S1048576 ![] bcast_S_S1048576),
    TRef.binary (TRef.of (T := ⟨S1048576, .f32⟩) main_call6_v4) (TRef.of (T := ⟨S1048576, .f32⟩) main_call6_v2) (TRef.of (T := ⟨S1048576, .f32⟩) main_v536) minimumf,
    unary main_v0 main_v537 (extractStridedSlice S1048576x1 ![0, 1] · slices_S1048576x3_S1048576x1_0_1),
    reshape main_v537 main_v538 rfl shapeCasts_S1048576x1_S1048576,
    nullary main_cst_153 (constant S_ .f32 0x3F800000#32),
    unary main_cst_153 main_v539 (broadcastInDim S1048576 ![] bcast_S_S1048576),
    binary main_v538 main_v539 main_v540 addf,
    nullary main_cst_154 (constant S_ .f32 0x3F000000#32),
    unary main_cst_154 main_v541 (broadcastInDim S1048576 ![] bcast_S_S1048576),
    binary main_v540 main_v541 main_v542 mulf,
    nullary main_cst_155 (constant S_ .f32 0x42FE0000#32),
    unary main_cst_155 main_v543 (broadcastInDim S1048576 ![] bcast_S_S1048576),
    binary main_v542 main_v543 main_v544 mulf,
    nullary main_cst_156 (constant S_ .f32 0x00000000#32),
    nullary main_c_157 (constantI S_ 32 127#32),
    TRef.unary (TRef.of (T := ⟨S_, .f32⟩) main_cst_156) (TRef.of (T := ⟨S_, .f32⟩) main_call7_v0) id,
    TRef.unary (TRef.of (T := ⟨S_, .f32⟩) main_call7_v0) (TRef.of (T := ⟨S1048576, .f32⟩) main_call7_v1) (broadcastInDim S1048576 ![] bcast_S_S1048576),
    TRef.binary (TRef.of (T := ⟨S1048576, .f32⟩) main_call7_v1) (TRef.of (T := ⟨S1048576, .f32⟩) main_v544) (TRef.of (T := ⟨S1048576, .f32⟩) main_call7_v2) maximumf,
    TRef.unary (TRef.of (T := ⟨S_, .i32⟩) main_c_157) (TRef.of (T := ⟨S_, .f32⟩) main_call7_v3) (sitofp .f32),
    TRef.unary (TRef.of (T := ⟨S_, .f32⟩) main_call7_v3) (TRef.of (T := ⟨S1048576, .f32⟩) main_call7_v4) (broadcastInDim S1048576 ![] bcast_S_S1048576),
    TRef.binary (TRef.of (T := ⟨S1048576, .f32⟩) main_call7_v4) (TRef.of (T := ⟨S1048576, .f32⟩) main_call7_v2) (TRef.of (T := ⟨S1048576, .f32⟩) main_v545) minimumf,
    unary main_v0 main_v546 (extractStridedSlice S1048576x1 ![0, 2] · slices_S1048576x3_S1048576x1_0_2),
    reshape main_v546 main_v547 rfl shapeCasts_S1048576x1_S1048576,
    nullary main_cst_158 (constant S_ .f32 0x3F800000#32),
    unary main_cst_158 main_v548 (broadcastInDim S1048576 ![] bcast_S_S1048576),
    binary main_v547 main_v548 main_v549 addf,
    nullary main_cst_159 (constant S_ .f32 0x3F000000#32),
    unary main_cst_159 main_v550 (broadcastInDim S1048576 ![] bcast_S_S1048576),
    binary main_v549 main_v550 main_v551 mulf,
    nullary main_cst_160 (constant S_ .f32 0x42FE0000#32),
    unary main_cst_160 main_v552 (broadcastInDim S1048576 ![] bcast_S_S1048576),
    binary main_v551 main_v552 main_v553 mulf,
    nullary main_cst_161 (constant S_ .f32 0x00000000#32),
    nullary main_c_162 (constantI S_ 32 127#32),
    TRef.unary (TRef.of (T := ⟨S_, .f32⟩) main_cst_161) (TRef.of (T := ⟨S_, .f32⟩) main_call8_v0) id,
    TRef.unary (TRef.of (T := ⟨S_, .f32⟩) main_call8_v0) (TRef.of (T := ⟨S1048576, .f32⟩) main_call8_v1) (broadcastInDim S1048576 ![] bcast_S_S1048576),
    TRef.binary (TRef.of (T := ⟨S1048576, .f32⟩) main_call8_v1) (TRef.of (T := ⟨S1048576, .f32⟩) main_v553) (TRef.of (T := ⟨S1048576, .f32⟩) main_call8_v2) maximumf,
    TRef.unary (TRef.of (T := ⟨S_, .i32⟩) main_c_162) (TRef.of (T := ⟨S_, .f32⟩) main_call8_v3) (sitofp .f32),
    TRef.unary (TRef.of (T := ⟨S_, .f32⟩) main_call8_v3) (TRef.of (T := ⟨S1048576, .f32⟩) main_call8_v4) (broadcastInDim S1048576 ![] bcast_S_S1048576),
    TRef.binary (TRef.of (T := ⟨S1048576, .f32⟩) main_call8_v4) (TRef.of (T := ⟨S1048576, .f32⟩) main_call8_v2) (TRef.of (T := ⟨S1048576, .f32⟩) main_v554) minimumf ]

abbrev ops_part12 : List (HloOp τ sig (Elt F)) :=
  [ unary main_v536 main_v555 Host.floor,
    unary main_v545 main_v556 Host.floor,
    unary main_v554 main_v557 Host.floor,
    binary main_v536 main_v555 main_v558 subf,
    binary main_v545 main_v556 main_v559 subf,
    binary main_v554 main_v557 main_v560 subf,
    binary main_v558 main_v558 main_v561 mulf,
    nullary main_cst_163 (constant S_ .f32 0x40000000#32),
    unary main_cst_163 main_v562 (broadcastInDim S1048576 ![] bcast_S_S1048576),
    binary main_v562 main_v558 main_v563 mulf,
    nullary main_cst_164 (constant S_ .f32 0x40400000#32),
    unary main_cst_164 main_v564 (broadcastInDim S1048576 ![] bcast_S_S1048576),
    binary main_v564 main_v563 main_v565 subf,
    binary main_v561 main_v565 main_v566 mulf,
    binary main_v559 main_v559 main_v567 mulf,
    nullary main_cst_165 (constant S_ .f32 0x40000000#32),
    unary main_cst_165 main_v568 (broadcastInDim S1048576 ![] bcast_S_S1048576),
    binary main_v568 main_v559 main_v569 mulf,
    nullary main_cst_166 (constant S_ .f32 0x40400000#32),
    unary main_cst_166 main_v570 (broadcastInDim S1048576 ![] bcast_S_S1048576),
    binary main_v570 main_v569 main_v571 subf,
    binary main_v567 main_v571 main_v572 mulf,
    binary main_v560 main_v560 main_v573 mulf,
    nullary main_cst_167 (constant S_ .f32 0x40000000#32),
    unary main_cst_167 main_v574 (broadcastInDim S1048576 ![] bcast_S_S1048576),
    binary main_v574 main_v560 main_v575 mulf,
    nullary main_cst_168 (constant S_ .f32 0x40400000#32),
    unary main_cst_168 main_v576 (broadcastInDim S1048576 ![] bcast_S_S1048576),
    binary main_v576 main_v575 main_v577 subf,
    binary main_v573 main_v577 main_v578 mulf,
    unary main_v555 main_v579 (fptosi 32),
    nullary main_c_169 (constantI S_ 32 1#32),
    unary main_c_169 main_v580 (broadcastInDim S1048576 ![] bcast_S_S1048576),
    binary main_v579 main_v580 main_v581 addi,
    nullary main_c_170 (constantI S_ 32 127#32),
    unary main_c_170 main_v582 (broadcastInDim S1048576 ![] bcast_S_S1048576),
    binary main_v581 main_v582 main_v583 minsi,
    unary main_v556 main_v584 (fptosi 32),
    nullary main_c_171 (constantI S_ 32 1#32),
    unary main_c_171 main_v585 (broadcastInDim S1048576 ![] bcast_S_S1048576),
    binary main_v584 main_v585 main_v586 addi,
    nullary main_c_172 (constantI S_ 32 127#32),
    unary main_c_172 main_v587 (broadcastInDim S1048576 ![] bcast_S_S1048576),
    binary main_v586 main_v587 main_v588 minsi,
    unary main_v557 main_v589 (fptosi 32),
    nullary main_c_173 (constantI S_ 32 1#32),
    unary main_c_173 main_v590 (broadcastInDim S1048576 ![] bcast_S_S1048576),
    binary main_v589 main_v590 main_v591 addi,
    nullary main_c_174 (constantI S_ 32 127#32),
    unary main_c_174 main_v592 (broadcastInDim S1048576 ![] bcast_S_S1048576),
    binary main_v591 main_v592 main_v593 minsi,
    nullary main_c_175 (constantI S_ 32 0#32),
    unary main_c_175 main_v594 (broadcastInDim S1048576 ![] bcast_S_S1048576),
    binary main_v589 main_v594 main_v595 (cmpi .slt),
    nullary main_c_176 (constantI S_ 32 128#32),
    unary main_c_176 main_v596 (broadcastInDim S1048576 ![] bcast_S_S1048576),
    binary main_v589 main_v596 main_v597 addi,
    ternary main_v595 main_v597 main_v589 main_v598 select,
    nullary main_c_177 (constantI S_ 32 0#32),
    unary main_c_177 main_v599 (broadcastInDim S1048576 ![] bcast_S_S1048576) ]

abbrev ops_part13 : List (HloOp τ sig (Elt F)) :=
  [ binary main_v584 main_v599 main_v600 (cmpi .slt),
    nullary main_c_178 (constantI S_ 32 128#32),
    unary main_c_178 main_v601 (broadcastInDim S1048576 ![] bcast_S_S1048576),
    binary main_v584 main_v601 main_v602 addi,
    ternary main_v600 main_v602 main_v584 main_v603 select,
    nullary main_c_179 (constantI S_ 32 0#32),
    unary main_c_179 main_v604 (broadcastInDim S1048576 ![] bcast_S_S1048576),
    binary main_v579 main_v604 main_v605 (cmpi .slt),
    nullary main_c_180 (constantI S_ 32 128#32),
    unary main_c_180 main_v606 (broadcastInDim S1048576 ![] bcast_S_S1048576),
    binary main_v579 main_v606 main_v607 addi,
    ternary main_v605 main_v607 main_v579 main_v608 select,
    unary main_v598 main_v609 (broadcastInDim S1048576x1 ![0] bcast_S1048576_S1048576x1_0),
    unary main_v603 main_v610 (broadcastInDim S1048576x1 ![0] bcast_S1048576_S1048576x1_0),
    unary main_v608 main_v611 (broadcastInDim S1048576x1 ![0] bcast_S1048576_S1048576x1_0),
    nary ![main_v609, main_v610, main_v611] main_v612 (fun u => concatenate S1048576x3 1 [⟨S1048576x1, u 0⟩, ⟨S1048576x1, u 1⟩, ⟨S1048576x1, u 2⟩] concatenates_S1048576x1_S1048576x1_S1048576x1_S1048576x3_d1),
    binary main_v527 main_v612 main_v613 (fun x i => Host.gather gather_S4x128x128x128_S1048576x3_S4x1048576_0_123_n_n_123_1_4111 x i),
    nullary main_c_181 (constantI S_ 32 0#32),
    unary main_c_181 main_v614 (broadcastInDim S1048576 ![] bcast_S_S1048576),
    binary main_v589 main_v614 main_v615 (cmpi .slt),
    nullary main_c_182 (constantI S_ 32 128#32),
    unary main_c_182 main_v616 (broadcastInDim S1048576 ![] bcast_S_S1048576),
    binary main_v589 main_v616 main_v617 addi,
    ternary main_v615 main_v617 main_v589 main_v618 select,
    nullary main_c_183 (constantI S_ 32 0#32),
    unary main_c_183 main_v619 (broadcastInDim S1048576 ![] bcast_S_S1048576),
    binary main_v584 main_v619 main_v620 (cmpi .slt),
    nullary main_c_184 (constantI S_ 32 128#32),
    unary main_c_184 main_v621 (broadcastInDim S1048576 ![] bcast_S_S1048576),
    binary main_v584 main_v621 main_v622 addi,
    ternary main_v620 main_v622 main_v584 main_v623 select,
    nullary main_c_185 (constantI S_ 32 0#32),
    unary main_c_185 main_v624 (broadcastInDim S1048576 ![] bcast_S_S1048576),
    binary main_v583 main_v624 main_v625 (cmpi .slt),
    nullary main_c_186 (constantI S_ 32 128#32),
    unary main_c_186 main_v626 (broadcastInDim S1048576 ![] bcast_S_S1048576),
    binary main_v583 main_v626 main_v627 addi,
    ternary main_v625 main_v627 main_v583 main_v628 select,
    unary main_v618 main_v629 (broadcastInDim S1048576x1 ![0] bcast_S1048576_S1048576x1_0),
    unary main_v623 main_v630 (broadcastInDim S1048576x1 ![0] bcast_S1048576_S1048576x1_0),
    unary main_v628 main_v631 (broadcastInDim S1048576x1 ![0] bcast_S1048576_S1048576x1_0),
    nary ![main_v629, main_v630, main_v631] main_v632 (fun u => concatenate S1048576x3 1 [⟨S1048576x1, u 0⟩, ⟨S1048576x1, u 1⟩, ⟨S1048576x1, u 2⟩] concatenates_S1048576x1_S1048576x1_S1048576x1_S1048576x3_d1),
    binary main_v527 main_v632 main_v633 (fun x i => Host.gather gather_S4x128x128x128_S1048576x3_S4x1048576_0_123_n_n_123_1_4111 x i),
    nullary main_c_187 (constantI S_ 32 0#32),
    unary main_c_187 main_v634 (broadcastInDim S1048576 ![] bcast_S_S1048576),
    binary main_v589 main_v634 main_v635 (cmpi .slt),
    nullary main_c_188 (constantI S_ 32 128#32),
    unary main_c_188 main_v636 (broadcastInDim S1048576 ![] bcast_S_S1048576),
    binary main_v589 main_v636 main_v637 addi,
    ternary main_v635 main_v637 main_v589 main_v638 select,
    nullary main_c_189 (constantI S_ 32 0#32),
    unary main_c_189 main_v639 (broadcastInDim S1048576 ![] bcast_S_S1048576),
    binary main_v588 main_v639 main_v640 (cmpi .slt),
    nullary main_c_190 (constantI S_ 32 128#32),
    unary main_c_190 main_v641 (broadcastInDim S1048576 ![] bcast_S_S1048576),
    binary main_v588 main_v641 main_v642 addi,
    ternary main_v640 main_v642 main_v588 main_v643 select,
    nullary main_c_191 (constantI S_ 32 0#32),
    unary main_c_191 main_v644 (broadcastInDim S1048576 ![] bcast_S_S1048576),
    binary main_v579 main_v644 main_v645 (cmpi .slt) ]

abbrev ops_part14 : List (HloOp τ sig (Elt F)) :=
  [ nullary main_c_192 (constantI S_ 32 128#32),
    unary main_c_192 main_v646 (broadcastInDim S1048576 ![] bcast_S_S1048576),
    binary main_v579 main_v646 main_v647 addi,
    ternary main_v645 main_v647 main_v579 main_v648 select,
    unary main_v638 main_v649 (broadcastInDim S1048576x1 ![0] bcast_S1048576_S1048576x1_0),
    unary main_v643 main_v650 (broadcastInDim S1048576x1 ![0] bcast_S1048576_S1048576x1_0),
    unary main_v648 main_v651 (broadcastInDim S1048576x1 ![0] bcast_S1048576_S1048576x1_0),
    nary ![main_v649, main_v650, main_v651] main_v652 (fun u => concatenate S1048576x3 1 [⟨S1048576x1, u 0⟩, ⟨S1048576x1, u 1⟩, ⟨S1048576x1, u 2⟩] concatenates_S1048576x1_S1048576x1_S1048576x1_S1048576x3_d1),
    binary main_v527 main_v652 main_v653 (fun x i => Host.gather gather_S4x128x128x128_S1048576x3_S4x1048576_0_123_n_n_123_1_4111 x i),
    nullary main_c_193 (constantI S_ 32 0#32),
    unary main_c_193 main_v654 (broadcastInDim S1048576 ![] bcast_S_S1048576),
    binary main_v589 main_v654 main_v655 (cmpi .slt),
    nullary main_c_194 (constantI S_ 32 128#32),
    unary main_c_194 main_v656 (broadcastInDim S1048576 ![] bcast_S_S1048576),
    binary main_v589 main_v656 main_v657 addi,
    ternary main_v655 main_v657 main_v589 main_v658 select,
    nullary main_c_195 (constantI S_ 32 0#32),
    unary main_c_195 main_v659 (broadcastInDim S1048576 ![] bcast_S_S1048576),
    binary main_v588 main_v659 main_v660 (cmpi .slt),
    nullary main_c_196 (constantI S_ 32 128#32),
    unary main_c_196 main_v661 (broadcastInDim S1048576 ![] bcast_S_S1048576),
    binary main_v588 main_v661 main_v662 addi,
    ternary main_v660 main_v662 main_v588 main_v663 select,
    nullary main_c_197 (constantI S_ 32 0#32),
    unary main_c_197 main_v664 (broadcastInDim S1048576 ![] bcast_S_S1048576),
    binary main_v583 main_v664 main_v665 (cmpi .slt),
    nullary main_c_198 (constantI S_ 32 128#32),
    unary main_c_198 main_v666 (broadcastInDim S1048576 ![] bcast_S_S1048576),
    binary main_v583 main_v666 main_v667 addi,
    ternary main_v665 main_v667 main_v583 main_v668 select,
    unary main_v658 main_v669 (broadcastInDim S1048576x1 ![0] bcast_S1048576_S1048576x1_0),
    unary main_v663 main_v670 (broadcastInDim S1048576x1 ![0] bcast_S1048576_S1048576x1_0),
    unary main_v668 main_v671 (broadcastInDim S1048576x1 ![0] bcast_S1048576_S1048576x1_0),
    nary ![main_v669, main_v670, main_v671] main_v672 (fun u => concatenate S1048576x3 1 [⟨S1048576x1, u 0⟩, ⟨S1048576x1, u 1⟩, ⟨S1048576x1, u 2⟩] concatenates_S1048576x1_S1048576x1_S1048576x1_S1048576x3_d1),
    binary main_v527 main_v672 main_v673 (fun x i => Host.gather gather_S4x128x128x128_S1048576x3_S4x1048576_0_123_n_n_123_1_4111 x i),
    nullary main_c_199 (constantI S_ 32 0#32),
    unary main_c_199 main_v674 (broadcastInDim S1048576 ![] bcast_S_S1048576),
    binary main_v593 main_v674 main_v675 (cmpi .slt),
    nullary main_c_200 (constantI S_ 32 128#32),
    unary main_c_200 main_v676 (broadcastInDim S1048576 ![] bcast_S_S1048576),
    binary main_v593 main_v676 main_v677 addi,
    ternary main_v675 main_v677 main_v593 main_v678 select,
    nullary main_c_201 (constantI S_ 32 0#32),
    unary main_c_201 main_v679 (broadcastInDim S1048576 ![] bcast_S_S1048576),
    binary main_v584 main_v679 main_v680 (cmpi .slt),
    nullary main_c_202 (constantI S_ 32 128#32),
    unary main_c_202 main_v681 (broadcastInDim S1048576 ![] bcast_S_S1048576),
    binary main_v584 main_v681 main_v682 addi,
    ternary main_v680 main_v682 main_v584 main_v683 select,
    nullary main_c_203 (constantI S_ 32 0#32),
    unary main_c_203 main_v684 (broadcastInDim S1048576 ![] bcast_S_S1048576),
    binary main_v579 main_v684 main_v685 (cmpi .slt),
    nullary main_c_204 (constantI S_ 32 128#32),
    unary main_c_204 main_v686 (broadcastInDim S1048576 ![] bcast_S_S1048576),
    binary main_v579 main_v686 main_v687 addi,
    ternary main_v685 main_v687 main_v579 main_v688 select,
    unary main_v678 main_v689 (broadcastInDim S1048576x1 ![0] bcast_S1048576_S1048576x1_0),
    unary main_v683 main_v690 (broadcastInDim S1048576x1 ![0] bcast_S1048576_S1048576x1_0),
    unary main_v688 main_v691 (broadcastInDim S1048576x1 ![0] bcast_S1048576_S1048576x1_0),
    nary ![main_v689, main_v690, main_v691] main_v692 (fun u => concatenate S1048576x3 1 [⟨S1048576x1, u 0⟩, ⟨S1048576x1, u 1⟩, ⟨S1048576x1, u 2⟩] concatenates_S1048576x1_S1048576x1_S1048576x1_S1048576x3_d1) ]

abbrev ops_part15 : List (HloOp τ sig (Elt F)) :=
  [ binary main_v527 main_v692 main_v693 (fun x i => Host.gather gather_S4x128x128x128_S1048576x3_S4x1048576_0_123_n_n_123_1_4111 x i),
    nullary main_c_205 (constantI S_ 32 0#32),
    unary main_c_205 main_v694 (broadcastInDim S1048576 ![] bcast_S_S1048576),
    binary main_v593 main_v694 main_v695 (cmpi .slt),
    nullary main_c_206 (constantI S_ 32 128#32),
    unary main_c_206 main_v696 (broadcastInDim S1048576 ![] bcast_S_S1048576),
    binary main_v593 main_v696 main_v697 addi,
    ternary main_v695 main_v697 main_v593 main_v698 select,
    nullary main_c_207 (constantI S_ 32 0#32),
    unary main_c_207 main_v699 (broadcastInDim S1048576 ![] bcast_S_S1048576),
    binary main_v584 main_v699 main_v700 (cmpi .slt),
    nullary main_c_208 (constantI S_ 32 128#32),
    unary main_c_208 main_v701 (broadcastInDim S1048576 ![] bcast_S_S1048576),
    binary main_v584 main_v701 main_v702 addi,
    ternary main_v700 main_v702 main_v584 main_v703 select,
    nullary main_c_209 (constantI S_ 32 0#32),
    unary main_c_209 main_v704 (broadcastInDim S1048576 ![] bcast_S_S1048576),
    binary main_v583 main_v704 main_v705 (cmpi .slt),
    nullary main_c_210 (constantI S_ 32 128#32),
    unary main_c_210 main_v706 (broadcastInDim S1048576 ![] bcast_S_S1048576),
    binary main_v583 main_v706 main_v707 addi,
    ternary main_v705 main_v707 main_v583 main_v708 select,
    unary main_v698 main_v709 (broadcastInDim S1048576x1 ![0] bcast_S1048576_S1048576x1_0),
    unary main_v703 main_v710 (broadcastInDim S1048576x1 ![0] bcast_S1048576_S1048576x1_0),
    unary main_v708 main_v711 (broadcastInDim S1048576x1 ![0] bcast_S1048576_S1048576x1_0),
    nary ![main_v709, main_v710, main_v711] main_v712 (fun u => concatenate S1048576x3 1 [⟨S1048576x1, u 0⟩, ⟨S1048576x1, u 1⟩, ⟨S1048576x1, u 2⟩] concatenates_S1048576x1_S1048576x1_S1048576x1_S1048576x3_d1),
    binary main_v527 main_v712 main_v713 (fun x i => Host.gather gather_S4x128x128x128_S1048576x3_S4x1048576_0_123_n_n_123_1_4111 x i),
    nullary main_c_211 (constantI S_ 32 0#32),
    unary main_c_211 main_v714 (broadcastInDim S1048576 ![] bcast_S_S1048576),
    binary main_v593 main_v714 main_v715 (cmpi .slt),
    nullary main_c_212 (constantI S_ 32 128#32),
    unary main_c_212 main_v716 (broadcastInDim S1048576 ![] bcast_S_S1048576),
    binary main_v593 main_v716 main_v717 addi,
    ternary main_v715 main_v717 main_v593 main_v718 select,
    nullary main_c_213 (constantI S_ 32 0#32),
    unary main_c_213 main_v719 (broadcastInDim S1048576 ![] bcast_S_S1048576),
    binary main_v588 main_v719 main_v720 (cmpi .slt),
    nullary main_c_214 (constantI S_ 32 128#32),
    unary main_c_214 main_v721 (broadcastInDim S1048576 ![] bcast_S_S1048576),
    binary main_v588 main_v721 main_v722 addi,
    ternary main_v720 main_v722 main_v588 main_v723 select,
    nullary main_c_215 (constantI S_ 32 0#32),
    unary main_c_215 main_v724 (broadcastInDim S1048576 ![] bcast_S_S1048576),
    binary main_v579 main_v724 main_v725 (cmpi .slt),
    nullary main_c_216 (constantI S_ 32 128#32),
    unary main_c_216 main_v726 (broadcastInDim S1048576 ![] bcast_S_S1048576),
    binary main_v579 main_v726 main_v727 addi,
    ternary main_v725 main_v727 main_v579 main_v728 select,
    unary main_v718 main_v729 (broadcastInDim S1048576x1 ![0] bcast_S1048576_S1048576x1_0),
    unary main_v723 main_v730 (broadcastInDim S1048576x1 ![0] bcast_S1048576_S1048576x1_0),
    unary main_v728 main_v731 (broadcastInDim S1048576x1 ![0] bcast_S1048576_S1048576x1_0),
    nary ![main_v729, main_v730, main_v731] main_v732 (fun u => concatenate S1048576x3 1 [⟨S1048576x1, u 0⟩, ⟨S1048576x1, u 1⟩, ⟨S1048576x1, u 2⟩] concatenates_S1048576x1_S1048576x1_S1048576x1_S1048576x3_d1),
    binary main_v527 main_v732 main_v733 (fun x i => Host.gather gather_S4x128x128x128_S1048576x3_S4x1048576_0_123_n_n_123_1_4111 x i),
    nullary main_c_217 (constantI S_ 32 0#32),
    unary main_c_217 main_v734 (broadcastInDim S1048576 ![] bcast_S_S1048576),
    binary main_v593 main_v734 main_v735 (cmpi .slt),
    nullary main_c_218 (constantI S_ 32 128#32),
    unary main_c_218 main_v736 (broadcastInDim S1048576 ![] bcast_S_S1048576),
    binary main_v593 main_v736 main_v737 addi,
    ternary main_v735 main_v737 main_v593 main_v738 select ]

abbrev ops_part16 : List (HloOp τ sig (Elt F)) :=
  [ nullary main_c_219 (constantI S_ 32 0#32),
    unary main_c_219 main_v739 (broadcastInDim S1048576 ![] bcast_S_S1048576),
    binary main_v588 main_v739 main_v740 (cmpi .slt),
    nullary main_c_220 (constantI S_ 32 128#32),
    unary main_c_220 main_v741 (broadcastInDim S1048576 ![] bcast_S_S1048576),
    binary main_v588 main_v741 main_v742 addi,
    ternary main_v740 main_v742 main_v588 main_v743 select,
    nullary main_c_221 (constantI S_ 32 0#32),
    unary main_c_221 main_v744 (broadcastInDim S1048576 ![] bcast_S_S1048576),
    binary main_v583 main_v744 main_v745 (cmpi .slt),
    nullary main_c_222 (constantI S_ 32 128#32),
    unary main_c_222 main_v746 (broadcastInDim S1048576 ![] bcast_S_S1048576),
    binary main_v583 main_v746 main_v747 addi,
    ternary main_v745 main_v747 main_v583 main_v748 select,
    unary main_v738 main_v749 (broadcastInDim S1048576x1 ![0] bcast_S1048576_S1048576x1_0),
    unary main_v743 main_v750 (broadcastInDim S1048576x1 ![0] bcast_S1048576_S1048576x1_0),
    unary main_v748 main_v751 (broadcastInDim S1048576x1 ![0] bcast_S1048576_S1048576x1_0),
    nary ![main_v749, main_v750, main_v751] main_v752 (fun u => concatenate S1048576x3 1 [⟨S1048576x1, u 0⟩, ⟨S1048576x1, u 1⟩, ⟨S1048576x1, u 2⟩] concatenates_S1048576x1_S1048576x1_S1048576x1_S1048576x3_d1),
    binary main_v527 main_v752 main_v753 (fun x i => Host.gather gather_S4x128x128x128_S1048576x3_S4x1048576_0_123_n_n_123_1_4111 x i),
    binary main_v633 main_v613 main_v754 subf,
    unary main_v566 main_v755 (broadcastInDim S1x1048576 ![1] bcast_S1048576_S1x1048576_1),
    unary main_v755 main_v756 (broadcastInDim S4x1048576 ![0, 1] bcast_S1x1048576_S4x1048576_0_1),
    binary main_v754 main_v756 main_v757 mulf,
    binary main_v613 main_v757 main_v758 addf,
    binary main_v673 main_v653 main_v759 subf,
    unary main_v566 main_v760 (broadcastInDim S1x1048576 ![1] bcast_S1048576_S1x1048576_1),
    unary main_v760 main_v761 (broadcastInDim S4x1048576 ![0, 1] bcast_S1x1048576_S4x1048576_0_1),
    binary main_v759 main_v761 main_v762 mulf,
    binary main_v653 main_v762 main_v763 addf,
    binary main_v713 main_v693 main_v764 subf,
    unary main_v566 main_v765 (broadcastInDim S1x1048576 ![1] bcast_S1048576_S1x1048576_1),
    unary main_v765 main_v766 (broadcastInDim S4x1048576 ![0, 1] bcast_S1x1048576_S4x1048576_0_1),
    binary main_v764 main_v766 main_v767 mulf,
    binary main_v693 main_v767 main_v768 addf,
    binary main_v753 main_v733 main_v769 subf,
    unary main_v566 main_v770 (broadcastInDim S1x1048576 ![1] bcast_S1048576_S1x1048576_1),
    unary main_v770 main_v771 (broadcastInDim S4x1048576 ![0, 1] bcast_S1x1048576_S4x1048576_0_1),
    binary main_v769 main_v771 main_v772 mulf,
    binary main_v733 main_v772 main_v773 addf,
    binary main_v763 main_v758 main_v774 subf,
    unary main_v572 main_v775 (broadcastInDim S1x1048576 ![1] bcast_S1048576_S1x1048576_1),
    unary main_v775 main_v776 (broadcastInDim S4x1048576 ![0, 1] bcast_S1x1048576_S4x1048576_0_1),
    binary main_v774 main_v776 main_v777 mulf,
    binary main_v758 main_v777 main_v778 addf,
    binary main_v773 main_v768 main_v779 subf,
    unary main_v572 main_v780 (broadcastInDim S1x1048576 ![1] bcast_S1048576_S1x1048576_1),
    unary main_v780 main_v781 (broadcastInDim S4x1048576 ![0, 1] bcast_S1x1048576_S4x1048576_0_1),
    binary main_v779 main_v781 main_v782 mulf,
    binary main_v768 main_v782 main_v783 addf,
    binary main_v783 main_v778 main_v784 subf,
    unary main_v578 main_v785 (broadcastInDim S1x1048576 ![1] bcast_S1048576_S1x1048576_1),
    unary main_v785 main_v786 (broadcastInDim S4x1048576 ![0, 1] bcast_S1x1048576_S4x1048576_0_1),
    binary main_v784 main_v786 main_v787 mulf,
    binary main_v778 main_v787 main_v788 addf,
    reshape main_v788 main_v789 rfl shapeCasts_S4x1048576_S1x4x1x1x1048576,
    reshape main_arg4 main_v790 rfl shapeCasts_S1x4x256x256x256_S4x256x256x256,
    unary main_v0 main_v791 (extractStridedSlice S1048576x1 ![0, 0] · slices_S1048576x3_S1048576x1_0_0),
    reshape main_v791 main_v792 rfl shapeCasts_S1048576x1_S1048576,
    nullary main_cst_223 (constant S_ .f32 0x3F800000#32),
    unary main_cst_223 main_v793 (broadcastInDim S1048576 ![] bcast_S_S1048576) ]

abbrev ops_part17 : List (HloOp τ sig (Elt F)) :=
  [ binary main_v792 main_v793 main_v794 addf,
    nullary main_cst_224 (constant S_ .f32 0x3F000000#32),
    unary main_cst_224 main_v795 (broadcastInDim S1048576 ![] bcast_S_S1048576),
    binary main_v794 main_v795 main_v796 mulf,
    nullary main_cst_225 (constant S_ .f32 0x437F0000#32),
    unary main_cst_225 main_v797 (broadcastInDim S1048576 ![] bcast_S_S1048576),
    binary main_v796 main_v797 main_v798 mulf,
    nullary main_cst_226 (constant S_ .f32 0x00000000#32),
    nullary main_c_227 (constantI S_ 32 255#32),
    TRef.unary (TRef.of (T := ⟨S_, .f32⟩) main_cst_226) (TRef.of (T := ⟨S_, .f32⟩) main_call9_v0) id,
    TRef.unary (TRef.of (T := ⟨S_, .f32⟩) main_call9_v0) (TRef.of (T := ⟨S1048576, .f32⟩) main_call9_v1) (broadcastInDim S1048576 ![] bcast_S_S1048576),
    TRef.binary (TRef.of (T := ⟨S1048576, .f32⟩) main_call9_v1) (TRef.of (T := ⟨S1048576, .f32⟩) main_v798) (TRef.of (T := ⟨S1048576, .f32⟩) main_call9_v2) maximumf,
    TRef.unary (TRef.of (T := ⟨S_, .i32⟩) main_c_227) (TRef.of (T := ⟨S_, .f32⟩) main_call9_v3) (sitofp .f32),
    TRef.unary (TRef.of (T := ⟨S_, .f32⟩) main_call9_v3) (TRef.of (T := ⟨S1048576, .f32⟩) main_call9_v4) (broadcastInDim S1048576 ![] bcast_S_S1048576),
    TRef.binary (TRef.of (T := ⟨S1048576, .f32⟩) main_call9_v4) (TRef.of (T := ⟨S1048576, .f32⟩) main_call9_v2) (TRef.of (T := ⟨S1048576, .f32⟩) main_v799) minimumf,
    unary main_v0 main_v800 (extractStridedSlice S1048576x1 ![0, 1] · slices_S1048576x3_S1048576x1_0_1),
    reshape main_v800 main_v801 rfl shapeCasts_S1048576x1_S1048576,
    nullary main_cst_228 (constant S_ .f32 0x3F800000#32),
    unary main_cst_228 main_v802 (broadcastInDim S1048576 ![] bcast_S_S1048576),
    binary main_v801 main_v802 main_v803 addf,
    nullary main_cst_229 (constant S_ .f32 0x3F000000#32),
    unary main_cst_229 main_v804 (broadcastInDim S1048576 ![] bcast_S_S1048576),
    binary main_v803 main_v804 main_v805 mulf,
    nullary main_cst_230 (constant S_ .f32 0x437F0000#32),
    unary main_cst_230 main_v806 (broadcastInDim S1048576 ![] bcast_S_S1048576),
    binary main_v805 main_v806 main_v807 mulf,
    nullary main_cst_231 (constant S_ .f32 0x00000000#32),
    nullary main_c_232 (constantI S_ 32 255#32),
    TRef.unary (TRef.of (T := ⟨S_, .f32⟩) main_cst_231) (TRef.of (T := ⟨S_, .f32⟩) main_call10_v0) id,
    TRef.unary (TRef.of (T := ⟨S_, .f32⟩) main_call10_v0) (TRef.of (T := ⟨S1048576, .f32⟩) main_call10_v1) (broadcastInDim S1048576 ![] bcast_S_S1048576),
    TRef.binary (TRef.of (T := ⟨S1048576, .f32⟩) main_call10_v1) (TRef.of (T := ⟨S1048576, .f32⟩) main_v807) (TRef.of (T := ⟨S1048576, .f32⟩) main_call10_v2) maximumf,
    TRef.unary (TRef.of (T := ⟨S_, .i32⟩) main_c_232) (TRef.of (T := ⟨S_, .f32⟩) main_call10_v3) (sitofp .f32),
    TRef.unary (TRef.of (T := ⟨S_, .f32⟩) main_call10_v3) (TRef.of (T := ⟨S1048576, .f32⟩) main_call10_v4) (broadcastInDim S1048576 ![] bcast_S_S1048576),
    TRef.binary (TRef.of (T := ⟨S1048576, .f32⟩) main_call10_v4) (TRef.of (T := ⟨S1048576, .f32⟩) main_call10_v2) (TRef.of (T := ⟨S1048576, .f32⟩) main_v808) minimumf,
    unary main_v0 main_v809 (extractStridedSlice S1048576x1 ![0, 2] · slices_S1048576x3_S1048576x1_0_2),
    reshape main_v809 main_v810 rfl shapeCasts_S1048576x1_S1048576,
    nullary main_cst_233 (constant S_ .f32 0x3F800000#32),
    unary main_cst_233 main_v811 (broadcastInDim S1048576 ![] bcast_S_S1048576),
    binary main_v810 main_v811 main_v812 addf,
    nullary main_cst_234 (constant S_ .f32 0x3F000000#32),
    unary main_cst_234 main_v813 (broadcastInDim S1048576 ![] bcast_S_S1048576),
    binary main_v812 main_v813 main_v814 mulf,
    nullary main_cst_235 (constant S_ .f32 0x437F0000#32),
    unary main_cst_235 main_v815 (broadcastInDim S1048576 ![] bcast_S_S1048576),
    binary main_v814 main_v815 main_v816 mulf,
    nullary main_cst_236 (constant S_ .f32 0x00000000#32),
    nullary main_c_237 (constantI S_ 32 255#32),
    TRef.unary (TRef.of (T := ⟨S_, .f32⟩) main_cst_236) (TRef.of (T := ⟨S_, .f32⟩) main_call11_v0) id,
    TRef.unary (TRef.of (T := ⟨S_, .f32⟩) main_call11_v0) (TRef.of (T := ⟨S1048576, .f32⟩) main_call11_v1) (broadcastInDim S1048576 ![] bcast_S_S1048576),
    TRef.binary (TRef.of (T := ⟨S1048576, .f32⟩) main_call11_v1) (TRef.of (T := ⟨S1048576, .f32⟩) main_v816) (TRef.of (T := ⟨S1048576, .f32⟩) main_call11_v2) maximumf,
    TRef.unary (TRef.of (T := ⟨S_, .i32⟩) main_c_237) (TRef.of (T := ⟨S_, .f32⟩) main_call11_v3) (sitofp .f32),
    TRef.unary (TRef.of (T := ⟨S_, .f32⟩) main_call11_v3) (TRef.of (T := ⟨S1048576, .f32⟩) main_call11_v4) (broadcastInDim S1048576 ![] bcast_S_S1048576),
    TRef.binary (TRef.of (T := ⟨S1048576, .f32⟩) main_call11_v4) (TRef.of (T := ⟨S1048576, .f32⟩) main_call11_v2) (TRef.of (T := ⟨S1048576, .f32⟩) main_v817) minimumf,
    unary main_v799 main_v818 Host.floor,
    unary main_v808 main_v819 Host.floor,
    unary main_v817 main_v820 Host.floor,
    binary main_v799 main_v818 main_v821 subf,
    binary main_v808 main_v819 main_v822 subf,
    binary main_v817 main_v820 main_v823 subf,
    binary main_v821 main_v821 main_v824 mulf,
    nullary main_cst_238 (constant S_ .f32 0x40000000#32),
    unary main_cst_238 main_v825 (broadcastInDim S1048576 ![] bcast_S_S1048576),
    binary main_v825 main_v821 main_v826 mulf,
    nullary main_cst_239 (constant S_ .f32 0x40400000#32),
    unary main_cst_239 main_v827 (broadcastInDim S1048576 ![] bcast_S_S1048576),
    binary main_v827 main_v826 main_v828 subf,
    binary main_v824 main_v828 main_v829 mulf,
    binary main_v822 main_v822 main_v830 mulf,
    nullary main_cst_240 (constant S_ .f32 0x40000000#32),
    unary main_cst_240 main_v831 (broadcastInDim S1048576 ![] bcast_S_S1048576),
    binary main_v831 main_v822 main_v832 mulf,
    nullary main_cst_241 (constant S_ .f32 0x40400000#32),
    unary main_cst_241 main_v833 (broadcastInDim S1048576 ![] bcast_S_S1048576),
    binary main_v833 main_v832 main_v834 subf,
    binary main_v830 main_v834 main_v835 mulf ]

abbrev ops_part18 : List (HloOp τ sig (Elt F)) :=
  [ binary main_v823 main_v823 main_v836 mulf,
    nullary main_cst_242 (constant S_ .f32 0x40000000#32),
    unary main_cst_242 main_v837 (broadcastInDim S1048576 ![] bcast_S_S1048576),
    binary main_v837 main_v823 main_v838 mulf,
    nullary main_cst_243 (constant S_ .f32 0x40400000#32),
    unary main_cst_243 main_v839 (broadcastInDim S1048576 ![] bcast_S_S1048576),
    binary main_v839 main_v838 main_v840 subf,
    binary main_v836 main_v840 main_v841 mulf,
    unary main_v818 main_v842 (fptosi 32),
    nullary main_c_244 (constantI S_ 32 1#32),
    unary main_c_244 main_v843 (broadcastInDim S1048576 ![] bcast_S_S1048576),
    binary main_v842 main_v843 main_v844 addi,
    nullary main_c_245 (constantI S_ 32 255#32),
    unary main_c_245 main_v845 (broadcastInDim S1048576 ![] bcast_S_S1048576),
    binary main_v844 main_v845 main_v846 minsi,
    unary main_v819 main_v847 (fptosi 32),
    nullary main_c_246 (constantI S_ 32 1#32),
    unary main_c_246 main_v848 (broadcastInDim S1048576 ![] bcast_S_S1048576),
    binary main_v847 main_v848 main_v849 addi,
    nullary main_c_247 (constantI S_ 32 255#32),
    unary main_c_247 main_v850 (broadcastInDim S1048576 ![] bcast_S_S1048576),
    binary main_v849 main_v850 main_v851 minsi,
    unary main_v820 main_v852 (fptosi 32),
    nullary main_c_248 (constantI S_ 32 1#32),
    unary main_c_248 main_v853 (broadcastInDim S1048576 ![] bcast_S_S1048576),
    binary main_v852 main_v853 main_v854 addi,
    nullary main_c_249 (constantI S_ 32 255#32),
    unary main_c_249 main_v855 (broadcastInDim S1048576 ![] bcast_S_S1048576),
    binary main_v854 main_v855 main_v856 minsi,
    nullary main_c_250 (constantI S_ 32 0#32),
    unary main_c_250 main_v857 (broadcastInDim S1048576 ![] bcast_S_S1048576),
    binary main_v852 main_v857 main_v858 (cmpi .slt),
    nullary main_c_251 (constantI S_ 32 256#32),
    unary main_c_251 main_v859 (broadcastInDim S1048576 ![] bcast_S_S1048576),
    binary main_v852 main_v859 main_v860 addi,
    ternary main_v858 main_v860 main_v852 main_v861 select,
    nullary main_c_252 (constantI S_ 32 0#32),
    unary main_c_252 main_v862 (broadcastInDim S1048576 ![] bcast_S_S1048576),
    binary main_v847 main_v862 main_v863 (cmpi .slt),
    nullary main_c_253 (constantI S_ 32 256#32),
    unary main_c_253 main_v864 (broadcastInDim S1048576 ![] bcast_S_S1048576),
    binary main_v847 main_v864 main_v865 addi,
    ternary main_v863 main_v865 main_v847 main_v866 select,
    nullary main_c_254 (constantI S_ 32 0#32),
    unary main_c_254 main_v867 (broadcastInDim S1048576 ![] bcast_S_S1048576),
    binary main_v842 main_v867 main_v868 (cmpi .slt),
    nullary main_c_255 (constantI S_ 32 256#32),
    unary main_c_255 main_v869 (broadcastInDim S1048576 ![] bcast_S_S1048576),
    binary main_v842 main_v869 main_v870 addi,
    ternary main_v868 main_v870 main_v842 main_v871 select,
    unary main_v861 main_v872 (broadcastInDim S1048576x1 ![0] bcast_S1048576_S1048576x1_0),
    unary main_v866 main_v873 (broadcastInDim S1048576x1 ![0] bcast_S1048576_S1048576x1_0),
    unary main_v871 main_v874 (broadcastInDim S1048576x1 ![0] bcast_S1048576_S1048576x1_0),
    nary ![main_v872, main_v873, main_v874] main_v875 (fun u => concatenate S1048576x3 1 [⟨S1048576x1, u 0⟩, ⟨S1048576x1, u 1⟩, ⟨S1048576x1, u 2⟩] concatenates_S1048576x1_S1048576x1_S1048576x1_S1048576x3_d1),
    binary main_v790 main_v875 main_v876 (fun x i => Host.gather gather_S4x256x256x256_S1048576x3_S4x1048576_0_123_n_n_123_1_4111 x i),
    nullary main_c_256 (constantI S_ 32 0#32),
    unary main_c_256 main_v877 (broadcastInDim S1048576 ![] bcast_S_S1048576),
    binary main_v852 main_v877 main_v878 (cmpi .slt),
    nullary main_c_257 (constantI S_ 32 256#32),
    unary main_c_257 main_v879 (broadcastInDim S1048576 ![] bcast_S_S1048576) ]

abbrev ops_part19 : List (HloOp τ sig (Elt F)) :=
  [ binary main_v852 main_v879 main_v880 addi,
    ternary main_v878 main_v880 main_v852 main_v881 select,
    nullary main_c_258 (constantI S_ 32 0#32),
    unary main_c_258 main_v882 (broadcastInDim S1048576 ![] bcast_S_S1048576),
    binary main_v847 main_v882 main_v883 (cmpi .slt),
    nullary main_c_259 (constantI S_ 32 256#32),
    unary main_c_259 main_v884 (broadcastInDim S1048576 ![] bcast_S_S1048576),
    binary main_v847 main_v884 main_v885 addi,
    ternary main_v883 main_v885 main_v847 main_v886 select,
    nullary main_c_260 (constantI S_ 32 0#32),
    unary main_c_260 main_v887 (broadcastInDim S1048576 ![] bcast_S_S1048576),
    binary main_v846 main_v887 main_v888 (cmpi .slt),
    nullary main_c_261 (constantI S_ 32 256#32),
    unary main_c_261 main_v889 (broadcastInDim S1048576 ![] bcast_S_S1048576),
    binary main_v846 main_v889 main_v890 addi,
    ternary main_v888 main_v890 main_v846 main_v891 select,
    unary main_v881 main_v892 (broadcastInDim S1048576x1 ![0] bcast_S1048576_S1048576x1_0),
    unary main_v886 main_v893 (broadcastInDim S1048576x1 ![0] bcast_S1048576_S1048576x1_0),
    unary main_v891 main_v894 (broadcastInDim S1048576x1 ![0] bcast_S1048576_S1048576x1_0),
    nary ![main_v892, main_v893, main_v894] main_v895 (fun u => concatenate S1048576x3 1 [⟨S1048576x1, u 0⟩, ⟨S1048576x1, u 1⟩, ⟨S1048576x1, u 2⟩] concatenates_S1048576x1_S1048576x1_S1048576x1_S1048576x3_d1),
    binary main_v790 main_v895 main_v896 (fun x i => Host.gather gather_S4x256x256x256_S1048576x3_S4x1048576_0_123_n_n_123_1_4111 x i),
    nullary main_c_262 (constantI S_ 32 0#32),
    unary main_c_262 main_v897 (broadcastInDim S1048576 ![] bcast_S_S1048576),
    binary main_v852 main_v897 main_v898 (cmpi .slt),
    nullary main_c_263 (constantI S_ 32 256#32),
    unary main_c_263 main_v899 (broadcastInDim S1048576 ![] bcast_S_S1048576),
    binary main_v852 main_v899 main_v900 addi,
    ternary main_v898 main_v900 main_v852 main_v901 select,
    nullary main_c_264 (constantI S_ 32 0#32),
    unary main_c_264 main_v902 (broadcastInDim S1048576 ![] bcast_S_S1048576),
    binary main_v851 main_v902 main_v903 (cmpi .slt),
    nullary main_c_265 (constantI S_ 32 256#32),
    unary main_c_265 main_v904 (broadcastInDim S1048576 ![] bcast_S_S1048576),
    binary main_v851 main_v904 main_v905 addi,
    ternary main_v903 main_v905 main_v851 main_v906 select,
    nullary main_c_266 (constantI S_ 32 0#32),
    unary main_c_266 main_v907 (broadcastInDim S1048576 ![] bcast_S_S1048576),
    binary main_v842 main_v907 main_v908 (cmpi .slt),
    nullary main_c_267 (constantI S_ 32 256#32),
    unary main_c_267 main_v909 (broadcastInDim S1048576 ![] bcast_S_S1048576),
    binary main_v842 main_v909 main_v910 addi,
    ternary main_v908 main_v910 main_v842 main_v911 select,
    unary main_v901 main_v912 (broadcastInDim S1048576x1 ![0] bcast_S1048576_S1048576x1_0),
    unary main_v906 main_v913 (broadcastInDim S1048576x1 ![0] bcast_S1048576_S1048576x1_0),
    unary main_v911 main_v914 (broadcastInDim S1048576x1 ![0] bcast_S1048576_S1048576x1_0),
    nary ![main_v912, main_v913, main_v914] main_v915 (fun u => concatenate S1048576x3 1 [⟨S1048576x1, u 0⟩, ⟨S1048576x1, u 1⟩, ⟨S1048576x1, u 2⟩] concatenates_S1048576x1_S1048576x1_S1048576x1_S1048576x3_d1),
    binary main_v790 main_v915 main_v916 (fun x i => Host.gather gather_S4x256x256x256_S1048576x3_S4x1048576_0_123_n_n_123_1_4111 x i),
    nullary main_c_268 (constantI S_ 32 0#32),
    unary main_c_268 main_v917 (broadcastInDim S1048576 ![] bcast_S_S1048576),
    binary main_v852 main_v917 main_v918 (cmpi .slt),
    nullary main_c_269 (constantI S_ 32 256#32),
    unary main_c_269 main_v919 (broadcastInDim S1048576 ![] bcast_S_S1048576),
    binary main_v852 main_v919 main_v920 addi,
    ternary main_v918 main_v920 main_v852 main_v921 select,
    nullary main_c_270 (constantI S_ 32 0#32),
    unary main_c_270 main_v922 (broadcastInDim S1048576 ![] bcast_S_S1048576),
    binary main_v851 main_v922 main_v923 (cmpi .slt),
    nullary main_c_271 (constantI S_ 32 256#32),
    unary main_c_271 main_v924 (broadcastInDim S1048576 ![] bcast_S_S1048576),
    binary main_v851 main_v924 main_v925 addi ]

abbrev ops_part20 : List (HloOp τ sig (Elt F)) :=
  [ ternary main_v923 main_v925 main_v851 main_v926 select,
    nullary main_c_272 (constantI S_ 32 0#32),
    unary main_c_272 main_v927 (broadcastInDim S1048576 ![] bcast_S_S1048576),
    binary main_v846 main_v927 main_v928 (cmpi .slt),
    nullary main_c_273 (constantI S_ 32 256#32),
    unary main_c_273 main_v929 (broadcastInDim S1048576 ![] bcast_S_S1048576),
    binary main_v846 main_v929 main_v930 addi,
    ternary main_v928 main_v930 main_v846 main_v931 select,
    unary main_v921 main_v932 (broadcastInDim S1048576x1 ![0] bcast_S1048576_S1048576x1_0),
    unary main_v926 main_v933 (broadcastInDim S1048576x1 ![0] bcast_S1048576_S1048576x1_0),
    unary main_v931 main_v934 (broadcastInDim S1048576x1 ![0] bcast_S1048576_S1048576x1_0),
    nary ![main_v932, main_v933, main_v934] main_v935 (fun u => concatenate S1048576x3 1 [⟨S1048576x1, u 0⟩, ⟨S1048576x1, u 1⟩, ⟨S1048576x1, u 2⟩] concatenates_S1048576x1_S1048576x1_S1048576x1_S1048576x3_d1),
    binary main_v790 main_v935 main_v936 (fun x i => Host.gather gather_S4x256x256x256_S1048576x3_S4x1048576_0_123_n_n_123_1_4111 x i),
    nullary main_c_274 (constantI S_ 32 0#32),
    unary main_c_274 main_v937 (broadcastInDim S1048576 ![] bcast_S_S1048576),
    binary main_v856 main_v937 main_v938 (cmpi .slt),
    nullary main_c_275 (constantI S_ 32 256#32),
    unary main_c_275 main_v939 (broadcastInDim S1048576 ![] bcast_S_S1048576),
    binary main_v856 main_v939 main_v940 addi,
    ternary main_v938 main_v940 main_v856 main_v941 select,
    nullary main_c_276 (constantI S_ 32 0#32),
    unary main_c_276 main_v942 (broadcastInDim S1048576 ![] bcast_S_S1048576),
    binary main_v847 main_v942 main_v943 (cmpi .slt),
    nullary main_c_277 (constantI S_ 32 256#32),
    unary main_c_277 main_v944 (broadcastInDim S1048576 ![] bcast_S_S1048576),
    binary main_v847 main_v944 main_v945 addi,
    ternary main_v943 main_v945 main_v847 main_v946 select,
    nullary main_c_278 (constantI S_ 32 0#32),
    unary main_c_278 main_v947 (broadcastInDim S1048576 ![] bcast_S_S1048576),
    binary main_v842 main_v947 main_v948 (cmpi .slt),
    nullary main_c_279 (constantI S_ 32 256#32),
    unary main_c_279 main_v949 (broadcastInDim S1048576 ![] bcast_S_S1048576),
    binary main_v842 main_v949 main_v950 addi,
    ternary main_v948 main_v950 main_v842 main_v951 select,
    unary main_v941 main_v952 (broadcastInDim S1048576x1 ![0] bcast_S1048576_S1048576x1_0),
    unary main_v946 main_v953 (broadcastInDim S1048576x1 ![0] bcast_S1048576_S1048576x1_0),
    unary main_v951 main_v954 (broadcastInDim S1048576x1 ![0] bcast_S1048576_S1048576x1_0),
    nary ![main_v952, main_v953, main_v954] main_v955 (fun u => concatenate S1048576x3 1 [⟨S1048576x1, u 0⟩, ⟨S1048576x1, u 1⟩, ⟨S1048576x1, u 2⟩] concatenates_S1048576x1_S1048576x1_S1048576x1_S1048576x3_d1),
    binary main_v790 main_v955 main_v956 (fun x i => Host.gather gather_S4x256x256x256_S1048576x3_S4x1048576_0_123_n_n_123_1_4111 x i),
    nullary main_c_280 (constantI S_ 32 0#32),
    unary main_c_280 main_v957 (broadcastInDim S1048576 ![] bcast_S_S1048576),
    binary main_v856 main_v957 main_v958 (cmpi .slt),
    nullary main_c_281 (constantI S_ 32 256#32),
    unary main_c_281 main_v959 (broadcastInDim S1048576 ![] bcast_S_S1048576),
    binary main_v856 main_v959 main_v960 addi,
    ternary main_v958 main_v960 main_v856 main_v961 select,
    nullary main_c_282 (constantI S_ 32 0#32),
    unary main_c_282 main_v962 (broadcastInDim S1048576 ![] bcast_S_S1048576),
    binary main_v847 main_v962 main_v963 (cmpi .slt),
    nullary main_c_283 (constantI S_ 32 256#32),
    unary main_c_283 main_v964 (broadcastInDim S1048576 ![] bcast_S_S1048576),
    binary main_v847 main_v964 main_v965 addi,
    ternary main_v963 main_v965 main_v847 main_v966 select,
    nullary main_c_284 (constantI S_ 32 0#32),
    unary main_c_284 main_v967 (broadcastInDim S1048576 ![] bcast_S_S1048576),
    binary main_v846 main_v967 main_v968 (cmpi .slt),
    nullary main_c_285 (constantI S_ 32 256#32),
    unary main_c_285 main_v969 (broadcastInDim S1048576 ![] bcast_S_S1048576),
    binary main_v846 main_v969 main_v970 addi,
    ternary main_v968 main_v970 main_v846 main_v971 select ]

abbrev ops_part21 : List (HloOp τ sig (Elt F)) :=
  [ unary main_v961 main_v972 (broadcastInDim S1048576x1 ![0] bcast_S1048576_S1048576x1_0),
    unary main_v966 main_v973 (broadcastInDim S1048576x1 ![0] bcast_S1048576_S1048576x1_0),
    unary main_v971 main_v974 (broadcastInDim S1048576x1 ![0] bcast_S1048576_S1048576x1_0),
    nary ![main_v972, main_v973, main_v974] main_v975 (fun u => concatenate S1048576x3 1 [⟨S1048576x1, u 0⟩, ⟨S1048576x1, u 1⟩, ⟨S1048576x1, u 2⟩] concatenates_S1048576x1_S1048576x1_S1048576x1_S1048576x3_d1),
    binary main_v790 main_v975 main_v976 (fun x i => Host.gather gather_S4x256x256x256_S1048576x3_S4x1048576_0_123_n_n_123_1_4111 x i),
    nullary main_c_286 (constantI S_ 32 0#32),
    unary main_c_286 main_v977 (broadcastInDim S1048576 ![] bcast_S_S1048576),
    binary main_v856 main_v977 main_v978 (cmpi .slt),
    nullary main_c_287 (constantI S_ 32 256#32),
    unary main_c_287 main_v979 (broadcastInDim S1048576 ![] bcast_S_S1048576),
    binary main_v856 main_v979 main_v980 addi,
    ternary main_v978 main_v980 main_v856 main_v981 select,
    nullary main_c_288 (constantI S_ 32 0#32),
    unary main_c_288 main_v982 (broadcastInDim S1048576 ![] bcast_S_S1048576),
    binary main_v851 main_v982 main_v983 (cmpi .slt),
    nullary main_c_289 (constantI S_ 32 256#32),
    unary main_c_289 main_v984 (broadcastInDim S1048576 ![] bcast_S_S1048576),
    binary main_v851 main_v984 main_v985 addi,
    ternary main_v983 main_v985 main_v851 main_v986 select,
    nullary main_c_290 (constantI S_ 32 0#32),
    unary main_c_290 main_v987 (broadcastInDim S1048576 ![] bcast_S_S1048576),
    binary main_v842 main_v987 main_v988 (cmpi .slt),
    nullary main_c_291 (constantI S_ 32 256#32),
    unary main_c_291 main_v989 (broadcastInDim S1048576 ![] bcast_S_S1048576),
    binary main_v842 main_v989 main_v990 addi,
    ternary main_v988 main_v990 main_v842 main_v991 select,
    unary main_v981 main_v992 (broadcastInDim S1048576x1 ![0] bcast_S1048576_S1048576x1_0),
    unary main_v986 main_v993 (broadcastInDim S1048576x1 ![0] bcast_S1048576_S1048576x1_0),
    unary main_v991 main_v994 (broadcastInDim S1048576x1 ![0] bcast_S1048576_S1048576x1_0),
    nary ![main_v992, main_v993, main_v994] main_v995 (fun u => concatenate S1048576x3 1 [⟨S1048576x1, u 0⟩, ⟨S1048576x1, u 1⟩, ⟨S1048576x1, u 2⟩] concatenates_S1048576x1_S1048576x1_S1048576x1_S1048576x3_d1),
    binary main_v790 main_v995 main_v996 (fun x i => Host.gather gather_S4x256x256x256_S1048576x3_S4x1048576_0_123_n_n_123_1_4111 x i),
    nullary main_c_292 (constantI S_ 32 0#32),
    unary main_c_292 main_v997 (broadcastInDim S1048576 ![] bcast_S_S1048576),
    binary main_v856 main_v997 main_v998 (cmpi .slt),
    nullary main_c_293 (constantI S_ 32 256#32),
    unary main_c_293 main_v999 (broadcastInDim S1048576 ![] bcast_S_S1048576),
    binary main_v856 main_v999 main_v1000 addi,
    ternary main_v998 main_v1000 main_v856 main_v1001 select,
    nullary main_c_294 (constantI S_ 32 0#32),
    unary main_c_294 main_v1002 (broadcastInDim S1048576 ![] bcast_S_S1048576),
    binary main_v851 main_v1002 main_v1003 (cmpi .slt),
    nullary main_c_295 (constantI S_ 32 256#32),
    unary main_c_295 main_v1004 (broadcastInDim S1048576 ![] bcast_S_S1048576),
    binary main_v851 main_v1004 main_v1005 addi,
    ternary main_v1003 main_v1005 main_v851 main_v1006 select,
    nullary main_c_296 (constantI S_ 32 0#32),
    unary main_c_296 main_v1007 (broadcastInDim S1048576 ![] bcast_S_S1048576),
    binary main_v846 main_v1007 main_v1008 (cmpi .slt),
    nullary main_c_297 (constantI S_ 32 256#32),
    unary main_c_297 main_v1009 (broadcastInDim S1048576 ![] bcast_S_S1048576),
    binary main_v846 main_v1009 main_v1010 addi,
    ternary main_v1008 main_v1010 main_v846 main_v1011 select,
    unary main_v1001 main_v1012 (broadcastInDim S1048576x1 ![0] bcast_S1048576_S1048576x1_0),
    unary main_v1006 main_v1013 (broadcastInDim S1048576x1 ![0] bcast_S1048576_S1048576x1_0),
    unary main_v1011 main_v1014 (broadcastInDim S1048576x1 ![0] bcast_S1048576_S1048576x1_0),
    nary ![main_v1012, main_v1013, main_v1014] main_v1015 (fun u => concatenate S1048576x3 1 [⟨S1048576x1, u 0⟩, ⟨S1048576x1, u 1⟩, ⟨S1048576x1, u 2⟩] concatenates_S1048576x1_S1048576x1_S1048576x1_S1048576x3_d1),
    binary main_v790 main_v1015 main_v1016 (fun x i => Host.gather gather_S4x256x256x256_S1048576x3_S4x1048576_0_123_n_n_123_1_4111 x i),
    binary main_v896 main_v876 main_v1017 subf,
    unary main_v829 main_v1018 (broadcastInDim S1x1048576 ![1] bcast_S1048576_S1x1048576_1),
    unary main_v1018 main_v1019 (broadcastInDim S4x1048576 ![0, 1] bcast_S1x1048576_S4x1048576_0_1) ]

abbrev ops_part22 : List (HloOp τ sig (Elt F)) :=
  [ binary main_v1017 main_v1019 main_v1020 mulf,
    binary main_v876 main_v1020 main_v1021 addf,
    binary main_v936 main_v916 main_v1022 subf,
    unary main_v829 main_v1023 (broadcastInDim S1x1048576 ![1] bcast_S1048576_S1x1048576_1),
    unary main_v1023 main_v1024 (broadcastInDim S4x1048576 ![0, 1] bcast_S1x1048576_S4x1048576_0_1),
    binary main_v1022 main_v1024 main_v1025 mulf,
    binary main_v916 main_v1025 main_v1026 addf,
    binary main_v976 main_v956 main_v1027 subf,
    unary main_v829 main_v1028 (broadcastInDim S1x1048576 ![1] bcast_S1048576_S1x1048576_1),
    unary main_v1028 main_v1029 (broadcastInDim S4x1048576 ![0, 1] bcast_S1x1048576_S4x1048576_0_1),
    binary main_v1027 main_v1029 main_v1030 mulf,
    binary main_v956 main_v1030 main_v1031 addf,
    binary main_v1016 main_v996 main_v1032 subf,
    unary main_v829 main_v1033 (broadcastInDim S1x1048576 ![1] bcast_S1048576_S1x1048576_1),
    unary main_v1033 main_v1034 (broadcastInDim S4x1048576 ![0, 1] bcast_S1x1048576_S4x1048576_0_1),
    binary main_v1032 main_v1034 main_v1035 mulf,
    binary main_v996 main_v1035 main_v1036 addf,
    binary main_v1026 main_v1021 main_v1037 subf,
    unary main_v835 main_v1038 (broadcastInDim S1x1048576 ![1] bcast_S1048576_S1x1048576_1),
    unary main_v1038 main_v1039 (broadcastInDim S4x1048576 ![0, 1] bcast_S1x1048576_S4x1048576_0_1),
    binary main_v1037 main_v1039 main_v1040 mulf,
    binary main_v1021 main_v1040 main_v1041 addf,
    binary main_v1036 main_v1031 main_v1042 subf,
    unary main_v835 main_v1043 (broadcastInDim S1x1048576 ![1] bcast_S1048576_S1x1048576_1),
    unary main_v1043 main_v1044 (broadcastInDim S4x1048576 ![0, 1] bcast_S1x1048576_S4x1048576_0_1),
    binary main_v1042 main_v1044 main_v1045 mulf,
    binary main_v1031 main_v1045 main_v1046 addf,
    binary main_v1046 main_v1041 main_v1047 subf,
    unary main_v841 main_v1048 (broadcastInDim S1x1048576 ![1] bcast_S1048576_S1x1048576_1),
    unary main_v1048 main_v1049 (broadcastInDim S4x1048576 ![0, 1] bcast_S1x1048576_S4x1048576_0_1),
    binary main_v1047 main_v1049 main_v1050 mulf,
    binary main_v1041 main_v1050 main_v1051 addf,
    reshape main_v1051 main_v1052 rfl shapeCasts_S4x1048576_S1x4x1x1x1048576,
    nary ![main_v263, main_v526, main_v789, main_v1052] main_v1053 (fun u => concatenate S1x16x1x1x1048576 1 [⟨S1x4x1x1x1048576, u 0⟩, ⟨S1x4x1x1x1048576, u 1⟩, ⟨S1x4x1x1x1048576, u 2⟩, ⟨S1x4x1x1x1048576, u 3⟩] concatenates_S1x4x1x1x1048576_S1x4x1x1x1048576_S1x4x1x1x1048576_S1x4x1x1x1048576_S1x16x1x1x1048576_d1) ]

abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22))))))))))))))))))))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
set_option maxHeartbeats 4000000 in
theorem main_part6_eq (c : Dev nD) : main_part6 (F := F) c = seq ops_part6 := rfl
set_option maxRecDepth 8192 in
set_option maxHeartbeats 4000000 in
theorem main_part7_eq (c : Dev nD) : main_part7 (F := F) c = seq ops_part7 := rfl
set_option maxRecDepth 8192 in
set_option maxHeartbeats 4000000 in
theorem main_part8_eq (c : Dev nD) : main_part8 (F := F) c = seq ops_part8 := rfl
set_option maxRecDepth 8192 in
set_option maxHeartbeats 4000000 in
theorem main_part9_eq (c : Dev nD) : main_part9 (F := F) c = seq ops_part9 := rfl
set_option maxRecDepth 8192 in
set_option maxHeartbeats 4000000 in
theorem main_part10_eq (c : Dev nD) : main_part10 (F := F) c = seq ops_part10 := rfl
set_option maxRecDepth 8192 in
set_option maxHeartbeats 4000000 in
theorem main_part11_eq (c : Dev nD) : main_part11 (F := F) c = seq ops_part11 := rfl
set_option maxRecDepth 8192 in
set_option maxHeartbeats 4000000 in
theorem main_part12_eq (c : Dev nD) : main_part12 (F := F) c = seq ops_part12 := rfl
set_option maxRecDepth 8192 in
set_option maxHeartbeats 4000000 in
theorem main_part13_eq (c : Dev nD) : main_part13 (F := F) c = seq ops_part13 := rfl
set_option maxRecDepth 8192 in
set_option maxHeartbeats 4000000 in
theorem main_part14_eq (c : Dev nD) : main_part14 (F := F) c = seq ops_part14 := rfl
set_option maxRecDepth 8192 in
set_option maxHeartbeats 4000000 in
theorem main_part15_eq (c : Dev nD) : main_part15 (F := F) c = seq ops_part15 := rfl
set_option maxRecDepth 8192 in
set_option maxHeartbeats 4000000 in
theorem main_part16_eq (c : Dev nD) : main_part16 (F := F) c = seq ops_part16 := rfl
set_option maxRecDepth 8192 in
set_option maxHeartbeats 4000000 in
theorem main_part17_eq (c : Dev nD) : main_part17 (F := F) c = seq ops_part17 := rfl
set_option maxRecDepth 8192 in
set_option maxHeartbeats 4000000 in
theorem main_part18_eq (c : Dev nD) : main_part18 (F := F) c = seq ops_part18 := rfl
set_option maxRecDepth 8192 in
set_option maxHeartbeats 4000000 in
theorem main_part19_eq (c : Dev nD) : main_part19 (F := F) c = seq ops_part19 := rfl
set_option maxRecDepth 8192 in
set_option maxHeartbeats 4000000 in
theorem main_part20_eq (c : Dev nD) : main_part20 (F := F) c = seq ops_part20 := rfl
set_option maxRecDepth 8192 in
set_option maxHeartbeats 4000000 in
theorem main_part21_eq (c : Dev nD) : main_part21 (F := F) c = seq ops_part21 := rfl
set_option maxRecDepth 8192 in
set_option maxHeartbeats 4000000 in
theorem main_part22_eq (c : Dev nD) : main_part22 (F := F) c = seq ops_part22 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub ..⟩
set_option maxRecDepth 8192 in
theorem ops_part2_sub : (ops_part2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops_part3_sub : (ops_part3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩
set_option maxRecDepth 8192 in
theorem ops_part4_sub : (ops_part4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem ops_part5_sub : (ops_part5 : List (HloOp τ sig (Elt F))).Forall fun op => op.bufs ⊆ tcRefs τ sig :=
  ⟨unary_bufs_sub .., nary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub ..⟩
set_option maxRecDepth 8192 in
theorem ops_part6_sub : (ops_part6 : List (HloOp τ sig (Elt F))).Forall fun op => op.bufs ⊆ tcRefs τ sig :=
  ⟨unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub ..⟩
set_option maxRecDepth 8192 in
theorem ops_part7_sub : (ops_part7 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
theorem ops_part8_sub : (ops_part8 : List (HloOp τ sig (Elt F))).Forall fun op => op.bufs ⊆ tcRefs τ sig :=
  ⟨unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub ..⟩
set_option maxRecDepth 8192 in
theorem ops_part9_sub : (ops_part9 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part10_sub : (ops_part10 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem ops_part11_sub : (ops_part11 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩
set_option maxRecDepth 8192 in
theorem ops_part12_sub : (ops_part12 : List (HloOp τ sig (Elt F))).Forall fun op => op.bufs ⊆ tcRefs τ sig :=
  ⟨unary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
theorem ops_part13_sub : (ops_part13 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
set_option maxRecDepth 8192 in
theorem ops_part14_sub : (ops_part14 : List (HloOp τ sig (Elt F))).Forall fun op => op.bufs ⊆ tcRefs τ sig :=
  ⟨nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub ..⟩
set_option maxRecDepth 8192 in
theorem ops_part15_sub : (ops_part15 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops_part16_sub : (ops_part16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., reshape_bufs_sub .., unary_bufs_sub .., reshape_bufs_sub .., nullary_bufs_sub .., unary_bufs_sub ..⟩
set_option maxRecDepth 8192 in
theorem ops_part17_sub : (ops_part17 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part18_sub : (ops_part18 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub ..⟩
set_option maxRecDepth 8192 in
theorem ops_part19_sub : (ops_part19 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
theorem ops_part20_sub : (ops_part20 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
theorem ops_part21_sub : (ops_part21 : List (HloOp τ sig (Elt F))).Forall fun op => op.bufs ⊆ tcRefs τ sig :=
  ⟨unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., unary_bufs_sub .., unary_bufs_sub ..⟩
set_option maxRecDepth 8192 in
theorem ops_part22_sub : (ops_part22 : List (HloOp τ sig (Elt F))).Forall fun op => op.bufs ⊆ tcRefs τ sig :=
  ⟨binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., nary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h, List.forall_iff_forall_mem.mp ops_part14_sub op h, List.forall_iff_forall_mem.mp ops_part15_sub op h, List.forall_iff_forall_mem.mp ops_part16_sub op h, List.forall_iff_forall_mem.mp ops_part17_sub op h, List.forall_iff_forall_mem.mp ops_part18_sub op h, List.forall_iff_forall_mem.mp ops_part19_sub op h, List.forall_iff_forall_mem.mp ops_part20_sub op h, List.forall_iff_forall_mem.mp ops_part21_sub op h, List.forall_iff_forall_mem.mp ops_part22_sub op h]

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
def val1 (V0 : Valuation τ sig (Elt F)) : Valuation τ sig (Elt F) := after ops_part0 (val0 V0)
abbrev ops_part0_W : List (Ref sig .tc) := [main_v0, main_v1, main_v2, main_v3, main_cst, main_v4, main_v5, main_cst_0, main_v6, main_v7, main_cst_1, main_v8, main_v9, main_cst_2, main_c, main_call0_v0, main_call0_v1, main_call0_v2, main_call0_v3, main_call0_v4, main_v10, main_v11, main_v12, main_cst_3, main_v13, main_v14, main_cst_4, main_v15, main_v16, main_cst_5, main_v17, main_v18, main_cst_6, main_c_7, main_call1_v0, main_call1_v1, main_call1_v2, main_call1_v3, main_call1_v4, main_v19, main_v20, main_v21, main_cst_8, main_v22, main_v23, main_cst_9, main_v24, main_v25, main_cst_10, main_v26, main_v27, main_cst_11, main_c_12, main_call2_v0, main_call2_v1, main_call2_v2, main_call2_v3, main_call2_v4, main_v28, main_v29, main_v30, main_v31, main_v32, main_v33, main_v34, main_v35, main_cst_13, main_v36, main_v37, main_cst_14, main_v38, main_v39, main_v40, main_v41, main_cst_15]
set_option maxRecDepth 8192 in
set_option maxHeartbeats 4000000 in
theorem ops_part0_writes : (ops_part0 : List (HloOp τ sig (Elt F))).Forall fun op => op.writes ⊆ (ops_part0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)

def val2 (V0 : Valuation τ sig (Elt F)) : Valuation τ sig (Elt F) := after ops_part1 (val1 V0)
abbrev ops_part1_W : List (Ref sig .tc) := [main_v42, main_v43, main_cst_16, main_v44, main_v45, main_v46, main_v47, main_cst_17, main_v48, main_v49, main_cst_18, main_v50, main_v51, main_v52, main_v53, main_c_19, main_v54, main_v55, main_c_20, main_v56, main_v57, main_v58, main_c_21, main_v59, main_v60, main_c_22, main_v61, main_v62, main_v63, main_c_23, main_v64, main_v65, main_c_24, main_v66, main_v67, main_c_25, main_v68, main_v69, main_c_26, main_v70, main_v71, main_v72, main_c_27, main_v73, main_v74, main_c_28, main_v75, main_v76, main_v77, main_c_29, main_v78, main_v79, main_c_30, main_v80, main_v81, main_v82, main_v83, main_v84, main_v85, main_v86]
set_option maxRecDepth 8192 in
set_option maxHeartbeats 4000000 in
theorem ops_part1_writes : (ops_part1 : List (HloOp τ sig (Elt F))).Forall fun op => op.writes ⊆ (ops_part1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)

def val3 (V0 : Valuation τ sig (Elt F)) : Valuation τ sig (Elt F) := after ops_part2 (val2 V0)
abbrev ops_part2_W : List (Ref sig .tc) := [main_v87, main_c_31, main_v88, main_v89, main_c_32, main_v90, main_v91, main_v92, main_c_33, main_v93, main_v94, main_c_34, main_v95, main_v96, main_v97, main_c_35, main_v98, main_v99, main_c_36, main_v100, main_v101, main_v102, main_v103, main_v104, main_v105, main_v106, main_v107, main_c_37, main_v108, main_v109, main_c_38, main_v110, main_v111, main_v112, main_c_39, main_v113, main_v114, main_c_40, main_v115, main_v116, main_v117, main_c_41, main_v118, main_v119, main_c_42, main_v120, main_v121, main_v122, main_v123, main_v124, main_v125, main_v126, main_v127, main_c_43, main_v128, main_v129, main_c_44, main_v130, main_v131, main_v132]
set_option maxRecDepth 8192 in
set_option maxHeartbeats 4000000 in
theorem ops_part2_writes : (ops_part2 : List (HloOp τ sig (Elt F))).Forall fun op => op.writes ⊆ (ops_part2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)

def val4 (V0 : Valuation τ sig (Elt F)) : Valuation τ sig (Elt F) := after ops_part3 (val3 V0)
abbrev ops_part3_W : List (Ref sig .tc) := [main_c_45, main_v133, main_v134, main_c_46, main_v135, main_v136, main_v137, main_c_47, main_v138, main_v139, main_c_48, main_v140, main_v141, main_v142, main_v143, main_v144, main_v145, main_v146, main_v147, main_c_49, main_v148, main_v149, main_c_50, main_v150, main_v151, main_v152, main_c_51, main_v153, main_v154, main_c_52, main_v155, main_v156, main_v157, main_c_53, main_v158, main_v159, main_c_54, main_v160, main_v161, main_v162, main_v163, main_v164, main_v165, main_v166, main_v167, main_c_55, main_v168, main_v169, main_c_56, main_v170, main_v171, main_v172, main_c_57, main_v173, main_v174, main_c_58, main_v175, main_v176, main_v177, main_c_59]
set_option maxRecDepth 8192 in
set_option maxHeartbeats 4000000 in
theorem ops_part3_writes : (ops_part3 : List (HloOp τ sig (Elt F))).Forall fun op => op.writes ⊆ (ops_part3_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)

def val5 (V0 : Valuation τ sig (Elt F)) : Valuation τ sig (Elt F) := after ops_part4 (val4 V0)
abbrev ops_part4_W : List (Ref sig .tc) := [main_v178, main_v179, main_c_60, main_v180, main_v181, main_v182, main_v183, main_v184, main_v185, main_v186, main_v187, main_c_61, main_v188, main_v189, main_c_62, main_v190, main_v191, main_v192, main_c_63, main_v193, main_v194, main_c_64, main_v195, main_v196, main_v197, main_c_65, main_v198, main_v199, main_c_66, main_v200, main_v201, main_v202, main_v203, main_v204, main_v205, main_v206, main_v207, main_c_67, main_v208, main_v209, main_c_68, main_v210, main_v211, main_v212, main_c_69, main_v213, main_v214, main_c_70, main_v215, main_v216, main_v217, main_c_71, main_v218, main_v219, main_c_72, main_v220, main_v221, main_v222, main_v223, main_v224]
set_option maxRecDepth 8192 in
set_option maxHeartbeats 4000000 in
theorem ops_part4_writes : (ops_part4 : List (HloOp τ sig (Elt F))).Forall fun op => op.writes ⊆ (ops_part4_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)

def val6 (V0 : Valuation τ sig (Elt F)) : Valuation τ sig (Elt F) := after ops_part5 (val5 V0)
abbrev ops_part5_W : List (Ref sig .tc) := [main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_cst_73, main_v267, main_v268, main_cst_74, main_v269, main_v270, main_cst_75, main_v271, main_v272, main_cst_76, main_c_77, main_call3_v0, main_call3_v1, main_call3_v2, main_call3_v3, main_call3_v4, main_v273, main_v274, main_v275, main_cst_78, main_v276, main_v277, main_cst_79]
set_option maxRecDepth 8192 in
set_option maxHeartbeats 4000000 in
theorem ops_part5_writes : (ops_part5 : List (HloOp τ sig (Elt F))).Forall fun op => op.writes ⊆ (ops_part5_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)

def val7 (V0 : Valuation τ sig (Elt F)) : Valuation τ sig (Elt F) := after ops_part6 (val6 V0)
abbrev ops_part6_W : List (Ref sig .tc) := [main_v278, main_v279, main_cst_80, main_v280, main_v281, main_cst_81, main_c_82, main_call4_v0, main_call4_v1, main_call4_v2, main_call4_v3, main_call4_v4, main_v282, main_v283, main_v284, main_cst_83, main_v285, main_v286, main_cst_84, main_v287, main_v288, main_cst_85, main_v289, main_v290, main_cst_86, main_c_87, main_call5_v0, main_call5_v1, main_call5_v2, main_call5_v3, main_call5_v4, main_v291, main_v292, main_v293, main_v294, main_v295, main_v296, main_v297, main_v298, main_cst_88, main_v299, main_v300, main_cst_89, main_v301, main_v302, main_v303, main_v304, main_cst_90, main_v305, main_v306, main_cst_91, main_v307, main_v308, main_v309, main_v310, main_cst_92, main_v311, main_v312, main_cst_93, main_v313, main_v314, main_v315, main_v316, main_c_94, main_v317, main_v318, main_c_95, main_v319, main_v320, main_v321]
set_option maxRecDepth 8192 in
set_option maxHeartbeats 4000000 in
theorem ops_part6_writes : (ops_part6 : List (HloOp τ sig (Elt F))).Forall fun op => op.writes ⊆ (ops_part6_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)

def val8 (V0 : Valuation τ sig (Elt F)) : Valuation τ sig (Elt F) := after ops_part7 (val7 V0)
abbrev ops_part7_W : List (Ref sig .tc) := [main_c_96, main_v322, main_v323, main_c_97, main_v324, main_v325, main_v326, main_c_98, main_v327, main_v328, main_c_99, main_v329, main_v330, main_c_100, main_v331, main_v332, main_c_101, main_v333, main_v334, main_v335, main_c_102, main_v336, main_v337, main_c_103, main_v338, main_v339, main_v340, main_c_104, main_v341, main_v342, main_c_105, main_v343, main_v344, main_v345, main_v346, main_v347, main_v348, main_v349, main_v350, main_c_106, main_v351, main_v352, main_c_107, main_v353, main_v354, main_v355, main_c_108, main_v356, main_v357, main_c_109, main_v358, main_v359, main_v360, main_c_110, main_v361, main_v362, main_c_111, main_v363, main_v364, main_v365]
set_option maxRecDepth 8192 in
set_option maxHeartbeats 4000000 in
theorem ops_part7_writes : (ops_part7 : List (HloOp τ sig (Elt F))).Forall fun op => op.writes ⊆ (ops_part7_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)

def val9 (V0 : Valuation τ sig (Elt F)) : Valuation τ sig (Elt F) := after ops_part8 (val8 V0)
abbrev ops_part8_W : List (Ref sig .tc) := [main_v366, main_v367, main_v368, main_v369, main_v370, main_c_112, main_v371, main_v372, main_c_113, main_v373, main_v374, main_v375, main_c_114, main_v376, main_v377, main_c_115, main_v378, main_v379, main_v380, main_c_116, main_v381, main_v382, main_c_117, main_v383, main_v384, main_v385, main_v386, main_v387, main_v388, main_v389, main_v390, main_c_118, main_v391, main_v392, main_c_119, main_v393, main_v394, main_v395, main_c_120, main_v396, main_v397, main_c_121, main_v398, main_v399, main_v400, main_c_122, main_v401, main_v402, main_c_123, main_v403, main_v404, main_v405, main_v406, main_v407, main_v408, main_v409, main_v410, main_c_124, main_v411, main_v412]
set_option maxRecDepth 8192 in
set_option maxHeartbeats 4000000 in
theorem ops_part8_writes : (ops_part8 : List (HloOp τ sig (Elt F))).Forall fun op => op.writes ⊆ (ops_part8_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val9_keep (V0 : Valuation τ sig (Elt F)) (r : Ref sig .tc) (h : r ∉ ops_part8_W) :
    val9 V0 (Proc.devRef .tc r) = val8 V0 (Proc.devRef .tc r) :=
  after_of_writes_sub ops_part8 _ ops_part8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)

def val10 (V0 : Valuation τ sig (Elt F)) : Valuation τ sig (Elt F) := after ops_part9 (val9 V0)
abbrev ops_part9_W : List (Ref sig .tc) := [main_c_125, main_v413, main_v414, main_v415, main_c_126, main_v416, main_v417, main_c_127, main_v418, main_v419, main_v420, main_c_128, main_v421, main_v422, main_c_129, main_v423, main_v424, main_v425, main_v426, main_v427, main_v428, main_v429, main_v430, main_c_130, main_v431, main_v432, main_c_131, main_v433, main_v434, main_v435, main_c_132, main_v436, main_v437, main_c_133, main_v438, main_v439, main_v440, main_c_134, main_v441, main_v442, main_c_135, main_v443, main_v444, main_v445, main_v446, main_v447, main_v448, main_v449, main_v450, main_c_136, main_v451, main_v452, main_c_137, main_v453, main_v454, main_v455, main_c_138, main_v456, main_v457, main_c_139]
set_option maxRecDepth 8192 in
set_option maxHeartbeats 4000000 in
theorem ops_part9_writes : (ops_part9 : List (HloOp τ sig (Elt F))).Forall fun op => op.writes ⊆ (ops_part9_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val10_keep (V0 : Valuation τ sig (Elt F)) (r : Ref sig .tc) (h : r ∉ ops_part9_W) :
    val10 V0 (Proc.devRef .tc r) = val9 V0 (Proc.devRef .tc r) :=
  after_of_writes_sub ops_part9 _ ops_part9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)

def val11 (V0 : Valuation τ sig (Elt F)) : Valuation τ sig (Elt F) := after ops_part10 (val10 V0)
abbrev ops_part10_W : List (Ref sig .tc) := [main_v458, main_v459, main_v460, main_c_140, main_v461, main_v462, main_c_141, main_v463, main_v464, main_v465, main_v466, main_v467, main_v468, main_v469, main_v470, main_c_142, main_v471, main_v472, main_c_143, main_v473, main_v474, main_v475, main_c_144, main_v476, main_v477, main_c_145, main_v478, main_v479, main_v480, main_c_146, main_v481, main_v482, main_c_147, main_v483, main_v484, main_v485, main_v486, main_v487, main_v488, main_v489, main_v490, main_v491, main_v492, main_v493, main_v494, main_v495, main_v496, main_v497, main_v498, main_v499, main_v500, main_v501, main_v502, main_v503, main_v504, main_v505, main_v506, main_v507, main_v508, main_v509]
set_option maxRecDepth 8192 in
set_option maxHeartbeats 4000000 in
theorem ops_part10_writes : (ops_part10 : List (HloOp τ sig (Elt F))).Forall fun op => op.writes ⊆ (ops_part10_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val11_keep (V0 : Valuation τ sig (Elt F)) (r : Ref sig .tc) (h : r ∉ ops_part10_W) :
    val11 V0 (Proc.devRef .tc r) = val10 V0 (Proc.devRef .tc r) :=
  after_of_writes_sub ops_part10 _ ops_part10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)

def val12 (V0 : Valuation τ sig (Elt F)) : Valuation τ sig (Elt F) := after ops_part11 (val11 V0)
abbrev ops_part11_W : List (Ref sig .tc) := [main_v510, main_v511, main_v512, main_v513, main_v514, main_v515, main_v516, main_v517, main_v518, main_v519, main_v520, main_v521, main_v522, main_v523, main_v524, main_v525, main_v526, main_v527, main_v528, main_v529, main_cst_148, main_v530, main_v531, main_cst_149, main_v532, main_v533, main_cst_150, main_v534, main_v535, main_cst_151, main_c_152, main_call6_v0, main_call6_v1, main_call6_v2, main_call6_v3, main_call6_v4, main_v536, main_v537, main_v538, main_cst_153, main_v539, main_v540, main_cst_154, main_v541, main_v542, main_cst_155, main_v543, main_v544, main_cst_156, main_c_157, main_call7_v0, main_call7_v1, main_call7_v2, main_call7_v3, main_call7_v4, main_v545, main_v546, main_v547, main_cst_158, main_v548, main_v549, main_cst_159, main_v550, main_v551, main_cst_160, main_v552, main_v553, main_cst_161, main_c_162, main_call8_v0, main_call8_v1, main_call8_v2, main_call8_v3, main_call8_v4, main_v554]
set_option maxRecDepth 8192 in
set_option maxHeartbeats 4000000 in
theorem ops_part11_writes : (ops_part11 : List (HloOp τ sig (Elt F))).Forall fun op => op.writes ⊆ (ops_part11_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val12_keep (V0 : Valuation τ sig (Elt F)) (r : Ref sig .tc) (h : r ∉ ops_part11_W) :
    val12 V0 (Proc.devRef .tc r) = val11 V0 (Proc.devRef .tc r) :=
  after_of_writes_sub ops_part11 _ ops_part11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)

def val13 (V0 : Valuation τ sig (Elt F)) : Valuation τ sig (Elt F) := after ops_part12 (val12 V0)
abbrev ops_part12_W : List (Ref sig .tc) := [main_v555, main_v556, main_v557, main_v558, main_v559, main_v560, main_v561, main_cst_163, main_v562, main_v563, main_cst_164, main_v564, main_v565, main_v566, main_v567, main_cst_165, main_v568, main_v569, main_cst_166, main_v570, main_v571, main_v572, main_v573, main_cst_167, main_v574, main_v575, main_cst_168, main_v576, main_v577, main_v578, main_v579, main_c_169, main_v580, main_v581, main_c_170, main_v582, main_v583, main_v584, main_c_171, main_v585, main_v586, main_c_172, main_v587, main_v588, main_v589, main_c_173, main_v590, main_v591, main_c_174, main_v592, main_v593, main_c_175, main_v594, main_v595, main_c_176, main_v596, main_v597, main_v598, main_c_177, main_v599]
set_option maxRecDepth 8192 in
set_option maxHeartbeats 4000000 in
theorem ops_part12_writes : (ops_part12 : List (HloOp τ sig (Elt F))).Forall fun op => op.writes ⊆ (ops_part12_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val13_keep (V0 : Valuation τ sig (Elt F)) (r : Ref sig .tc) (h : r ∉ ops_part12_W) :
    val13 V0 (Proc.devRef .tc r) = val12 V0 (Proc.devRef .tc r) :=
  after_of_writes_sub ops_part12 _ ops_part12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)

def val14 (V0 : Valuation τ sig (Elt F)) : Valuation τ sig (Elt F) := after ops_part13 (val13 V0)
abbrev ops_part13_W : List (Ref sig .tc) := [main_v600, main_c_178, main_v601, main_v602, main_v603, main_c_179, main_v604, main_v605, main_c_180, main_v606, main_v607, main_v608, main_v609, main_v610, main_v611, main_v612, main_v613, main_c_181, main_v614, main_v615, main_c_182, main_v616, main_v617, main_v618, main_c_183, main_v619, main_v620, main_c_184, main_v621, main_v622, main_v623, main_c_185, main_v624, main_v625, main_c_186, main_v626, main_v627, main_v628, main_v629, main_v630, main_v631, main_v632, main_v633, main_c_187, main_v634, main_v635, main_c_188, main_v636, main_v637, main_v638, main_c_189, main_v639, main_v640, main_c_190, main_v641, main_v642, main_v643, main_c_191, main_v644, main_v645]
set_option maxRecDepth 8192 in
set_option maxHeartbeats 4000000 in
theorem ops_part13_writes : (ops_part13 : List (HloOp τ sig (Elt F))).Forall fun op => op.writes ⊆ (ops_part13_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val14_keep (V0 : Valuation τ sig (Elt F)) (r : Ref sig .tc) (h : r ∉ ops_part13_W) :
    val14 V0 (Proc.devRef .tc r) = val13 V0 (Proc.devRef .tc r) :=
  after_of_writes_sub ops_part13 _ ops_part13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)

def val15 (V0 : Valuation τ sig (Elt F)) : Valuation τ sig (Elt F) := after ops_part14 (val14 V0)
abbrev ops_part14_W : List (Ref sig .tc) := [main_c_192, main_v646, main_v647, main_v648, main_v649, main_v650, main_v651, main_v652, main_v653, main_c_193, main_v654, main_v655, main_c_194, main_v656, main_v657, main_v658, main_c_195, main_v659, main_v660, main_c_196, main_v661, main_v662, main_v663, main_c_197, main_v664, main_v665, main_c_198, main_v666, main_v667, main_v668, main_v669, main_v670, main_v671, main_v672, main_v673, main_c_199, main_v674, main_v675, main_c_200, main_v676, main_v677, main_v678, main_c_201, main_v679, main_v680, main_c_202, main_v681, main_v682, main_v683, main_c_203, main_v684, main_v685, main_c_204, main_v686, main_v687, main_v688, main_v689, main_v690, main_v691, main_v692]
set_option maxRecDepth 8192 in
set_option maxHeartbeats 4000000 in
theorem ops_part14_writes : (ops_part14 : List (HloOp τ sig (Elt F))).Forall fun op => op.writes ⊆ (ops_part14_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val15_keep (V0 : Valuation τ sig (Elt F)) (r : Ref sig .tc) (h : r ∉ ops_part14_W) :
    val15 V0 (Proc.devRef .tc r) = val14 V0 (Proc.devRef .tc r) :=
  after_of_writes_sub ops_part14 _ ops_part14_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)

def val16 (V0 : Valuation τ sig (Elt F)) : Valuation τ sig (Elt F) := after ops_part15 (val15 V0)
abbrev ops_part15_W : List (Ref sig .tc) := [main_v693, main_c_205, main_v694, main_v695, main_c_206, main_v696, main_v697, main_v698, main_c_207, main_v699, main_v700, main_c_208, main_v701, main_v702, main_v703, main_c_209, main_v704, main_v705, main_c_210, main_v706, main_v707, main_v708, main_v709, main_v710, main_v711, main_v712, main_v713, main_c_211, main_v714, main_v715, main_c_212, main_v716, main_v717, main_v718, main_c_213, main_v719, main_v720, main_c_214, main_v721, main_v722, main_v723, main_c_215, main_v724, main_v725, main_c_216, main_v726, main_v727, main_v728, main_v729, main_v730, main_v731, main_v732, main_v733, main_c_217, main_v734, main_v735, main_c_218, main_v736, main_v737, main_v738]
set_option maxRecDepth 8192 in
set_option maxHeartbeats 4000000 in
theorem ops_part15_writes : (ops_part15 : List (HloOp τ sig (Elt F))).Forall fun op => op.writes ⊆ (ops_part15_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val16_keep (V0 : Valuation τ sig (Elt F)) (r : Ref sig .tc) (h : r ∉ ops_part15_W) :
    val16 V0 (Proc.devRef .tc r) = val15 V0 (Proc.devRef .tc r) :=
  after_of_writes_sub ops_part15 _ ops_part15_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_arg4 (V0 : Valuation τ sig (Elt F)) : val16 V0 (no_index (Proc.devRef .tc main_arg4)) = V0 (Proc.devRef .tc main_arg4) :=
  (val16_keep V0 main_arg4 (by decide)).trans (val15_main_arg4 V0)

def val17 (V0 : Valuation τ sig (Elt F)) : Valuation τ sig (Elt F) := after ops_part16 (val16 V0)
abbrev ops_part16_W : List (Ref sig .tc) := [main_c_219, main_v739, main_v740, main_c_220, main_v741, main_v742, main_v743, main_c_221, main_v744, main_v745, main_c_222, main_v746, main_v747, main_v748, main_v749, main_v750, main_v751, main_v752, main_v753, main_v754, main_v755, main_v756, main_v757, main_v758, main_v759, main_v760, main_v761, main_v762, main_v763, main_v764, main_v765, main_v766, main_v767, main_v768, main_v769, main_v770, main_v771, main_v772, main_v773, main_v774, main_v775, main_v776, main_v777, main_v778, main_v779, main_v780, main_v781, main_v782, main_v783, main_v784, main_v785, main_v786, main_v787, main_v788, main_v789, main_v790, main_v791, main_v792, main_cst_223, main_v793]
set_option maxRecDepth 8192 in
set_option maxHeartbeats 4000000 in
theorem ops_part16_writes : (ops_part16 : List (HloOp τ sig (Elt F))).Forall fun op => op.writes ⊆ (ops_part16_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val17_keep (V0 : Valuation τ sig (Elt F)) (r : Ref sig .tc) (h : r ∉ ops_part16_W) :
    val17 V0 (Proc.devRef .tc r) = val16 V0 (Proc.devRef .tc r) :=
  after_of_writes_sub ops_part16 _ ops_part16_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide)).trans (val16_main_arg3 V0)
theorem val17_main_arg4 (V0 : Valuation τ sig (Elt F)) : val17 V0 (no_index (Proc.devRef .tc main_arg4)) = V0 (Proc.devRef .tc main_arg4) :=
  (val17_keep V0 main_arg4 (by decide)).trans (val16_main_arg4 V0)

def val18 (V0 : Valuation τ sig (Elt F)) : Valuation τ sig (Elt F) := after ops_part17 (val17 V0)
abbrev ops_part17_W : List (Ref sig .tc) := [main_v794, main_cst_224, main_v795, main_v796, main_cst_225, main_v797, main_v798, main_cst_226, main_c_227, main_call9_v0, main_call9_v1, main_call9_v2, main_call9_v3, main_call9_v4, main_v799, main_v800, main_v801, main_cst_228, main_v802, main_v803, main_cst_229, main_v804, main_v805, main_cst_230, main_v806, main_v807, main_cst_231, main_c_232, main_call10_v0, main_call10_v1, main_call10_v2, main_call10_v3, main_call10_v4, main_v808, main_v809, main_v810, main_cst_233, main_v811, main_v812, main_cst_234, main_v813, main_v814, main_cst_235, main_v815, main_v816, main_cst_236, main_c_237, main_call11_v0, main_call11_v1, main_call11_v2, main_call11_v3, main_call11_v4, main_v817, main_v818, main_v819, main_v820, main_v821, main_v822, main_v823, main_v824, main_cst_238, main_v825, main_v826, main_cst_239, main_v827, main_v828, main_v829, main_v830, main_cst_240, main_v831, main_v832, main_cst_241, main_v833, main_v834, main_v835]
set_option maxRecDepth 8192 in
set_option maxHeartbeats 4000000 in
theorem ops_part17_writes : (ops_part17 : List (HloOp τ sig (Elt F))).Forall fun op => op.writes ⊆ (ops_part17_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val18_keep (V0 : Valuation τ sig (Elt F)) (r : Ref sig .tc) (h : r ∉ ops_part17_W) :
    val18 V0 (Proc.devRef .tc r) = val17 V0 (Proc.devRef .tc r) :=
  after_of_writes_sub ops_part17 _ ops_part17_writes h
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
theorem val18_main_arg2 (V0 : Valuation τ sig (Elt F)) : val18 V0 (no_index (Proc.devRef .tc main_arg2)) = V0 (Proc.devRef .tc main_arg2) :=
  (val18_keep V0 main_arg2 (by decide)).trans (val17_main_arg2 V0)
theorem val18_main_arg3 (V0 : Valuation τ sig (Elt F)) : val18 V0 (no_index (Proc.devRef .tc main_arg3)) = V0 (Proc.devRef .tc main_arg3) :=
  (val18_keep V0 main_arg3 (by decide)).trans (val17_main_arg3 V0)
theorem val18_main_arg4 (V0 : Valuation τ sig (Elt F)) : val18 V0 (no_index (Proc.devRef .tc main_arg4)) = V0 (Proc.devRef .tc main_arg4) :=
  (val18_keep V0 main_arg4 (by decide)).trans (val17_main_arg4 V0)

def val19 (V0 : Valuation τ sig (Elt F)) : Valuation τ sig (Elt F) := after ops_part18 (val18 V0)
abbrev ops_part18_W : List (Ref sig .tc) := [main_v836, main_cst_242, main_v837, main_v838, main_cst_243, main_v839, main_v840, main_v841, main_v842, main_c_244, main_v843, main_v844, main_c_245, main_v845, main_v846, main_v847, main_c_246, main_v848, main_v849, main_c_247, main_v850, main_v851, main_v852, main_c_248, main_v853, main_v854, main_c_249, main_v855, main_v856, main_c_250, main_v857, main_v858, main_c_251, main_v859, main_v860, main_v861, main_c_252, main_v862, main_v863, main_c_253, main_v864, main_v865, main_v866, main_c_254, main_v867, main_v868, main_c_255, main_v869, main_v870, main_v871, main_v872, main_v873, main_v874, main_v875, main_v876, main_c_256, main_v877, main_v878, main_c_257, main_v879]
set_option maxRecDepth 8192 in
set_option maxHeartbeats 4000000 in
theorem ops_part18_writes : (ops_part18 : List (HloOp τ sig (Elt F))).Forall fun op => op.writes ⊆ (ops_part18_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val19_keep (V0 : Valuation τ sig (Elt F)) (r : Ref sig .tc) (h : r ∉ ops_part18_W) :
    val19 V0 (Proc.devRef .tc r) = val18 V0 (Proc.devRef .tc r) :=
  after_of_writes_sub ops_part18 _ ops_part18_writes h
theorem val19_main_arg0 (V0 : Valuation τ sig (Elt F)) : val19 V0 (no_index (Proc.devRef .tc main_arg0)) = V0 (Proc.devRef .tc main_arg0) :=
  (val19_keep V0 main_arg0 (by decide)).trans (val18_main_arg0 V0)
theorem val19_main_arg1 (V0 : Valuation τ sig (Elt F)) : val19 V0 (no_index (Proc.devRef .tc main_arg1)) = V0 (Proc.devRef .tc main_arg1) :=
  (val19_keep V0 main_arg1 (by decide)).trans (val18_main_arg1 V0)
theorem val19_main_arg2 (V0 : Valuation τ sig (Elt F)) : val19 V0 (no_index (Proc.devRef .tc main_arg2)) = V0 (Proc.devRef .tc main_arg2) :=
  (val19_keep V0 main_arg2 (by decide)).trans (val18_main_arg2 V0)
theorem val19_main_arg3 (V0 : Valuation τ sig (Elt F)) : val19 V0 (no_index (Proc.devRef .tc main_arg3)) = V0 (Proc.devRef .tc main_arg3) :=
  (val19_keep V0 main_arg3 (by decide)).trans (val18_main_arg3 V0)
theorem val19_main_arg4 (V0 : Valuation τ sig (Elt F)) : val19 V0 (no_index (Proc.devRef .tc main_arg4)) = V0 (Proc.devRef .tc main_arg4) :=
  (val19_keep V0 main_arg4 (by decide)).trans (val18_main_arg4 V0)

def val20 (V0 : Valuation τ sig (Elt F)) : Valuation τ sig (Elt F) := after ops_part19 (val19 V0)
abbrev ops_part19_W : List (Ref sig .tc) := [main_v880, main_v881, main_c_258, main_v882, main_v883, main_c_259, main_v884, main_v885, main_v886, main_c_260, main_v887, main_v888, main_c_261, main_v889, main_v890, main_v891, main_v892, main_v893, main_v894, main_v895, main_v896, main_c_262, main_v897, main_v898, main_c_263, main_v899, main_v900, main_v901, main_c_264, main_v902, main_v903, main_c_265, main_v904, main_v905, main_v906, main_c_266, main_v907, main_v908, main_c_267, main_v909, main_v910, main_v911, main_v912, main_v913, main_v914, main_v915, main_v916, main_c_268, main_v917, main_v918, main_c_269, main_v919, main_v920, main_v921, main_c_270, main_v922, main_v923, main_c_271, main_v924, main_v925]
set_option maxRecDepth 8192 in
set_option maxHeartbeats 4000000 in
theorem ops_part19_writes : (ops_part19 : List (HloOp τ sig (Elt F))).Forall fun op => op.writes ⊆ (ops_part19_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val20_keep (V0 : Valuation τ sig (Elt F)) (r : Ref sig .tc) (h : r ∉ ops_part19_W) :
    val20 V0 (Proc.devRef .tc r) = val19 V0 (Proc.devRef .tc r) :=
  after_of_writes_sub ops_part19 _ ops_part19_writes h
theorem val20_main_arg0 (V0 : Valuation τ sig (Elt F)) : val20 V0 (no_index (Proc.devRef .tc main_arg0)) = V0 (Proc.devRef .tc main_arg0) :=
  (val20_keep V0 main_arg0 (by decide)).trans (val19_main_arg0 V0)
theorem val20_main_arg1 (V0 : Valuation τ sig (Elt F)) : val20 V0 (no_index (Proc.devRef .tc main_arg1)) = V0 (Proc.devRef .tc main_arg1) :=
  (val20_keep V0 main_arg1 (by decide)).trans (val19_main_arg1 V0)
theorem val20_main_arg2 (V0 : Valuation τ sig (Elt F)) : val20 V0 (no_index (Proc.devRef .tc main_arg2)) = V0 (Proc.devRef .tc main_arg2) :=
  (val20_keep V0 main_arg2 (by decide)).trans (val19_main_arg2 V0)
theorem val20_main_arg3 (V0 : Valuation τ sig (Elt F)) : val20 V0 (no_index (Proc.devRef .tc main_arg3)) = V0 (Proc.devRef .tc main_arg3) :=
  (val20_keep V0 main_arg3 (by decide)).trans (val19_main_arg3 V0)
theorem val20_main_arg4 (V0 : Valuation τ sig (Elt F)) : val20 V0 (no_index (Proc.devRef .tc main_arg4)) = V0 (Proc.devRef .tc main_arg4) :=
  (val20_keep V0 main_arg4 (by decide)).trans (val19_main_arg4 V0)

def val21 (V0 : Valuation τ sig (Elt F)) : Valuation τ sig (Elt F) := after ops_part20 (val20 V0)
abbrev ops_part20_W : List (Ref sig .tc) := [main_v926, main_c_272, main_v927, main_v928, main_c_273, main_v929, main_v930, main_v931, main_v932, main_v933, main_v934, main_v935, main_v936, main_c_274, main_v937, main_v938, main_c_275, main_v939, main_v940, main_v941, main_c_276, main_v942, main_v943, main_c_277, main_v944, main_v945, main_v946, main_c_278, main_v947, main_v948, main_c_279, main_v949, main_v950, main_v951, main_v952, main_v953, main_v954, main_v955, main_v956, main_c_280, main_v957, main_v958, main_c_281, main_v959, main_v960, main_v961, main_c_282, main_v962, main_v963, main_c_283, main_v964, main_v965, main_v966, main_c_284, main_v967, main_v968, main_c_285, main_v969, main_v970, main_v971]
set_option maxRecDepth 8192 in
set_option maxHeartbeats 4000000 in
theorem ops_part20_writes : (ops_part20 : List (HloOp τ sig (Elt F))).Forall fun op => op.writes ⊆ (ops_part20_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val21_keep (V0 : Valuation τ sig (Elt F)) (r : Ref sig .tc) (h : r ∉ ops_part20_W) :
    val21 V0 (Proc.devRef .tc r) = val20 V0 (Proc.devRef .tc r) :=
  after_of_writes_sub ops_part20 _ ops_part20_writes h
theorem val21_main_arg0 (V0 : Valuation τ sig (Elt F)) : val21 V0 (no_index (Proc.devRef .tc main_arg0)) = V0 (Proc.devRef .tc main_arg0) :=
  (val21_keep V0 main_arg0 (by decide)).trans (val20_main_arg0 V0)
theorem val21_main_arg1 (V0 : Valuation τ sig (Elt F)) : val21 V0 (no_index (Proc.devRef .tc main_arg1)) = V0 (Proc.devRef .tc main_arg1) :=
  (val21_keep V0 main_arg1 (by decide)).trans (val20_main_arg1 V0)
theorem val21_main_arg2 (V0 : Valuation τ sig (Elt F)) : val21 V0 (no_index (Proc.devRef .tc main_arg2)) = V0 (Proc.devRef .tc main_arg2) :=
  (val21_keep V0 main_arg2 (by decide)).trans (val20_main_arg2 V0)
theorem val21_main_arg3 (V0 : Valuation τ sig (Elt F)) : val21 V0 (no_index (Proc.devRef .tc main_arg3)) = V0 (Proc.devRef .tc main_arg3) :=
  (val21_keep V0 main_arg3 (by decide)).trans (val20_main_arg3 V0)
theorem val21_main_arg4 (V0 : Valuation τ sig (Elt F)) : val21 V0 (no_index (Proc.devRef .tc main_arg4)) = V0 (Proc.devRef .tc main_arg4) :=
  (val21_keep V0 main_arg4 (by decide)).trans (val20_main_arg4 V0)

def val22 (V0 : Valuation τ sig (Elt F)) : Valuation τ sig (Elt F) := after ops_part21 (val21 V0)
abbrev ops_part21_W : List (Ref sig .tc) := [main_v972, main_v973, main_v974, main_v975, main_v976, main_c_286, main_v977, main_v978, main_c_287, main_v979, main_v980, main_v981, main_c_288, main_v982, main_v983, main_c_289, main_v984, main_v985, main_v986, main_c_290, main_v987, main_v988, main_c_291, main_v989, main_v990, main_v991, main_v992, main_v993, main_v994, main_v995, main_v996, main_c_292, main_v997, main_v998, main_c_293, main_v999, main_v1000, main_v1001, main_c_294, main_v1002, main_v1003, main_c_295, main_v1004, main_v1005, main_v1006, main_c_296, main_v1007, main_v1008, main_c_297, main_v1009, main_v1010, main_v1011, main_v1012, main_v1013, main_v1014, main_v1015, main_v1016, main_v1017, main_v1018, main_v1019]
set_option maxRecDepth 8192 in
set_option maxHeartbeats 4000000 in
theorem ops_part21_writes : (ops_part21 : List (HloOp τ sig (Elt F))).Forall fun op => op.writes ⊆ (ops_part21_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val22_keep (V0 : Valuation τ sig (Elt F)) (r : Ref sig .tc) (h : r ∉ ops_part21_W) :
    val22 V0 (Proc.devRef .tc r) = val21 V0 (Proc.devRef .tc r) :=
  after_of_writes_sub ops_part21 _ ops_part21_writes h
theorem val22_main_arg0 (V0 : Valuation τ sig (Elt F)) : val22 V0 (no_index (Proc.devRef .tc main_arg0)) = V0 (Proc.devRef .tc main_arg0) :=
  (val22_keep V0 main_arg0 (by decide)).trans (val21_main_arg0 V0)
theorem val22_main_arg1 (V0 : Valuation τ sig (Elt F)) : val22 V0 (no_index (Proc.devRef .tc main_arg1)) = V0 (Proc.devRef .tc main_arg1) :=
  (val22_keep V0 main_arg1 (by decide)).trans (val21_main_arg1 V0)
theorem val22_main_arg2 (V0 : Valuation τ sig (Elt F)) : val22 V0 (no_index (Proc.devRef .tc main_arg2)) = V0 (Proc.devRef .tc main_arg2) :=
  (val22_keep V0 main_arg2 (by decide)).trans (val21_main_arg2 V0)
theorem val22_main_arg3 (V0 : Valuation τ sig (Elt F)) : val22 V0 (no_index (Proc.devRef .tc main_arg3)) = V0 (Proc.devRef .tc main_arg3) :=
  (val22_keep V0 main_arg3 (by decide)).trans (val21_main_arg3 V0)
theorem val22_main_arg4 (V0 : Valuation τ sig (Elt F)) : val22 V0 (no_index (Proc.devRef .tc main_arg4)) = V0 (Proc.devRef .tc main_arg4) :=
  (val22_keep V0 main_arg4 (by decide)).trans (val21_main_arg4 V0)

def val23 (V0 : Valuation τ sig (Elt F)) : Valuation τ sig (Elt F) := after ops_part22 (val22 V0)
abbrev ops_part22_W : List (Ref sig .tc) := [main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_v1050, main_v1051, main_v1052, main_v1053]
set_option maxRecDepth 8192 in
set_option maxHeartbeats 4000000 in
theorem ops_part22_writes : (ops_part22 : List (HloOp τ sig (Elt F))).Forall fun op => op.writes ⊆ (ops_part22_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
theorem val23_keep (V0 : Valuation τ sig (Elt F)) (r : Ref sig .tc) (h : r ∉ ops_part22_W) :
    val23 V0 (Proc.devRef .tc r) = val22 V0 (Proc.devRef .tc r) :=
  after_of_writes_sub ops_part22 _ ops_part22_writes h
theorem val23_main_arg0 (V0 : Valuation τ sig (Elt F)) : val23 V0 (no_index (Proc.devRef .tc main_arg0)) = V0 (Proc.devRef .tc main_arg0) :=
  (val23_keep V0 main_arg0 (by decide)).trans (val22_main_arg0 V0)
theorem val23_main_arg1 (V0 : Valuation τ sig (Elt F)) : val23 V0 (no_index (Proc.devRef .tc main_arg1)) = V0 (Proc.devRef .tc main_arg1) :=
  (val23_keep V0 main_arg1 (by decide)).trans (val22_main_arg1 V0)
theorem val23_main_arg2 (V0 : Valuation τ sig (Elt F)) : val23 V0 (no_index (Proc.devRef .tc main_arg2)) = V0 (Proc.devRef .tc main_arg2) :=
  (val23_keep V0 main_arg2 (by decide)).trans (val22_main_arg2 V0)
theorem val23_main_arg3 (V0 : Valuation τ sig (Elt F)) : val23 V0 (no_index (Proc.devRef .tc main_arg3)) = V0 (Proc.devRef .tc main_arg3) :=
  (val23_keep V0 main_arg3 (by decide)).trans (val22_main_arg3 V0)
theorem val23_main_arg4 (V0 : Valuation τ sig (Elt F)) : val23 V0 (no_index (Proc.devRef .tc main_arg4)) = V0 (Proc.devRef .tc main_arg4) :=
  (val23_keep V0 main_arg4 (by decide)).trans (val22_main_arg4 V0)

theorem after_ops (V0 : Valuation τ sig (Elt F)) : after ops V0 = val23 V0 := by
  simp only [ops, after_append]
  rfl

end Cert.ReferenceIdeal.ValueW

end
-- ==== Proof.RefFresh.lean ====
import proofs.«421879_j36455682409092_3_alg».proof.Proof.RefOps

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops_part0_fresh : (ops_part0 : List (HloOp τ sig (Elt F))).Forall fun op => op.fresh = ∅ := by
  simp only [List.Forall]; repeat' constructor
set_option maxRecDepth 8192 in
theorem ops_part1_fresh : (ops_part1 : List (HloOp τ sig (Elt F))).Forall fun op => op.fresh = ∅ := by
  simp only [List.Forall]; repeat' constructor
set_option maxRecDepth 8192 in
theorem ops_part2_fresh : (ops_part2 : List (HloOp τ sig (Elt F))).Forall fun op => op.fresh = ∅ := by
  simp only [List.Forall]; repeat' constructor
set_option maxRecDepth 8192 in
theorem ops_part3_fresh : (ops_part3 : List (HloOp τ sig (Elt F))).Forall fun op => op.fresh = ∅ := by
  simp only [List.Forall]; repeat' constructor
set_option maxRecDepth 8192 in
theorem ops_part4_fresh : (ops_part4 : List (HloOp τ sig (Elt F))).Forall fun op => op.fresh = ∅ := by
  simp only [List.Forall]; repeat' constructor
set_option maxRecDepth 8192 in
theorem ops_part5_fresh : (ops_part5 : List (HloOp τ sig (Elt F))).Forall fun op => op.fresh = ∅ := by
  simp only [List.Forall]; repeat' constructor
set_option maxRecDepth 8192 in
theorem ops_part6_fresh : (ops_part6 : List (HloOp τ sig (Elt F))).Forall fun op => op.fresh = ∅ := by
  simp only [List.Forall]; repeat' constructor
set_option maxRecDepth 8192 in
theorem ops_part7_fresh : (ops_part7 : List (HloOp τ sig (Elt F))).Forall fun op => op.fresh = ∅ := by
  simp only [List.Forall]; repeat' constructor
set_option maxRecDepth 8192 in
theorem ops_part8_fresh : (ops_part8 : List (HloOp τ sig (Elt F))).Forall fun op => op.fresh = ∅ := by
  simp only [List.Forall]; repeat' constructor
set_option maxRecDepth 8192 in
theorem ops_part9_fresh : (ops_part9 : List (HloOp τ sig (Elt F))).Forall fun op => op.fresh = ∅ := by
  simp only [List.Forall]; repeat' constructor
set_option maxRecDepth 8192 in
theorem ops_part10_fresh : (ops_part10 : List (HloOp τ sig (Elt F))).Forall fun op => op.fresh = ∅ := by
  simp only [List.Forall]; repeat' constructor
set_option maxRecDepth 8192 in
theorem ops_part11_fresh : (ops_part11 : List (HloOp τ sig (Elt F))).Forall fun op => op.fresh = ∅ := by
  simp only [List.Forall]; repeat' constructor
set_option maxRecDepth 8192 in
theorem ops_part12_fresh : (ops_part12 : List (HloOp τ sig (Elt F))).Forall fun op => op.fresh = ∅ := by
  simp only [List.Forall]; repeat' constructor
set_option maxRecDepth 8192 in
theorem ops_part13_fresh : (ops_part13 : List (HloOp τ sig (Elt F))).Forall fun op => op.fresh = ∅ := by
  simp only [List.Forall]; repeat' constructor
set_option maxRecDepth 8192 in
theorem ops_part14_fresh : (ops_part14 : List (HloOp τ sig (Elt F))).Forall fun op => op.fresh = ∅ := by
  simp only [List.Forall]; repeat' constructor
set_option maxRecDepth 8192 in
theorem ops_part15_fresh : (ops_part15 : List (HloOp τ sig (Elt F))).Forall fun op => op.fresh = ∅ := by
  simp only [List.Forall]; repeat' constructor
set_option maxRecDepth 8192 in
theorem ops_part16_fresh : (ops_part16 : List (HloOp τ sig (Elt F))).Forall fun op => op.fresh = ∅ := by
  simp only [List.Forall]; repeat' constructor
set_option maxRecDepth 8192 in
theorem ops_part17_fresh : (ops_part17 : List (HloOp τ sig (Elt F))).Forall fun op => op.fresh = ∅ := by
  simp only [List.Forall]; repeat' constructor
set_option maxRecDepth 8192 in
theorem ops_part18_fresh : (ops_part18 : List (HloOp τ sig (Elt F))).Forall fun op => op.fresh = ∅ := by
  simp only [List.Forall]; repeat' constructor
set_option maxRecDepth 8192 in
theorem ops_part19_fresh : (ops_part19 : List (HloOp τ sig (Elt F))).Forall fun op => op.fresh = ∅ := by
  simp only [List.Forall]; repeat' constructor
set_option maxRecDepth 8192 in
theorem ops_part20_fresh : (ops_part20 : List (HloOp τ sig (Elt F))).Forall fun op => op.fresh = ∅ := by
  simp only [List.Forall]; repeat' constructor
set_option maxRecDepth 8192 in
theorem ops_part21_fresh : (ops_part21 : List (HloOp τ sig (Elt F))).Forall fun op => op.fresh = ∅ := by
  simp only [List.Forall]; repeat' constructor
set_option maxRecDepth 8192 in
theorem ops_part22_fresh : (ops_part22 : List (HloOp τ sig (Elt F))).Forall fun op => op.fresh = ∅ := by
  simp only [List.Forall]; repeat' constructor
theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h, List.forall_iff_forall_mem.mp ops_part7_fresh op h, List.forall_iff_forall_mem.mp ops_part8_fresh op h, List.forall_iff_forall_mem.mp ops_part9_fresh op h, List.forall_iff_forall_mem.mp ops_part10_fresh op h, List.forall_iff_forall_mem.mp ops_part11_fresh op h, List.forall_iff_forall_mem.mp ops_part12_fresh op h, List.forall_iff_forall_mem.mp ops_part13_fresh op h, List.forall_iff_forall_mem.mp ops_part14_fresh op h, List.forall_iff_forall_mem.mp ops_part15_fresh op h, List.forall_iff_forall_mem.mp ops_part16_fresh op h, List.forall_iff_forall_mem.mp ops_part17_fresh op h, List.forall_iff_forall_mem.mp ops_part18_fresh op h, List.forall_iff_forall_mem.mp ops_part19_fresh op h, List.forall_iff_forall_mem.mp ops_part20_fresh op h, List.forall_iff_forall_mem.mp ops_part21_fresh op h, List.forall_iff_forall_mem.mp ops_part22_fresh op h]

end Cert.ReferenceIdeal.ValueW

end
-- ==== Proof.RefWinA.lean ====
import proofs.«421879_j36455682409092_3_alg».proof.Proof.RefOps
import proofs.«421879_j36455682409092_3_alg».proof.Proof.RefReadP
import proofs.«421879_j36455682409092_3_alg».proof.Proof.LibTRef

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem inv1 (V0 : Valuation τ sig (Elt F)) :
    val1 V0 (no_index (Proc.devRef .tc main_v0)) = Cert.ReferenceIdeal.ReadP.val_main_v0 (F := F) (V0 (Proc.devRef .tc main_arg0)) ∧
    val1 V0 (no_index (Proc.devRef .tc main_v1)) = Cert.ReferenceIdeal.ReadP.val_main_v1 (F := F) (V0 (Proc.devRef .tc main_arg1)) ∧
    val1 V0 (no_index (Proc.devRef .tc main_v29)) = Cert.ReferenceIdeal.ReadP.val_main_v29 (F := F) (V0 (Proc.devRef .tc main_arg0)) ∧
    val1 V0 (no_index (Proc.devRef .tc main_v30)) = Cert.ReferenceIdeal.ReadP.val_main_v30 (F := F) (V0 (Proc.devRef .tc main_arg0)) ∧
    val1 V0 (no_index (Proc.devRef .tc main_v31)) = Cert.ReferenceIdeal.ReadP.val_main_v31 (F := F) (V0 (Proc.devRef .tc main_arg0)) ∧
    val1 V0 (no_index (Proc.devRef .tc main_v33)) = Cert.ReferenceIdeal.ReadP.val_main_v33 (F := F) (V0 (Proc.devRef .tc main_arg0)) ∧
    val1 V0 (no_index (Proc.devRef .tc main_v34)) = Cert.ReferenceIdeal.ReadP.val_main_v34 (F := F) (V0 (Proc.devRef .tc main_arg0)) ∧
    val1 V0 (no_index (Proc.devRef .tc main_v40)) = Cert.ReferenceIdeal.ReadP.val_main_v40 (F := F) (V0 (Proc.devRef .tc main_arg0)) ∧
    val1 V0 (no_index (Proc.devRef .tc main_v41)) = Cert.ReferenceIdeal.ReadP.val_main_v41 (F := F) (V0 (Proc.devRef .tc main_arg0)) ∧
    val1 V0 (no_index (Proc.devRef .tc main_cst_15)) = Cert.ReferenceIdeal.ReadP.val_main_cst_15 (F := F) := by
  refine ⟨?_, ?_, ?_, ?_, ?_, ?_, ?_, ?_, ?_, ?_⟩ <;>
  · unfold val1
    simp only [ops_part0]
    after_results_simp
    (try simp only [TRef.ofBuf_toBuf, val0_main_arg0, val0_main_arg1]) <;> rfl

set_option maxRecDepth 8192 in
set_option maxHeartbeats 2000000 in
theorem inv2 (V0 : Valuation τ sig (Elt F)) :
    val2 V0 (no_index (Proc.devRef .tc main_v0)) = Cert.ReferenceIdeal.ReadP.val_main_v0 (F := F) (V0 (Proc.devRef .tc main_arg0)) ∧
    val2 V0 (no_index (Proc.devRef .tc main_v1)) = Cert.ReferenceIdeal.ReadP.val_main_v1 (F := F) (V0 (Proc.devRef .tc main_arg1)) ∧
    val2 V0 (no_index (Proc.devRef .tc main_v40)) = Cert.ReferenceIdeal.ReadP.val_main_v40 (F := F) (V0 (Proc.devRef .tc main_arg0)) ∧
    val2 V0 (no_index (Proc.devRef .tc main_v46)) = Cert.ReferenceIdeal.ReadP.val_main_v46 (F := F) (V0 (Proc.devRef .tc main_arg0)) ∧
    val2 V0 (no_index (Proc.devRef .tc main_v52)) = Cert.ReferenceIdeal.ReadP.val_main_v52 (F := F) (V0 (Proc.devRef .tc main_arg0)) ∧
    val2 V0 (no_index (Proc.devRef .tc main_v53)) = Cert.ReferenceIdeal.ReadP.val_main_v53 (F := F) (V0 (Proc.devRef .tc main_arg0)) ∧
    val2 V0 (no_index (Proc.devRef .tc main_v57)) = Cert.ReferenceIdeal.ReadP.val_main_v57 (F := F) (V0 (Proc.devRef .tc main_arg0)) ∧
    val2 V0 (no_index (Proc.devRef .tc main_v58)) = Cert.ReferenceIdeal.ReadP.val_main_v58 (F := F) (V0 (Proc.devRef .tc main_arg0)) ∧
    val2 V0 (no_index (Proc.devRef .tc main_v62)) = Cert.ReferenceIdeal.ReadP.val_main_v62 (F := F) (V0 (Proc.devRef .tc main_arg0)) ∧
    val2 V0 (no_index (Proc.devRef .tc main_v63)) = Cert.ReferenceIdeal.ReadP.val_main_v63 (F := F) (V0 (Proc.devRef .tc main_arg0)) ∧
    val2 V0 (no_index (Proc.devRef .tc main_v67)) = Cert.ReferenceIdeal.ReadP.val_main_v67 (F := F) (V0 (Proc.devRef .tc main_arg0)) ∧
    val2 V0 (no_index (Proc.devRef .tc main_v86)) = Cert.ReferenceIdeal.ReadP.val_main_v86 (F := F) (V0 (Proc.devRef .tc main_arg0)) := by
  obtain ⟨h0, h1, h2, h3, h4, h5, h6, h7, h8, h9⟩ := inv1 V0
  refine ⟨(val2_keep V0 main_v0 (by decide)).trans h0, (val2_keep V0 main_v1 (by decide)).trans h1,
    (val2_keep V0 main_v40 (by decide)).trans h7, ?_, ?_, ?_, ?_, ?_, ?_, ?_, ?_, ?_⟩
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    (try simp only [TRef.ofBuf_toBuf, h0, h1, h2, h3, h4, h5,
      h6, h7, h8, h9]) <;> rfl
  · unfold val2
    simp only [ops_part1]
    after_results_simp
    try dsimp only [Matrix.cons_val]
    try after_results_simp
    (try simp only [TRef.ofBuf_toBuf, h0, h1, h2, h3, h4, h5,
      h6, h7, h8, h9]) <;> rfl

set_option maxRecDepth 8192 in
set_option maxHeartbeats 2000000 in
theorem inv3 (V0 : Valuation τ sig (Elt F)) :
    val3 V0 (no_index (Proc.devRef .tc main_v0)) = Cert.ReferenceIdeal.ReadP.val_main_v0 (F := F) (V0 (Proc.devRef .tc main_arg0)) ∧
    val3 V0 (no_index (Proc.devRef .tc main_v1)) = Cert.ReferenceIdeal.ReadP.val_main_v1 (F := F) (V0 (Proc.devRef .tc main_arg1)) ∧
    val3 V0 (no_index (Proc.devRef .tc main_v40)) = Cert.ReferenceIdeal.ReadP.val_main_v40 (F := F) (V0 (Proc.devRef .tc main_arg0)) ∧
    val3 V0 (no_index (Proc.devRef .tc main_v46)) = Cert.ReferenceIdeal.ReadP.val_main_v46 (F := F) (V0 (Proc.devRef .tc main_arg0)) ∧
    val3 V0 (no_index (Proc.devRef .tc main_v52)) = Cert.ReferenceIdeal.ReadP.val_main_v52 (F := F) (V0 (Proc.devRef .tc main_arg0)) ∧
    val3 V0 (no_index (Proc.devRef .tc main_v53)) = Cert.ReferenceIdeal.ReadP.val_main_v53 (F := F) (V0 (Proc.devRef .tc main_arg0)) ∧
    val3 V0 (no_index (Proc.devRef .tc main_v57)) = Cert.ReferenceIdeal.ReadP.val_main_v57 (F := F) (V0 (Proc.devRef .tc main_arg0)) ∧
    val3 V0 (no_index (Proc.devRef .tc main_v58)) = Cert.ReferenceIdeal.ReadP.val_main_v58 (F := F) (V0 (Proc.devRef .tc main_arg0)) ∧
    val3 V0 (no_index (Proc.devRef .tc main_v62)) = Cert.ReferenceIdeal.ReadP.val_main_v62 (F := F) (V0 (Proc.devRef .tc main_arg0)) ∧
    val3 V0 (no_index (Proc.devRef .tc main_v67)) = Cert.ReferenceIdeal.ReadP.val_main_v67 (F := F) (V0 (Proc.devRef .tc main_arg0)) ∧
    val3 V0 (no_index (Proc.devRef .tc main_v87)) = Cert.ReferenceIdeal.ReadP.val_main_v87 (F := F) (V0 (Proc.devRef .tc main_arg0)) (V0 (Proc.devRef .tc main_arg1)) ∧
    val3 V0 (no_index (Proc.devRef .tc main_v107)) = Cert.ReferenceIdeal.ReadP.val_main_v107 (F := F) (V0 (Proc.devRef .tc main_arg0)) (V0 (Proc.devRef .tc main_arg1)) ∧
    val3 V0 (no_index (Proc.devRef .tc main_v127)) = Cert.ReferenceIdeal.ReadP.val_main_v127 (F := F) (V0 (Proc.devRef .tc main_arg0)) (V0 (Proc.devRef .tc main_arg1)) ∧
    val3 V0 (no_index (Proc.devRef .tc main_v132)) = Cert.ReferenceIdeal.ReadP.val_main_v132 (F := F) (V0 (Proc.devRef .tc main_arg0)) := by
  obtain ⟨h0, h1, h2, h3, h4, h5, h6, h7, h8, h9, h10, h11⟩ := inv2 V0
  refine ⟨(val3_keep V0 main_v0 (by decide)).trans h0, (val3_keep V0 main_v1 (by decide)).trans h1,
    (val3_keep V0 main_v40 (by decide)).trans h2, (val3_keep V0 main_v46 (by decide)).trans h3,
    (val3_keep V0 main_v52 (by decide)).trans h4, (val3_keep V0 main_v53 (by decide)).trans h5,
    (val3_keep V0 main_v57 (by decide)).trans h6, (val3_keep V0 main_v58 (by decide)).trans h7,
    (val3_keep V0 main_v62 (by decide)).trans h8, (val3_keep V0 main_v67 (by decide)).trans h10, ?_, ?_, ?_, ?_⟩
  · unfold val3
    simp only [ops_part2]
    after_results_simp
    (try simp only [TRef.ofBuf_toBuf, h0, h1, h2, h3, h4, h5,
      h6, h7, h8, h9, h10, h11]) <;> rfl
  · unfold val3
    simp only [ops_part2]
    after_results_simp
    try dsimp only [Matrix.cons_val]
    try after_results_simp
    (try simp only [TRef.ofBuf_toBuf, h0, h1, h2, h3, h4, h5,
      h6, h7, h8, h9, h10, h11]) <;> rfl
  · unfold val3
    simp only [ops_part2]
    after_results_simp
    try dsimp only [Matrix.cons_val]
    try after_results_simp
    (try simp only [TRef.ofBuf_toBuf, h0, h1, h2, h3, h4, h5,
      h6, h7, h8, h9, h10, h11]) <;> rfl
  · unfold val3
    simp only [ops_part2]
    after_results_simp
    (try simp only [TRef.ofBuf_toBuf, h0, h1, h2, h3, h4, h5,
      h6, h7, h8, h9, h10, h11]) <;> rfl

set_option maxRecDepth 8192 in
set_option maxHeartbeats 2000000 in
theorem inv4 (V0 : Valuation τ sig (Elt F)) :
    val4 V0 (no_index (Proc.devRef .tc main_v0)) = Cert.ReferenceIdeal.ReadP.val_main_v0 (F := F) (V0 (Proc.devRef .tc main_arg0)) ∧
    val4 V0 (no_index (Proc.devRef .tc main_v1)) = Cert.ReferenceIdeal.ReadP.val_main_v1 (F := F) (V0 (Proc.devRef .tc main_arg1)) ∧
    val4 V0 (no_index (Proc.devRef .tc main_v40)) = Cert.ReferenceIdeal.ReadP.val_main_v40 (F := F) (V0 (Proc.devRef .tc main_arg0)) ∧
    val4 V0 (no_index (Proc.devRef .tc main_v46)) = Cert.ReferenceIdeal.ReadP.val_main_v46 (F := F) (V0 (Proc.devRef .tc main_arg0)) ∧
    val4 V0 (no_index (Proc.devRef .tc main_v52)) = Cert.ReferenceIdeal.ReadP.val_main_v52 (F := F) (V0 (Proc.devRef .tc main_arg0)) ∧
    val4 V0 (no_index (Proc.devRef .tc main_v53)) = Cert.ReferenceIdeal.ReadP.val_main_v53 (F := F) (V0 (Proc.devRef .tc main_arg0)) ∧
    val4 V0 (no_index (Proc.devRef .tc main_v57)) = Cert.ReferenceIdeal.ReadP.val_main_v57 (F := F) (V0 (Proc.devRef .tc main_arg0)) ∧
    val4 V0 (no_index (Proc.devRef .tc main_v62)) = Cert.ReferenceIdeal.ReadP.val_main_v62 (F := F) (V0 (Proc.devRef .tc main_arg0)) ∧
    val4 V0 (no_index (Proc.devRef .tc main_v67)) = Cert.ReferenceIdeal.ReadP.val_main_v67 (F := F) (V0 (Proc.devRef .tc main_arg0)) ∧
    val4 V0 (no_index (Proc.devRef .tc main_v87)) = Cert.ReferenceIdeal.ReadP.val_main_v87 (F := F) (V0 (Proc.devRef .tc main_arg0)) (V0 (Proc.devRef .tc main_arg1)) ∧
    val4 V0 (no_index (Proc.devRef .tc main_v107)) = Cert.ReferenceIdeal.ReadP.val_main_v107 (F := F) (V0 (Proc.devRef .tc main_arg0)) (V0 (Proc.devRef .tc main_arg1)) ∧
    val4 V0 (no_index (Proc.devRef .tc main_v127)) = Cert.ReferenceIdeal.ReadP.val_main_v127 (F := F) (V0 (Proc.devRef .tc main_arg0)) (V0 (Proc.devRef .tc main_arg1)) ∧
    val4 V0 (no_index (Proc.devRef .tc main_v147)) = Cert.ReferenceIdeal.ReadP.val_main_v147 (F := F) (V0 (Proc.devRef .tc main_arg0)) (V0 (Proc.devRef .tc main_arg1)) ∧
    val4 V0 (no_index (Proc.devRef .tc main_v167)) = Cert.ReferenceIdeal.ReadP.val_main_v167 (F := F) (V0 (Proc.devRef .tc main_arg0)) (V0 (Proc.devRef .tc main_arg1)) ∧
    val4 V0 (no_index (Proc.devRef .tc main_v172)) = Cert.ReferenceIdeal.ReadP.val_main_v172 (F := F) (V0 (Proc.devRef .tc main_arg0)) ∧
    val4 V0 (no_index (Proc.devRef .tc main_v177)) = Cert.ReferenceIdeal.ReadP.val_main_v177 (F := F) (V0 (Proc.devRef .tc main_arg0)) ∧
    val4 V0 (no_index (Proc.devRef .tc main_c_59)) = Cert.ReferenceIdeal.ReadP.val_main_c_59 (F := F) := by
  obtain ⟨h0, h1, h2, h3, h4, h5, h6, h7, h8, h9, h10, h11, h12, h13⟩ := inv3 V0
  refine ⟨(val4_keep V0 main_v0 (by decide)).trans h0, (val4_keep V0 main_v1 (by decide)).trans h1,
    (val4_keep V0 main_v40 (by decide)).trans h2, (val4_keep V0 main_v46 (by decide)).trans h3,
    (val4_keep V0 main_v52 (by decide)).trans h4, (val4_keep V0 main_v53 (by decide)).trans h5,
    (val4_keep V0 main_v57 (by decide)).trans h6, (val4_keep V0 main_v62 (by decide)).trans h8,
    (val4_keep V0 main_v67 (by decide)).trans h9, (val4_keep V0 main_v87 (by decide)).trans h10,
    (val4_keep V0 main_v107 (by decide)).trans h11, (val4_keep V0 main_v127 (by decide)).trans h12, ?_, ?_, ?_, ?_,
    ?_⟩
  · unfold val4
    simp only [ops_part3]
    after_results_simp
    try dsimp only [Matrix.cons_val]
    try after_results_simp
    (try simp only [TRef.ofBuf_toBuf, h0, h1, h2, h3, h4, h5,
      h6, h7, h8, h9, h10, h11, h12,
      h13]) <;> rfl
  · unfold val4
    simp only [ops_part3]
    after_results_simp
    try dsimp only [Matrix.cons_val]
    try after_results_simp
    (try simp only [TRef.ofBuf_toBuf, h0, h1, h2, h3, h4, h5,
      h6, h7, h8, h9, h10, h11, h12,
      h13]) <;> rfl
  · unfold val4
    simp only [ops_part3]
    after_results_simp
    (try simp only [TRef.ofBuf_toBuf, h0, h1, h2, h3, h4, h5,
      h6, h7, h8, h9, h10, h11, h12,
      h13]) <;> rfl
  · unfold val4
    simp only [ops_part3]
    after_results_simp
    (try simp only [TRef.ofBuf_toBuf, h0, h1, h2, h3, h4, h5,
      h6, h7, h8, h9, h10, h11, h12,
      h13]) <;> rfl
  · unfold val4
    simp only [ops_part3]
    after_results_simp
    (try simp only [TRef.ofBuf_toBuf, h0, h1, h2, h3, h4, h5,
      h6, h7, h8, h9, h10, h11, h12,
      h13]) <;> rfl

end Cert.ReferenceIdeal.ValueW

end
-- ==== Proof.RefWinB.lean ====
import proofs.«421879_j36455682409092_3_alg».proof.Proof.RefOps
import proofs.«421879_j36455682409092_3_alg».proof.Proof.RefReadP
import proofs.«421879_j36455682409092_3_alg».proof.Proof.LibTRef
import proofs.«421879_j36455682409092_3_alg».proof.Proof.RefWinA

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

theorem winB_concat3_congr {α : Type} {t s : Shape} {a : Fin t.rank} {x x' y y' z z' : s.Idx → α}
    (h : Shape.Concatenates [s, s, s] t a) (hx : x = x') (hy : y = y') (hz : z = z') :
    concatenate t a [⟨s, x⟩, ⟨s, y⟩, ⟨s, z⟩] h = concatenate t a [⟨s, x'⟩, ⟨s, y'⟩, ⟨s, z'⟩] h := by
  subst hx hy hz; rfl

attribute [local congr] winB_concat3_congr

set_option maxRecDepth 8192 in
set_option maxHeartbeats 2000000 in
theorem inv5 (V0 : Valuation τ sig (Elt F)) :
    val5 V0 (no_index (Proc.devRef .tc main_v0)) = Cert.ReferenceIdeal.ReadP.val_main_v0 (F := F) (V0 (Proc.devRef .tc main_arg0)) ∧
    val5 V0 (no_index (Proc.devRef .tc main_v1)) = Cert.ReferenceIdeal.ReadP.val_main_v1 (F := F) (V0 (Proc.devRef .tc main_arg1)) ∧
    val5 V0 (no_index (Proc.devRef .tc main_v40)) = Cert.ReferenceIdeal.ReadP.val_main_v40 (F := F) (V0 (Proc.devRef .tc main_arg0)) ∧
    val5 V0 (no_index (Proc.devRef .tc main_v46)) = Cert.ReferenceIdeal.ReadP.val_main_v46 (F := F) (V0 (Proc.devRef .tc main_arg0)) ∧
    val5 V0 (no_index (Proc.devRef .tc main_v52)) = Cert.ReferenceIdeal.ReadP.val_main_v52 (F := F) (V0 (Proc.devRef .tc main_arg0)) ∧
    val5 V0 (no_index (Proc.devRef .tc main_v87)) = Cert.ReferenceIdeal.ReadP.val_main_v87 (F := F) (V0 (Proc.devRef .tc main_arg0)) (V0 (Proc.devRef .tc main_arg1)) ∧
    val5 V0 (no_index (Proc.devRef .tc main_v107)) = Cert.ReferenceIdeal.ReadP.val_main_v107 (F := F) (V0 (Proc.devRef .tc main_arg0)) (V0 (Proc.devRef .tc main_arg1)) ∧
    val5 V0 (no_index (Proc.devRef .tc main_v127)) = Cert.ReferenceIdeal.ReadP.val_main_v127 (F := F) (V0 (Proc.devRef .tc main_arg0)) (V0 (Proc.devRef .tc main_arg1)) ∧
    val5 V0 (no_index (Proc.devRef .tc main_v147)) = Cert.ReferenceIdeal.ReadP.val_main_v147 (F := F) (V0 (Proc.devRef .tc main_arg0)) (V0 (Proc.devRef .tc main_arg1)) ∧
    val5 V0 (no_index (Proc.devRef .tc main_v167)) = Cert.ReferenceIdeal.ReadP.val_main_v167 (F := F) (V0 (Proc.devRef .tc main_arg0)) (V0 (Proc.devRef .tc main_arg1)) ∧
    val5 V0 (no_index (Proc.devRef .tc main_v187)) = Cert.ReferenceIdeal.ReadP.val_main_v187 (F := F) (V0 (Proc.devRef .tc main_arg0)) (V0 (Proc.devRef .tc main_arg1)) ∧
    val5 V0 (no_index (Proc.devRef .tc main_v207)) = Cert.ReferenceIdeal.ReadP.val_main_v207 (F := F) (V0 (Proc.devRef .tc main_arg0)) (V0 (Proc.devRef .tc main_arg1)) ∧
    val5 V0 (no_index (Proc.devRef .tc main_v222)) = Cert.ReferenceIdeal.ReadP.val_main_v222 (F := F) (V0 (Proc.devRef .tc main_arg0)) ∧
    val5 V0 (no_index (Proc.devRef .tc main_v223)) = Cert.ReferenceIdeal.ReadP.val_main_v223 (F := F) (V0 (Proc.devRef .tc main_arg0)) ∧
    val5 V0 (no_index (Proc.devRef .tc main_v224)) = Cert.ReferenceIdeal.ReadP.val_main_v224 (F := F) (V0 (Proc.devRef .tc main_arg0)) := by
  obtain ⟨h0, h1, h2, h3, h4, h5, h6, h7, h8, h9, h10, h11, h12, h13, h14, h15, h16⟩ := inv4 V0
  refine ⟨(val5_keep V0 main_v0 (by decide)).trans h0, (val5_keep V0 main_v1 (by decide)).trans h1,
    (val5_keep V0 main_v40 (by decide)).trans h2, (val5_keep V0 main_v46 (by decide)).trans h3,
    (val5_keep V0 main_v52 (by decide)).trans h4, (val5_keep V0 main_v87 (by decide)).trans h9,
    (val5_keep V0 main_v107 (by decide)).trans h10, (val5_keep V0 main_v127 (by decide)).trans h11,
    (val5_keep V0 main_v147 (by decide)).trans h12, (val5_keep V0 main_v167 (by decide)).trans h13, ?_, ?_, ?_, ?_,
    ?_⟩
  · unfold val5
    simp only [ops_part4]
    after_results_simp
    try dsimp only [Matrix.cons_val]
    try after_results_simp
    simp only [TRef.ofBuf_toBuf, h1, h6, h14, h15, h16] <;> rfl
  · unfold val5
    simp only [ops_part4]
    after_results_simp
    try dsimp only [Matrix.cons_val]
    try after_results_simp
    simp only [TRef.ofBuf_toBuf, h1, h5, h7, h8] <;> rfl
  · unfold val5
    simp only [ops_part4]
    after_results_simp
    simp only [TRef.ofBuf_toBuf, h6] <;> rfl
  · unfold val5
    simp only [ops_part4]
    after_results_simp
    simp only [TRef.ofBuf_toBuf, h8] <;> rfl
  · unfold val5
    simp only [ops_part4]
    after_results_simp
    simp only [TRef.ofBuf_toBuf, h7] <;> rfl

set_option maxRecDepth 8192 in
set_option maxHeartbeats 2000000 in
theorem inv6 (V0 : Valuation τ sig (Elt F)) :
    val6 V0 (no_index (Proc.devRef .tc main_v0)) = Cert.ReferenceIdeal.ReadP.val_main_v0 (F := F) (V0 (Proc.devRef .tc main_arg0)) ∧
    val6 V0 (no_index (Proc.devRef .tc main_v263)) = Cert.ReferenceIdeal.ReadP.val_main_v263 (F := F) (V0 (Proc.devRef .tc main_arg0)) (V0 (Proc.devRef .tc main_arg1)) ∧
    val6 V0 (no_index (Proc.devRef .tc main_v264)) = Cert.ReferenceIdeal.ReadP.val_main_v264 (F := F) (V0 (Proc.devRef .tc main_arg2)) ∧
    val6 V0 (no_index (Proc.devRef .tc main_v273)) = Cert.ReferenceIdeal.ReadP.val_main_v273 (F := F) (V0 (Proc.devRef .tc main_arg0)) ∧
    val6 V0 (no_index (Proc.devRef .tc main_v277)) = Cert.ReferenceIdeal.ReadP.val_main_v277 (F := F) (V0 (Proc.devRef .tc main_arg0)) ∧
    val6 V0 (no_index (Proc.devRef .tc main_cst_79)) = Cert.ReferenceIdeal.ReadP.val_main_cst_79 (F := F) := by
  obtain ⟨h0, h1, h2, h3, h4, h5, h6, h7, h8, h9, h10, h11, h12, h13, h14⟩ := inv5 V0
  refine ⟨(val6_keep V0 main_v0 (by decide)).trans h0, ?_, ?_, ?_, ?_, ?_⟩
  · unfold val6
    simp only [ops_part5]
    after_results_simp
    try dsimp only [Matrix.cons_val]
    try after_results_simp
    simp only [TRef.ofBuf_toBuf, h1, h2, h3, h4, h5, h6, h7, h8, h9, h10, h11, h12, h13, h14] <;> rfl
  · unfold val6
    simp only [ops_part5]
    after_results_simp
    simp only [val5_main_arg2] <;> rfl
  · unfold val6
    simp only [ops_part5]
    after_results_simp
    simp only [TRef.ofBuf_toBuf, h0] <;> rfl
  · unfold val6
    simp only [ops_part5]
    after_results_simp
    simp only [TRef.ofBuf_toBuf, h0] <;> rfl
  · unfold val6
    simp only [ops_part5]
    after_results_simp <;> rfl

set_option maxRecDepth 8192 in
set_option maxHeartbeats 2000000 in
theorem inv7 (V0 : Valuation τ sig (Elt F)) :
    val7 V0 (no_index (Proc.devRef .tc main_v0)) = Cert.ReferenceIdeal.ReadP.val_main_v0 (F := F) (V0 (Proc.devRef .tc main_arg0)) ∧
    val7 V0 (no_index (Proc.devRef .tc main_v263)) = Cert.ReferenceIdeal.ReadP.val_main_v263 (F := F) (V0 (Proc.devRef .tc main_arg0)) (V0 (Proc.devRef .tc main_arg1)) ∧
    val7 V0 (no_index (Proc.devRef .tc main_v264)) = Cert.ReferenceIdeal.ReadP.val_main_v264 (F := F) (V0 (Proc.devRef .tc main_arg2)) ∧
    val7 V0 (no_index (Proc.devRef .tc main_v294)) = Cert.ReferenceIdeal.ReadP.val_main_v294 (F := F) (V0 (Proc.devRef .tc main_arg0)) ∧
    val7 V0 (no_index (Proc.devRef .tc main_v303)) = Cert.ReferenceIdeal.ReadP.val_main_v303 (F := F) (V0 (Proc.devRef .tc main_arg0)) ∧
    val7 V0 (no_index (Proc.devRef .tc main_v309)) = Cert.ReferenceIdeal.ReadP.val_main_v309 (F := F) (V0 (Proc.devRef .tc main_arg0)) ∧
    val7 V0 (no_index (Proc.devRef .tc main_v315)) = Cert.ReferenceIdeal.ReadP.val_main_v315 (F := F) (V0 (Proc.devRef .tc main_arg0)) ∧
    val7 V0 (no_index (Proc.devRef .tc main_v316)) = Cert.ReferenceIdeal.ReadP.val_main_v316 (F := F) (V0 (Proc.devRef .tc main_arg0)) ∧
    val7 V0 (no_index (Proc.devRef .tc main_v320)) = Cert.ReferenceIdeal.ReadP.val_main_v320 (F := F) (V0 (Proc.devRef .tc main_arg0)) ∧
    val7 V0 (no_index (Proc.devRef .tc main_v321)) = Cert.ReferenceIdeal.ReadP.val_main_v321 (F := F) (V0 (Proc.devRef .tc main_arg0)) := by
  obtain ⟨h0, h1, h2, h3, h4, h5⟩ := inv6 V0
  refine ⟨(val7_keep V0 main_v0 (by decide)).trans h0, (val7_keep V0 main_v263 (by decide)).trans h1,
    (val7_keep V0 main_v264 (by decide)).trans h2, ?_, ?_, ?_, ?_, ?_, ?_, ?_⟩
  · unfold val7
    simp only [ops_part6]
    after_results_simp
    simp only [TRef.ofBuf_toBuf, h0] <;> rfl
  · unfold val7
    simp only [ops_part6]
    after_results_simp
    simp only [TRef.ofBuf_toBuf, h3] <;> rfl
  · unfold val7
    simp only [ops_part6]
    after_results_simp
    simp only [TRef.ofBuf_toBuf, h4, h5] <;> rfl
  · unfold val7
    simp only [ops_part6]
    after_results_simp
    simp only [TRef.ofBuf_toBuf, h0] <;> rfl
  · unfold val7
    simp only [ops_part6]
    after_results_simp
    simp only [TRef.ofBuf_toBuf, h3] <;> rfl
  · unfold val7
    simp only [ops_part6]
    after_results_simp
    simp only [TRef.ofBuf_toBuf, h3] <;> rfl
  · unfold val7
    simp only [ops_part6]
    after_results_simp
    simp only [TRef.ofBuf_toBuf, h4, h5] <;> rfl

set_option maxRecDepth 8192 in
set_option maxHeartbeats 2000000 in
theorem inv8 (V0 : Valuation τ sig (Elt F)) :
    val8 V0 (no_index (Proc.devRef .tc main_v0)) = Cert.ReferenceIdeal.ReadP.val_main_v0 (F := F) (V0 (Proc.devRef .tc main_arg0)) ∧
    val8 V0 (no_index (Proc.devRef .tc main_v263)) = Cert.ReferenceIdeal.ReadP.val_main_v263 (F := F) (V0 (Proc.devRef .tc main_arg0)) (V0 (Proc.devRef .tc main_arg1)) ∧
    val8 V0 (no_index (Proc.devRef .tc main_v264)) = Cert.ReferenceIdeal.ReadP.val_main_v264 (F := F) (V0 (Proc.devRef .tc main_arg2)) ∧
    val8 V0 (no_index (Proc.devRef .tc main_v303)) = Cert.ReferenceIdeal.ReadP.val_main_v303 (F := F) (V0 (Proc.devRef .tc main_arg0)) ∧
    val8 V0 (no_index (Proc.devRef .tc main_v309)) = Cert.ReferenceIdeal.ReadP.val_main_v309 (F := F) (V0 (Proc.devRef .tc main_arg0)) ∧
    val8 V0 (no_index (Proc.devRef .tc main_v315)) = Cert.ReferenceIdeal.ReadP.val_main_v315 (F := F) (V0 (Proc.devRef .tc main_arg0)) ∧
    val8 V0 (no_index (Proc.devRef .tc main_v316)) = Cert.ReferenceIdeal.ReadP.val_main_v316 (F := F) (V0 (Proc.devRef .tc main_arg0)) ∧
    val8 V0 (no_index (Proc.devRef .tc main_v320)) = Cert.ReferenceIdeal.ReadP.val_main_v320 (F := F) (V0 (Proc.devRef .tc main_arg0)) ∧
    val8 V0 (no_index (Proc.devRef .tc main_v321)) = Cert.ReferenceIdeal.ReadP.val_main_v321 (F := F) (V0 (Proc.devRef .tc main_arg0)) ∧
    val8 V0 (no_index (Proc.devRef .tc main_v325)) = Cert.ReferenceIdeal.ReadP.val_main_v325 (F := F) (V0 (Proc.devRef .tc main_arg0)) ∧
    val8 V0 (no_index (Proc.devRef .tc main_v326)) = Cert.ReferenceIdeal.ReadP.val_main_v326 (F := F) (V0 (Proc.devRef .tc main_arg0)) ∧
    val8 V0 (no_index (Proc.devRef .tc main_v330)) = Cert.ReferenceIdeal.ReadP.val_main_v330 (F := F) (V0 (Proc.devRef .tc main_arg0)) ∧
    val8 V0 (no_index (Proc.devRef .tc main_v350)) = Cert.ReferenceIdeal.ReadP.val_main_v350 (F := F) (V0 (Proc.devRef .tc main_arg0)) (V0 (Proc.devRef .tc main_arg2)) ∧
    val8 V0 (no_index (Proc.devRef .tc main_v355)) = Cert.ReferenceIdeal.ReadP.val_main_v355 (F := F) (V0 (Proc.devRef .tc main_arg0)) ∧
    val8 V0 (no_index (Proc.devRef .tc main_v360)) = Cert.ReferenceIdeal.ReadP.val_main_v360 (F := F) (V0 (Proc.devRef .tc main_arg0)) ∧
    val8 V0 (no_index (Proc.devRef .tc main_v365)) = Cert.ReferenceIdeal.ReadP.val_main_v365 (F := F) (V0 (Proc.devRef .tc main_arg0)) := by
  obtain ⟨h0, h1, h2, h3, h4, h5, h6, h7, h8, h9⟩ := inv7 V0
  refine ⟨(val8_keep V0 main_v0 (by decide)).trans h0, (val8_keep V0 main_v263 (by decide)).trans h1,
    (val8_keep V0 main_v264 (by decide)).trans h2, (val8_keep V0 main_v303 (by decide)).trans h4,
    (val8_keep V0 main_v309 (by decide)).trans h5, (val8_keep V0 main_v315 (by decide)).trans h6,
    (val8_keep V0 main_v316 (by decide)).trans h7, (val8_keep V0 main_v320 (by decide)).trans h8,
    (val8_keep V0 main_v321 (by decide)).trans h9, ?_, ?_, ?_, ?_, ?_, ?_, ?_⟩
  · unfold val8
    simp only [ops_part7]
    after_results_simp
    simp only [TRef.ofBuf_toBuf, h9] <;> rfl
  · unfold val8
    simp only [ops_part7]
    after_results_simp
    simp only [TRef.ofBuf_toBuf, h3] <;> rfl
  · unfold val8
    simp only [ops_part7]
    after_results_simp
    simp only [TRef.ofBuf_toBuf, h3] <;> rfl
  · unfold val8
    simp only [ops_part7]
    after_results_simp
    try dsimp only [Matrix.cons_val]
    try after_results_simp
    simp only [TRef.ofBuf_toBuf, h2, h3, h7, h9] <;> rfl
  · unfold val8
    simp only [ops_part7]
    after_results_simp
    simp only [TRef.ofBuf_toBuf, h3] <;> rfl
  · unfold val8
    simp only [ops_part7]
    after_results_simp
    simp only [TRef.ofBuf_toBuf, h9] <;> rfl
  · unfold val8
    simp only [ops_part7]
    after_results_simp
    simp only [TRef.ofBuf_toBuf, h8] <;> rfl

end Cert.ReferenceIdeal.ValueW

end
-- ==== Proof.RefWinC.lean ====
import proofs.«421879_j36455682409092_3_alg».proof.Proof.RefOps
import proofs.«421879_j36455682409092_3_alg».proof.Proof.RefReadP
import proofs.«421879_j36455682409092_3_alg».proof.Proof.LibTRef
import proofs.«421879_j36455682409092_3_alg».proof.Proof.RefWinB

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

theorem winC_concat3_congr {α : Type} {t s : Shape} {a : Fin t.rank} {x x' y y' z z' : s.Idx → α}
    (h : Shape.Concatenates [s, s, s] t a) (hx : x = x') (hy : y = y') (hz : z = z') :
    concatenate t a [⟨s, x⟩, ⟨s, y⟩, ⟨s, z⟩] h = concatenate t a [⟨s, x'⟩, ⟨s, y'⟩, ⟨s, z'⟩] h := by
  subst hx hy hz; rfl

attribute [local congr] winC_concat3_congr

set_option maxRecDepth 8192 in
set_option maxHeartbeats 2000000 in
theorem inv9 (V0 : Valuation τ sig (Elt F)) :
    val9 V0 (no_index (Proc.devRef .tc main_v0)) = Cert.ReferenceIdeal.ReadP.val_main_v0 (F := F) (V0 (Proc.devRef .tc main_arg0)) ∧
    val9 V0 (no_index (Proc.devRef .tc main_v263)) = Cert.ReferenceIdeal.ReadP.val_main_v263 (F := F) (V0 (Proc.devRef .tc main_arg0)) (V0 (Proc.devRef .tc main_arg1)) ∧
    val9 V0 (no_index (Proc.devRef .tc main_v264)) = Cert.ReferenceIdeal.ReadP.val_main_v264 (F := F) (V0 (Proc.devRef .tc main_arg2)) ∧
    val9 V0 (no_index (Proc.devRef .tc main_v303)) = Cert.ReferenceIdeal.ReadP.val_main_v303 (F := F) (V0 (Proc.devRef .tc main_arg0)) ∧
    val9 V0 (no_index (Proc.devRef .tc main_v309)) = Cert.ReferenceIdeal.ReadP.val_main_v309 (F := F) (V0 (Proc.devRef .tc main_arg0)) ∧
    val9 V0 (no_index (Proc.devRef .tc main_v315)) = Cert.ReferenceIdeal.ReadP.val_main_v315 (F := F) (V0 (Proc.devRef .tc main_arg0)) ∧
    val9 V0 (no_index (Proc.devRef .tc main_v316)) = Cert.ReferenceIdeal.ReadP.val_main_v316 (F := F) (V0 (Proc.devRef .tc main_arg0)) ∧
    val9 V0 (no_index (Proc.devRef .tc main_v320)) = Cert.ReferenceIdeal.ReadP.val_main_v320 (F := F) (V0 (Proc.devRef .tc main_arg0)) ∧
    val9 V0 (no_index (Proc.devRef .tc main_v321)) = Cert.ReferenceIdeal.ReadP.val_main_v321 (F := F) (V0 (Proc.devRef .tc main_arg0)) ∧
    val9 V0 (no_index (Proc.devRef .tc main_v325)) = Cert.ReferenceIdeal.ReadP.val_main_v325 (F := F) (V0 (Proc.devRef .tc main_arg0)) ∧
    val9 V0 (no_index (Proc.devRef .tc main_v330)) = Cert.ReferenceIdeal.ReadP.val_main_v330 (F := F) (V0 (Proc.devRef .tc main_arg0)) ∧
    val9 V0 (no_index (Proc.devRef .tc main_v350)) = Cert.ReferenceIdeal.ReadP.val_main_v350 (F := F) (V0 (Proc.devRef .tc main_arg0)) (V0 (Proc.devRef .tc main_arg2)) ∧
    val9 V0 (no_index (Proc.devRef .tc main_v370)) = Cert.ReferenceIdeal.ReadP.val_main_v370 (F := F) (V0 (Proc.devRef .tc main_arg0)) (V0 (Proc.devRef .tc main_arg2)) ∧
    val9 V0 (no_index (Proc.devRef .tc main_v390)) = Cert.ReferenceIdeal.ReadP.val_main_v390 (F := F) (V0 (Proc.devRef .tc main_arg0)) (V0 (Proc.devRef .tc main_arg2)) ∧
    val9 V0 (no_index (Proc.devRef .tc main_v410)) = Cert.ReferenceIdeal.ReadP.val_main_v410 (F := F) (V0 (Proc.devRef .tc main_arg0)) (V0 (Proc.devRef .tc main_arg2)) ∧
    val9 V0 (no_index (Proc.devRef .tc main_v412)) = Cert.ReferenceIdeal.ReadP.val_main_v412 (F := F) (V0 (Proc.devRef .tc main_arg0)) := by
  obtain ⟨h0, h1, h2, h3, h4, h5, h6, h7, h8, h9, h10, h11, h12, h13, h14, h15⟩ := inv8 V0
  refine ⟨(val9_keep V0 main_v0 (by decide)).trans h0, (val9_keep V0 main_v263 (by decide)).trans h1,
    (val9_keep V0 main_v264 (by decide)).trans h2, (val9_keep V0 main_v303 (by decide)).trans h3,
    (val9_keep V0 main_v309 (by decide)).trans h4, (val9_keep V0 main_v315 (by decide)).trans h5,
    (val9_keep V0 main_v316 (by decide)).trans h6, (val9_keep V0 main_v320 (by decide)).trans h7,
    (val9_keep V0 main_v321 (by decide)).trans h8, (val9_keep V0 main_v325 (by decide)).trans h9,
    (val9_keep V0 main_v330 (by decide)).trans h11, (val9_keep V0 main_v350 (by decide)).trans h12, ?_, ?_, ?_, ?_⟩
  · unfold val9
    simp only [ops_part8]
    after_results_simp
    try dsimp only [Matrix.cons_val]
    try after_results_simp
    try simp only [h13, h14, h15, h2]
    all_goals rfl
  · unfold val9
    simp only [ops_part8]
    after_results_simp
    try dsimp only [Matrix.cons_val]
    try after_results_simp
    try simp only [h10, h9, h6, h2]
    all_goals rfl
  · unfold val9
    simp only [ops_part8]
    after_results_simp
    try dsimp only [Matrix.cons_val]
    try after_results_simp
    try simp only [h10, h9, h7, h2]
    all_goals rfl
  · unfold val9
    simp only [ops_part8]
    after_results_simp
    try simp only [h11]
    all_goals rfl

set_option maxRecDepth 8192 in
set_option maxHeartbeats 2000000 in
theorem inv10 (V0 : Valuation τ sig (Elt F)) :
    val10 V0 (no_index (Proc.devRef .tc main_v0)) = Cert.ReferenceIdeal.ReadP.val_main_v0 (F := F) (V0 (Proc.devRef .tc main_arg0)) ∧
    val10 V0 (no_index (Proc.devRef .tc main_v263)) = Cert.ReferenceIdeal.ReadP.val_main_v263 (F := F) (V0 (Proc.devRef .tc main_arg0)) (V0 (Proc.devRef .tc main_arg1)) ∧
    val10 V0 (no_index (Proc.devRef .tc main_v264)) = Cert.ReferenceIdeal.ReadP.val_main_v264 (F := F) (V0 (Proc.devRef .tc main_arg2)) ∧
    val10 V0 (no_index (Proc.devRef .tc main_v303)) = Cert.ReferenceIdeal.ReadP.val_main_v303 (F := F) (V0 (Proc.devRef .tc main_arg0)) ∧
    val10 V0 (no_index (Proc.devRef .tc main_v309)) = Cert.ReferenceIdeal.ReadP.val_main_v309 (F := F) (V0 (Proc.devRef .tc main_arg0)) ∧
    val10 V0 (no_index (Proc.devRef .tc main_v315)) = Cert.ReferenceIdeal.ReadP.val_main_v315 (F := F) (V0 (Proc.devRef .tc main_arg0)) ∧
    val10 V0 (no_index (Proc.devRef .tc main_v316)) = Cert.ReferenceIdeal.ReadP.val_main_v316 (F := F) (V0 (Proc.devRef .tc main_arg0)) ∧
    val10 V0 (no_index (Proc.devRef .tc main_v320)) = Cert.ReferenceIdeal.ReadP.val_main_v320 (F := F) (V0 (Proc.devRef .tc main_arg0)) ∧
    val10 V0 (no_index (Proc.devRef .tc main_v325)) = Cert.ReferenceIdeal.ReadP.val_main_v325 (F := F) (V0 (Proc.devRef .tc main_arg0)) ∧
    val10 V0 (no_index (Proc.devRef .tc main_v330)) = Cert.ReferenceIdeal.ReadP.val_main_v330 (F := F) (V0 (Proc.devRef .tc main_arg0)) ∧
    val10 V0 (no_index (Proc.devRef .tc main_v350)) = Cert.ReferenceIdeal.ReadP.val_main_v350 (F := F) (V0 (Proc.devRef .tc main_arg0)) (V0 (Proc.devRef .tc main_arg2)) ∧
    val10 V0 (no_index (Proc.devRef .tc main_v370)) = Cert.ReferenceIdeal.ReadP.val_main_v370 (F := F) (V0 (Proc.devRef .tc main_arg0)) (V0 (Proc.devRef .tc main_arg2)) ∧
    val10 V0 (no_index (Proc.devRef .tc main_v390)) = Cert.ReferenceIdeal.ReadP.val_main_v390 (F := F) (V0 (Proc.devRef .tc main_arg0)) (V0 (Proc.devRef .tc main_arg2)) ∧
    val10 V0 (no_index (Proc.devRef .tc main_v410)) = Cert.ReferenceIdeal.ReadP.val_main_v410 (F := F) (V0 (Proc.devRef .tc main_arg0)) (V0 (Proc.devRef .tc main_arg2)) ∧
    val10 V0 (no_index (Proc.devRef .tc main_v430)) = Cert.ReferenceIdeal.ReadP.val_main_v430 (F := F) (V0 (Proc.devRef .tc main_arg0)) (V0 (Proc.devRef .tc main_arg2)) ∧
    val10 V0 (no_index (Proc.devRef .tc main_v450)) = Cert.ReferenceIdeal.ReadP.val_main_v450 (F := F) (V0 (Proc.devRef .tc main_arg0)) (V0 (Proc.devRef .tc main_arg2)) ∧
    val10 V0 (no_index (Proc.devRef .tc main_v455)) = Cert.ReferenceIdeal.ReadP.val_main_v455 (F := F) (V0 (Proc.devRef .tc main_arg0)) ∧
    val10 V0 (no_index (Proc.devRef .tc main_v457)) = Cert.ReferenceIdeal.ReadP.val_main_v457 (F := F) (V0 (Proc.devRef .tc main_arg0)) ∧
    val10 V0 (no_index (Proc.devRef .tc main_c_139)) = Cert.ReferenceIdeal.ReadP.val_main_c_139 (F := F) := by
  obtain ⟨h0, h1, h2, h3, h4, h5, h6, h7, h8, h9, h10, h11, h12, h13, h14, h15⟩ := inv9 V0
  refine ⟨(val10_keep V0 main_v0 (by decide)).trans h0, (val10_keep V0 main_v263 (by decide)).trans h1,
    (val10_keep V0 main_v264 (by decide)).trans h2, (val10_keep V0 main_v303 (by decide)).trans h3,
    (val10_keep V0 main_v309 (by decide)).trans h4, (val10_keep V0 main_v315 (by decide)).trans h5,
    (val10_keep V0 main_v316 (by decide)).trans h6, (val10_keep V0 main_v320 (by decide)).trans h7,
    (val10_keep V0 main_v325 (by decide)).trans h9, (val10_keep V0 main_v330 (by decide)).trans h10,
    (val10_keep V0 main_v350 (by decide)).trans h11, (val10_keep V0 main_v370 (by decide)).trans h12,
    (val10_keep V0 main_v390 (by decide)).trans h13, (val10_keep V0 main_v410 (by decide)).trans h14, ?_, ?_, ?_, ?_,
    ?_⟩
  · unfold val10
    simp only [ops_part9]
    after_results_simp
    try dsimp only [Matrix.cons_val]
    try after_results_simp
    try simp only [h15, h10, h8, h6, h2]
    all_goals rfl
  · unfold val10
    simp only [ops_part9]
    after_results_simp
    try dsimp only [Matrix.cons_val]
    try after_results_simp
    try simp only [h10, h8, h7, h2]
    all_goals rfl
  · unfold val10
    simp only [ops_part9]
    after_results_simp
    try simp only [h10]
    all_goals rfl
  · unfold val10
    simp only [ops_part9]
    after_results_simp
    try simp only [h9]
    all_goals rfl
  · unfold val10
    simp only [ops_part9]
    after_results_simp
    all_goals rfl

set_option maxRecDepth 8192 in
set_option maxHeartbeats 2000000 in
theorem inv11 (V0 : Valuation τ sig (Elt F)) :
    val11 V0 (no_index (Proc.devRef .tc main_v0)) = Cert.ReferenceIdeal.ReadP.val_main_v0 (F := F) (V0 (Proc.devRef .tc main_arg0)) ∧
    val11 V0 (no_index (Proc.devRef .tc main_v263)) = Cert.ReferenceIdeal.ReadP.val_main_v263 (F := F) (V0 (Proc.devRef .tc main_arg0)) (V0 (Proc.devRef .tc main_arg1)) ∧
    val11 V0 (no_index (Proc.devRef .tc main_v309)) = Cert.ReferenceIdeal.ReadP.val_main_v309 (F := F) (V0 (Proc.devRef .tc main_arg0)) ∧
    val11 V0 (no_index (Proc.devRef .tc main_v315)) = Cert.ReferenceIdeal.ReadP.val_main_v315 (F := F) (V0 (Proc.devRef .tc main_arg0)) ∧
    val11 V0 (no_index (Proc.devRef .tc main_v470)) = Cert.ReferenceIdeal.ReadP.val_main_v470 (F := F) (V0 (Proc.devRef .tc main_arg0)) (V0 (Proc.devRef .tc main_arg2)) ∧
    val11 V0 (no_index (Proc.devRef .tc main_v495)) = Cert.ReferenceIdeal.ReadP.val_main_v495 (F := F) (V0 (Proc.devRef .tc main_arg0)) (V0 (Proc.devRef .tc main_arg2)) ∧
    val11 V0 (no_index (Proc.devRef .tc main_v500)) = Cert.ReferenceIdeal.ReadP.val_main_v500 (F := F) (V0 (Proc.devRef .tc main_arg0)) (V0 (Proc.devRef .tc main_arg2)) ∧
    val11 V0 (no_index (Proc.devRef .tc main_v505)) = Cert.ReferenceIdeal.ReadP.val_main_v505 (F := F) (V0 (Proc.devRef .tc main_arg0)) (V0 (Proc.devRef .tc main_arg2)) ∧
    val11 V0 (no_index (Proc.devRef .tc main_v509)) = Cert.ReferenceIdeal.ReadP.val_main_v509 (F := F) (V0 (Proc.devRef .tc main_arg0)) (V0 (Proc.devRef .tc main_arg2)) := by
  obtain ⟨h0, h1, h2, h3, h4, h5, h6, h7, h8, h9, h10, h11, h12, h13, h14, h15, h16, h17, h18⟩ := inv10 V0
  refine ⟨(val11_keep V0 main_v0 (by decide)).trans h0, (val11_keep V0 main_v263 (by decide)).trans h1,
    (val11_keep V0 main_v309 (by decide)).trans h4, (val11_keep V0 main_v315 (by decide)).trans h5, ?_, ?_, ?_, ?_,
    ?_⟩
  · unfold val11
    simp only [ops_part10]
    after_results_simp
    try dsimp only [Matrix.cons_val]
    try after_results_simp
    try simp only [h16, h17, h18, h8, h6, h2]
    all_goals rfl
  · unfold val11
    simp only [ops_part10]
    after_results_simp
    try simp only [h11, h10, h3]
    all_goals rfl
  · unfold val11
    simp only [ops_part10]
    after_results_simp
    try simp only [h13, h12, h3]
    all_goals rfl
  · unfold val11
    simp only [ops_part10]
    after_results_simp
    try simp only [h15, h14, h3]
    all_goals rfl
  · unfold val11
    simp only [ops_part10]
    after_results_simp
    try dsimp only [Matrix.cons_val]
    try after_results_simp
    try simp only [h16, h17, h18, h9, h8, h7,
      h6, h2, h3]
    all_goals rfl

set_option maxRecDepth 8192 in
set_option maxHeartbeats 2000000 in
theorem inv12 (V0 : Valuation τ sig (Elt F)) :
    val12 V0 (no_index (Proc.devRef .tc main_v0)) = Cert.ReferenceIdeal.ReadP.val_main_v0 (F := F) (V0 (Proc.devRef .tc main_arg0)) ∧
    val12 V0 (no_index (Proc.devRef .tc main_v263)) = Cert.ReferenceIdeal.ReadP.val_main_v263 (F := F) (V0 (Proc.devRef .tc main_arg0)) (V0 (Proc.devRef .tc main_arg1)) ∧
    val12 V0 (no_index (Proc.devRef .tc main_v526)) = Cert.ReferenceIdeal.ReadP.val_main_v526 (F := F) (V0 (Proc.devRef .tc main_arg0)) (V0 (Proc.devRef .tc main_arg2)) ∧
    val12 V0 (no_index (Proc.devRef .tc main_v527)) = Cert.ReferenceIdeal.ReadP.val_main_v527 (F := F) (V0 (Proc.devRef .tc main_arg3)) ∧
    val12 V0 (no_index (Proc.devRef .tc main_v536)) = Cert.ReferenceIdeal.ReadP.val_main_v536 (F := F) (V0 (Proc.devRef .tc main_arg0)) ∧
    val12 V0 (no_index (Proc.devRef .tc main_v545)) = Cert.ReferenceIdeal.ReadP.val_main_v545 (F := F) (V0 (Proc.devRef .tc main_arg0)) ∧
    val12 V0 (no_index (Proc.devRef .tc main_v554)) = Cert.ReferenceIdeal.ReadP.val_main_v554 (F := F) (V0 (Proc.devRef .tc main_arg0)) := by
  obtain ⟨h0, h1, h2, h3, h4, h5, h6, h7, h8⟩ := inv11 V0
  refine ⟨(val12_keep V0 main_v0 (by decide)).trans h0, (val12_keep V0 main_v263 (by decide)).trans h1, ?_, ?_, ?_,
    ?_, ?_⟩
  · unfold val12
    simp only [ops_part11]
    after_results_simp
    try simp only [h4, h8, h6, h5, h7, h2,
      h3]
    all_goals rfl
  · unfold val12
    simp only [ops_part11]
    after_results_simp
    try simp only [val11_main_arg3]
    all_goals rfl
  · unfold val12
    simp only [ops_part11]
    after_results_simp
    try simp only [TRef.ofBuf_toBuf, h0]
    all_goals rfl
  · unfold val12
    simp only [ops_part11]
    after_results_simp
    try simp only [TRef.ofBuf_toBuf, h0]
    all_goals rfl
  · unfold val12
    simp only [ops_part11]
    after_results_simp
    try simp only [TRef.ofBuf_toBuf, h0]
    all_goals rfl

end Cert.ReferenceIdeal.ValueW

end
-- ==== Proof.RefWinD.lean ====
import proofs.«421879_j36455682409092_3_alg».proof.Proof.RefOps
import proofs.«421879_j36455682409092_3_alg».proof.Proof.RefReadP
import proofs.«421879_j36455682409092_3_alg».proof.Proof.LibTRef
import proofs.«421879_j36455682409092_3_alg».proof.Proof.RefWinC

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

theorem winD_fun2_congr {A B C : Type} (f : A → B → C) {a a' : A} {b b' : B} (ha : a = a') (hb : b = b') : f a b = f a' b' := by
  subst ha hb; rfl

theorem winD_concat3_congr {α : Type} {t s : Shape} {ax : Fin t.rank} {a a' b b' c c' : s.Idx → α}
    {h : Shape.Concatenates (([⟨s, a⟩, ⟨s, b⟩, ⟨s, c⟩] : List ((s : Shape) × (s.Idx → α))).map (·.1)) t ax}
    {h' : Shape.Concatenates (([⟨s, a'⟩, ⟨s, b'⟩, ⟨s, c'⟩] : List ((s : Shape) × (s.Idx → α))).map (·.1)) t ax}
    (ha : a = a') (hb : b = b') (hc : c = c') :
    concatenate t ax [⟨s, a⟩, ⟨s, b⟩, ⟨s, c⟩] h = concatenate t ax [⟨s, a'⟩, ⟨s, b'⟩, ⟨s, c'⟩] h' := by
  subst ha hb hc; rfl

set_option maxRecDepth 8192 in
set_option maxHeartbeats 2000000 in
theorem inv13 (V0 : Valuation τ sig (Elt F)) :
    val13 V0 (no_index (Proc.devRef .tc main_v0)) = Cert.ReferenceIdeal.ReadP.val_main_v0 (F := F) (V0 (Proc.devRef .tc main_arg0)) ∧
    val13 V0 (no_index (Proc.devRef .tc main_v263)) = Cert.ReferenceIdeal.ReadP.val_main_v263 (F := F) (V0 (Proc.devRef .tc main_arg0)) (V0 (Proc.devRef .tc main_arg1)) ∧
    val13 V0 (no_index (Proc.devRef .tc main_v526)) = Cert.ReferenceIdeal.ReadP.val_main_v526 (F := F) (V0 (Proc.devRef .tc main_arg0)) (V0 (Proc.devRef .tc main_arg2)) ∧
    val13 V0 (no_index (Proc.devRef .tc main_v527)) = Cert.ReferenceIdeal.ReadP.val_main_v527 (F := F) (V0 (Proc.devRef .tc main_arg3)) ∧
    val13 V0 (no_index (Proc.devRef .tc main_v566)) = Cert.ReferenceIdeal.ReadP.val_main_v566 (F := F) (V0 (Proc.devRef .tc main_arg0)) ∧
    val13 V0 (no_index (Proc.devRef .tc main_v572)) = Cert.ReferenceIdeal.ReadP.val_main_v572 (F := F) (V0 (Proc.devRef .tc main_arg0)) ∧
    val13 V0 (no_index (Proc.devRef .tc main_v578)) = Cert.ReferenceIdeal.ReadP.val_main_v578 (F := F) (V0 (Proc.devRef .tc main_arg0)) ∧
    val13 V0 (no_index (Proc.devRef .tc main_v579)) = Cert.ReferenceIdeal.ReadP.val_main_v579 (F := F) (V0 (Proc.devRef .tc main_arg0)) ∧
    val13 V0 (no_index (Proc.devRef .tc main_v583)) = Cert.ReferenceIdeal.ReadP.val_main_v583 (F := F) (V0 (Proc.devRef .tc main_arg0)) ∧
    val13 V0 (no_index (Proc.devRef .tc main_v584)) = Cert.ReferenceIdeal.ReadP.val_main_v584 (F := F) (V0 (Proc.devRef .tc main_arg0)) ∧
    val13 V0 (no_index (Proc.devRef .tc main_v588)) = Cert.ReferenceIdeal.ReadP.val_main_v588 (F := F) (V0 (Proc.devRef .tc main_arg0)) ∧
    val13 V0 (no_index (Proc.devRef .tc main_v589)) = Cert.ReferenceIdeal.ReadP.val_main_v589 (F := F) (V0 (Proc.devRef .tc main_arg0)) ∧
    val13 V0 (no_index (Proc.devRef .tc main_v593)) = Cert.ReferenceIdeal.ReadP.val_main_v593 (F := F) (V0 (Proc.devRef .tc main_arg0)) ∧
    val13 V0 (no_index (Proc.devRef .tc main_v598)) = Cert.ReferenceIdeal.ReadP.val_main_v598 (F := F) (V0 (Proc.devRef .tc main_arg0)) ∧
    val13 V0 (no_index (Proc.devRef .tc main_v599)) = Cert.ReferenceIdeal.ReadP.val_main_v599 (F := F) := by
  obtain ⟨h0, h1, h2, h3, h4, h5, h6⟩ := inv12 V0
  refine ⟨(val13_keep V0 main_v0 (by decide)).trans h0, (val13_keep V0 main_v263 (by decide)).trans h1,
    (val13_keep V0 main_v526 (by decide)).trans h2, (val13_keep V0 main_v527 (by decide)).trans h3, ?_, ?_, ?_, ?_,
    ?_, ?_, ?_, ?_, ?_, ?_, ?_⟩
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    simp only [h4, h5, h6]
    rfl
  · unfold val13
    simp only [ops_part12]
    after_results_simp
    rfl

set_option maxRecDepth 8192 in
set_option maxHeartbeats 2000000 in
theorem inv14 (V0 : Valuation τ sig (Elt F)) :
    val14 V0 (no_index (Proc.devRef .tc main_v0)) = Cert.ReferenceIdeal.ReadP.val_main_v0 (F := F) (V0 (Proc.devRef .tc main_arg0)) ∧
    val14 V0 (no_index (Proc.devRef .tc main_v263)) = Cert.ReferenceIdeal.ReadP.val_main_v263 (F := F) (V0 (Proc.devRef .tc main_arg0)) (V0 (Proc.devRef .tc main_arg1)) ∧
    val14 V0 (no_index (Proc.devRef .tc main_v526)) = Cert.ReferenceIdeal.ReadP.val_main_v526 (F := F) (V0 (Proc.devRef .tc main_arg0)) (V0 (Proc.devRef .tc main_arg2)) ∧
    val14 V0 (no_index (Proc.devRef .tc main_v527)) = Cert.ReferenceIdeal.ReadP.val_main_v527 (F := F) (V0 (Proc.devRef .tc main_arg3)) ∧
    val14 V0 (no_index (Proc.devRef .tc main_v566)) = Cert.ReferenceIdeal.ReadP.val_main_v566 (F := F) (V0 (Proc.devRef .tc main_arg0)) ∧
    val14 V0 (no_index (Proc.devRef .tc main_v572)) = Cert.ReferenceIdeal.ReadP.val_main_v572 (F := F) (V0 (Proc.devRef .tc main_arg0)) ∧
    val14 V0 (no_index (Proc.devRef .tc main_v578)) = Cert.ReferenceIdeal.ReadP.val_main_v578 (F := F) (V0 (Proc.devRef .tc main_arg0)) ∧
    val14 V0 (no_index (Proc.devRef .tc main_v579)) = Cert.ReferenceIdeal.ReadP.val_main_v579 (F := F) (V0 (Proc.devRef .tc main_arg0)) ∧
    val14 V0 (no_index (Proc.devRef .tc main_v583)) = Cert.ReferenceIdeal.ReadP.val_main_v583 (F := F) (V0 (Proc.devRef .tc main_arg0)) ∧
    val14 V0 (no_index (Proc.devRef .tc main_v584)) = Cert.ReferenceIdeal.ReadP.val_main_v584 (F := F) (V0 (Proc.devRef .tc main_arg0)) ∧
    val14 V0 (no_index (Proc.devRef .tc main_v588)) = Cert.ReferenceIdeal.ReadP.val_main_v588 (F := F) (V0 (Proc.devRef .tc main_arg0)) ∧
    val14 V0 (no_index (Proc.devRef .tc main_v589)) = Cert.ReferenceIdeal.ReadP.val_main_v589 (F := F) (V0 (Proc.devRef .tc main_arg0)) ∧
    val14 V0 (no_index (Proc.devRef .tc main_v593)) = Cert.ReferenceIdeal.ReadP.val_main_v593 (F := F) (V0 (Proc.devRef .tc main_arg0)) ∧
    val14 V0 (no_index (Proc.devRef .tc main_v613)) = Cert.ReferenceIdeal.ReadP.val_main_v613 (F := F) (V0 (Proc.devRef .tc main_arg0)) (V0 (Proc.devRef .tc main_arg3)) ∧
    val14 V0 (no_index (Proc.devRef .tc main_v633)) = Cert.ReferenceIdeal.ReadP.val_main_v633 (F := F) (V0 (Proc.devRef .tc main_arg0)) (V0 (Proc.devRef .tc main_arg3)) ∧
    val14 V0 (no_index (Proc.devRef .tc main_v638)) = Cert.ReferenceIdeal.ReadP.val_main_v638 (F := F) (V0 (Proc.devRef .tc main_arg0)) ∧
    val14 V0 (no_index (Proc.devRef .tc main_v643)) = Cert.ReferenceIdeal.ReadP.val_main_v643 (F := F) (V0 (Proc.devRef .tc main_arg0)) ∧
    val14 V0 (no_index (Proc.devRef .tc main_v645)) = Cert.ReferenceIdeal.ReadP.val_main_v645 (F := F) (V0 (Proc.devRef .tc main_arg0)) := by
  obtain ⟨h0, h1, h2, h3, h4, h5, h6, h7, h8, h9, h10, h11, h12, h13, h14⟩ := inv13 V0
  refine ⟨(val14_keep V0 main_v0 (by decide)).trans h0, (val14_keep V0 main_v263 (by decide)).trans h1,
    (val14_keep V0 main_v526 (by decide)).trans h2, (val14_keep V0 main_v527 (by decide)).trans h3,
    (val14_keep V0 main_v566 (by decide)).trans h4, (val14_keep V0 main_v572 (by decide)).trans h5,
    (val14_keep V0 main_v578 (by decide)).trans h6, (val14_keep V0 main_v579 (by decide)).trans h7,
    (val14_keep V0 main_v583 (by decide)).trans h8, (val14_keep V0 main_v584 (by decide)).trans h9,
    (val14_keep V0 main_v588 (by decide)).trans h10, (val14_keep V0 main_v589 (by decide)).trans h11,
    (val14_keep V0 main_v593 (by decide)).trans h12, ?_, ?_, ?_, ?_, ?_⟩
  · unfold val14
    simp only [ops_part13]
    after_results_simp
    try dsimp only [Matrix.cons_val]
    refine winD_fun2_congr (Host.gather _) (h3) (winD_concat3_congr ?_ ?_ ?_)
    · after_results_simp
      simp only [h3, h7, h8, h9, h10, h11,
        h13, h14]
      rfl
    · after_results_simp
      simp only [h3, h7, h8, h9, h10, h11,
        h13, h14]
      rfl
    · after_results_simp
      simp only [h3, h7, h8, h9, h10, h11,
        h13, h14]
      rfl
  · unfold val14
    simp only [ops_part13]
    after_results_simp
    try dsimp only [Matrix.cons_val]
    refine winD_fun2_congr (Host.gather _) (h3) (winD_concat3_congr ?_ ?_ ?_)
    · after_results_simp
      simp only [h3, h7, h8, h9, h10, h11,
        h13, h14]
      rfl
    · after_results_simp
      simp only [h3, h7, h8, h9, h10, h11,
        h13, h14]
      rfl
    · after_results_simp
      simp only [h3, h7, h8, h9, h10, h11,
        h13, h14]
      rfl
  · unfold val14
    simp only [ops_part13]
    after_results_simp
    simp only [h3, h7, h8, h9, h10, h11,
      h13, h14]
    rfl
  · unfold val14
    simp only [ops_part13]
    after_results_simp
    simp only [h3, h7, h8, h9, h10, h11,
      h13, h14]
    rfl
  · unfold val14
    simp only [ops_part13]
    after_results_simp
    simp only [h3, h7, h8, h9, h10, h11,
      h13, h14]
    rfl

set_option maxRecDepth 8192 in
set_option maxHeartbeats 2000000 in
theorem inv15 (V0 : Valuation τ sig (Elt F)) :
    val15 V0 (no_index (Proc.devRef .tc main_v0)) = Cert.ReferenceIdeal.ReadP.val_main_v0 (F := F) (V0 (Proc.devRef .tc main_arg0)) ∧
    val15 V0 (no_index (Proc.devRef .tc main_v263)) = Cert.ReferenceIdeal.ReadP.val_main_v263 (F := F) (V0 (Proc.devRef .tc main_arg0)) (V0 (Proc.devRef .tc main_arg1)) ∧
    val15 V0 (no_index (Proc.devRef .tc main_v526)) = Cert.ReferenceIdeal.ReadP.val_main_v526 (F := F) (V0 (Proc.devRef .tc main_arg0)) (V0 (Proc.devRef .tc main_arg2)) ∧
    val15 V0 (no_index (Proc.devRef .tc main_v527)) = Cert.ReferenceIdeal.ReadP.val_main_v527 (F := F) (V0 (Proc.devRef .tc main_arg3)) ∧
    val15 V0 (no_index (Proc.devRef .tc main_v566)) = Cert.ReferenceIdeal.ReadP.val_main_v566 (F := F) (V0 (Proc.devRef .tc main_arg0)) ∧
    val15 V0 (no_index (Proc.devRef .tc main_v572)) = Cert.ReferenceIdeal.ReadP.val_main_v572 (F := F) (V0 (Proc.devRef .tc main_arg0)) ∧
    val15 V0 (no_index (Proc.devRef .tc main_v578)) = Cert.ReferenceIdeal.ReadP.val_main_v578 (F := F) (V0 (Proc.devRef .tc main_arg0)) ∧
    val15 V0 (no_index (Proc.devRef .tc main_v579)) = Cert.ReferenceIdeal.ReadP.val_main_v579 (F := F) (V0 (Proc.devRef .tc main_arg0)) ∧
    val15 V0 (no_index (Proc.devRef .tc main_v583)) = Cert.ReferenceIdeal.ReadP.val_main_v583 (F := F) (V0 (Proc.devRef .tc main_arg0)) ∧
    val15 V0 (no_index (Proc.devRef .tc main_v584)) = Cert.ReferenceIdeal.ReadP.val_main_v584 (F := F) (V0 (Proc.devRef .tc main_arg0)) ∧
    val15 V0 (no_index (Proc.devRef .tc main_v588)) = Cert.ReferenceIdeal.ReadP.val_main_v588 (F := F) (V0 (Proc.devRef .tc main_arg0)) ∧
    val15 V0 (no_index (Proc.devRef .tc main_v593)) = Cert.ReferenceIdeal.ReadP.val_main_v593 (F := F) (V0 (Proc.devRef .tc main_arg0)) ∧
    val15 V0 (no_index (Proc.devRef .tc main_v613)) = Cert.ReferenceIdeal.ReadP.val_main_v613 (F := F) (V0 (Proc.devRef .tc main_arg0)) (V0 (Proc.devRef .tc main_arg3)) ∧
    val15 V0 (no_index (Proc.devRef .tc main_v633)) = Cert.ReferenceIdeal.ReadP.val_main_v633 (F := F) (V0 (Proc.devRef .tc main_arg0)) (V0 (Proc.devRef .tc main_arg3)) ∧
    val15 V0 (no_index (Proc.devRef .tc main_v653)) = Cert.ReferenceIdeal.ReadP.val_main_v653 (F := F) (V0 (Proc.devRef .tc main_arg0)) (V0 (Proc.devRef .tc main_arg3)) ∧
    val15 V0 (no_index (Proc.devRef .tc main_v673)) = Cert.ReferenceIdeal.ReadP.val_main_v673 (F := F) (V0 (Proc.devRef .tc main_arg0)) (V0 (Proc.devRef .tc main_arg3)) ∧
    val15 V0 (no_index (Proc.devRef .tc main_v692)) = Cert.ReferenceIdeal.ReadP.val_main_v692 (F := F) (V0 (Proc.devRef .tc main_arg0)) := by
  obtain ⟨h0, h1, h2, h3, h4, h5, h6, h7, h8, h9, h10, h11, h12, h13, h14, h15, h16, h17⟩ := inv14 V0
  refine ⟨(val15_keep V0 main_v0 (by decide)).trans h0, (val15_keep V0 main_v263 (by decide)).trans h1,
    (val15_keep V0 main_v526 (by decide)).trans h2, (val15_keep V0 main_v527 (by decide)).trans h3,
    (val15_keep V0 main_v566 (by decide)).trans h4, (val15_keep V0 main_v572 (by decide)).trans h5,
    (val15_keep V0 main_v578 (by decide)).trans h6, (val15_keep V0 main_v579 (by decide)).trans h7,
    (val15_keep V0 main_v583 (by decide)).trans h8, (val15_keep V0 main_v584 (by decide)).trans h9,
    (val15_keep V0 main_v588 (by decide)).trans h10, (val15_keep V0 main_v593 (by decide)).trans h12,
    (val15_keep V0 main_v613 (by decide)).trans h13, (val15_keep V0 main_v633 (by decide)).trans h14, ?_, ?_, ?_⟩
  · unfold val15
    simp only [ops_part14]
    after_results_simp
    try dsimp only [Matrix.cons_val]
    refine winD_fun2_congr (Host.gather _) (h3) (winD_concat3_congr ?_ ?_ ?_)
    · after_results_simp
      simp only [h3, h7, h8, h9, h10, h11,
        h12, h15, h16, h17]
      rfl
    · after_results_simp
      simp only [h3, h7, h8, h9, h10, h11,
        h12, h15, h16, h17]
      rfl
    · after_results_simp
      simp only [h3, h7, h8, h9, h10, h11,
        h12, h15, h16, h17]
      rfl
  · unfold val15
    simp only [ops_part14]
    after_results_simp
    try dsimp only [Matrix.cons_val]
    refine winD_fun2_congr (Host.gather _) (h3) (winD_concat3_congr ?_ ?_ ?_)
    · after_results_simp
      simp only [h3, h7, h8, h9, h10, h11,
        h12, h15, h16, h17]
      rfl
    · after_results_simp
      simp only [h3, h7, h8, h9, h10, h11,
        h12, h15, h16, h17]
      rfl
    · after_results_simp
      simp only [h3, h7, h8, h9, h10, h11,
        h12, h15, h16, h17]
      rfl
  · unfold val15
    simp only [ops_part14]
    after_results_simp
    try dsimp only [Matrix.cons_val]
    refine winD_concat3_congr ?_ ?_ ?_
    · after_results_simp
      simp only [h3, h7, h8, h9, h10, h11,
        h12, h15, h16, h17]
      rfl
    · after_results_simp
      simp only [h3, h7, h8, h9, h10, h11,
        h12, h15, h16, h17]
      rfl
    · after_results_simp
      simp only [h3, h7, h8, h9, h10, h11,
        h12, h15, h16, h17]
      rfl

set_option maxRecDepth 8192 in
set_option maxHeartbeats 2000000 in
theorem inv16 (V0 : Valuation τ sig (Elt F)) :
    val16 V0 (no_index (Proc.devRef .tc main_v0)) = Cert.ReferenceIdeal.ReadP.val_main_v0 (F := F) (V0 (Proc.devRef .tc main_arg0)) ∧
    val16 V0 (no_index (Proc.devRef .tc main_v263)) = Cert.ReferenceIdeal.ReadP.val_main_v263 (F := F) (V0 (Proc.devRef .tc main_arg0)) (V0 (Proc.devRef .tc main_arg1)) ∧
    val16 V0 (no_index (Proc.devRef .tc main_v526)) = Cert.ReferenceIdeal.ReadP.val_main_v526 (F := F) (V0 (Proc.devRef .tc main_arg0)) (V0 (Proc.devRef .tc main_arg2)) ∧
    val16 V0 (no_index (Proc.devRef .tc main_v527)) = Cert.ReferenceIdeal.ReadP.val_main_v527 (F := F) (V0 (Proc.devRef .tc main_arg3)) ∧
    val16 V0 (no_index (Proc.devRef .tc main_v566)) = Cert.ReferenceIdeal.ReadP.val_main_v566 (F := F) (V0 (Proc.devRef .tc main_arg0)) ∧
    val16 V0 (no_index (Proc.devRef .tc main_v572)) = Cert.ReferenceIdeal.ReadP.val_main_v572 (F := F) (V0 (Proc.devRef .tc main_arg0)) ∧
    val16 V0 (no_index (Proc.devRef .tc main_v578)) = Cert.ReferenceIdeal.ReadP.val_main_v578 (F := F) (V0 (Proc.devRef .tc main_arg0)) ∧
    val16 V0 (no_index (Proc.devRef .tc main_v583)) = Cert.ReferenceIdeal.ReadP.val_main_v583 (F := F) (V0 (Proc.devRef .tc main_arg0)) ∧
    val16 V0 (no_index (Proc.devRef .tc main_v588)) = Cert.ReferenceIdeal.ReadP.val_main_v588 (F := F) (V0 (Proc.devRef .tc main_arg0)) ∧
    val16 V0 (no_index (Proc.devRef .tc main_v613)) = Cert.ReferenceIdeal.ReadP.val_main_v613 (F := F) (V0 (Proc.devRef .tc main_arg0)) (V0 (Proc.devRef .tc main_arg3)) ∧
    val16 V0 (no_index (Proc.devRef .tc main_v633)) = Cert.ReferenceIdeal.ReadP.val_main_v633 (F := F) (V0 (Proc.devRef .tc main_arg0)) (V0 (Proc.devRef .tc main_arg3)) ∧
    val16 V0 (no_index (Proc.devRef .tc main_v653)) = Cert.ReferenceIdeal.ReadP.val_main_v653 (F := F) (V0 (Proc.devRef .tc main_arg0)) (V0 (Proc.devRef .tc main_arg3)) ∧
    val16 V0 (no_index (Proc.devRef .tc main_v673)) = Cert.ReferenceIdeal.ReadP.val_main_v673 (F := F) (V0 (Proc.devRef .tc main_arg0)) (V0 (Proc.devRef .tc main_arg3)) ∧
    val16 V0 (no_index (Proc.devRef .tc main_v693)) = Cert.ReferenceIdeal.ReadP.val_main_v693 (F := F) (V0 (Proc.devRef .tc main_arg0)) (V0 (Proc.devRef .tc main_arg3)) ∧
    val16 V0 (no_index (Proc.devRef .tc main_v713)) = Cert.ReferenceIdeal.ReadP.val_main_v713 (F := F) (V0 (Proc.devRef .tc main_arg0)) (V0 (Proc.devRef .tc main_arg3)) ∧
    val16 V0 (no_index (Proc.devRef .tc main_v733)) = Cert.ReferenceIdeal.ReadP.val_main_v733 (F := F) (V0 (Proc.devRef .tc main_arg0)) (V0 (Proc.devRef .tc main_arg3)) ∧
    val16 V0 (no_index (Proc.devRef .tc main_v738)) = Cert.ReferenceIdeal.ReadP.val_main_v738 (F := F) (V0 (Proc.devRef .tc main_arg0)) := by
  obtain ⟨h0, h1, h2, h3, h4, h5, h6, h7, h8, h9, h10, h11, h12, h13, h14, h15, h16⟩ := inv15 V0
  refine ⟨(val16_keep V0 main_v0 (by decide)).trans h0, (val16_keep V0 main_v263 (by decide)).trans h1,
    (val16_keep V0 main_v526 (by decide)).trans h2, (val16_keep V0 main_v527 (by decide)).trans h3,
    (val16_keep V0 main_v566 (by decide)).trans h4, (val16_keep V0 main_v572 (by decide)).trans h5,
    (val16_keep V0 main_v578 (by decide)).trans h6, (val16_keep V0 main_v583 (by decide)).trans h8,
    (val16_keep V0 main_v588 (by decide)).trans h10, (val16_keep V0 main_v613 (by decide)).trans h12,
    (val16_keep V0 main_v633 (by decide)).trans h13, (val16_keep V0 main_v653 (by decide)).trans h14,
    (val16_keep V0 main_v673 (by decide)).trans h15, ?_, ?_, ?_, ?_⟩
  · unfold val16
    simp only [ops_part15]
    after_results_simp
    simp only [h3, h7, h8, h9, h10, h11,
      h16]
    rfl
  · unfold val16
    simp only [ops_part15]
    after_results_simp
    try dsimp only [Matrix.cons_val]
    refine winD_fun2_congr (Host.gather _) (h3) (winD_concat3_congr ?_ ?_ ?_)
    · after_results_simp
      simp only [h3, h7, h8, h9, h10, h11,
        h16]
      rfl
    · after_results_simp
      simp only [h3, h7, h8, h9, h10, h11,
        h16]
      rfl
    · after_results_simp
      simp only [h3, h7, h8, h9, h10, h11,
        h16]
      rfl
  · unfold val16
    simp only [ops_part15]
    after_results_simp
    try dsimp only [Matrix.cons_val]
    refine winD_fun2_congr (Host.gather _) (h3) (winD_concat3_congr ?_ ?_ ?_)
    · after_results_simp
      simp only [h3, h7, h8, h9, h10, h11,
        h16]
      rfl
    · after_results_simp
      simp only [h3, h7, h8, h9, h10, h11,
        h16]
      rfl
    · after_results_simp
      simp only [h3, h7, h8, h9, h10, h11,
        h16]
      rfl
  · unfold val16
    simp only [ops_part15]
    after_results_simp
    simp only [h3, h7, h8, h9, h10, h11,
      h16]
    rfl

end Cert.ReferenceIdeal.ValueW

end
-- ==== Proof.RefWinE.lean ====
import proofs.«421879_j36455682409092_3_alg».proof.Proof.RefOps
import proofs.«421879_j36455682409092_3_alg».proof.Proof.RefReadP
import proofs.«421879_j36455682409092_3_alg».proof.Proof.LibTRef
import proofs.«421879_j36455682409092_3_alg».proof.Proof.RefWinD

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

theorem concat3_congr_E {α : Type} {t s : Shape} {a : Fin t.rank} {x x' y y' z z' : s.Idx → α}
    (h : Shape.Concatenates [s, s, s] t a) (hx : x = x') (hy : y = y') (hz : z = z') :
    concatenate t a [⟨s, x⟩, ⟨s, y⟩, ⟨s, z⟩] h = concatenate t a [⟨s, x'⟩, ⟨s, y'⟩, ⟨s, z'⟩] h := by
  subst hx hy hz; rfl

attribute [local congr] concat3_congr_E

set_option maxRecDepth 8192 in
set_option maxHeartbeats 2000000 in
theorem inv17 (V0 : Valuation τ sig (Elt F)) :
    val17 V0 (no_index (Proc.devRef .tc main_v0)) = Cert.ReferenceIdeal.ReadP.val_main_v0 (F := F) (V0 (Proc.devRef .tc main_arg0)) ∧
    val17 V0 (no_index (Proc.devRef .tc main_v263)) = Cert.ReferenceIdeal.ReadP.val_main_v263 (F := F) (V0 (Proc.devRef .tc main_arg0)) (V0 (Proc.devRef .tc main_arg1)) ∧
    val17 V0 (no_index (Proc.devRef .tc main_v526)) = Cert.ReferenceIdeal.ReadP.val_main_v526 (F := F) (V0 (Proc.devRef .tc main_arg0)) (V0 (Proc.devRef .tc main_arg2)) ∧
    val17 V0 (no_index (Proc.devRef .tc main_v789)) = Cert.ReferenceIdeal.ReadP.val_main_v789 (F := F) (V0 (Proc.devRef .tc main_arg0)) (V0 (Proc.devRef .tc main_arg3)) ∧
    val17 V0 (no_index (Proc.devRef .tc main_v790)) = Cert.ReferenceIdeal.ReadP.val_main_v790 (F := F) (V0 (Proc.devRef .tc main_arg4)) ∧
    val17 V0 (no_index (Proc.devRef .tc main_v792)) = Cert.ReferenceIdeal.ReadP.val_main_v792 (F := F) (V0 (Proc.devRef .tc main_arg0)) ∧
    val17 V0 (no_index (Proc.devRef .tc main_v793)) = Cert.ReferenceIdeal.ReadP.val_main_v793 (F := F) := by
  obtain ⟨h0, h1, h2, h3, h4, h5, h6, h7, h8, h9, h10, h11, h12, h13, h14, h15, h16⟩ := inv16 V0
  refine ⟨(val17_keep V0 main_v0 (by decide)).trans h0, (val17_keep V0 main_v263 (by decide)).trans h1,
    (val17_keep V0 main_v526 (by decide)).trans h2, ?_, ?_, ?_, ?_⟩
  · unfold val17
    simp only [ops_part16]
    after_results_simp
    try dsimp only [Matrix.cons_val]
    try after_results_simp
    try simp only [TRef.ofBuf_toBuf, h0, h1, h2, h3, h4,
      h5, h6, h7, h8, h9, h10, h11,
      h12, h13, h14, h15, h16, val16_main_arg0, val16_main_arg1,
      val16_main_arg2, val16_main_arg3, val16_main_arg4]
    rfl
  · unfold val17
    simp only [ops_part16]
    after_results_simp
    try simp only [val16_main_arg4]
    rfl
  · unfold val17
    simp only [ops_part16]
    after_results_simp
    try simp only [h0]
    rfl
  · unfold val17
    simp only [ops_part16]
    after_results_simp
    rfl

set_option maxRecDepth 8192 in
set_option maxHeartbeats 2000000 in
theorem inv18 (V0 : Valuation τ sig (Elt F)) :
    val18 V0 (no_index (Proc.devRef .tc main_v263)) = Cert.ReferenceIdeal.ReadP.val_main_v263 (F := F) (V0 (Proc.devRef .tc main_arg0)) (V0 (Proc.devRef .tc main_arg1)) ∧
    val18 V0 (no_index (Proc.devRef .tc main_v526)) = Cert.ReferenceIdeal.ReadP.val_main_v526 (F := F) (V0 (Proc.devRef .tc main_arg0)) (V0 (Proc.devRef .tc main_arg2)) ∧
    val18 V0 (no_index (Proc.devRef .tc main_v789)) = Cert.ReferenceIdeal.ReadP.val_main_v789 (F := F) (V0 (Proc.devRef .tc main_arg0)) (V0 (Proc.devRef .tc main_arg3)) ∧
    val18 V0 (no_index (Proc.devRef .tc main_v790)) = Cert.ReferenceIdeal.ReadP.val_main_v790 (F := F) (V0 (Proc.devRef .tc main_arg4)) ∧
    val18 V0 (no_index (Proc.devRef .tc main_v818)) = Cert.ReferenceIdeal.ReadP.val_main_v818 (F := F) (V0 (Proc.devRef .tc main_arg0)) ∧
    val18 V0 (no_index (Proc.devRef .tc main_v819)) = Cert.ReferenceIdeal.ReadP.val_main_v819 (F := F) (V0 (Proc.devRef .tc main_arg0)) ∧
    val18 V0 (no_index (Proc.devRef .tc main_v820)) = Cert.ReferenceIdeal.ReadP.val_main_v820 (F := F) (V0 (Proc.devRef .tc main_arg0)) ∧
    val18 V0 (no_index (Proc.devRef .tc main_v823)) = Cert.ReferenceIdeal.ReadP.val_main_v823 (F := F) (V0 (Proc.devRef .tc main_arg0)) ∧
    val18 V0 (no_index (Proc.devRef .tc main_v829)) = Cert.ReferenceIdeal.ReadP.val_main_v829 (F := F) (V0 (Proc.devRef .tc main_arg0)) ∧
    val18 V0 (no_index (Proc.devRef .tc main_v835)) = Cert.ReferenceIdeal.ReadP.val_main_v835 (F := F) (V0 (Proc.devRef .tc main_arg0)) := by
  obtain ⟨h0, h1, h2, h3, h4, h5, h6⟩ := inv17 V0
  refine ⟨(val18_keep V0 main_v263 (by decide)).trans h1, (val18_keep V0 main_v526 (by decide)).trans h2,
    (val18_keep V0 main_v789 (by decide)).trans h3, (val18_keep V0 main_v790 (by decide)).trans h4, ?_, ?_, ?_, ?_,
    ?_, ?_⟩ <;>
  · unfold val18
    simp only [ops_part17]
    after_results_simp
    try simp only [TRef.ofBuf_toBuf, h0, h5, h6]
    rfl

set_option maxRecDepth 8192 in
set_option maxHeartbeats 2000000 in
theorem inv19 (V0 : Valuation τ sig (Elt F)) :
    val19 V0 (no_index (Proc.devRef .tc main_v263)) = Cert.ReferenceIdeal.ReadP.val_main_v263 (F := F) (V0 (Proc.devRef .tc main_arg0)) (V0 (Proc.devRef .tc main_arg1)) ∧
    val19 V0 (no_index (Proc.devRef .tc main_v526)) = Cert.ReferenceIdeal.ReadP.val_main_v526 (F := F) (V0 (Proc.devRef .tc main_arg0)) (V0 (Proc.devRef .tc main_arg2)) ∧
    val19 V0 (no_index (Proc.devRef .tc main_v789)) = Cert.ReferenceIdeal.ReadP.val_main_v789 (F := F) (V0 (Proc.devRef .tc main_arg0)) (V0 (Proc.devRef .tc main_arg3)) ∧
    val19 V0 (no_index (Proc.devRef .tc main_v790)) = Cert.ReferenceIdeal.ReadP.val_main_v790 (F := F) (V0 (Proc.devRef .tc main_arg4)) ∧
    val19 V0 (no_index (Proc.devRef .tc main_v829)) = Cert.ReferenceIdeal.ReadP.val_main_v829 (F := F) (V0 (Proc.devRef .tc main_arg0)) ∧
    val19 V0 (no_index (Proc.devRef .tc main_v835)) = Cert.ReferenceIdeal.ReadP.val_main_v835 (F := F) (V0 (Proc.devRef .tc main_arg0)) ∧
    val19 V0 (no_index (Proc.devRef .tc main_v841)) = Cert.ReferenceIdeal.ReadP.val_main_v841 (F := F) (V0 (Proc.devRef .tc main_arg0)) ∧
    val19 V0 (no_index (Proc.devRef .tc main_v842)) = Cert.ReferenceIdeal.ReadP.val_main_v842 (F := F) (V0 (Proc.devRef .tc main_arg0)) ∧
    val19 V0 (no_index (Proc.devRef .tc main_v846)) = Cert.ReferenceIdeal.ReadP.val_main_v846 (F := F) (V0 (Proc.devRef .tc main_arg0)) ∧
    val19 V0 (no_index (Proc.devRef .tc main_v847)) = Cert.ReferenceIdeal.ReadP.val_main_v847 (F := F) (V0 (Proc.devRef .tc main_arg0)) ∧
    val19 V0 (no_index (Proc.devRef .tc main_v851)) = Cert.ReferenceIdeal.ReadP.val_main_v851 (F := F) (V0 (Proc.devRef .tc main_arg0)) ∧
    val19 V0 (no_index (Proc.devRef .tc main_v852)) = Cert.ReferenceIdeal.ReadP.val_main_v852 (F := F) (V0 (Proc.devRef .tc main_arg0)) ∧
    val19 V0 (no_index (Proc.devRef .tc main_v856)) = Cert.ReferenceIdeal.ReadP.val_main_v856 (F := F) (V0 (Proc.devRef .tc main_arg0)) ∧
    val19 V0 (no_index (Proc.devRef .tc main_v876)) = Cert.ReferenceIdeal.ReadP.val_main_v876 (F := F) (V0 (Proc.devRef .tc main_arg0)) (V0 (Proc.devRef .tc main_arg4)) ∧
    val19 V0 (no_index (Proc.devRef .tc main_v878)) = Cert.ReferenceIdeal.ReadP.val_main_v878 (F := F) (V0 (Proc.devRef .tc main_arg0)) ∧
    val19 V0 (no_index (Proc.devRef .tc main_v879)) = Cert.ReferenceIdeal.ReadP.val_main_v879 (F := F) := by
  obtain ⟨h0, h1, h2, h3, h4, h5, h6, h7, h8, h9⟩ := inv18 V0
  refine ⟨(val19_keep V0 main_v263 (by decide)).trans h0, (val19_keep V0 main_v526 (by decide)).trans h1,
    (val19_keep V0 main_v789 (by decide)).trans h2, (val19_keep V0 main_v790 (by decide)).trans h3,
    (val19_keep V0 main_v829 (by decide)).trans h8, (val19_keep V0 main_v835 (by decide)).trans h9, ?_, ?_, ?_, ?_,
    ?_, ?_, ?_, ?_, ?_, ?_⟩
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try simp only [h4, h5, h6, h7, h3]
    rfl
  · unfold val19
    simp only [ops_part18]
    after_results_simp
    try dsimp only [Matrix.cons_val]
    try after_results_simp
    try simp only [h4, h5, h6, h7, h3]
    rfl
  · unfold val19
    simp only [ops_part18]
    after_results_simp
    try simp only [h4, h5, h6, h7, h3]
    rfl
  · unfold val19
    simp only [ops_part18]
    after_results_simp
    rfl

set_option maxRecDepth 8192 in
set_option maxHeartbeats 2000000 in
theorem inv20 (V0 : Valuation τ sig (Elt F)) :
    val20 V0 (no_index (Proc.devRef .tc main_v263)) = Cert.ReferenceIdeal.ReadP.val_main_v263 (F := F) (V0 (Proc.devRef .tc main_arg0)) (V0 (Proc.devRef .tc main_arg1)) ∧
    val20 V0 (no_index (Proc.devRef .tc main_v526)) = Cert.ReferenceIdeal.ReadP.val_main_v526 (F := F) (V0 (Proc.devRef .tc main_arg0)) (V0 (Proc.devRef .tc main_arg2)) ∧
    val20 V0 (no_index (Proc.devRef .tc main_v789)) = Cert.ReferenceIdeal.ReadP.val_main_v789 (F := F) (V0 (Proc.devRef .tc main_arg0)) (V0 (Proc.devRef .tc main_arg3)) ∧
    val20 V0 (no_index (Proc.devRef .tc main_v790)) = Cert.ReferenceIdeal.ReadP.val_main_v790 (F := F) (V0 (Proc.devRef .tc main_arg4)) ∧
    val20 V0 (no_index (Proc.devRef .tc main_v829)) = Cert.ReferenceIdeal.ReadP.val_main_v829 (F := F) (V0 (Proc.devRef .tc main_arg0)) ∧
    val20 V0 (no_index (Proc.devRef .tc main_v835)) = Cert.ReferenceIdeal.ReadP.val_main_v835 (F := F) (V0 (Proc.devRef .tc main_arg0)) ∧
    val20 V0 (no_index (Proc.devRef .tc main_v841)) = Cert.ReferenceIdeal.ReadP.val_main_v841 (F := F) (V0 (Proc.devRef .tc main_arg0)) ∧
    val20 V0 (no_index (Proc.devRef .tc main_v842)) = Cert.ReferenceIdeal.ReadP.val_main_v842 (F := F) (V0 (Proc.devRef .tc main_arg0)) ∧
    val20 V0 (no_index (Proc.devRef .tc main_v846)) = Cert.ReferenceIdeal.ReadP.val_main_v846 (F := F) (V0 (Proc.devRef .tc main_arg0)) ∧
    val20 V0 (no_index (Proc.devRef .tc main_v847)) = Cert.ReferenceIdeal.ReadP.val_main_v847 (F := F) (V0 (Proc.devRef .tc main_arg0)) ∧
    val20 V0 (no_index (Proc.devRef .tc main_v851)) = Cert.ReferenceIdeal.ReadP.val_main_v851 (F := F) (V0 (Proc.devRef .tc main_arg0)) ∧
    val20 V0 (no_index (Proc.devRef .tc main_v856)) = Cert.ReferenceIdeal.ReadP.val_main_v856 (F := F) (V0 (Proc.devRef .tc main_arg0)) ∧
    val20 V0 (no_index (Proc.devRef .tc main_v876)) = Cert.ReferenceIdeal.ReadP.val_main_v876 (F := F) (V0 (Proc.devRef .tc main_arg0)) (V0 (Proc.devRef .tc main_arg4)) ∧
    val20 V0 (no_index (Proc.devRef .tc main_v896)) = Cert.ReferenceIdeal.ReadP.val_main_v896 (F := F) (V0 (Proc.devRef .tc main_arg0)) (V0 (Proc.devRef .tc main_arg4)) ∧
    val20 V0 (no_index (Proc.devRef .tc main_v916)) = Cert.ReferenceIdeal.ReadP.val_main_v916 (F := F) (V0 (Proc.devRef .tc main_arg0)) (V0 (Proc.devRef .tc main_arg4)) ∧
    val20 V0 (no_index (Proc.devRef .tc main_v921)) = Cert.ReferenceIdeal.ReadP.val_main_v921 (F := F) (V0 (Proc.devRef .tc main_arg0)) ∧
    val20 V0 (no_index (Proc.devRef .tc main_v923)) = Cert.ReferenceIdeal.ReadP.val_main_v923 (F := F) (V0 (Proc.devRef .tc main_arg0)) ∧
    val20 V0 (no_index (Proc.devRef .tc main_v925)) = Cert.ReferenceIdeal.ReadP.val_main_v925 (F := F) (V0 (Proc.devRef .tc main_arg0)) := by
  obtain ⟨h0, h1, h2, h3, h4, h5, h6, h7, h8, h9, h10, h11, h12, h13, h14, h15⟩ := inv19 V0
  refine ⟨(val20_keep V0 main_v263 (by decide)).trans h0, (val20_keep V0 main_v526 (by decide)).trans h1,
    (val20_keep V0 main_v789 (by decide)).trans h2, (val20_keep V0 main_v790 (by decide)).trans h3,
    (val20_keep V0 main_v829 (by decide)).trans h4, (val20_keep V0 main_v835 (by decide)).trans h5,
    (val20_keep V0 main_v841 (by decide)).trans h6, (val20_keep V0 main_v842 (by decide)).trans h7,
    (val20_keep V0 main_v846 (by decide)).trans h8, (val20_keep V0 main_v847 (by decide)).trans h9,
    (val20_keep V0 main_v851 (by decide)).trans h10, (val20_keep V0 main_v856 (by decide)).trans h12,
    (val20_keep V0 main_v876 (by decide)).trans h13, ?_, ?_, ?_, ?_, ?_⟩
  · unfold val20
    simp only [ops_part19]
    after_results_simp
    try dsimp only [Matrix.cons_val]
    try after_results_simp
    try simp only [h3, h7, h8, h9, h10, h11,
      h12, h14, h15]
    rfl
  · unfold val20
    simp only [ops_part19]
    after_results_simp
    try dsimp only [Matrix.cons_val]
    try after_results_simp
    try simp only [h3, h7, h8, h9, h10, h11,
      h12, h14, h15]
    rfl
  · unfold val20
    simp only [ops_part19]
    after_results_simp
    try simp only [h3, h7, h8, h9, h10, h11,
      h12, h14, h15]
    rfl
  · unfold val20
    simp only [ops_part19]
    after_results_simp
    try simp only [h3, h7, h8, h9, h10, h11,
      h12, h14, h15]
    rfl
  · unfold val20
    simp only [ops_part19]
    after_results_simp
    try simp only [h3, h7, h8, h9, h10, h11,
      h12, h14, h15]
    rfl

end Cert.ReferenceIdeal.ValueW

end
-- ==== Proof.RefWinF.lean ====
import proofs.«421879_j36455682409092_3_alg».proof.Proof.RefOps
import proofs.«421879_j36455682409092_3_alg».proof.Proof.RefReadP
import proofs.«421879_j36455682409092_3_alg».proof.Proof.LibTRef
import proofs.«421879_j36455682409092_3_alg».proof.Proof.RefWinE

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

theorem winF_concat3_congr {α : Type} {t s : Shape} {a : Fin t.rank} {x x' y y' z z' : s.Idx → α}
    (h : Shape.Concatenates [s, s, s] t a) (hx : x = x') (hy : y = y') (hz : z = z') :
    concatenate t a [⟨s, x⟩, ⟨s, y⟩, ⟨s, z⟩] h = concatenate t a [⟨s, x'⟩, ⟨s, y'⟩, ⟨s, z'⟩] h := by
  subst hx hy hz; rfl

theorem winF_concat4_congr {α : Type} {t s : Shape} {a : Fin t.rank} {x x' y y' z z' w w' : s.Idx → α}
    (h : Shape.Concatenates [s, s, s, s] t a) (hx : x = x') (hy : y = y') (hz : z = z') (hw : w = w') :
    concatenate t a [⟨s, x⟩, ⟨s, y⟩, ⟨s, z⟩, ⟨s, w⟩] h = concatenate t a [⟨s, x'⟩, ⟨s, y'⟩, ⟨s, z'⟩, ⟨s, w'⟩] h := by
  subst hx hy hz hw; rfl

attribute [local congr] winF_concat3_congr winF_concat4_congr

set_option maxRecDepth 8192 in
set_option maxHeartbeats 2000000 in
theorem inv21 (V0 : Valuation τ sig (Elt F)) :
    val21 V0 (no_index (Proc.devRef .tc main_v263)) = Cert.ReferenceIdeal.ReadP.val_main_v263 (F := F) (V0 (Proc.devRef .tc main_arg0)) (V0 (Proc.devRef .tc main_arg1)) ∧
    val21 V0 (no_index (Proc.devRef .tc main_v526)) = Cert.ReferenceIdeal.ReadP.val_main_v526 (F := F) (V0 (Proc.devRef .tc main_arg0)) (V0 (Proc.devRef .tc main_arg2)) ∧
    val21 V0 (no_index (Proc.devRef .tc main_v789)) = Cert.ReferenceIdeal.ReadP.val_main_v789 (F := F) (V0 (Proc.devRef .tc main_arg0)) (V0 (Proc.devRef .tc main_arg3)) ∧
    val21 V0 (no_index (Proc.devRef .tc main_v790)) = Cert.ReferenceIdeal.ReadP.val_main_v790 (F := F) (V0 (Proc.devRef .tc main_arg4)) ∧
    val21 V0 (no_index (Proc.devRef .tc main_v829)) = Cert.ReferenceIdeal.ReadP.val_main_v829 (F := F) (V0 (Proc.devRef .tc main_arg0)) ∧
    val21 V0 (no_index (Proc.devRef .tc main_v835)) = Cert.ReferenceIdeal.ReadP.val_main_v835 (F := F) (V0 (Proc.devRef .tc main_arg0)) ∧
    val21 V0 (no_index (Proc.devRef .tc main_v841)) = Cert.ReferenceIdeal.ReadP.val_main_v841 (F := F) (V0 (Proc.devRef .tc main_arg0)) ∧
    val21 V0 (no_index (Proc.devRef .tc main_v842)) = Cert.ReferenceIdeal.ReadP.val_main_v842 (F := F) (V0 (Proc.devRef .tc main_arg0)) ∧
    val21 V0 (no_index (Proc.devRef .tc main_v846)) = Cert.ReferenceIdeal.ReadP.val_main_v846 (F := F) (V0 (Proc.devRef .tc main_arg0)) ∧
    val21 V0 (no_index (Proc.devRef .tc main_v851)) = Cert.ReferenceIdeal.ReadP.val_main_v851 (F := F) (V0 (Proc.devRef .tc main_arg0)) ∧
    val21 V0 (no_index (Proc.devRef .tc main_v856)) = Cert.ReferenceIdeal.ReadP.val_main_v856 (F := F) (V0 (Proc.devRef .tc main_arg0)) ∧
    val21 V0 (no_index (Proc.devRef .tc main_v876)) = Cert.ReferenceIdeal.ReadP.val_main_v876 (F := F) (V0 (Proc.devRef .tc main_arg0)) (V0 (Proc.devRef .tc main_arg4)) ∧
    val21 V0 (no_index (Proc.devRef .tc main_v896)) = Cert.ReferenceIdeal.ReadP.val_main_v896 (F := F) (V0 (Proc.devRef .tc main_arg0)) (V0 (Proc.devRef .tc main_arg4)) ∧
    val21 V0 (no_index (Proc.devRef .tc main_v916)) = Cert.ReferenceIdeal.ReadP.val_main_v916 (F := F) (V0 (Proc.devRef .tc main_arg0)) (V0 (Proc.devRef .tc main_arg4)) ∧
    val21 V0 (no_index (Proc.devRef .tc main_v936)) = Cert.ReferenceIdeal.ReadP.val_main_v936 (F := F) (V0 (Proc.devRef .tc main_arg0)) (V0 (Proc.devRef .tc main_arg4)) ∧
    val21 V0 (no_index (Proc.devRef .tc main_v956)) = Cert.ReferenceIdeal.ReadP.val_main_v956 (F := F) (V0 (Proc.devRef .tc main_arg0)) (V0 (Proc.devRef .tc main_arg4)) ∧
    val21 V0 (no_index (Proc.devRef .tc main_v961)) = Cert.ReferenceIdeal.ReadP.val_main_v961 (F := F) (V0 (Proc.devRef .tc main_arg0)) ∧
    val21 V0 (no_index (Proc.devRef .tc main_v966)) = Cert.ReferenceIdeal.ReadP.val_main_v966 (F := F) (V0 (Proc.devRef .tc main_arg0)) ∧
    val21 V0 (no_index (Proc.devRef .tc main_v971)) = Cert.ReferenceIdeal.ReadP.val_main_v971 (F := F) (V0 (Proc.devRef .tc main_arg0)) := by
  obtain ⟨h0, h1, h2, h3, h4, h5, h6, h7, h8, h9, h10, h11, h12, h13, h14, h15, h16, h17⟩ := inv20 V0
  refine ⟨(val21_keep V0 main_v263 (by decide)).trans h0, (val21_keep V0 main_v526 (by decide)).trans h1,
    (val21_keep V0 main_v789 (by decide)).trans h2, (val21_keep V0 main_v790 (by decide)).trans h3,
    (val21_keep V0 main_v829 (by decide)).trans h4, (val21_keep V0 main_v835 (by decide)).trans h5,
    (val21_keep V0 main_v841 (by decide)).trans h6, (val21_keep V0 main_v842 (by decide)).trans h7,
    (val21_keep V0 main_v846 (by decide)).trans h8, (val21_keep V0 main_v851 (by decide)).trans h10,
    (val21_keep V0 main_v856 (by decide)).trans h11, (val21_keep V0 main_v876 (by decide)).trans h12,
    (val21_keep V0 main_v896 (by decide)).trans h13, (val21_keep V0 main_v916 (by decide)).trans h14, ?_, ?_, ?_, ?_,
    ?_⟩
  · unfold val21
    simp only [ops_part20]
    after_results_simp
    dsimp only [Matrix.cons_val]
    after_results_simp
    simp only [h3, h15, h16, h17, h10, h8] <;> rfl
  · unfold val21
    simp only [ops_part20]
    after_results_simp
    dsimp only [Matrix.cons_val]
    after_results_simp
    simp only [h3, h11, h9, h7] <;> rfl
  · unfold val21
    simp only [ops_part20]
    after_results_simp
    simp only [h11] <;> rfl
  · unfold val21
    simp only [ops_part20]
    after_results_simp
    simp only [h9] <;> rfl
  · unfold val21
    simp only [ops_part20]
    after_results_simp
    simp only [h8] <;> rfl

set_option maxRecDepth 8192 in
set_option maxHeartbeats 2000000 in
theorem inv22 (V0 : Valuation τ sig (Elt F)) :
    val22 V0 (no_index (Proc.devRef .tc main_v263)) = Cert.ReferenceIdeal.ReadP.val_main_v263 (F := F) (V0 (Proc.devRef .tc main_arg0)) (V0 (Proc.devRef .tc main_arg1)) ∧
    val22 V0 (no_index (Proc.devRef .tc main_v526)) = Cert.ReferenceIdeal.ReadP.val_main_v526 (F := F) (V0 (Proc.devRef .tc main_arg0)) (V0 (Proc.devRef .tc main_arg2)) ∧
    val22 V0 (no_index (Proc.devRef .tc main_v789)) = Cert.ReferenceIdeal.ReadP.val_main_v789 (F := F) (V0 (Proc.devRef .tc main_arg0)) (V0 (Proc.devRef .tc main_arg3)) ∧
    val22 V0 (no_index (Proc.devRef .tc main_v829)) = Cert.ReferenceIdeal.ReadP.val_main_v829 (F := F) (V0 (Proc.devRef .tc main_arg0)) ∧
    val22 V0 (no_index (Proc.devRef .tc main_v835)) = Cert.ReferenceIdeal.ReadP.val_main_v835 (F := F) (V0 (Proc.devRef .tc main_arg0)) ∧
    val22 V0 (no_index (Proc.devRef .tc main_v841)) = Cert.ReferenceIdeal.ReadP.val_main_v841 (F := F) (V0 (Proc.devRef .tc main_arg0)) ∧
    val22 V0 (no_index (Proc.devRef .tc main_v876)) = Cert.ReferenceIdeal.ReadP.val_main_v876 (F := F) (V0 (Proc.devRef .tc main_arg0)) (V0 (Proc.devRef .tc main_arg4)) ∧
    val22 V0 (no_index (Proc.devRef .tc main_v916)) = Cert.ReferenceIdeal.ReadP.val_main_v916 (F := F) (V0 (Proc.devRef .tc main_arg0)) (V0 (Proc.devRef .tc main_arg4)) ∧
    val22 V0 (no_index (Proc.devRef .tc main_v936)) = Cert.ReferenceIdeal.ReadP.val_main_v936 (F := F) (V0 (Proc.devRef .tc main_arg0)) (V0 (Proc.devRef .tc main_arg4)) ∧
    val22 V0 (no_index (Proc.devRef .tc main_v956)) = Cert.ReferenceIdeal.ReadP.val_main_v956 (F := F) (V0 (Proc.devRef .tc main_arg0)) (V0 (Proc.devRef .tc main_arg4)) ∧
    val22 V0 (no_index (Proc.devRef .tc main_v976)) = Cert.ReferenceIdeal.ReadP.val_main_v976 (F := F) (V0 (Proc.devRef .tc main_arg0)) (V0 (Proc.devRef .tc main_arg4)) ∧
    val22 V0 (no_index (Proc.devRef .tc main_v996)) = Cert.ReferenceIdeal.ReadP.val_main_v996 (F := F) (V0 (Proc.devRef .tc main_arg0)) (V0 (Proc.devRef .tc main_arg4)) ∧
    val22 V0 (no_index (Proc.devRef .tc main_v1016)) = Cert.ReferenceIdeal.ReadP.val_main_v1016 (F := F) (V0 (Proc.devRef .tc main_arg0)) (V0 (Proc.devRef .tc main_arg4)) ∧
    val22 V0 (no_index (Proc.devRef .tc main_v1017)) = Cert.ReferenceIdeal.ReadP.val_main_v1017 (F := F) (V0 (Proc.devRef .tc main_arg0)) (V0 (Proc.devRef .tc main_arg4)) ∧
    val22 V0 (no_index (Proc.devRef .tc main_v1019)) = Cert.ReferenceIdeal.ReadP.val_main_v1019 (F := F) (V0 (Proc.devRef .tc main_arg0)) := by
  obtain ⟨h0, h1, h2, h3, h4, h5, h6, h7, h8, h9, h10, h11, h12, h13, h14, h15, h16, h17, h18⟩ := inv21 V0
  refine ⟨(val22_keep V0 main_v263 (by decide)).trans h0, (val22_keep V0 main_v526 (by decide)).trans h1,
    (val22_keep V0 main_v789 (by decide)).trans h2, (val22_keep V0 main_v829 (by decide)).trans h4,
    (val22_keep V0 main_v835 (by decide)).trans h5, (val22_keep V0 main_v841 (by decide)).trans h6,
    (val22_keep V0 main_v876 (by decide)).trans h11, (val22_keep V0 main_v916 (by decide)).trans h13,
    (val22_keep V0 main_v936 (by decide)).trans h14, (val22_keep V0 main_v956 (by decide)).trans h15, ?_, ?_, ?_, ?_,
    ?_⟩
  · unfold val22
    simp only [ops_part21]
    after_results_simp
    dsimp only [Matrix.cons_val]
    after_results_simp
    simp only [h3, h16, h17, h18] <;> rfl
  · unfold val22
    simp only [ops_part21]
    after_results_simp
    dsimp only [Matrix.cons_val]
    after_results_simp
    simp only [h3, h10, h9, h7] <;> rfl
  · unfold val22
    simp only [ops_part21]
    after_results_simp
    dsimp only [Matrix.cons_val]
    after_results_simp
    simp only [h3, h10, h9, h8] <;> rfl
  · unfold val22
    simp only [ops_part21]
    after_results_simp
    simp only [h12, h11] <;> rfl
  · unfold val22
    simp only [ops_part21]
    after_results_simp
    simp only [h4] <;> rfl

set_option maxRecDepth 8192 in
set_option maxHeartbeats 2000000 in
theorem val23_main_v1053 (V0 : Valuation τ sig (Elt F)) :
    val23 V0 (no_index (Proc.devRef .tc main_v1053)) = Cert.ReferenceIdeal.ReadP.val_main_v1053 (F := F) (V0 (Proc.devRef .tc main_arg0)) (V0 (Proc.devRef .tc main_arg1)) (V0 (Proc.devRef .tc main_arg2)) (V0 (Proc.devRef .tc main_arg3)) (V0 (Proc.devRef .tc main_arg4)) := by
  obtain ⟨h0, h1, h2, h3, h4, h5, h6, h7, h8, h9, h10, h11, h12, h13, h14⟩ := inv22 V0
  unfold val23
  simp only [ops_part22]
  after_results_simp
  dsimp only [Matrix.cons_val]
  after_results_simp
  simp only [h0, h1, h2, h3, h4, h5, h6, h7, h8, h9, h10, h11, h12, h13, h14] <;> rfl

end Cert.ReferenceIdeal.ValueW
-- ==== Proof.RefRun.lean ====
/- The reference's operations are one straight line: it terminates with its result at the last stage of the launch contents, its arguments unchanged. -/
import proofs.«421879_j36455682409092_3_alg».proof.Proof.RefOps
import proofs.«421879_j36455682409092_3_alg».proof.Proof.RefFresh
import proofs.«421879_j36455682409092_3_alg».proof.Proof.RefReadP
import proofs.«421879_j36455682409092_3_alg».proof.Proof.RefWinF

noncomputable section

namespace Cert.ReferenceIdeal.ValueW

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1053)
          = Cert.ReferenceIdeal.ReadP.val_main_v1053 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v1053).trans (by simp only [after_ops]; exact val23_main_v1053 (launchContents m c)),
     (h c main_arg0).trans (by simp only [after_ops]; exact val23_main_arg0 (launchContents m c)),
     (h c main_arg1).trans (by simp only [after_ops]; exact val23_main_arg1 (launchContents m c)),
     (h c main_arg2).trans (by simp only [after_ops]; exact val23_main_arg2 (launchContents m c)),
     (h c main_arg3).trans (by simp only [after_ops]; exact val23_main_arg3 (launchContents m c)),
     (h c main_arg4).trans (by simp only [after_ops]; exact val23_main_arg4 (launchContents m c))⟩)
    (run_seq scopedRefs_eq scopedSems_eq defs main (fun _ => ops) main_eq (fun _ => ops_sub) m ρ (fun _ => ops_fresh))

end Cert.ReferenceIdeal.ValueW

end
-- ==== Proof.PreFin.lean ====
/- An extended real x with max x (-x) < ⊤ is a real number: the precondition makes every coordinate of every sample point real. -/
import proofs.«421879_j36455682409092_3_alg».proof.Defs
import proofs.«421879_j36455682409092_3_alg».proof.Proof.Gen.Pre_finite_inputs
import Idealize.ShloMosaic.PureOps.Ideal
import Idealize.ShloMosaic.Lib.ReduceAll
import Idealize.ShloMosaic.Lib.ValueIdx

noncomputable section

namespace Cert.PreFin

open Idealize.ShloMosaic Idealize.SL.Sem Idealize.ShloMosaic.ValueIdx Cert.Pre_finite_inputs

instance : Subsingleton S_.Idx := ⟨fun a b => funext fun d => d.elim0⟩

theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by
    simp [Ideal.ofBits, Ideal.ieee]
  rw [hinf] at h
  induction x using EReal.rec with
  | bot => simp [Ideal.cmp] at h
  | coe r => exact ⟨r, rfl⟩
  | top => simp [Ideal.cmp] at h

theorem grid_finite [hP : Cert.Pre_finite_inputs.Facts]
    (x0 : FVec Ideal S1x1x1x1048576x3 .f32) (x1 : FVec Ideal S1x4x32x32x32 .f32)
    (x2 : FVec Ideal S1x4x64x64x64 .f32) (x3 : FVec Ideal S1x4x128x128x128 .f32)
    (x4 : FVec Ideal S1x4x256x256x256 .f32)
    (h : Cert.Pre_finite_inputs.fn (F := Ideal) x0 x1 x2 x3 x4 = fun _ => 1#1) :
    ∀ j, ∃ r : ℝ, x0 j = (r : EReal) := by
  intro j
  have h0 := congrFun h ix0
  dsimp only [Cert.Pre_finite_inputs.fn, Cert.Pre_finite_inputs.fn_part1, andi] at h0
  have hg := (IntOp.andi_eq_one.1 (IntOp.andi_eq_one.1 (IntOp.andi_eq_one.1 (IntOp.andi_eq_one.1 h0).1).1).1).1
  have he := Host.reduce_andi_all _ _ _ _ _ hg j
  exact real_of_abs_lt_inf (x0 j) he

theorem grid_finite_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j, ∃ r : ℝ, (m ((c.tc : Thread Cert.KernelIdeal.nD Cert.KernelIdeal.τ).loc Cert.KernelIdeal.main_arg0) :
      Cert.KernelIdeal.S1x1x1x1048576x3.Idx → EReal) j = (r : EReal) :=
  grid_finite _ _ _ _ _ (hpre c)

end Cert.PreFin

end
-- ==== Proof.lean ====
/- The claim: each program runs to its end leaving its arguments as launched, and from finite sample points the kernel program and the reference end with equal results over the extended reals. -/
import proofs.«421879_j36455682409092_3_alg».proof.Defs
import proofs.«421879_j36455682409092_3_alg».proof.Proof.Gen.Kernel
import proofs.«421879_j36455682409092_3_alg».proof.Proof.Gen.KernelIdeal
import proofs.«421879_j36455682409092_3_alg».proof.Proof.Gen.ReferenceIdeal
import proofs.«421879_j36455682409092_3_alg».proof.Proof.Gen.Pre_finite_inputs
import proofs.«421879_j36455682409092_3_alg».proof.Proof.KFrame
import proofs.«421879_j36455682409092_3_alg».proof.Proof.KIFrame
import proofs.«421879_j36455682409092_3_alg».proof.Proof.KJoin
import proofs.«421879_j36455682409092_3_alg».proof.Proof.RefRun
import proofs.«421879_j36455682409092_3_alg».proof.Proof.PreFin
import Idealize.ShloMosaic.Adequacy
import Idealize.ShloMosaic.Init

noncomputable section

namespace Cert.Proof

open Idealize.ShloMosaic Idealize.ShloMosaic.TcCoe Idealize.SL.Sem

theorem frame_k [hKernel : Cert.Kernel.Facts] [hPre_finite_inputs : Cert.Pre_finite_inputs.Facts] : Cert.frame_Kernel :=
  fun m ρ _ => Cert.Kernel.Hand.frame m ρ

theorem frame_ki [hKernelIdeal : Cert.KernelIdeal.Facts] [hPre_finite_inputs : Cert.Pre_finite_inputs.Facts] : Cert.frame_KernelIdeal :=
  fun m ρ _ => Cert.KernelIdeal.Hand.frame m ρ

theorem frame_r [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.ValueW.run (F := Ideal) m ρ)

theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  refine ⟨fun c => Cert.ReferenceIdeal.ReadP.val_main_v1053 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run_main (F := Ideal) m ρ)
    · exact ((h c).2 Cert.KernelIdeal.main_v320 (Pipeline.mem_restRefs_of Cert.KernelIdeal.main_v320 (by decide) (by decide))).trans
        (Cert.KernelIdeal.Join.kernel_value m c (Cert.PreFin.grid_finite_of_pre m hpre c))
    · exact ((h c).2 Cert.KernelIdeal.main_arg0 (Pipeline.mem_restRefs_of Cert.KernelIdeal.main_arg0 (by decide) (by decide))).trans
        (Cert.KernelIdeal.Hand.W_main_arg0 m (Cert.KernelIdeal.Hand.dats m) c)
    · exact ((h c).2 Cert.KernelIdeal.main_arg1 (Pipeline.mem_restRefs_of Cert.KernelIdeal.main_arg1 (by decide) (by decide))).trans
        (Cert.KernelIdeal.Hand.W_main_arg1 m (Cert.KernelIdeal.Hand.dats m) c)
    · exact ((h c).2 Cert.KernelIdeal.main_arg2 (Pipeline.mem_restRefs_of Cert.KernelIdeal.main_arg2 (by decide) (by decide))).trans
        (Cert.KernelIdeal.Hand.W_main_arg2 m (Cert.KernelIdeal.Hand.dats m) c)
    · exact ((h c).2 Cert.KernelIdeal.main_arg3 (Pipeline.mem_restRefs_of Cert.KernelIdeal.main_arg3 (by decide) (by decide))).trans
        (Cert.KernelIdeal.Hand.W_main_arg3 m (Cert.KernelIdeal.Hand.dats m) c)
    · exact ((h c).2 Cert.KernelIdeal.main_arg4 (Pipeline.mem_restRefs_of Cert.KernelIdeal.main_arg4 (by decide) (by decide))).trans
        (Cert.KernelIdeal.Hand.W_main_arg4 m (Cert.KernelIdeal.Hand.dats m) c)
  · refine (θ_run Cert.ReferenceIdeal.defs _ _).mono (fun _ h c => ⟨?_, (h c).2⟩) (Cert.ReferenceIdeal.ValueW.run (F := Ideal) m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
